-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S3x128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  main_v38

def fn_part1 {F : FTy → Type} [FloatOps F] (main_arg6 : FVec F S3x128 .f32) (main_arg7 : FVec F S3 .f32) (main_arg8 : FVec F S3x128 .f32) (main_arg9 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3 .f32 := Host.absf main_arg7
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S3x128 .f32) (main_arg7 : FVec F S3 .f32) (main_arg8 : FVec F S3x128 .f32) (main_arg9 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S3 : Shape := ⟨1, ![3]⟩
abbrev S50000x1 : Shape := ⟨2, ![50000, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x1 : Shape := ⟨2, ![1, 1]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S2000x128 : Shape := ⟨2, ![2000, 128]⟩
abbrev S512x128 : Shape := ⟨2, ![512, 128]⟩
abbrev S2000x1 : Shape := ⟨2, ![2000, 1]⟩
abbrev S2000x512 : Shape := ⟨2, ![2000, 512]⟩
abbrev S512x1 : Shape := ⟨2, ![512, 1]⟩

abbrev nBuf : Space → Nat
  | .hbm => 177
  | .vmem => 75
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3, .f32⟩
  | 8 => ⟨S3x128, .f32⟩
  | 9 => ⟨S3x128, .f32⟩
  | 10 => ⟨S50000x1, .i32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S1, .f32⟩
  | 29 => ⟨S_, .f32⟩
  | 30 => ⟨S_, .f32⟩
  | 31 => ⟨S_, .f32⟩
  | 32 => ⟨S1x1, .f32⟩
  | 33 => ⟨S1x128, .f32⟩
  | 34 => ⟨S128, .f32⟩
  | 35 => ⟨S1x128, .f32⟩
  | 36 => ⟨S1x128, .f32⟩
  | 37 => ⟨S128, .f32⟩
  | 38 => ⟨S1x128, .f32⟩
  | 39 => ⟨S1x128x128, .f32⟩
  | 40 => ⟨S128x128, .f32⟩
  | 41 => ⟨S1x128x128, .f32⟩
  | 42 => ⟨S128x128, .f32⟩
  | 43 => ⟨S50000x128, .f32⟩
  | 44 => ⟨S1x128, .f32⟩
  | 45 => ⟨S1x128, .f32⟩
  | 46 => ⟨S_, .f32⟩
  | 47 => ⟨S1x128, .f32⟩
  | 48 => ⟨S1x128, .f32⟩
  | 49 => ⟨S_, .f32⟩
  | 50 => ⟨S1x128, .f32⟩
  | 51 => ⟨S1x128, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S1x128, .f32⟩
  | 59 => ⟨S128, .f32⟩
  | 60 => ⟨S1x128, .f32⟩
  | 61 => ⟨S1x128, .f32⟩
  | 62 => ⟨S128, .f32⟩
  | 63 => ⟨S1x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S1, .f32⟩
  | 79 => ⟨S_, .f32⟩
  | 80 => ⟨S_, .f32⟩
  | 81 => ⟨S_, .f32⟩
  | 82 => ⟨S1x1, .f32⟩
  | 83 => ⟨S1x128, .f32⟩
  | 84 => ⟨S128, .f32⟩
  | 85 => ⟨S1x128, .f32⟩
  | 86 => ⟨S1x128, .f32⟩
  | 87 => ⟨S128, .f32⟩
  | 88 => ⟨S1x128, .f32⟩
  | 89 => ⟨S1x128x128, .f32⟩
  | 90 => ⟨S128x128, .f32⟩
  | 91 => ⟨S1x128x128, .f32⟩
  | 92 => ⟨S128x128, .f32⟩
  | 93 => ⟨S50000x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S1x128, .f32⟩
  | 108 => ⟨S1x128, .f32⟩
  | 109 => ⟨S128, .f32⟩
  | 110 => ⟨S1x128, .f32⟩
  | 111 => ⟨S1x128, .f32⟩
  | 112 => ⟨S128, .f32⟩
  | 113 => ⟨S1x128, .f32⟩
  | 114 => ⟨S50000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S1, .f32⟩
  | 1 => ⟨S_, .f32⟩
  | 2 => ⟨S_, .f32⟩
  | 3 => ⟨S_, .f32⟩
  | 4 => ⟨S1x1, .f32⟩
  | 5 => ⟨S1x128, .f32⟩
  | 6 => ⟨S128, .f32⟩
  | 7 => ⟨S1x128, .f32⟩
  | 8 => ⟨S1x128, .f32⟩
  | 9 => ⟨S128, .f32⟩
  | 10 => ⟨S1x128, .f32⟩
  | 11 => ⟨S1x128x128, .f32⟩
  | 12 => ⟨S128x128, .f32⟩
  | 13 => ⟨S1x128x128, .f32⟩
  | 14 => ⟨S128x128, .f32⟩
  | 15 => ⟨S50000x128, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S_, .f32⟩
  | 22 => ⟨S1x128, .f32⟩
  | 23 => ⟨S1x128, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S1x128, .f32⟩
  | 31 => ⟨S128, .f32⟩
  | 32 => ⟨S1x128, .f32⟩
  | 33 => ⟨S1x128, .f32⟩
  | 34 => ⟨S128, .f32⟩
  | 35 => ⟨S1x128, .f32⟩
  | 36 => ⟨S50000x128, .f32⟩
  | 37 => ⟨S512x128, .f32⟩
  | 38 => ⟨S_, .f32⟩
  | 39 => ⟨S50000x1, .f32⟩
  | 40 => ⟨S_, .f32⟩
  | 41 => ⟨S512x1, .f32⟩
  | 42 => ⟨S50000x1, .i32⟩
  | 43 => ⟨S512x1, .f32⟩
  | 44 => ⟨S_, .f32⟩
  | 45 => ⟨S512x1, .f32⟩
  | 46 => ⟨S512x1, .f32⟩
  | 47 => ⟨S512x128, .f32⟩
  | 48 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1x1, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S1x1, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S1x1, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S128x128, .f32⟩
  | .local _ .vmem, ⟨52, _⟩ => ⟨S1x128, .f32⟩
  | .local _ .vmem, ⟨53, _⟩ => ⟨S128x128, .f32⟩
  | .local _ .vmem, ⟨54, _⟩ => ⟨S1x128, .f32⟩
  | .local _ .vmem, ⟨55, _⟩ => ⟨S2000x128, .f32⟩
  | .local _ .vmem, ⟨56, _⟩ => ⟨S2000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S2000x128, .f32⟩
  | .local _ .vmem, ⟨62, _⟩ => ⟨S2000x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x1, .i32⟩
  | .local _ .vmem, ⟨72, _⟩ => ⟨S2000x1, .i32⟩
  | .local _ .vmem, ⟨73, _⟩ => ⟨S512x128, .f32⟩
  | .local _ .vmem, ⟨74, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_5 : Ref sig .tc := ⟨.hbm, 65, rfl⟩
abbrev main_v46 : Ref sig .tc := ⟨.hbm, 66, rfl⟩
abbrev main_v47 : Ref sig .tc := ⟨.hbm, 67, rfl⟩
abbrev main_c_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70_0 : Ref sig .tc := ⟨.hbm, 93, rfl⟩
abbrev main_v70_1 : Ref sig .tc := ⟨.hbm, 94, rfl⟩
abbrev main_v70_2 : Ref sig .tc := ⟨.hbm, 95, rfl⟩
abbrev main_cst_9 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_11 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_12 : Ref sig .tc := ⟨.hbm, 115, rfl⟩
abbrev main_v87 : Ref sig .tc := ⟨.hbm, 116, rfl⟩
abbrev main_v88 : Ref sig .tc := ⟨.hbm, 117, rfl⟩
abbrev main_c_13 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_14 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_15 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111_0 : Ref sig .tc := ⟨.hbm, 143, rfl⟩
abbrev main_v111_1 : Ref sig .tc := ⟨.hbm, 144, rfl⟩
abbrev main_v111_2 : Ref sig .tc := ⟨.hbm, 145, rfl⟩
abbrev main_cst_16 : Ref sig .tc := ⟨.hbm, 146, rfl⟩
abbrev main_v112 : Ref sig .tc := ⟨.hbm, 147, rfl⟩
abbrev main_v113 : Ref sig .tc := ⟨.hbm, 148, rfl⟩
abbrev main_cst_17 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_18 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_19 : Ref sig .tc := ⟨.hbm, 166, rfl⟩
abbrev main_v129 : Ref sig .tc := ⟨.hbm, 167, rfl⟩
abbrev main_cst_20 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_21 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg9_0 : Ref sig .tc := ⟨.vmem, 35, rfl⟩
abbrev cc2_scratch0 : Ref sig .tc := ⟨.vmem, 36, rfl⟩
abbrev cc2_scratch1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc4_stg0_0 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg7_1 : Ref sig .tc := ⟨.vmem, 56, rfl⟩
abbrev cc4_stg8_0 : Ref sig .tc := ⟨.vmem, 57, rfl⟩
abbrev cc4_stg9_0 : Ref sig .tc := ⟨.vmem, 58, rfl⟩
abbrev cc4_scratch0 : Ref sig .tc := ⟨.vmem, 59, rfl⟩
abbrev cc4_scratch1 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg2_0 : Ref sig .tc := ⟨.vmem, 64, rfl⟩
abbrev cc5_stg3_0 : Ref sig .tc := ⟨.vmem, 65, rfl⟩
abbrev cc5_stg4_0 : Ref sig .tc := ⟨.vmem, 66, rfl⟩
abbrev cc5_stg5_0 : Ref sig .tc := ⟨.vmem, 67, rfl⟩
abbrev cc5_stg5_1 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg1_1 : Ref sig .tc := ⟨.vmem, 72, rfl⟩
abbrev cc6_stg2_0 : Ref sig .tc := ⟨.vmem, 73, rfl⟩
abbrev cc6_scratch0 : Ref sig .tc := ⟨.vmem, 74, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem9_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem7_1 : DmaSem sig := 52
abbrev cc4_sem8_0 : DmaSem sig := 53
abbrev cc4_sem9_0 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62
abbrev cc6_sem0_0 : DmaSem sig := 63
abbrev cc6_sem0_1 : DmaSem sig := 64
abbrev cc6_sem1_0 : DmaSem sig := 65
abbrev cc6_sem1_1 : DmaSem sig := 66
abbrev cc6_sem2_0 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  shapeCasts_S50000_S50000x1 : S50000.ShapeCasts S50000x1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3_S1_0 : S3.Slices ![0] S1
  shapeCasts_S1_S_ : S1.ShapeCasts S_
  shapeCasts_S_S1x1 : S_.ShapeCasts S1x1
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  reduces_S2000x128_S128 : S2000x128.Reduces [0] S128
  bcast_S_S1x128 : S_.BroadcastsInDim S1x128 (![] : Fin 0 → Fin S1x128.rank)
  slices_S3_S1_1 : S3.Slices ![1] S1
  slices_S3x128_S1x128_1_0 : S3x128.Slices ![1, 0] S1x128
  slices_S3x128x128_S1x128x128_1_0_0 : S3x128x128.Slices ![1, 0, 0] S1x128x128
  slices_S3_S1_2 : S3.Slices ![2] S1
  slices_S3x128_S1x128_2_0 : S3x128.Slices ![2, 0] S1x128
  slices_S3x128x128_S1x128x128_2_0_0 : S3x128x128.Slices ![2, 0, 0] S1x128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S512x1_S512x128_0_1 : S512x1.BroadcastsInDim S512x128 (![0, 1] : Fin 2 → Fin S512x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x512_S2000x128_S512x128_0_0_1_1_n_n_wf : DotDims.WF S2000x512 S2000x128 S512x128 [0] [0] [1] [1] [] []
  scatter_S512x1_S50000x1_S50000x1_1_0_0_1_wf : ScatterDims.WF S512x1 S50000x1 S50000x1 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1.size a ≤ S1x1.size a
  hwx2_0 : ∀ i : grid2.Coords, EltTy.bits .f32 = 32 ∨ (Rect.block (s := S1x1) S1x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x1.size a ≤ S1x1.size a
  hwx4_0 : ∀ i : grid4.Coords, EltTy.bits .f32 = 32 ∨ (Rect.block (s := S1x1) S1x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .i32 = 32 ∨ (Rect.block (s := S50000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf

abbrev win0_0 : Pipeline.Window sig grid0 :=
  Pipeline.Window.ofSpec (Memref.whole main_v18) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_1) S1x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29_2) S1x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v29_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S1x1.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v70_1) S1x128.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v70_2) S1x128.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v70_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v100) S1x1.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v86) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v96) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v108) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v110) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v106) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v111_0) S2000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v111_1) S1x128.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v111_2) S1x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v111_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v113) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v120) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v127) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v0) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v128) S512x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x128 : Shape := ⟨2, ![512, 128]⟩
abbrev S50000x1 : Shape := ⟨2, ![50000, 1]⟩
abbrev S512x1 : Shape := ⟨2, ![512, 1]⟩

abbrev nBuf : Space → Nat
  | .hbm => 254
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3, .f32⟩
  | 8 => ⟨S3x128, .f32⟩
  | 9 => ⟨S3x128, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S1, .f32⟩
  | 28 => ⟨S_, .f32⟩
  | 29 => ⟨S_, .f32⟩
  | 30 => ⟨S_, .f32⟩
  | 31 => ⟨S50000x128, .f32⟩
  | 32 => ⟨S50000x128, .f32⟩
  | 33 => ⟨S50000x128, .f32⟩
  | 34 => ⟨S1x128x128, .f32⟩
  | 35 => ⟨S128x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S1, .f32⟩
  | 104 => ⟨S_, .f32⟩
  | 105 => ⟨S_, .f32⟩
  | 106 => ⟨S_, .f32⟩
  | 107 => ⟨S50000x128, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S128, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S50000x128, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S1, .f32⟩
  | 52 => ⟨S_, .f32⟩
  | 53 => ⟨S_, .f32⟩
  | 54 => ⟨S_, .f32⟩
  | 55 => ⟨S50000x128, .f32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x128x128, .f32⟩
  | 70 => ⟨S128x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S128, .f32⟩
  | 88 => ⟨S_, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S_, .f32⟩
  | 112 => ⟨S512x128, .f32⟩
  | 113 => ⟨S50000x1, .i32⟩
  | 114 => ⟨S512x128, .f32⟩
  | 115 => ⟨S_, .f32⟩
  | 116 => ⟨S50000x1, .f32⟩
  | 117 => ⟨S_, .f32⟩
  | 118 => ⟨S512x1, .f32⟩
  | 119 => ⟨S50000x1, .i32⟩
  | 120 => ⟨S512x1, .f32⟩
  | 121 => ⟨S_, .f32⟩
  | 122 => ⟨S512x1, .f32⟩
  | 123 => ⟨S512x1, .f32⟩
  | 124 => ⟨S512x128, .f32⟩
  | 125 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call1_cst : Ref sig .tc := ⟨.hbm, 87, rfl⟩
abbrev main_call1_v0 : Ref sig .tc := ⟨.hbm, 88, rfl⟩
abbrev main_v66 : Ref sig .tc := ⟨.hbm, 89, rfl⟩
abbrev main_c_7 : Ref sig .tc := ⟨.hbm, 90, rfl⟩
abbrev main_v67 : Ref sig .tc := ⟨.hbm, 91, rfl⟩
abbrev main_v68 : Ref sig .tc := ⟨.hbm, 92, rfl⟩
abbrev main_c_8 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_9 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_10 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_call2_cst : Ref sig .tc := ⟨.hbm, 118, rfl⟩
abbrev main_call2_v0 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_11 : Ref sig .tc := ⟨.hbm, 129, rfl⟩
abbrev main_v100 : Ref sig .tc := ⟨.hbm, 130, rfl⟩
abbrev main_cst_12 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_13 : Ref sig .tc := ⟨.hbm, 138, rfl⟩
abbrev main_v107 : Ref sig .tc := ⟨.hbm, 139, rfl⟩
abbrev main_cst_14 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_15 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_call3_cst : Ref sig .tc := ⟨.hbm, 163, rfl⟩
abbrev main_call3_v0 : Ref sig .tc := ⟨.hbm, 164, rfl⟩
abbrev main_v129 : Ref sig .tc := ⟨.hbm, 165, rfl⟩
abbrev main_c_16 : Ref sig .tc := ⟨.hbm, 166, rfl⟩
abbrev main_v130 : Ref sig .tc := ⟨.hbm, 167, rfl⟩
abbrev main_v131 : Ref sig .tc := ⟨.hbm, 168, rfl⟩
abbrev main_c_17 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_18 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_19 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_call4_cst : Ref sig .tc := ⟨.hbm, 194, rfl⟩
abbrev main_call4_v0 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_20 : Ref sig .tc := ⟨.hbm, 205, rfl⟩
abbrev main_v163 : Ref sig .tc := ⟨.hbm, 206, rfl⟩
abbrev main_cst_21 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_cst_22 : Ref sig .tc := ⟨.hbm, 214, rfl⟩
abbrev main_v170 : Ref sig .tc := ⟨.hbm, 215, rfl⟩
abbrev main_cst_23 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_24 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_cst_25 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_cst_26 : Ref sig .tc := ⟨.hbm, 243, rfl⟩
abbrev main_v195 : Ref sig .tc := ⟨.hbm, 244, rfl⟩
abbrev main_cst_27 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_cst_28 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf

class Facts : Prop extends Facts₀ where

variable [Facts]
-- ==== Proof.LibViews.lean ====
import Idealize.ShloMosaic.Lib.Pipeline.FrameBody
import Idealize.ShloMosaic.Lib.Pipeline.Value
/-! Two facts every kernel body's run uses, for any program: a list of writes whose first piece covers the whole
block reads back as that piece's payload; and a buffer held whole at its unread contents is owned at its value. -/
noncomputable section
namespace Cert.Views
open Idealize.ShloMosaic
section
variable {sig : RefSig} {κ : Kind} {sp : Space} {Val : EltTy → Type} [∀ e, Nonempty (Val e)] {S : Shape} {e : EltTy}
theorem zeroOff : (![0, 0] : Fin 2 → ℕ) = fun _ => 0 := by funext a; fin_cases a <;> rfl
theorem read_writes_unit_zero (v : View sig κ sp S e) (f : v.ty.Contents Val)
    {off : Fin S.rank → ℕ} (hz : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)
theorem readCov_cons_unit_zero (v : View sig κ sp S e)
    {off : Fin S.rank → ℕ} (hz : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero hz inb y⟩),
    View.canon_cons_unit_zero hz, View.ld_unit_zero hz]
end
open Idealize.SL Idealize.SL.RA
open Idealize.SL.BI (sProp)
open scoped Idealize.SL.BI
open Idealize.SL.BI.BIBase Idealize.SL.BI.Laws Idealize.SL.ProofMode
variable {nD : Nat} {τ : Topo} {sig : RefSig} {Val : EltTy → Type} [∀ e, Nonempty (Val e)]
variable {Ix : Type} [DecidableEq Ix] {Name : Type} [DecidableEq Name] {U : Type} [URA U] {Lvl : Type}
theorem unread_held (c : Thread nD τ) {sp : Space} {S : Shape} {e : EltTy} (m : Memref sig c.2.kind sp S e) (h : m.IsWhole)
    {q : PosShare TreeShare} (x : S.Idx → Val e) :
    (m.view.loc c ↦[m.view.set]{q} h.unread x : sProp (MT nD τ sig Ix Val Name U Lvl))
      ⊢ iprop(∃ f, ⌜m.view.read Val f = x⌝ ∗ (m.view.loc c ↦[m.view.set]{q} f)) := by
  iintro H; iexists _; isplitr; · ipureintro; exact h.read_unread _
  iexact H
end Cert.Views
end
-- ==== Proof.K.RegA0.lean ====
import proofs.«419539_j67095979099186_1_alg».proof.Proof.LibViews
import proofs.«419539_j67095979099186_1_alg».proof.Proof.Gen.Kernel.Launch
import proofs.«419539_j67095979099186_1_alg».proof.Proof.Gen.Kernel.Skeleton
import proofs.«419539_j67095979099186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Views
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def zAt0 (c : Dev nD) (t : Fin cfg0.N) : Vec F S2000x128 .f32 :=
  k0_pay5 (iblk0 V c 0 t) (iblk0 V c 1 t) (iblk0 V c 2 t) (iblk0 V c 3 t) (iblk0 V c 4 t) (iblk0 V c 5 t) (iblk0 V c 6 t)
def accAt0 (c : Dev nD) : (n : ℕ) → n < cfg0.N → Vec F S1x128 .f32 × Vec F S1x128 .f32
  | 0, h => (k0_pay1 (zAt0 V c ⟨0, h⟩) k0_pay3, k0_pay2 (zAt0 V c ⟨0, h⟩) k0_pay4)
  | n + 1, h => (k0_pay1 (zAt0 V c ⟨n + 1, h⟩) (accAt0 c n (Nat.lt_of_succ_lt h)).1, k0_pay2 (zAt0 V c ⟨n + 1, h⟩) (accAt0 c n (Nat.lt_of_succ_lt h)).2)
abbrev scM0_0 : Memref sig .tc .vmem S1x128 .f32 := Memref.whole cc0_scratch0
abbrev scM0_1 : Memref sig .tc .vmem S1x128 .f32 := Memref.whole cc0_scratch1
def Phi0 (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ (∃ r, prngReg c r))
abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)
section
variable (c : Dev nD) (E : Set ℕ) (i : grid0.Coords) (arg1 : Memref sig .tc .vmem S1x1 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
set_option maxHeartbeats 4000000 in
theorem run_first0
    (hc : cond0 i) (x0 : Vec F S1x1 .f32) (x1 x2 : Vec F S2000x128 .f32) (x3 : Vec F S128x128 .f32) (x4 : Vec F S1x128 .f32) (x5 : Vec F S128x128 .f32) (x6 : Vec F S1x128 .f32)  (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay5 x0 x1 x2 x3 x4 x5 x6) ∗ owns (c : Thread nD τ) arg9 fullShare (k0_pay1 (k0_pay5 x0 x1 x2 x3 x4 x5 x6) k0_pay3) ∗ owns (c : Thread nD τ) arg10 fullShare (k0_pay2 (k0_pay5 x0 x1 x2 x3 x4 x5 x6) k0_pay4)
            ∗ owns (c : Thread nD τ) arg11 fullShare (k0_pay1 (k0_pay5 x0 x1 x2 x3 x4 x5 x6) k0_pay3) ∗ owns (c : Thread nD τ) arg12 fullShare (k0_pay2 (k0_pay5 x0 x1 x2 x3 x4 x5 x6) k0_pay4)) -∗ K ⟨⟩))
      ⊢ wp frame (wpE (defs₀ (F := F)) Variants.none c none) E (cc0__combine_mlp_kernel i arg1 harg1 arg2 harg2 arg3 harg3 arg4 harg4 arg5 harg5 arg6 harg6 arg7 harg7 arg8 harg8 arg9 harg9 arg10 harg10 arg11 harg11 arg12 harg12) K := by
  simp only [cc0__combine_mlp_kernel_eq_skeleton]; unfold cc0__combine_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
set_option maxHeartbeats 4000000 in
theorem run_later0
    (hc : ¬cond0 i) (x0 : Vec F S1x1 .f32) (x1 x2 : Vec F S2000x128 .f32) (x3 : Vec F S128x128 .f32) (x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay5 x0 x1 x2 x3 x4 x5 x6) ∗ owns (c : Thread nD τ) arg9 fullShare (k0_pay1 (k0_pay5 x0 x1 x2 x3 x4 x5 x6) a0) ∗ owns (c : Thread nD τ) arg10 fullShare (k0_pay2 (k0_pay5 x0 x1 x2 x3 x4 x5 x6) a1)
            ∗ owns (c : Thread nD τ) arg11 fullShare (k0_pay1 (k0_pay5 x0 x1 x2 x3 x4 x5 x6) a0) ∗ owns (c : Thread nD τ) arg12 fullShare (k0_pay2 (k0_pay5 x0 x1 x2 x3 x4 x5 x6) a1)) -∗ K ⟨⟩))
      ⊢ wp frame (wpE (defs₀ (F := F)) Variants.none c none) E (cc0__combine_mlp_kernel i arg1 harg1 arg2 harg2 arg3 harg3 arg4 harg4 arg5 harg5 arg6 harg6 arg7 harg7 arg8 harg8 arg9 harg9 arg10 harg10 arg11 harg11 arg12 harg12) K := by
  simp only [cc0__combine_mlp_kernel_eq_skeleton]; unfold cc0__combine_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  obtain rfl := harg11.eq_unread hf10; obtain rfl := harg12.eq_unread hf11
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff, harg11.read_unread, harg12.read_unread]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
end
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => zAt0 V c t
    | ⟨8, _⟩ => (accAt0 V c t.val t.isLt).1
    | ⟨9, _⟩ => (accAt0 V c t.val t.isLt).2
  Φ t := Phi0 V c t.val (Nat.le_of_lt_succ t.isLt)
  q _ := fullShare
  owed _ := 0
theorem A_eq0 (c : Dev nD) (w : Fin cfg0.W) : (dat0 V c).A w = V c (Pipeline.arrRef spec0 w) := by
  dsimp only [dat0]
theorem share0 (c : Dev nD) (w : Fin cfg0.W) : (dat0 V c).share w = fullShare :=
  (dat0 V c).share_full (fun _ => rfl) w
theorem owed0 (c : Dev nD) (t) : (dat0 V c).owed t = 0 := by
  dsimp only [dat0]
theorem after0_in (c : Dev nD) (t : Fin cfg0.N) :
    (dat0 V c).after 0 t = iblk0 V c 0 t ∧ (dat0 V c).after 1 t = iblk0 V c 1 t ∧ (dat0 V c).after 2 t = iblk0 V c 2 t
    ∧ (dat0 V c).after 3 t = iblk0 V c 3 t ∧ (dat0 V c).after 4 t = iblk0 V c 4 t ∧ (dat0 V c).after 5 t = iblk0 V c 5 t
    ∧ (dat0 V c).after 6 t = iblk0 V c 6 t :=
  ⟨rfl, rfl, rfl, rfl, rfl, rfl, rfl⟩
theorem after0_7 (c : Dev nD) (t : Fin cfg0.N) : (dat0 V c).after 7 t = zAt0 V c t := by dsimp only [dat0]
theorem after0_8 (c : Dev nD) (t : Fin cfg0.N) : (dat0 V c).after 8 t = (accAt0 V c t.val t.isLt).1 := by dsimp only [dat0]
theorem after0_9 (c : Dev nD) (t : Fin cfg0.N) : (dat0 V c).after 9 t = (accAt0 V c t.val t.isLt).2 := by dsimp only [dat0]
theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl
theorem Phi0_pos (c : Dev nD) (n : ℕ) (h : n ≤ cfg0.N) (hz : n ≠ 0) : Phi0 V c n h = Phi0 V c (n - 1 + 1) (by omega) := by
  cases n with
  | zero => exact absurd rfl hz
  | succ n => rfl
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl
theorem accAt0_first (c : Dev nD) (t : Fin cfg0.N) (h0 : t.val = 0) :
    accAt0 V c t.val t.isLt = (k0_pay1 (zAt0 V c t) k0_pay3, k0_pay2 (zAt0 V c t) k0_pay4) := by
  obtain ⟨n, hn⟩ := t
  cases n with
  | zero => rfl
  | succ n => exact absurd h0 (Nat.succ_ne_zero n)
theorem accAt0_later (c : Dev nD) (t : Fin cfg0.N) (h0 : t.val ≠ 0) :
    accAt0 V c t.val t.isLt = (k0_pay1 (zAt0 V c t) (accAt0 V c (t.val - 1) (Nat.lt_of_le_of_lt (Nat.sub_le _ _) t.isLt)).1,
      k0_pay2 (zAt0 V c t) (accAt0 V c (t.val - 1) (Nat.lt_of_le_of_lt (Nat.sub_le _ _) t.isLt)).2) := by
  obtain ⟨n, hn⟩ := t
  cases n with
  | zero => exact absurd rfl h0
  | succ n => rfl
theorem Phi0_castSucc (c : Dev nD) (t : Fin cfg0.N) :
    (dat0 V c).Φ t.castSucc = Phi0 V c t.val (Nat.le_of_lt t.isLt) := by
  dsimp only [dat0]; simp only [Fin.coe_castSucc]
theorem before0_in (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t)
    ∧ (∀ d, (dat0 V c).before 6 t d = iblk0 V c 6 t) := by
  refine ⟨?_, ?_, ?_, ?_, ?_, ?_, ?_⟩ <;> intro d <;>
    refine Eq.trans ((dat0 V c).before_in_eq_fetched _ ?_ ?_ ?_ ?_ t d) ?_ <;>
    first
      | rfl
      | exact fun _ => rfl
      | exact fun _ _ _ => rfl
      | (intro t; simp only [after0_in V c t]; unfold Dat.blockOf iblk0; rw [A_eq0]; try rfl)
      | (unfold Dat.fetched Dat.blockOf iblk0; rw [A_eq0]; try rfl)
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))
set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in V c t, after0_in V c t, after0_7, after0_8, after0_9]
  rw [show (dat0 V c).owesAt () t.succ = (dat0 V c).owesAt () t.castSucc from rfl]
  rw [show (dat0 V c).Φ t.succ = Phi0 V c (t.val + 1) t.isLt from rfl, Phi0_succ]
  rw [Phi0_castSucc V c t]
  by_cases h0 : t.val = 0
  on_goal 1 => rw [Phi0_zero V c _ _ h0, PhiA0_eq, accAt0_first V c t h0]
  on_goal 2 => rw [Phi0_pos V c _ _ h0, Phi0_succ, accAt0_later V c t h0]
  all_goals
    dsimp only
    unfold zAt0
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  on_goal 1 => iapply (run_first0 c Set.univ (grid0.coords t) _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) _)
  on_goal 2 => iapply (run_later0 c Set.univ (grid0.coords t) _ _ _ _ _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) (iblk0 V c 6 t) _ _ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HB Hg]
    · isplitr [Hg]
      swap; · iexact Hg
      isplitr [HB]
      swap; · iexact HB
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
theorem body_obligation0 (c : Dev nD) : BodyObligation (dat0 (F := F) V c) (defs₀ (F := F)) Variants.none () Set.univ := fun t => by
  rw [bigSep_W0, bigSep_W0]
  exact sound_body0 V c t
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _
theorem Phi0_out (c : Dev nD) (t : Fin (cfg0.N + 1)) (ht : t.val ≠ 0) : (dat0 V c).Φ t ⊢ (Pipeline.ΦA spec0 c : sProp 𝕄) := by
  rw [show (dat0 V c).Φ t = Phi0 V c t.val (Nat.le_of_lt_succ t.isLt) from rfl, Phi0_pos V c _ _ ht, Phi0_succ, PhiA0_eq]
  iintro ⟨⟨⟨HS0, HS1⟩, HB⟩, Hg⟩
  isplitr [Hg]
  swap; · iexact Hg
  isplitr [HB]
  swap; · iexact HB
  isplitl [HS0]
  · iexists _; iexact HS0
  iexists _; iexact HS1
theorem hout0 (c : Dev nD) : (dat0 V c).Φ (Fin.last cfg0.N) ⊢ (Pipeline.ΦA spec0 c : sProp 𝕄) :=
  Phi0_out V c _ (by rw [Fin.val_last]; have : cfg0.N = 25 := N_0; omega)
end Cert.Kernel.Hand
end
-- ==== Proof.K.RegB1.lean ====
import proofs.«419539_j67095979099186_1_alg».proof.Proof.LibViews
import proofs.«419539_j67095979099186_1_alg».proof.Proof.Gen.Kernel.Launch
import proofs.«419539_j67095979099186_1_alg».proof.Proof.Gen.Kernel.Skeleton
import proofs.«419539_j67095979099186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Views
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def outB1 (c : Dev nD) (t : Fin cfg1.N) : Vec F S2000x128 .f32 :=
  k1_pay1 (iblk1 V c 0 t) (iblk1 V c 1 t) (iblk1 V c 2 t) (iblk1 V c 3 t) (iblk1 V c 4 t)
set_option maxHeartbeats 4000000 in
theorem run1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E (cc1__kernel i arg1 harg1 arg2 harg2 arg3 harg3 arg4 harg4 arg5 harg5 arg6 harg6) K := by
  simp only [cc1__kernel_eq_skeleton]; unfold cc1__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec
  sl_step
  iapply Hk
  isplitl [H0]; · iapply (unread_held c arg1 harg1 _); iexact H0
  isplitl [H1]; · iapply (unread_held c arg2 harg2 _); iexact H1
  isplitl [H2]; · iapply (unread_held c arg3 harg3 _); iexact H2
  isplitl [H3]; · iapply (unread_held c arg4 harg4 _); iexact H3
  isplitl [H4]; · iapply (unread_held c arg5 harg5 _); iexact H4
  iexists _; isplitr
  swap; · iexact H5
  ipureintro
  refine (read_writes_unit_zero _ _ zeroOff _ _ _).trans ?_
  simp only [View.readAt_eq_ld, harg1.read_unread, harg2.read_unread, harg3.read_unread, harg4.read_unread, harg5.read_unread, View.ld_unit_zero (S := S2000x128) zeroOff, View.ld_unit_zero (S := S1x128) zeroOff]
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outB1 V c t
  Φ _ := Pipeline.ΦA spec1 c
  q _ := fullShare
  owed _ := 0
theorem A_eq1 (c : Dev nD) (w : Fin cfg1.W) : (dat1 V c).A w = V c (Pipeline.arrRef spec1 w) := by
  dsimp only [dat1]
theorem share1 (c : Dev nD) (w : Fin cfg1.W) : (dat1 V c).share w = fullShare :=
  (dat1 V c).share_full (fun _ => rfl) w
theorem owed1 (c : Dev nD) (t) : (dat1 V c).owed t = 0 := by
  dsimp only [dat1]
theorem after1_in (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t :=
  ⟨rfl, rfl, rfl, rfl, rfl⟩
theorem after1_5 (c : Dev nD) (t : Fin cfg1.N) : (dat1 V c).after 5 t = outB1 V c t := by dsimp only [dat1]
theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) := by
  refine ⟨?_, ?_, ?_, ?_, ?_⟩ <;> intro d <;>
    refine Eq.trans ((dat1 V c).before_in_eq_fetched _ ?_ ?_ ?_ ?_ t d) ?_ <;>
    first
      | rfl
      | exact fun _ => rfl
      | exact fun _ _ _ => rfl
      | (intro t; simp only [after1_in V c t]; unfold Dat.blockOf iblk1; rw [A_eq1]; try rfl)
      | (unfold Dat.fetched Dat.blockOf iblk1; rw [A_eq1]; try rfl)
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))
set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in V c t, after1_in V c t, after1_5]
  rw [show (dat1 V c).Φ t.succ = (dat1 V c).Φ t.castSucc from rfl,
    show (dat1 V c).owesAt () t.succ = (dat1 V c).owesAt () t.castSucc from rfl]
  unfold outB1
  iintro ⟨HΦ, Ho, ⟨%d0, H0⟩, ⟨%d1, H1⟩, ⟨%d2, H2⟩, ⟨%d3, H3⟩, ⟨%d4, H4⟩, ⟨%d5, H5⟩⟩
  iapply (run1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5
theorem body_obligation1 (c : Dev nD) : BodyObligation (dat1 (F := F) V c) (defs₀ (F := F)) Variants.none () Set.univ := fun t => by
  rw [bigSep_W1, bigSep_W1]
  exact sound_body1 V c t
theorem hin1 (c : Dev nD) : (Pipeline.ΦA spec1 c : sProp 𝕄) ⊢ (dat1 V c).Φ 0 := by
  rw [show (dat1 V c).Φ 0 = Pipeline.ΦA spec1 c from rfl]
theorem hout1 (c : Dev nD) : (dat1 V c).Φ (Fin.last cfg1.N) ⊢ (Pipeline.ΦA spec1 c : sProp 𝕄) := by
  rw [show (dat1 V c).Φ (Fin.last cfg1.N) = Pipeline.ΦA spec1 c from rfl]
end Cert.Kernel.Hand
end
-- ==== Proof.K.RegA2.lean ====
import proofs.«419539_j67095979099186_1_alg».proof.Proof.LibViews
import proofs.«419539_j67095979099186_1_alg».proof.Proof.Gen.Kernel.Launch
import proofs.«419539_j67095979099186_1_alg».proof.Proof.Gen.Kernel.Skeleton
import proofs.«419539_j67095979099186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Views
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
def zAt2 (c : Dev nD) (t : Fin cfg2.N) : Vec F S2000x128 .f32 :=
  k2_pay5 (iblk2 V c 0 t) (iblk2 V c 1 t) (iblk2 V c 2 t) (iblk2 V c 3 t) (iblk2 V c 4 t) (iblk2 V c 5 t) (iblk2 V c 6 t)
def accAt2 (c : Dev nD) : (n : ℕ) → n < cfg2.N → Vec F S1x128 .f32 × Vec F S1x128 .f32
  | 0, h => (k2_pay1 (zAt2 V c ⟨0, h⟩) k2_pay3, k2_pay2 (zAt2 V c ⟨0, h⟩) k2_pay4)
  | n + 1, h => (k2_pay1 (zAt2 V c ⟨n + 1, h⟩) (accAt2 c n (Nat.lt_of_succ_lt h)).1, k2_pay2 (zAt2 V c ⟨n + 1, h⟩) (accAt2 c n (Nat.lt_of_succ_lt h)).2)
abbrev scM2_0 : Memref sig .tc .vmem S1x128 .f32 := Memref.whole cc2_scratch0
abbrev scM2_1 : Memref sig .tc .vmem S1x128 .f32 := Memref.whole cc2_scratch1
def Phi2 (c : Dev nD) : (n : ℕ) → n ≤ cfg2.N → sProp 𝕄
  | 0, _ => Pipeline.ΦA spec2 c
  | n + 1, hn => iprop(iprop(iprop(owns (c : Thread nD τ) scM2_0 fullShare (accAt2 V c n hn).1 ∗ owns (c : Thread nD τ) scM2_1 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r))
abbrev cond2 (i : grid2.Coords) : Prop :=
  (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)
section
variable (c : Dev nD) (E : Set ℕ) (i : grid2.Coords) (arg1 : Memref sig .tc .vmem S1x1 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
set_option maxHeartbeats 4000000 in
theorem run_first2
    (hc : cond2 i) (x0 : Vec F S1x1 .f32) (x1 x2 : Vec F S2000x128 .f32) (x3 : Vec F S128x128 .f32) (x4 : Vec F S1x128 .f32) (x5 : Vec F S128x128 .f32) (x6 : Vec F S1x128 .f32)  (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k2_pay5 x0 x1 x2 x3 x4 x5 x6) ∗ owns (c : Thread nD τ) arg9 fullShare (k2_pay1 (k2_pay5 x0 x1 x2 x3 x4 x5 x6) k2_pay3) ∗ owns (c : Thread nD τ) arg10 fullShare (k2_pay2 (k2_pay5 x0 x1 x2 x3 x4 x5 x6) k2_pay4)
            ∗ owns (c : Thread nD τ) arg11 fullShare (k2_pay1 (k2_pay5 x0 x1 x2 x3 x4 x5 x6) k2_pay3) ∗ owns (c : Thread nD τ) arg12 fullShare (k2_pay2 (k2_pay5 x0 x1 x2 x3 x4 x5 x6) k2_pay4)) -∗ K ⟨⟩))
      ⊢ wp frame (wpE (defs₀ (F := F)) Variants.none c none) E (cc2__combine_mlp_kernel i arg1 harg1 arg2 harg2 arg3 harg3 arg4 harg4 arg5 harg5 arg6 harg6 arg7 harg7 arg8 harg8 arg9 harg9 arg10 harg10 arg11 harg11 arg12 harg12) K := by
  simp only [cc2__combine_mlp_kernel_eq_skeleton]; unfold cc2__combine_mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
set_option maxHeartbeats 4000000 in
theorem run_later2
    (hc : ¬cond2 i) (x0 : Vec F S1x1 .f32) (x1 x2 : Vec F S2000x128 .f32) (x3 : Vec F S128x128 .f32) (x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k2_pay5 x0 x1 x2 x3 x4 x5 x6) ∗ owns (c : Thread nD τ) arg9 fullShare (k2_pay1 (k2_pay5 x0 x1 x2 x3 x4 x5 x6) a0) ∗ owns (c : Thread nD τ) arg10 fullShare (k2_pay2 (k2_pay5 x0 x1 x2 x3 x4 x5 x6) a1)
            ∗ owns (c : Thread nD τ) arg11 fullShare (k2_pay1 (k2_pay5 x0 x1 x2 x3 x4 x5 x6) a0) ∗ owns (c : Thread nD τ) arg12 fullShare (k2_pay2 (k2_pay5 x0 x1 x2 x3 x4 x5 x6) a1)) -∗ K ⟨⟩))
      ⊢ wp frame (wpE (defs₀ (F := F)) Variants.none c none) E (cc2__combine_mlp_kernel i arg1 harg1 arg2 harg2 arg3 harg3 arg4 harg4 arg5 harg5 arg6 harg6 arg7 harg7 arg8 harg8 arg9 harg9 arg10 harg10 arg11 harg11 arg12 harg12) K := by
  simp only [cc2__combine_mlp_kernel_eq_skeleton]; unfold cc2__combine_mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  obtain rfl := harg11.eq_unread hf10; obtain rfl := harg12.eq_unread hf11
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff, harg11.read_unread, harg12.read_unread]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
end
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => zAt2 V c t
    | ⟨8, _⟩ => (accAt2 V c t.val t.isLt).1
    | ⟨9, _⟩ => (accAt2 V c t.val t.isLt).2
  Φ t := Phi2 V c t.val (Nat.le_of_lt_succ t.isLt)
  q _ := fullShare
  owed _ := 0
theorem A_eq2 (c : Dev nD) (w : Fin cfg2.W) : (dat2 V c).A w = V c (Pipeline.arrRef spec2 w) := by
  dsimp only [dat2]
theorem share2 (c : Dev nD) (w : Fin cfg2.W) : (dat2 V c).share w = fullShare :=
  (dat2 V c).share_full (fun _ => rfl) w
theorem owed2 (c : Dev nD) (t) : (dat2 V c).owed t = 0 := by
  dsimp only [dat2]
theorem after2_in (c : Dev nD) (t : Fin cfg2.N) :
    (dat2 V c).after 0 t = iblk2 V c 0 t ∧ (dat2 V c).after 1 t = iblk2 V c 1 t ∧ (dat2 V c).after 2 t = iblk2 V c 2 t
    ∧ (dat2 V c).after 3 t = iblk2 V c 3 t ∧ (dat2 V c).after 4 t = iblk2 V c 4 t ∧ (dat2 V c).after 5 t = iblk2 V c 5 t
    ∧ (dat2 V c).after 6 t = iblk2 V c 6 t :=
  ⟨rfl, rfl, rfl, rfl, rfl, rfl, rfl⟩
theorem after2_7 (c : Dev nD) (t : Fin cfg2.N) : (dat2 V c).after 7 t = zAt2 V c t := by dsimp only [dat2]
theorem after2_8 (c : Dev nD) (t : Fin cfg2.N) : (dat2 V c).after 8 t = (accAt2 V c t.val t.isLt).1 := by dsimp only [dat2]
theorem after2_9 (c : Dev nD) (t : Fin cfg2.N) : (dat2 V c).after 9 t = (accAt2 V c t.val t.isLt).2 := by dsimp only [dat2]
theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(iprop(owns (c : Thread nD τ) scM2_0 fullShare (accAt2 V c n hn).1 ∗ owns (c : Thread nD τ) scM2_1 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl
theorem Phi2_pos (c : Dev nD) (n : ℕ) (h : n ≤ cfg2.N) (hz : n ≠ 0) : Phi2 V c n h = Phi2 V c (n - 1 + 1) (by omega) := by
  cases n with
  | zero => exact absurd rfl hz
  | succ n => rfl
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl
theorem accAt2_first (c : Dev nD) (t : Fin cfg2.N) (h0 : t.val = 0) :
    accAt2 V c t.val t.isLt = (k2_pay1 (zAt2 V c t) k2_pay3, k2_pay2 (zAt2 V c t) k2_pay4) := by
  obtain ⟨n, hn⟩ := t
  cases n with
  | zero => rfl
  | succ n => exact absurd h0 (Nat.succ_ne_zero n)
theorem accAt2_later (c : Dev nD) (t : Fin cfg2.N) (h0 : t.val ≠ 0) :
    accAt2 V c t.val t.isLt = (k2_pay1 (zAt2 V c t) (accAt2 V c (t.val - 1) (Nat.lt_of_le_of_lt (Nat.sub_le _ _) t.isLt)).1,
      k2_pay2 (zAt2 V c t) (accAt2 V c (t.val - 1) (Nat.lt_of_le_of_lt (Nat.sub_le _ _) t.isLt)).2) := by
  obtain ⟨n, hn⟩ := t
  cases n with
  | zero => exact absurd rfl h0
  | succ n => rfl
theorem Phi2_castSucc (c : Dev nD) (t : Fin cfg2.N) :
    (dat2 V c).Φ t.castSucc = Phi2 V c t.val (Nat.le_of_lt t.isLt) := by
  dsimp only [dat2]; simp only [Fin.coe_castSucc]
theorem before2_in (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t)
    ∧ (∀ d, (dat2 V c).before 6 t d = iblk2 V c 6 t) := by
  refine ⟨?_, ?_, ?_, ?_, ?_, ?_, ?_⟩ <;> intro d <;>
    refine Eq.trans ((dat2 V c).before_in_eq_fetched _ ?_ ?_ ?_ ?_ t d) ?_ <;>
    first
      | rfl
      | exact fun _ => rfl
      | exact fun _ _ _ => rfl
      | (intro t; simp only [after2_in V c t]; unfold Dat.blockOf iblk2; rw [A_eq2]; try rfl)
      | (unfold Dat.fetched Dat.blockOf iblk2; rw [A_eq2]; try rfl)
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))
set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_in V c t, after2_in V c t, after2_7, after2_8, after2_9]
  rw [show (dat2 V c).owesAt () t.succ = (dat2 V c).owesAt () t.castSucc from rfl]
  rw [show (dat2 V c).Φ t.succ = Phi2 V c (t.val + 1) t.isLt from rfl, Phi2_succ]
  rw [Phi2_castSucc V c t]
  by_cases h0 : t.val = 0
  on_goal 1 => rw [Phi2_zero V c _ _ h0, PhiA2_eq, accAt2_first V c t h0]
  on_goal 2 => rw [Phi2_pos V c _ _ h0, Phi2_succ, accAt2_later V c t h0]
  all_goals
    dsimp only
    unfold zAt2
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  on_goal 1 => iapply (run_first2 c Set.univ (grid2.coords t) _ _ _ _ _ _ _ _ _ _ _ _ _ _ _ _ _ _ _ _ _ _ _ _ ((hcond2 t).mpr h0) (iblk2 V c 0 t) (iblk2 V c 1 t) (iblk2 V c 2 t) (iblk2 V c 3 t) (iblk2 V c 4 t) (iblk2 V c 5 t) (iblk2 V c 6 t) _)
  on_goal 2 => iapply (run_later2 c Set.univ (grid2.coords t) _ _ _ _ _ _ _ _ _ _ _ _ _ _ _ _ _ _ _ _ _ _ _ _ (fun h => h0 ((hcond2 t).mp h)) (iblk2 V c 0 t) (iblk2 V c 1 t) (iblk2 V c 2 t) (iblk2 V c 3 t) (iblk2 V c 4 t) (iblk2 V c 5 t) (iblk2 V c 6 t) _ _ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HB Hg]
    · isplitr [Hg]
      swap; · iexact Hg
      isplitr [HB]
      swap; · iexact HB
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
theorem body_obligation2 (c : Dev nD) : BodyObligation (dat2 (F := F) V c) (defs₀ (F := F)) Variants.none () Set.univ := fun t => by
  rw [bigSep_W2, bigSep_W2]
  exact sound_body2 V c t
theorem hin2 (c : Dev nD) : (Pipeline.ΦA spec2 c : sProp 𝕄) ⊢ (dat2 V c).Φ 0 := by
  rw [show (dat2 V c).Φ 0 = Phi2 V c 0 (Nat.zero_le _) from rfl, Phi2_zero V c 0 _ rfl]
  try exact Idealize.SL.BI.Entails.refl _
theorem Phi2_out (c : Dev nD) (t : Fin (cfg2.N + 1)) (ht : t.val ≠ 0) : (dat2 V c).Φ t ⊢ (Pipeline.ΦA spec2 c : sProp 𝕄) := by
  rw [show (dat2 V c).Φ t = Phi2 V c t.val (Nat.le_of_lt_succ t.isLt) from rfl, Phi2_pos V c _ _ ht, Phi2_succ, PhiA2_eq]
  iintro ⟨⟨⟨HS0, HS1⟩, HB⟩, Hg⟩
  isplitr [Hg]
  swap; · iexact Hg
  isplitr [HB]
  swap; · iexact HB
  isplitl [HS0]
  · iexists _; iexact HS0
  iexists _; iexact HS1
theorem hout2 (c : Dev nD) : (dat2 V c).Φ (Fin.last cfg2.N) ⊢ (Pipeline.ΦA spec2 c : sProp 𝕄) :=
  Phi2_out V c _ (by rw [Fin.val_last]; have : cfg2.N = 25 := N_2; omega)
end Cert.Kernel.Hand
end
-- ==== Proof.K.RegB3.lean ====
import proofs.«419539_j67095979099186_1_alg».proof.Proof.LibViews
import proofs.«419539_j67095979099186_1_alg».proof.Proof.Gen.Kernel.Launch
import proofs.«419539_j67095979099186_1_alg».proof.Proof.Gen.Kernel.Skeleton
import proofs.«419539_j67095979099186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Views
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
def outB3 (c : Dev nD) (t : Fin cfg3.N) : Vec F S2000x128 .f32 :=
  k3_pay1 (iblk3 V c 0 t) (iblk3 V c 1 t) (iblk3 V c 2 t) (iblk3 V c 3 t) (iblk3 V c 4 t)
set_option maxHeartbeats 4000000 in
theorem run3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k3_pay1 x0 x1 x2 x3 x4)) -∗ K ⟨⟩))
      ⊢ wp frame (wpE (defs₀ (F := F)) Variants.none c none) E (cc3__kernel i arg1 harg1 arg2 harg2 arg3 harg3 arg4 harg4 arg5 harg5 arg6 harg6) K := by
  simp only [cc3__kernel_eq_skeleton]; unfold cc3__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec
  sl_step
  iapply Hk
  isplitl [H0]; · iapply (unread_held c arg1 harg1 _); iexact H0
  isplitl [H1]; · iapply (unread_held c arg2 harg2 _); iexact H1
  isplitl [H2]; · iapply (unread_held c arg3 harg3 _); iexact H2
  isplitl [H3]; · iapply (unread_held c arg4 harg4 _); iexact H3
  isplitl [H4]; · iapply (unread_held c arg5 harg5 _); iexact H4
  iexists _; isplitr
  swap; · iexact H5
  ipureintro
  refine (read_writes_unit_zero _ _ zeroOff _ _ _).trans ?_
  simp only [View.readAt_eq_ld, harg1.read_unread, harg2.read_unread, harg3.read_unread, harg4.read_unread, harg5.read_unread, View.ld_unit_zero (S := S2000x128) zeroOff, View.ld_unit_zero (S := S1x128) zeroOff]
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outB3 V c t
  Φ _ := Pipeline.ΦA spec3 c
  q _ := fullShare
  owed _ := 0
theorem A_eq3 (c : Dev nD) (w : Fin cfg3.W) : (dat3 V c).A w = V c (Pipeline.arrRef spec3 w) := by
  dsimp only [dat3]
theorem share3 (c : Dev nD) (w : Fin cfg3.W) : (dat3 V c).share w = fullShare :=
  (dat3 V c).share_full (fun _ => rfl) w
theorem owed3 (c : Dev nD) (t) : (dat3 V c).owed t = 0 := by
  dsimp only [dat3]
theorem after3_in (c : Dev nD) (t : Fin cfg3.N) :
    (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t :=
  ⟨rfl, rfl, rfl, rfl, rfl⟩
theorem after3_5 (c : Dev nD) (t : Fin cfg3.N) : (dat3 V c).after 5 t = outB3 V c t := by dsimp only [dat3]
theorem before3_in (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) := by
  refine ⟨?_, ?_, ?_, ?_, ?_⟩ <;> intro d <;>
    refine Eq.trans ((dat3 V c).before_in_eq_fetched _ ?_ ?_ ?_ ?_ t d) ?_ <;>
    first
      | rfl
      | exact fun _ => rfl
      | exact fun _ _ _ => rfl
      | (intro t; simp only [after3_in V c t]; unfold Dat.blockOf iblk3; rw [A_eq3]; try rfl)
      | (unfold Dat.fetched Dat.blockOf iblk3; rw [A_eq3]; try rfl)
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))
set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_in V c t, after3_in V c t, after3_5]
  rw [show (dat3 V c).Φ t.succ = (dat3 V c).Φ t.castSucc from rfl,
    show (dat3 V c).owesAt () t.succ = (dat3 V c).owesAt () t.castSucc from rfl]
  unfold outB3
  iintro ⟨HΦ, Ho, ⟨%d0, H0⟩, ⟨%d1, H1⟩, ⟨%d2, H2⟩, ⟨%d3, H3⟩, ⟨%d4, H4⟩, ⟨%d5, H5⟩⟩
  iapply (run3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5
theorem body_obligation3 (c : Dev nD) : BodyObligation (dat3 (F := F) V c) (defs₀ (F := F)) Variants.none () Set.univ := fun t => by
  rw [bigSep_W3, bigSep_W3]
  exact sound_body3 V c t
theorem hin3 (c : Dev nD) : (Pipeline.ΦA spec3 c : sProp 𝕄) ⊢ (dat3 V c).Φ 0 := by
  rw [show (dat3 V c).Φ 0 = Pipeline.ΦA spec3 c from rfl]
theorem hout3 (c : Dev nD) : (dat3 V c).Φ (Fin.last cfg3.N) ⊢ (Pipeline.ΦA spec3 c : sProp 𝕄) := by
  rw [show (dat3 V c).Φ (Fin.last cfg3.N) = Pipeline.ΦA spec3 c from rfl]
end Cert.Kernel.Hand
end
-- ==== Proof.K.RegA4.lean ====
import proofs.«419539_j67095979099186_1_alg».proof.Proof.LibViews
import proofs.«419539_j67095979099186_1_alg».proof.Proof.Gen.Kernel.Launch
import proofs.«419539_j67095979099186_1_alg».proof.Proof.Gen.Kernel.Skeleton
import proofs.«419539_j67095979099186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Views
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
def zAt4 (c : Dev nD) (t : Fin cfg4.N) : Vec F S2000x128 .f32 :=
  k4_pay5 (iblk4 V c 0 t) (iblk4 V c 1 t) (iblk4 V c 2 t) (iblk4 V c 3 t) (iblk4 V c 4 t) (iblk4 V c 5 t) (iblk4 V c 6 t)
def accAt4 (c : Dev nD) : (n : ℕ) → n < cfg4.N → Vec F S1x128 .f32 × Vec F S1x128 .f32
  | 0, h => (k4_pay1 (zAt4 V c ⟨0, h⟩) k4_pay3, k4_pay2 (zAt4 V c ⟨0, h⟩) k4_pay4)
  | n + 1, h => (k4_pay1 (zAt4 V c ⟨n + 1, h⟩) (accAt4 c n (Nat.lt_of_succ_lt h)).1, k4_pay2 (zAt4 V c ⟨n + 1, h⟩) (accAt4 c n (Nat.lt_of_succ_lt h)).2)
abbrev scM4_0 : Memref sig .tc .vmem S1x128 .f32 := Memref.whole cc4_scratch0
abbrev scM4_1 : Memref sig .tc .vmem S1x128 .f32 := Memref.whole cc4_scratch1
def Phi4 (c : Dev nD) : (n : ℕ) → n ≤ cfg4.N → sProp 𝕄
  | 0, _ => Pipeline.ΦA spec4 c
  | n + 1, hn => iprop(iprop(iprop(owns (c : Thread nD τ) scM4_0 fullShare (accAt4 V c n hn).1 ∗ owns (c : Thread nD τ) scM4_1 fullShare (accAt4 V c n hn).2)
      ∗ Pipeline.scopedRestBut (Ix := Unit) (Name := ℕ) (U := UR sig nD τ) (Lvl := ℕ) (Val := Elt F) spec4 c [cc4_scratch0, cc4_scratch1]) ∗ (∃ r, prngReg c r))
abbrev cond4 (i : grid4.Coords) : Prop :=
  (Scalar.cmpi .ne (Scalar.extui (Scalar.cmpi .eq (BitVec.ofNat 32 (i 0).val) 0#32)) 0#32) = 1#1
theorem hcond4 : ∀ t : Fin cfg4.N, cond4 (grid4.coords t) ↔ t.val = 0 :=
  (by decide +kernel : ∀ t : Fin grid4.N, cond4 (grid4.coords t) ↔ t.val = 0)
section
variable (c : Dev nD) (E : Set ℕ) (i : grid4.Coords) (arg1 : Memref sig .tc .vmem S1x1 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
set_option maxHeartbeats 4000000 in
theorem run_first4
    (hc : cond4 i) (x0 : Vec F S1x1 .f32) (x1 x2 : Vec F S2000x128 .f32) (x3 : Vec F S128x128 .f32) (x4 : Vec F S1x128 .f32) (x5 : Vec F S128x128 .f32) (x6 : Vec F S1x128 .f32)  (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k4_pay5 x0 x1 x2 x3 x4 x5 x6) ∗ owns (c : Thread nD τ) arg9 fullShare (k4_pay1 (k4_pay5 x0 x1 x2 x3 x4 x5 x6) k4_pay3) ∗ owns (c : Thread nD τ) arg10 fullShare (k4_pay2 (k4_pay5 x0 x1 x2 x3 x4 x5 x6) k4_pay4)
            ∗ owns (c : Thread nD τ) arg11 fullShare (k4_pay1 (k4_pay5 x0 x1 x2 x3 x4 x5 x6) k4_pay3) ∗ owns (c : Thread nD τ) arg12 fullShare (k4_pay2 (k4_pay5 x0 x1 x2 x3 x4 x5 x6) k4_pay4)) -∗ K ⟨⟩))
      ⊢ wp frame (wpE (defs₀ (F := F)) Variants.none c none) E (cc4__combine_mlp_kernel i arg1 harg1 arg2 harg2 arg3 harg3 arg4 harg4 arg5 harg5 arg6 harg6 arg7 harg7 arg8 harg8 arg9 harg9 arg10 harg10 arg11 harg11 arg12 harg12) K := by
  simp only [cc4__combine_mlp_kernel_eq_skeleton]; unfold cc4__combine_mlp_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
set_option maxHeartbeats 4000000 in
theorem run_later4
    (hc : ¬cond4 i) (x0 : Vec F S1x1 .f32) (x1 x2 : Vec F S2000x128 .f32) (x3 : Vec F S128x128 .f32) (x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k4_pay5 x0 x1 x2 x3 x4 x5 x6) ∗ owns (c : Thread nD τ) arg9 fullShare (k4_pay1 (k4_pay5 x0 x1 x2 x3 x4 x5 x6) a0) ∗ owns (c : Thread nD τ) arg10 fullShare (k4_pay2 (k4_pay5 x0 x1 x2 x3 x4 x5 x6) a1)
            ∗ owns (c : Thread nD τ) arg11 fullShare (k4_pay1 (k4_pay5 x0 x1 x2 x3 x4 x5 x6) a0) ∗ owns (c : Thread nD τ) arg12 fullShare (k4_pay2 (k4_pay5 x0 x1 x2 x3 x4 x5 x6) a1)) -∗ K ⟨⟩))
      ⊢ wp frame (wpE (defs₀ (F := F)) Variants.none c none) E (cc4__combine_mlp_kernel i arg1 harg1 arg2 harg2 arg3 harg3 arg4 harg4 arg5 harg5 arg6 harg6 arg7 harg7 arg8 harg8 arg9 harg9 arg10 harg10 arg11 harg11 arg12 harg12) K := by
  simp only [cc4__combine_mlp_kernel_eq_skeleton]; unfold cc4__combine_mlp_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  obtain rfl := harg11.eq_unread hf10; obtain rfl := harg12.eq_unread hf11
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff, harg11.read_unread, harg12.read_unread]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
end
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => zAt4 V c t
    | ⟨8, _⟩ => (accAt4 V c t.val t.isLt).1
    | ⟨9, _⟩ => (accAt4 V c t.val t.isLt).2
  Φ t := Phi4 V c t.val (Nat.le_of_lt_succ t.isLt)
  q _ := fullShare
  owed _ := 0
theorem A_eq4 (c : Dev nD) (w : Fin cfg4.W) : (dat4 V c).A w = V c (Pipeline.arrRef spec4 w) := by
  dsimp only [dat4]
theorem share4 (c : Dev nD) (w : Fin cfg4.W) : (dat4 V c).share w = fullShare :=
  (dat4 V c).share_full (fun _ => rfl) w
theorem owed4 (c : Dev nD) (t) : (dat4 V c).owed t = 0 := by
  dsimp only [dat4]
theorem after4_in (c : Dev nD) (t : Fin cfg4.N) :
    (dat4 V c).after 0 t = iblk4 V c 0 t ∧ (dat4 V c).after 1 t = iblk4 V c 1 t ∧ (dat4 V c).after 2 t = iblk4 V c 2 t
    ∧ (dat4 V c).after 3 t = iblk4 V c 3 t ∧ (dat4 V c).after 4 t = iblk4 V c 4 t ∧ (dat4 V c).after 5 t = iblk4 V c 5 t
    ∧ (dat4 V c).after 6 t = iblk4 V c 6 t :=
  ⟨rfl, rfl, rfl, rfl, rfl, rfl, rfl⟩
theorem after4_7 (c : Dev nD) (t : Fin cfg4.N) : (dat4 V c).after 7 t = zAt4 V c t := by dsimp only [dat4]
theorem after4_8 (c : Dev nD) (t : Fin cfg4.N) : (dat4 V c).after 8 t = (accAt4 V c t.val t.isLt).1 := by dsimp only [dat4]
theorem after4_9 (c : Dev nD) (t : Fin cfg4.N) : (dat4 V c).after 9 t = (accAt4 V c t.val t.isLt).2 := by dsimp only [dat4]
theorem Phi4_zero (c : Dev nD) (n : ℕ) (h : n ≤ cfg4.N) (hz : n = 0) : Phi4 V c n h = Pipeline.ΦA spec4 c := by
  subst hz; rfl
theorem Phi4_succ (c : Dev nD) (n : ℕ) (hn : n < cfg4.N) :
    Phi4 V c (n + 1) hn = iprop(iprop(iprop(owns (c : Thread nD τ) scM4_0 fullShare (accAt4 V c n hn).1 ∗ owns (c : Thread nD τ) scM4_1 fullShare (accAt4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl
theorem Phi4_pos (c : Dev nD) (n : ℕ) (h : n ≤ cfg4.N) (hz : n ≠ 0) : Phi4 V c n h = Phi4 V c (n - 1 + 1) (by omega) := by
  cases n with
  | zero => exact absurd rfl hz
  | succ n => rfl
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl
theorem accAt4_first (c : Dev nD) (t : Fin cfg4.N) (h0 : t.val = 0) :
    accAt4 V c t.val t.isLt = (k4_pay1 (zAt4 V c t) k4_pay3, k4_pay2 (zAt4 V c t) k4_pay4) := by
  obtain ⟨n, hn⟩ := t
  cases n with
  | zero => rfl
  | succ n => exact absurd h0 (Nat.succ_ne_zero n)
theorem accAt4_later (c : Dev nD) (t : Fin cfg4.N) (h0 : t.val ≠ 0) :
    accAt4 V c t.val t.isLt = (k4_pay1 (zAt4 V c t) (accAt4 V c (t.val - 1) (Nat.lt_of_le_of_lt (Nat.sub_le _ _) t.isLt)).1,
      k4_pay2 (zAt4 V c t) (accAt4 V c (t.val - 1) (Nat.lt_of_le_of_lt (Nat.sub_le _ _) t.isLt)).2) := by
  obtain ⟨n, hn⟩ := t
  cases n with
  | zero => exact absurd rfl h0
  | succ n => rfl
theorem Phi4_castSucc (c : Dev nD) (t : Fin cfg4.N) :
    (dat4 V c).Φ t.castSucc = Phi4 V c t.val (Nat.le_of_lt t.isLt) := by
  dsimp only [dat4]; simp only [Fin.coe_castSucc]
theorem before4_in (c : Dev nD) (t : Fin cfg4.N) :
    (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t)
    ∧ (∀ d, (dat4 V c).before 4 t d = iblk4 V c 4 t) ∧ (∀ d, (dat4 V c).before 5 t d = iblk4 V c 5 t)
    ∧ (∀ d, (dat4 V c).before 6 t d = iblk4 V c 6 t) := by
  refine ⟨?_, ?_, ?_, ?_, ?_, ?_, ?_⟩ <;> intro d <;>
    refine Eq.trans ((dat4 V c).before_in_eq_fetched _ ?_ ?_ ?_ ?_ t d) ?_ <;>
    first
      | rfl
      | exact fun _ => rfl
      | exact fun _ _ _ => rfl
      | (intro t; simp only [after4_in V c t]; unfold Dat.blockOf iblk4; rw [A_eq4]; try rfl)
      | (unfold Dat.fetched Dat.blockOf iblk4; rw [A_eq4]; try rfl)
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))
set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_in V c t, after4_in V c t, after4_7, after4_8, after4_9]
  rw [show (dat4 V c).owesAt () t.succ = (dat4 V c).owesAt () t.castSucc from rfl]
  rw [show (dat4 V c).Φ t.succ = Phi4 V c (t.val + 1) t.isLt from rfl, Phi4_succ]
  rw [Phi4_castSucc V c t]
  by_cases h0 : t.val = 0
  on_goal 1 => rw [Phi4_zero V c _ _ h0, PhiA4_eq, accAt4_first V c t h0]
  on_goal 2 => rw [Phi4_pos V c _ _ h0, Phi4_succ, accAt4_later V c t h0]
  all_goals
    dsimp only
    unfold zAt4
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  on_goal 1 => iapply (run_first4 c Set.univ (grid4.coords t) _ _ _ _ _ _ _ _ _ _ _ _ _ _ _ _ _ _ _ _ _ _ _ _ ((hcond4 t).mpr h0) (iblk4 V c 0 t) (iblk4 V c 1 t) (iblk4 V c 2 t) (iblk4 V c 3 t) (iblk4 V c 4 t) (iblk4 V c 5 t) (iblk4 V c 6 t) _)
  on_goal 2 => iapply (run_later4 c Set.univ (grid4.coords t) _ _ _ _ _ _ _ _ _ _ _ _ _ _ _ _ _ _ _ _ _ _ _ _ (fun h => h0 ((hcond4 t).mp h)) (iblk4 V c 0 t) (iblk4 V c 1 t) (iblk4 V c 2 t) (iblk4 V c 3 t) (iblk4 V c 4 t) (iblk4 V c 5 t) (iblk4 V c 6 t) _ _ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HB Hg]
    · isplitr [Hg]
      swap; · iexact Hg
      isplitr [HB]
      swap; · iexact HB
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
theorem body_obligation4 (c : Dev nD) : BodyObligation (dat4 (F := F) V c) (defs₀ (F := F)) Variants.none () Set.univ := fun t => by
  rw [bigSep_W4, bigSep_W4]
  exact sound_body4 V c t
theorem hin4 (c : Dev nD) : (Pipeline.ΦA spec4 c : sProp 𝕄) ⊢ (dat4 V c).Φ 0 := by
  rw [show (dat4 V c).Φ 0 = Phi4 V c 0 (Nat.zero_le _) from rfl, Phi4_zero V c 0 _ rfl]
  try exact Idealize.SL.BI.Entails.refl _
theorem Phi4_out (c : Dev nD) (t : Fin (cfg4.N + 1)) (ht : t.val ≠ 0) : (dat4 V c).Φ t ⊢ (Pipeline.ΦA spec4 c : sProp 𝕄) := by
  rw [show (dat4 V c).Φ t = Phi4 V c t.val (Nat.le_of_lt_succ t.isLt) from rfl, Phi4_pos V c _ _ ht, Phi4_succ, PhiA4_eq]
  iintro ⟨⟨⟨HS0, HS1⟩, HB⟩, Hg⟩
  isplitr [Hg]
  swap; · iexact Hg
  isplitr [HB]
  swap; · iexact HB
  isplitl [HS0]
  · iexists _; iexact HS0
  iexists _; iexact HS1
theorem hout4 (c : Dev nD) : (dat4 V c).Φ (Fin.last cfg4.N) ⊢ (Pipeline.ΦA spec4 c : sProp 𝕄) :=
  Phi4_out V c _ (by rw [Fin.val_last]; have : cfg4.N = 25 := N_4; omega)
end Cert.Kernel.Hand
end
-- ==== Proof.K.RegB5.lean ====
import proofs.«419539_j67095979099186_1_alg».proof.Proof.LibViews
import proofs.«419539_j67095979099186_1_alg».proof.Proof.Gen.Kernel.Launch
import proofs.«419539_j67095979099186_1_alg».proof.Proof.Gen.Kernel.Skeleton
import proofs.«419539_j67095979099186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Views
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
def outB5 (c : Dev nD) (t : Fin cfg5.N) : Vec F S2000x128 .f32 :=
  k5_pay1 (iblk5 V c 0 t) (iblk5 V c 1 t) (iblk5 V c 2 t) (iblk5 V c 3 t) (iblk5 V c 4 t)
set_option maxHeartbeats 4000000 in
theorem run5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k5_pay1 x0 x1 x2 x3 x4)) -∗ K ⟨⟩))
      ⊢ wp frame (wpE (defs₀ (F := F)) Variants.none c none) E (cc5__kernel i arg1 harg1 arg2 harg2 arg3 harg3 arg4 harg4 arg5 harg5 arg6 harg6) K := by
  simp only [cc5__kernel_eq_skeleton]; unfold cc5__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec
  sl_step
  iapply Hk
  isplitl [H0]; · iapply (unread_held c arg1 harg1 _); iexact H0
  isplitl [H1]; · iapply (unread_held c arg2 harg2 _); iexact H1
  isplitl [H2]; · iapply (unread_held c arg3 harg3 _); iexact H2
  isplitl [H3]; · iapply (unread_held c arg4 harg4 _); iexact H3
  isplitl [H4]; · iapply (unread_held c arg5 harg5 _); iexact H4
  iexists _; isplitr
  swap; · iexact H5
  ipureintro
  refine (read_writes_unit_zero _ _ zeroOff _ _ _).trans ?_
  simp only [View.readAt_eq_ld, harg1.read_unread, harg2.read_unread, harg3.read_unread, harg4.read_unread, harg5.read_unread, View.ld_unit_zero (S := S2000x128) zeroOff, View.ld_unit_zero (S := S1x128) zeroOff]
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => outB5 V c t
  Φ _ := Pipeline.ΦA spec5 c
  q _ := fullShare
  owed _ := 0
theorem A_eq5 (c : Dev nD) (w : Fin cfg5.W) : (dat5 V c).A w = V c (Pipeline.arrRef spec5 w) := by
  dsimp only [dat5]
theorem share5 (c : Dev nD) (w : Fin cfg5.W) : (dat5 V c).share w = fullShare :=
  (dat5 V c).share_full (fun _ => rfl) w
theorem owed5 (c : Dev nD) (t) : (dat5 V c).owed t = 0 := by
  dsimp only [dat5]
theorem after5_in (c : Dev nD) (t : Fin cfg5.N) :
    (dat5 V c).after 0 t = iblk5 V c 0 t ∧ (dat5 V c).after 1 t = iblk5 V c 1 t ∧ (dat5 V c).after 2 t = iblk5 V c 2 t ∧ (dat5 V c).after 3 t = iblk5 V c 3 t ∧ (dat5 V c).after 4 t = iblk5 V c 4 t :=
  ⟨rfl, rfl, rfl, rfl, rfl⟩
theorem after5_5 (c : Dev nD) (t : Fin cfg5.N) : (dat5 V c).after 5 t = outB5 V c t := by dsimp only [dat5]
theorem before5_in (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t) ∧ (∀ d, (dat5 V c).before 3 t d = iblk5 V c 3 t) ∧ (∀ d, (dat5 V c).before 4 t d = iblk5 V c 4 t) := by
  refine ⟨?_, ?_, ?_, ?_, ?_⟩ <;> intro d <;>
    refine Eq.trans ((dat5 V c).before_in_eq_fetched _ ?_ ?_ ?_ ?_ t d) ?_ <;>
    first
      | rfl
      | exact fun _ => rfl
      | exact fun _ _ _ => rfl
      | (intro t; simp only [after5_in V c t]; unfold Dat.blockOf iblk5; rw [A_eq5]; try rfl)
      | (unfold Dat.fetched Dat.blockOf iblk5; rw [A_eq5]; try rfl)
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))
set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_in V c t, after5_in V c t, after5_5]
  rw [show (dat5 V c).Φ t.succ = (dat5 V c).Φ t.castSucc from rfl,
    show (dat5 V c).owesAt () t.succ = (dat5 V c).owesAt () t.castSucc from rfl]
  unfold outB5
  iintro ⟨HΦ, Ho, ⟨%d0, H0⟩, ⟨%d1, H1⟩, ⟨%d2, H2⟩, ⟨%d3, H3⟩, ⟨%d4, H4⟩, ⟨%d5, H5⟩⟩
  iapply (run5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5
theorem body_obligation5 (c : Dev nD) : BodyObligation (dat5 (F := F) V c) (defs₀ (F := F)) Variants.none () Set.univ := fun t => by
  rw [bigSep_W5, bigSep_W5]
  exact sound_body5 V c t
theorem hin5 (c : Dev nD) : (Pipeline.ΦA spec5 c : sProp 𝕄) ⊢ (dat5 V c).Φ 0 := by
  rw [show (dat5 V c).Φ 0 = Pipeline.ΦA spec5 c from rfl]
theorem hout5 (c : Dev nD) : (dat5 V c).Φ (Fin.last cfg5.N) ⊢ (Pipeline.ΦA spec5 c : sProp 𝕄) := by
  rw [show (dat5 V c).Φ (Fin.last cfg5.N) = Pipeline.ΦA spec5 c from rfl]
end Cert.Kernel.Hand
end
-- ==== Proof.K.RegC6.lean ====
import proofs.«419539_j67095979099186_1_alg».proof.Proof.LibViews
import proofs.«419539_j67095979099186_1_alg».proof.Proof.Gen.Kernel.Launch
import proofs.«419539_j67095979099186_1_alg».proof.Proof.Gen.Kernel.Skeleton
import proofs.«419539_j67095979099186_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Views
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
def accAt6 (c : Dev nD) : (n : ℕ) → n < cfg6.N → Vec F S512x128 .f32
  | 0, h => k6_pay2 (iblk6 V c 1 ⟨0, h⟩) (iblk6 V c 0 ⟨0, h⟩) k6_pay1
  | n + 1, h => k6_pay2 (iblk6 V c 1 ⟨n + 1, h⟩) (iblk6 V c 0 ⟨n + 1, h⟩) (accAt6 c n (Nat.lt_of_succ_lt h))
abbrev scM6 : Memref sig .tc .vmem S512x128 .f32 := Memref.whole cc6_scratch0
abbrev cond6 (i : grid6.Coords) : Prop := (Scalar.cmpi .ne (Scalar.extui (Scalar.cmpi .eq (BitVec.ofNat 32 (i 0).val) 0#32)) 0#32) = 1#1
theorem hcond6 : ∀ t : Fin cfg6.N, cond6 (grid6.coords t) ↔ t.val = 0 :=
  (by decide +kernel : ∀ t : Fin grid6.N, cond6 (grid6.coords t) ↔ t.val = 0)
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
abbrev ms6_0 (t : Fin cfg6.N) : Memref sig .tc .vmem S2000x128 .f32 := win6_0.stage (cfg6.slots t 0)
abbrev ms6_1 (t : Fin cfg6.N) : Memref sig .tc .vmem S2000x1 .i32 := win6_1.stage (cfg6.slots t 1)
abbrev ms6_2 (t : Fin cfg6.N) : Memref sig .tc .vmem S512x128 .f32 := win6_2.stage (cfg6.slots t 2)
theorem PhiA6_eq (c : Dev nD) :
    (Pipeline.ΦA spec6 c : sProp 𝕄)
      = iprop(iprop((∃ d, owns (c : Thread nD τ) scM6 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl
section
variable (c : Dev nD) (i : grid6.Coords) (arg1 : Memref sig .tc .vmem S2000x128 .f32) (harg1 : arg1.IsWhole) (arg2 : Memref sig .tc .vmem S2000x1 .i32) (harg2 : arg2.IsWhole) (arg3 : Memref sig .tc .vmem S512x128 .f32) (harg3 : arg3.IsWhole) (arg4 : Memref sig .tc .vmem S512x128 .f32) (harg4 : arg4.IsWhole)
set_option maxHeartbeats 1000000 in
noncomputable def kernelRun6_A (hc0 : cond6 i)
    (x0 : Vec F S2000x128 .f32) (x1 : Vec F S2000x1 .i32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc6__pool_sum_kernel i arg1 harg1 arg2 harg2 arg3 harg3 arg4 harg4) K } := by
  refine ⟨?_, ?_, fun E K => ?run⟩
  case run =>
    simp only [cc6__pool_sum_kernel_eq_skeleton]; unfold cc6__pool_sum_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]; · iapply (unread_held c arg1 harg1 _); iexact H0
    isplitl [H1]; · iapply (unread_held c arg2 harg2 _); iexact H1
    isplitl [H2]; · iexists _; iexact H2
    iexists _; iexact HS0
set_option maxHeartbeats 1000000 in
noncomputable def kernelRun6_B (hc0 : ¬cond6 i)
    (x0 : Vec F S2000x128 .f32) (x1 : Vec F S2000x1 .i32) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc6__pool_sum_kernel i arg1 harg1 arg2 harg2 arg3 harg3 arg4 harg4) K } := by
  refine ⟨?_, ?_, fun E K => ?run⟩
  case run =>
    simp only [cc6__pool_sum_kernel_eq_skeleton]; unfold cc6__pool_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]; · iapply (unread_held c arg1 harg1 _); iexact H0
    isplitl [H1]; · iapply (unread_held c arg2 harg2 _); iexact H1
    isplitl [H2]; · iexists _; iexact H2
    iexists _; iexact HS0
theorem scover6_A (hc0 : cond6 i)
    (x0 : Vec F S2000x128 .f32) (x1 : Vec F S2000x1 .i32) (y : S512x128.Idx) :
    ∃ pc ∈ (kernelRun6_A c i arg1 harg1 arg2 harg2 arg3 harg3 arg4 harg4 hc0 x0 x1).2.1, y ∈ pc.1.set :=
  View.cover_of_tiledL (kernelRun6_A c i arg1 harg1 arg2 harg2 arg3 harg3 arg4 harg4 hc0 x0 x1).2.1 S512x128.size (by sl_kernel_rfl) y
theorem ocover6_A (hc0 : cond6 i)
    (x0 : Vec F S2000x128 .f32) (x1 : Vec F S2000x1 .i32) (y : S512x128.Idx) :
    ∃ pc ∈ (kernelRun6_A c i arg1 harg1 arg2 harg2 arg3 harg3 arg4 harg4 hc0 x0 x1).1, y ∈ pc.1.set :=
  View.cover_of_tiledL (kernelRun6_A c i arg1 harg1 arg2 harg2 arg3 harg3 arg4 harg4 hc0 x0 x1).1 S512x128.size (by sl_kernel_rfl) y
theorem scover6_B (hc0 : ¬cond6 i)
    (x0 : Vec F S2000x128 .f32) (x1 : Vec F S2000x1 .i32) (xs0 : Vec F S512x128 .f32) (y : S512x128.Idx) :
    ∃ pc ∈ (kernelRun6_B c i arg1 harg1 arg2 harg2 arg3 harg3 arg4 harg4 hc0 x0 x1 xs0).2.1, y ∈ pc.1.set :=
  View.cover_of_tiledL (kernelRun6_B c i arg1 harg1 arg2 harg2 arg3 harg3 arg4 harg4 hc0 x0 x1 xs0).2.1 S512x128.size (by sl_kernel_rfl) y
theorem ocover6_B (hc0 : ¬cond6 i)
    (x0 : Vec F S2000x128 .f32) (x1 : Vec F S2000x1 .i32) (xs0 : Vec F S512x128 .f32) (y : S512x128.Idx) :
    ∃ pc ∈ (kernelRun6_B c i arg1 harg1 arg2 harg2 arg3 harg3 arg4 harg4 hc0 x0 x1 xs0).1, y ∈ pc.1.set :=
  View.cover_of_tiledL (kernelRun6_B c i arg1 harg1 arg2 harg2 arg3 harg3 arg4 harg4 hc0 x0 x1 xs0).1 S512x128.size (by sl_kernel_rfl) y
theorem sA6_eq (hc0 : cond6 i)
    (x0 : Vec F S2000x128 .f32) (x1 : Vec F S2000x1 .i32) (v : View sig .tc .vmem S512x128 .f32) (f : v.ty.Contents (Elt F)) :
    v.read (Elt F) (v.writes (Elt F) f (kernelRun6_A c i arg1 harg1 arg2 harg2 arg3 harg3 arg4 harg4 hc0 x0 x1).2.1) = k6_pay2 x1 x0 (k6_pay1 (F := F)) := by
  rw [View.read_writes_eq_canon _ _ _ (scover6_A c i arg1 harg1 arg2 harg2 arg3 harg3 arg4 harg4 hc0 x0 x1)]
  unfold kernelRun6_A
  dsimp only
  sl_unfold_words
  rw [View.canon_cons_unit_zero (S := S512x128) zeroOff, View.readCov_cons_toLoadRect]
  simp only [View.readAt_eq_ld, harg1.read_unread, harg2.read_unread, View.ld_unit_zero (S := S2000x128) zeroOff, View.ld_unit_zero (S := S2000x1) zeroOff]
theorem oA6_eq (hc0 : cond6 i)
    (x0 : Vec F S2000x128 .f32) (x1 : Vec F S2000x1 .i32) (v : View sig .tc .vmem S512x128 .f32) (f : v.ty.Contents (Elt F)) :
    v.read (Elt F) (v.writes (Elt F) f (kernelRun6_A c i arg1 harg1 arg2 harg2 arg3 harg3 arg4 harg4 hc0 x0 x1).1) = k6_pay2 x1 x0 (k6_pay1 (F := F)) := by
  rw [View.read_writes_eq_canon _ _ _ (ocover6_A c i arg1 harg1 arg2 harg2 arg3 harg3 arg4 harg4 hc0 x0 x1)]
  unfold kernelRun6_A
  dsimp only
  sl_unfold_words
  rw [View.canon_unit_zero (S := S512x128) zeroOff, View.readCov_cons_toLoadRect, View.readCov_cons_toLoadRect]
  simp only [View.readAt_eq_ld, harg1.read_unread, harg2.read_unread, View.ld_unit_zero (S := S2000x128) zeroOff, View.ld_unit_zero (S := S2000x1) zeroOff]
theorem sB6_eq (hc0 : ¬cond6 i)
    (x0 : Vec F S2000x128 .f32) (x1 : Vec F S2000x1 .i32) (xs0 : Vec F S512x128 .f32) (v : View sig .tc .vmem S512x128 .f32) (f : v.ty.Contents (Elt F)) :
    v.read (Elt F) (v.writes (Elt F) f (kernelRun6_B c i arg1 harg1 arg2 harg2 arg3 harg3 arg4 harg4 hc0 x0 x1 xs0).2.1) = k6_pay2 x1 x0 xs0 := by
  rw [View.read_writes_eq_canon _ _ _ (scover6_B c i arg1 harg1 arg2 harg2 arg3 harg3 arg4 harg4 hc0 x0 x1 xs0)]
  unfold kernelRun6_B
  dsimp only
  sl_unfold_words
  rw [View.canon_unit_zero (S := S512x128) zeroOff]
  simp only [View.readAt_eq_ld, harg1.read_unread, harg2.read_unread, harg4.read_unread, View.ld_unit_zero (S := S2000x128) zeroOff, View.ld_unit_zero (S := S2000x1) zeroOff, View.ld_unit_zero (S := S512x128) zeroOff]
theorem oB6_eq (hc0 : ¬cond6 i)
    (x0 : Vec F S2000x128 .f32) (x1 : Vec F S2000x1 .i32) (xs0 : Vec F S512x128 .f32) (v : View sig .tc .vmem S512x128 .f32) (f : v.ty.Contents (Elt F)) :
    v.read (Elt F) (v.writes (Elt F) f (kernelRun6_B c i arg1 harg1 arg2 harg2 arg3 harg3 arg4 harg4 hc0 x0 x1 xs0).1) = k6_pay2 x1 x0 xs0 := by
  rw [View.read_writes_eq_canon _ _ _ (ocover6_B c i arg1 harg1 arg2 harg2 arg3 harg3 arg4 harg4 hc0 x0 x1 xs0)]
  unfold kernelRun6_B
  dsimp only
  sl_unfold_words
  rw [View.canon_unit_zero (S := S512x128) zeroOff, View.readCov_cons_toLoadRect]
  simp only [View.readAt_eq_ld, harg1.read_unread, harg2.read_unread, harg4.read_unread, View.ld_unit_zero (S := S2000x128) zeroOff, View.ld_unit_zero (S := S2000x1) zeroOff, View.ld_unit_zero (S := S512x128) zeroOff]
end
theorem accAt6_first (c : Dev nD) (t : Fin cfg6.N) (h0 : t.val = 0) :
    accAt6 V c t.val t.isLt = k6_pay2 (iblk6 V c 1 t) (iblk6 V c 0 t) (k6_pay1 (F := F)) := by
  obtain ⟨n, hn⟩ := t
  cases n with
  | zero => exact rfl
  | succ n => exact absurd h0 (Nat.succ_ne_zero n)
theorem accAt6_later (c : Dev nD) (t : Fin cfg6.N) (h0 : t.val ≠ 0) :
    accAt6 V c t.val t.isLt = k6_pay2 (iblk6 V c 1 t) (iblk6 V c 0 t) (accAt6 V c (t.val - 1) (Nat.lt_of_le_of_lt (Nat.sub_le _ _) t.isLt)) := by
  obtain ⟨n, hn⟩ := t
  cases n with
  | zero => exact absurd rfl h0
  | succ n => exact rfl
def Phi6 (c : Dev nD) : (n : ℕ) → n ≤ cfg6.N → sProp 𝕄
  | 0, _ => Pipeline.ΦA spec6 c
  | n + 1, hn => iprop(iprop(owns (c : Thread nD τ) scM6 fullShare (accAt6 V c n hn)
      ∗ Pipeline.scopedRestBut (Ix := Unit) (Name := ℕ) (U := UR sig nD τ) (Lvl := ℕ) (Val := Elt F) spec6 c [cc6_scratch0]) ∗ (∃ r, prngReg c r))
theorem Phi6_zero (c : Dev nD) (n : ℕ) (h : n ≤ cfg6.N) (hz : n = 0) : Phi6 V c n h = Pipeline.ΦA spec6 c := by
  subst hz; rfl
theorem Phi6_succ (c : Dev nD) (n : ℕ) (hn : n < cfg6.N) :
    Phi6 V c (n + 1) hn = iprop(iprop(owns (c : Thread nD τ) scM6 fullShare (accAt6 V c n hn)
      ∗ Pipeline.scopedRestBut (Ix := Unit) (Name := ℕ) (U := UR sig nD τ) (Lvl := ℕ) (Val := Elt F) spec6 c [cc6_scratch0]) ∗ (∃ r, prngReg c r)) := rfl
theorem Phi6_pos (c : Dev nD) (n : ℕ) (h : n ≤ cfg6.N) (hz : n ≠ 0) : Phi6 V c n h = Phi6 V c (n - 1 + 1) (by omega) := by
  cases n with
  | zero => exact absurd rfl hz
  | succ n => rfl
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => accAt6 V c t.val t.isLt
  Φ t := Phi6 V c t.val (Nat.le_of_lt_succ t.isLt)
  q _ := fullShare
  owed _ := 0
theorem A_eq6 (c : Dev nD) (w : Fin cfg6.W) : (dat6 V c).A w = V c (Pipeline.arrRef spec6 w) := by
  dsimp only [dat6]
theorem share6 (c : Dev nD) (w : Fin cfg6.W) : (dat6 V c).share w = fullShare :=
  (dat6 V c).share_full (fun _ => rfl) w
theorem owed6 (c : Dev nD) (t) : (dat6 V c).owed t = 0 := by dsimp only [dat6]
theorem Phi6_castSucc (c : Dev nD) (t : Fin cfg6.N) :
    (dat6 V c).Φ t.castSucc = Phi6 V c t.val (Nat.le_of_lt t.isLt) := by
  dsimp only [dat6]; simp only [Fin.coe_castSucc]
theorem after6_in (c : Dev nD) (t : Fin cfg6.N) :
    (dat6 V c).after 0 t = iblk6 V c 0 t ∧ (dat6 V c).after 1 t = iblk6 V c 1 t :=
  ⟨rfl, rfl⟩
theorem after6_2 (c : Dev nD) (t : Fin cfg6.N) : (dat6 V c).after 2 t = accAt6 V c t.val t.isLt := by dsimp only [dat6]
theorem before6_in (c : Dev nD) (t : Fin cfg6.N) :
    (∀ d, (dat6 V c).before 0 t d = iblk6 V c 0 t) ∧ (∀ d, (dat6 V c).before 1 t d = iblk6 V c 1 t) := by
  refine ⟨?_, ?_⟩ <;> intro d <;>
    refine Eq.trans ((dat6 V c).before_in_eq_fetched _ ?_ ?_ ?_ ?_ t d) ?_ <;>
    first
      | rfl
      | exact fun _ => rfl
      | exact fun _ _ _ => rfl
      | (intro t; simp only [after6_in V c t]; unfold Dat.blockOf iblk6; rw [A_eq6]; try rfl)
      | (unfold Dat.fetched Dat.blockOf iblk6; rw [A_eq6]; try rfl)
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)
set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_in V c t]
  rw [show (dat6 V c).owesAt () t.succ = (dat6 V c).owesAt () t.castSucc from rfl]
  rw [show (dat6 V c).Φ t.succ = Phi6 V c (t.val + 1) t.isLt from rfl, Phi6_succ]
  rw [show (dat6 V c).leavesExact 0 t = owns (c : Thread nD τ) (ms6_0 t) fullShare ((dat6 V c).after 0 t) from by
    unfold Dat.leavesExact; rw [liveAt6_0 t], (after6_in V c t).1]
  rw [show (dat6 V c).leavesExact 1 t = owns (c : Thread nD τ) (ms6_1 t) fullShare ((dat6 V c).after 1 t) from by
    unfold Dat.leavesExact; rw [liveAt6_1 t], (after6_in V c t).2]
  rw [show (dat6 V c).leavesExact 2 t = owns (c : Thread nD τ) (ms6_2 t) fullShare ((dat6 V c).after 2 t) from by
    unfold Dat.leavesExact; rw [liveAt6_2 t], after6_2]
  by_cases hz : t.val = 0
  · rw [accAt6_first V c t hz, Phi6_castSucc V c t, Phi6_zero V c _ _ hz, PhiA6_eq]
    iintro ⟨⟨⟨HS0, HR⟩, Hg⟩, Ho, ⟨%d0, H0⟩, ⟨%d1, H1⟩, ⟨%d2, H2⟩⟩
    iapply ((kernelRun6_A c (grid6.coords t) _ _ _ _ _ _ _ _ ((hcond6 t).mpr hz) (iblk6 V c 0 t) (iblk6 V c 1 t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact sA6_eq c _ _ _ _ _ _ _ _ _ _ _ _ _ _
        iexact HR
      iexact Hg
    isplitl [Ho]; · iexact Ho
    isplitl [H0]; · iexact H0
    isplitl [H1]; · iexact H1
    unfold owns; iexists _; isplitr
    swap; · iexact H2
    ipureintro; exact oA6_eq c _ _ _ _ _ _ _ _ _ _ _ _ _ _
  · rw [accAt6_later V c t hz, Phi6_castSucc V c t, Phi6_pos V c _ _ hz, Phi6_succ]
    iintro ⟨⟨⟨HS0, HR⟩, Hg⟩, Ho, ⟨%d0, H0⟩, ⟨%d1, H1⟩, ⟨%d2, H2⟩⟩
    iapply ((kernelRun6_B c (grid6.coords t) _ _ _ _ _ _ _ _ (fun h => hz ((hcond6 t).mp h)) (iblk6 V c 0 t) (iblk6 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact sB6_eq c _ _ _ _ _ _ _ _ _ _ _ _ _ _ _
        iexact HR
      iexact Hg
    isplitl [Ho]; · iexact Ho
    isplitl [H0]; · iexact H0
    isplitl [H1]; · iexact H1
    unfold owns; iexists _; isplitr
    swap; · iexact H2
    ipureintro; exact oB6_eq c _ _ _ _ _ _ _ _ _ _ _ _ _ _ _
theorem body_obligation6 (c : Dev nD) : BodyObligation (dat6 (F := F) V c) (defs₀ (F := F)) Variants.none () Set.univ := fun t => by
  rw [bigSep_W6, bigSep_W6]
  exact sound_body6 V c t
theorem hin6 (c : Dev nD) : (Pipeline.ΦA spec6 c : sProp 𝕄) ⊢ (dat6 V c).Φ 0 := by
  rw [show (dat6 V c).Φ 0 = Phi6 V c 0 (Nat.zero_le _) from rfl, Phi6_zero V c 0 _ rfl]
  try exact Idealize.SL.BI.Entails.refl _
theorem Phi6_out (c : Dev nD) (t : Fin (cfg6.N + 1)) (ht : t.val ≠ 0) : (dat6 V c).Φ t ⊢ (Pipeline.ΦA spec6 c : sProp 𝕄) := by
  rw [show (dat6 V c).Φ t = Phi6 V c t.val (Nat.le_of_lt_succ t.isLt) from rfl, Phi6_pos V c _ _ ht, Phi6_succ, PhiA6_eq]
  iintro ⟨⟨HS0, HR⟩, Hg⟩
  isplitl [HS0 HR]
  · isplitl [HS0]
    · iexists _; iexact HS0
    iexact HR
  iexact Hg
theorem hout6 (c : Dev nD) : (dat6 V c).Φ (Fin.last cfg6.N) ⊢ (Pipeline.ΦA spec6 c : sProp 𝕄) :=
  Phi6_out V c _ (by rw [Fin.val_last]; have : cfg6.N = 25 := N_6; omega)
end Cert.Kernel.Hand
end
-- ==== Proof.K.Run.lean ====
import proofs.«419539_j67095979099186_1_alg».proof.Proof.Gen.Kernel.Launch
import proofs.«419539_j67095979099186_1_alg».proof.Proof.Gen.Kernel.Skeleton
import proofs.«419539_j67095979099186_1_alg».proof.Proof.Gen.Kernel.Points
import proofs.«419539_j67095979099186_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419539_j67095979099186_1_alg».proof.Proof.K.RegA0
import proofs.«419539_j67095979099186_1_alg».proof.Proof.K.RegB1
import proofs.«419539_j67095979099186_1_alg».proof.Proof.K.RegA2
import proofs.«419539_j67095979099186_1_alg».proof.Proof.K.RegB3
import proofs.«419539_j67095979099186_1_alg».proof.Proof.K.RegA4
import proofs.«419539_j67095979099186_1_alg».proof.Proof.K.RegB5
import proofs.«419539_j67095979099186_1_alg».proof.Proof.K.RegC6
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
def W0 (c : Dev nD) : Valuation τ sig (Elt F) := fun b => m (c, b)
def W1 (c : Dev nD) : Valuation τ sig (Elt F) := StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
def W3 (c : Dev nD) : Valuation τ sig (Elt F) := StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
def W5 (c : Dev nD) : Valuation τ sig (Elt F) := StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
def W7 (c : Dev nD) : Valuation τ sig (Elt F) := StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
abbrev V8 : (c : Dev nD) → (b : Ref sig .tc) → Buf (Elt F) ((c : Thread nD τ).loc b) := fun c b => W8 m c b
def W9 (c : Dev nD) : Valuation τ sig (Elt F) := StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (V9 m) c).arrAt w cfg4.N
abbrev V10 : (c : Dev nD) → (b : Ref sig .tc) → Buf (Elt F) ((c : Thread nD τ).loc b) := fun c b => W10 m c b
def W11 (c : Dev nD) : Valuation τ sig (Elt F) := StableHlo.after hostOps5 (W10 m c)
abbrev V11 : (c : Dev nD) → (b : Ref sig .tc) → Buf (Elt F) ((c : Thread nD τ).loc b) := fun c b => W11 m c b
def W12 (c : Dev nD) : Valuation τ sig (Elt F) :=
  Pipeline.withArrays spec5 c (W11 m c) fun w => (dat5 (V11 m) c).arrAt w cfg5.N
abbrev V12 : (c : Dev nD) → (b : Ref sig .tc) → Buf (Elt F) ((c : Thread nD τ).loc b) := fun c b => W12 m c b
def W13 (c : Dev nD) : Valuation τ sig (Elt F) :=
  Pipeline.withArrays spec6 c (W12 m c) fun w => (dat6 (V12 m) c).arrAt w cfg6.N
abbrev V13 : (c : Dev nD) → (b : Ref sig .tc) → Buf (Elt F) ((c : Thread nD τ).loc b) := fun c b => W13 m c b
def W14 (c : Dev nD) : Valuation τ sig (Elt F) := StableHlo.after hostOps7 (W13 m c)
theorem keptOff {gr W : ℕ} (win : Fin W → Pipeline.WinSpec sig gr) (c : Dev nD) (V : Valuation τ sig (Elt F)) A (b : Ref sig .tc)
    (hb : b ∉ Finset.univ.image (Pipeline.arrRef win)) : Pipeline.withArrays win c V A (Proc.devRef .tc b) = V (Proc.devRef .tc b) :=
  Pipeline.withArrays_of_ne win c V A b fun w e => hb (Finset.mem_image.mpr ⟨w, Finset.mem_univ _, e⟩)
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem kept0 (c : Dev nD) : ∀ b, b ∉ Finset.univ.image (Pipeline.arrRef spec0) → V2 m c b = V1 m c b :=
  keptOff spec0 c _ _
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem kept1 (c : Dev nD) : ∀ b, b ∉ Finset.univ.image (Pipeline.arrRef spec1) → V4 m c b = V3 m c b :=
  keptOff spec1 c _ _
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
theorem kept2 (c : Dev nD) : ∀ b, b ∉ Finset.univ.image (Pipeline.arrRef spec2) → V6 m c b = V5 m c b :=
  keptOff spec2 c _ _
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w
theorem kept3 (c : Dev nD) : ∀ b, b ∉ Finset.univ.image (Pipeline.arrRef spec3) → V8 m c b = V7 m c b :=
  keptOff spec3 c _ _
theorem W10_arr (c : Dev nD) (w : Fin cfg4.W) :
    W10 m c (Proc.devRef .tc (Pipeline.arrRef spec4 w)) = (dat4 (V9 m) c).arrAt w cfg4.N :=
  Pipeline.withArrays_arr spec4 launch4.win.arr_inj c _ _ w
theorem kept4 (c : Dev nD) : ∀ b, b ∉ Finset.univ.image (Pipeline.arrRef spec4) → V10 m c b = V9 m c b :=
  keptOff spec4 c _ _
theorem W12_arr (c : Dev nD) (w : Fin cfg5.W) :
    W12 m c (Proc.devRef .tc (Pipeline.arrRef spec5 w)) = (dat5 (V11 m) c).arrAt w cfg5.N :=
  Pipeline.withArrays_arr spec5 launch5.win.arr_inj c _ _ w
theorem kept5 (c : Dev nD) : ∀ b, b ∉ Finset.univ.image (Pipeline.arrRef spec5) → V12 m c b = V11 m c b :=
  keptOff spec5 c _ _
theorem W13_arr (c : Dev nD) (w : Fin cfg6.W) :
    W13 m c (Proc.devRef .tc (Pipeline.arrRef spec6 w)) = (dat6 (V12 m) c).arrAt w cfg6.N :=
  Pipeline.withArrays_arr spec6 launch6.win.arr_inj c _ _ w
theorem kept6 (c : Dev nD) : ∀ b, b ∉ Finset.univ.image (Pipeline.arrRef spec6) → V13 m c b = V12 m c b :=
  keptOff spec6 c _ _
abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V12 m) c
abbrev noPairs : GSem nD τ sig → Finset Unit := fun _ => ∅
abbrev noLevel : GSem nD τ sig → Unit → ℕ := fun _ _ => 0
abbrev beside (c : Dev nD) : sProp 𝕄 :=
  iprop((∃ r, prngReg c r) ∗ ∃ W, owes (c : Thread nD τ) (0 : CellTallies nD τ sig Unit) W)
abbrev stateAt (W : Dev nD → Valuation τ sig (Elt F)) (c : Dev nD) : sProp 𝕄 :=
  iprop(StableHlo.held (c : Thread nD τ) (Pipeline.ucRefs τ sig) (W c) ∗ beside c)
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op hop => Pipeline.sub_ucRefs op ((List.forall_iff_forall_mem.mp hsub) op hop))
    (fun op hop => (List.forall_iff_forall_mem.mp hfresh) op hop) W beside
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩
abbrev tcOf (W : Dev nD → Valuation τ sig (Elt F)) : (c : Dev nD) → (b : Ref sig .tc) → Buf (Elt F) ((c : Thread nD τ).loc b) :=
  fun c b => W c b
def regionOf (p : Fin 7) (hl : Pipeline.LaunchFacts (nD := nD) (τ := τ) cfgs p) (Wi Wo : Dev nD → Valuation τ sig (Elt F))
    (hbody : ∀ c, BodyObligation (pdats m p c) (defs₀ (F := F)) Variants.none () Set.univ)
    (howed : ∀ c t, (pdats m p c).owed t = 0)
    (hrec : ∀ c, (pdats m p c).recorded 0 = Set.univ)
    (hshare : ∀ c w, (pdats m p c).share w = fullShare)
    (hA : ∀ c w, (pdats m p c).A w = tcOf Wi c (Pipeline.arrRef (cfgs p).spec w))
    (hΦin : ∀ c, (Pipeline.ΦA (cfgs p).spec c : sProp 𝕄) ⊢ (pdats m p c).Φ 0)
    (hΦout : ∀ c, (pdats m p c).Φ (Fin.last (cfgs p).N) ⊢ (Pipeline.ΦA (cfgs p).spec c : sProp 𝕄))
    (hleft : ∀ c w, (pdats m p c).arrAt w (cfgs p).N = tcOf Wo c (Pipeline.arrRef (cfgs p).spec w))
    (hkept : ∀ c b, b ∉ Finset.univ.image (Pipeline.arrRef (cfgs p).spec) → tcOf Wo c b = tcOf Wi c b) :
    Pipeline.RegionSeg (pcfgs (F := F)) adm (pdats m) () defs₀ Variants.none noPairs noLevel p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ noPairs noLevel p howed
  pre := stateAt Wi
  post := stateAt Wo
  X c := iprop(∃ r, prngReg c r)
  Y c := iprop(∃ r, prngReg c r)
  Z c := Pipeline.unscopedRest (Ix := Unit) (Name := ℕ) (U := UR sig nD τ) (Lvl := ℕ) (cfgs p).spec c (tcOf Wi c)
  hentry c := by
    rw [Pipeline.ownSems0_none]
    have harrs := Pipeline.arrays_of_unscopedBufs (p := p) (pcfgs (F := F)) adm (pdats m) hl.win hl.arr_whole c
      (hshare c) (tcOf Wi c) (hA c)
    rw [Pipeline.unscopedBufs_held] at harrs
    iintro ⟨⟨Hbufs, Hprng, Howes⟩, -, -⟩
    ihave Hs := harrs $$ Hbufs
    icases Hs with ⟨Harr, Hby⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      rw [howed c 0]
      icases Howes with ⟨%S, Howes⟩
      iexists S
      isplitr; · ipureintro; exact fun _ _ => Or.inl (hrec c ▸ Set.mem_univ _)
      iexact Howes
    isplitl [Hprng]; · iexact Hprng
    iexact Hby
  hin c := by
    refine BIBase.Entails.trans ?_ (hΦin c)
    unfold Pipeline.ΦA
    iintro ⟨Hprng, -, Hsc⟩
    isplitl [Hsc]; · iexact Hsc
    iexact Hprng
  hout c := by
    rw [Pipeline.ownSems0_none]
    refine BIBase.Entails.trans (hΦout c) ?_
    unfold Pipeline.ΦA
    iintro ⟨Hsc, Hprng⟩
    isplitl [Hprng]; · iexact Hprng
    isplitr; · iempintro
    iexact Hsc
  hexit c := by
    have hjoin := Pipeline.unscopedBufs_of_arrays (p := p) (pcfgs (F := F)) adm (Ix := Unit) (Name := ℕ) (U := UR sig nD τ) (Lvl := ℕ)
      hl.win hl.arr_whole c (pdats m) (hshare c)
      (tcOf Wi c) (tcOf Wo c) ((pdats m p c).arrAt · (cfgs p).N) (hleft c) (hkept c)
    rw [Pipeline.unscopedBufs_held] at hjoin
    iintro ⟨Harr, Howes, Hprng, Hby⟩
    imodintro
    isplitl [Harr Hby]
    · iapply hjoin
      isplitl [Harr] <;> iassumption
    isplitl [Hprng]; · iexact Hprng
    unfold Pipeline.Dat.owesAt Pipeline.owesWithin
    rw [howed c (Fin.last _)]
    icases Howes with ⟨%S, -, Howes⟩
    iexists S
    iexact Howes
def region0 : Pipeline.RegionSeg (pcfgs (F := F)) adm (pdats m) () defs₀ Variants.none noPairs noLevel 0 :=
  regionOf m 0 launch0 (W1 m) (W2 m) (body_obligation0 (V1 m)) (owed0 (V1 m)) (fun _ => rfl)
    (share0 (V1 m)) (A_eq0 (V1 m)) (hin0 (V1 m)) (hout0 (V1 m)) (fun c w => (W2_arr m c w).symm) (kept0 m)
def region1 : Pipeline.RegionSeg (pcfgs (F := F)) adm (pdats m) () defs₀ Variants.none noPairs noLevel 1 :=
  regionOf m 1 launch1 (W3 m) (W4 m) (body_obligation1 (V3 m)) (owed1 (V3 m)) (fun _ => rfl)
    (share1 (V3 m)) (A_eq1 (V3 m)) (hin1 (V3 m)) (hout1 (V3 m)) (fun c w => (W4_arr m c w).symm) (kept1 m)
def region2 : Pipeline.RegionSeg (pcfgs (F := F)) adm (pdats m) () defs₀ Variants.none noPairs noLevel 2 :=
  regionOf m 2 launch2 (W5 m) (W6 m) (body_obligation2 (V5 m)) (owed2 (V5 m)) (fun _ => rfl)
    (share2 (V5 m)) (A_eq2 (V5 m)) (hin2 (V5 m)) (hout2 (V5 m)) (fun c w => (W6_arr m c w).symm) (kept2 m)
def region3 : Pipeline.RegionSeg (pcfgs (F := F)) adm (pdats m) () defs₀ Variants.none noPairs noLevel 3 :=
  regionOf m 3 launch3 (W7 m) (W8 m) (body_obligation3 (V7 m)) (owed3 (V7 m)) (fun _ => rfl)
    (share3 (V7 m)) (A_eq3 (V7 m)) (hin3 (V7 m)) (hout3 (V7 m)) (fun c w => (W8_arr m c w).symm) (kept3 m)
def region4 : Pipeline.RegionSeg (pcfgs (F := F)) adm (pdats m) () defs₀ Variants.none noPairs noLevel 4 :=
  regionOf m 4 launch4 (W9 m) (W10 m) (body_obligation4 (V9 m)) (owed4 (V9 m)) (fun _ => rfl)
    (share4 (V9 m)) (A_eq4 (V9 m)) (hin4 (V9 m)) (hout4 (V9 m)) (fun c w => (W10_arr m c w).symm) (kept4 m)
def region5 : Pipeline.RegionSeg (pcfgs (F := F)) adm (pdats m) () defs₀ Variants.none noPairs noLevel 5 :=
  regionOf m 5 launch5 (W11 m) (W12 m) (body_obligation5 (V11 m)) (owed5 (V11 m)) (fun _ => rfl)
    (share5 (V11 m)) (A_eq5 (V11 m)) (hin5 (V11 m)) (hout5 (V11 m)) (fun c w => (W12_arr m c w).symm) (kept5 m)
def region6 : Pipeline.RegionSeg (pcfgs (F := F)) adm (pdats m) () defs₀ Variants.none noPairs noLevel 6 :=
  regionOf m 6 launch6 (W12 m) (W13 m) (body_obligation6 (V12 m)) (owed6 (V12 m)) (fun _ => rfl)
    (share6 (V12 m)) (A_eq6 (V12 m)) (hin6 (V12 m)) (hout6 (V12 m)) (fun c w => (W13_arr m c w).symm) (kept6 m)
abbrev mainItems : List (Pipeline.Seg (pcfgs (F := F)) adm (pdats m) () defs₀ Variants.none noPairs noLevel) :=
  [ .host (stretch hostOps0 hostOps0_sub hostOps0_fresh (W0 m)),
    .region (region0 m),
    .host (stretch hostOps1 hostOps1_sub hostOps1_fresh (W2 m)),
    .region (region1 m),
    .host (stretch hostOps2 hostOps2_sub hostOps2_fresh (W4 m)),
    .region (region2 m),
    .host (stretch hostOps3 hostOps3_sub hostOps3_fresh (W6 m)),
    .region (region3 m),
    .host (stretch hostOps4 hostOps4_sub hostOps4_fresh (W8 m)),
    .region (region4 m),
    .host (stretch hostOps5 hostOps5_sub hostOps5_fresh (W10 m)),
    .region (region5 m),
    .region (region6 m),
    .host (stretch hostOps7 hostOps7_sub hostOps7_fresh (W13 m)) ]
abbrev lastState (c : Dev nD) : sProp 𝕄 :=
  iprop(StableHlo.held (c : Thread nD τ) (Pipeline.ucRefs τ sig) (W14 m c) ∗ ∃ r, prngReg c r)
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W14 m c b) :=
  Pipeline.θ_run_regions_kit (pcfgs (F := F)) adm (pdats m) () cellOf_inj emb₁ defs₀ Variants.none noPairs noLevel m ρ main (mainItems m)
    (fun c Q => by
      rewrite [main_chain c, Pipeline.Seg.run_eq_chain,
        show (mainItems m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7 ] from rfl]
      exact .rfl)
    (by simp only [mainItems, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := stateAt (W0 m)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W14 m c) ∗ beside c) ⊢ _
        iintro ⟨Hh, Hp, Ho⟩
        isplitl [Hh Hp]
        · isplitl [Hh]; · iexact Hh
          iexact Hp
        iexact Ho⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem ((c : Thread nD τ).1, b) = W14 m c b)
    (hfin := fun c s' => by
      iintro ⟨⟨Hh, -⟩, HSI⟩
      unfold StableHlo.held
      imodintro
      iapply (pointsTo_read_all (Pipeline.ucRefs τ sig) (fun b => ((c : Thread nD τ).1, b)) (W14 m c) s')
      isplitl [Hh] <;> iassumption)
    (hQ := fun s h c => h c)
-- No step from the initial to the final valuation changes the contents at `r`.
theorem arg_kept {c : Dev nD} {x : Valuation τ sig (Elt F)} (hx : ∀ b ∈ Pipeline.ucRefs τ sig, x b = W14 m c b) (r : Ref sig .tc)
    (h : ¬ (Proc.devRef .tc r : DevRef τ sig).isScoped ∧ r ∉ hostOps7_W ∧ r ∉ Finset.univ.image (Pipeline.arrRef spec6) ∧
      r ∉ Finset.univ.image (Pipeline.arrRef spec5) ∧ r ∉ hostOps5_W ∧ r ∉ Finset.univ.image (Pipeline.arrRef spec4) ∧
      r ∉ hostOps4_W ∧ r ∉ Finset.univ.image (Pipeline.arrRef spec3) ∧ r ∉ hostOps3_W ∧
      r ∉ Finset.univ.image (Pipeline.arrRef spec2) ∧ r ∉ hostOps2_W ∧ r ∉ Finset.univ.image (Pipeline.arrRef spec1) ∧
      r ∉ hostOps1_W ∧ (∀ w, Pipeline.arrRef spec0 w = r → (cfg0.win w).isOut = false) ∧ r ∉ hostOps0_W) :
    x (Proc.devRef .tc r) = m ((c : Thread nD τ).loc r) := by
  obtain ⟨hs, h7, a6, a5, h5, a4, h4, a3, h3, a2, h2, a1, h1, a0, h0⟩ := h
  have hw : W2 m c (Proc.devRef .tc r) = W1 m c (Proc.devRef .tc r) := by
    by_cases e : ∃ w, Pipeline.arrRef spec0 w = r
    · obtain ⟨w, rfl⟩ := e
      exact (W2_arr m c w).trans (((dat0 (V1 m) c).arrAt_in w (a0 w rfl) _).trans (A_eq0 (V1 m) c w))
    · exact Pipeline.withArrays_of_ne spec0 c _ _ _ fun w ew => e ⟨w, ew⟩
  exact (hx _ (unscoped_mem r hs)).trans <|
    (StableHlo.after_of_writes_sub hostOps7 _ hostOps7_writes h7).trans <|
    (kept6 m c r a6).trans <|
    (kept5 m c r a5).trans <|
    (StableHlo.after_of_writes_sub hostOps5 _ hostOps5_writes h5).trans <|
    (kept4 m c r a4).trans <|
    (StableHlo.after_of_writes_sub hostOps4 _ hostOps4_writes h4).trans <|
    (kept3 m c r a3).trans <|
    (StableHlo.after_of_writes_sub hostOps3 _ hostOps3_writes h3).trans <|
    (kept2 m c r a2).trans <|
    (StableHlo.after_of_writes_sub hostOps2 _ hostOps2_writes h2).trans <|
    (kept1 m c r a1).trans <|
    (StableHlo.after_of_writes_sub hostOps1 _ hostOps1_writes h1).trans <|
    hw.trans (StableHlo.after_of_writes_sub hostOps0 _ hostOps0_writes h0)
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨arg_kept m (h c) main_arg0 (by decide), arg_kept m (h c) main_arg1 (by decide), arg_kept m (h c) main_arg2 (by decide),
     arg_kept m (h c) main_arg3 (by decide), arg_kept m (h c) main_arg4 (by decide), arg_kept m (h c) main_arg5 (by decide),
     arg_kept m (h c) main_arg6 (by decide), arg_kept m (h c) main_arg7 (by decide), arg_kept m (h c) main_arg8 (by decide),
     arg_kept m (h c) main_arg9 (by decide)⟩) (run_all m ρ)
end Cert.Kernel.Hand
end
-- ==== Proof.KI.RegA0.lean ====
import proofs.«419539_j67095979099186_1_alg».proof.Proof.LibViews
import proofs.«419539_j67095979099186_1_alg».proof.Proof.Gen.KernelIdeal.Launch
import proofs.«419539_j67095979099186_1_alg».proof.Proof.Gen.KernelIdeal.Skeleton
import proofs.«419539_j67095979099186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.Views
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def zAt0 (c : Dev nD) (t : Fin cfg0.N) : Vec F S2000x128 .f32 :=
  k0_pay5 (iblk0 V c 0 t) (iblk0 V c 1 t) (iblk0 V c 2 t) (iblk0 V c 3 t) (iblk0 V c 4 t) (iblk0 V c 5 t) (iblk0 V c 6 t)
def accAt0 (c : Dev nD) : (n : ℕ) → n < cfg0.N → Vec F S1x128 .f32 × Vec F S1x128 .f32
  | 0, h => (k0_pay1 (zAt0 V c ⟨0, h⟩) k0_pay3, k0_pay2 (zAt0 V c ⟨0, h⟩) k0_pay4)
  | n + 1, h => (k0_pay1 (zAt0 V c ⟨n + 1, h⟩) (accAt0 c n (Nat.lt_of_succ_lt h)).1, k0_pay2 (zAt0 V c ⟨n + 1, h⟩) (accAt0 c n (Nat.lt_of_succ_lt h)).2)
abbrev scM0_0 : Memref sig .tc .vmem S1x128 .f32 := Memref.whole cc0_scratch0
abbrev scM0_1 : Memref sig .tc .vmem S1x128 .f32 := Memref.whole cc0_scratch1
def Phi0 (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ (∃ r, prngReg c r))
abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)
section
variable (c : Dev nD) (E : Set ℕ) (i : grid0.Coords) (arg1 : Memref sig .tc .vmem S1x1 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
set_option maxHeartbeats 4000000 in
theorem run_first0
    (hc : cond0 i) (x0 : Vec F S1x1 .f32) (x1 x2 : Vec F S2000x128 .f32) (x3 : Vec F S128x128 .f32) (x4 : Vec F S1x128 .f32) (x5 : Vec F S128x128 .f32) (x6 : Vec F S1x128 .f32)  (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay5 x0 x1 x2 x3 x4 x5 x6) ∗ owns (c : Thread nD τ) arg9 fullShare (k0_pay1 (k0_pay5 x0 x1 x2 x3 x4 x5 x6) k0_pay3) ∗ owns (c : Thread nD τ) arg10 fullShare (k0_pay2 (k0_pay5 x0 x1 x2 x3 x4 x5 x6) k0_pay4)
            ∗ owns (c : Thread nD τ) arg11 fullShare (k0_pay1 (k0_pay5 x0 x1 x2 x3 x4 x5 x6) k0_pay3) ∗ owns (c : Thread nD τ) arg12 fullShare (k0_pay2 (k0_pay5 x0 x1 x2 x3 x4 x5 x6) k0_pay4)) -∗ K ⟨⟩))
      ⊢ wp frame (wpE (defs₀ (F := F)) Variants.none c none) E (cc0__combine_mlp_kernel i arg1 harg1 arg2 harg2 arg3 harg3 arg4 harg4 arg5 harg5 arg6 harg6 arg7 harg7 arg8 harg8 arg9 harg9 arg10 harg10 arg11 harg11 arg12 harg12) K := by
  simp only [cc0__combine_mlp_kernel_eq_skeleton]; unfold cc0__combine_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
set_option maxHeartbeats 4000000 in
theorem run_later0
    (hc : ¬cond0 i) (x0 : Vec F S1x1 .f32) (x1 x2 : Vec F S2000x128 .f32) (x3 : Vec F S128x128 .f32) (x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay5 x0 x1 x2 x3 x4 x5 x6) ∗ owns (c : Thread nD τ) arg9 fullShare (k0_pay1 (k0_pay5 x0 x1 x2 x3 x4 x5 x6) a0) ∗ owns (c : Thread nD τ) arg10 fullShare (k0_pay2 (k0_pay5 x0 x1 x2 x3 x4 x5 x6) a1)
            ∗ owns (c : Thread nD τ) arg11 fullShare (k0_pay1 (k0_pay5 x0 x1 x2 x3 x4 x5 x6) a0) ∗ owns (c : Thread nD τ) arg12 fullShare (k0_pay2 (k0_pay5 x0 x1 x2 x3 x4 x5 x6) a1)) -∗ K ⟨⟩))
      ⊢ wp frame (wpE (defs₀ (F := F)) Variants.none c none) E (cc0__combine_mlp_kernel i arg1 harg1 arg2 harg2 arg3 harg3 arg4 harg4 arg5 harg5 arg6 harg6 arg7 harg7 arg8 harg8 arg9 harg9 arg10 harg10 arg11 harg11 arg12 harg12) K := by
  simp only [cc0__combine_mlp_kernel_eq_skeleton]; unfold cc0__combine_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  obtain rfl := harg11.eq_unread hf10; obtain rfl := harg12.eq_unread hf11
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff, harg11.read_unread, harg12.read_unread]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
end
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => zAt0 V c t
    | ⟨8, _⟩ => (accAt0 V c t.val t.isLt).1
    | ⟨9, _⟩ => (accAt0 V c t.val t.isLt).2
  Φ t := Phi0 V c t.val (Nat.le_of_lt_succ t.isLt)
  q _ := fullShare
  owed _ := 0
theorem A_eq0 (c : Dev nD) (w : Fin cfg0.W) : (dat0 V c).A w = V c (Pipeline.arrRef spec0 w) := by
  dsimp only [dat0]
theorem share0 (c : Dev nD) (w : Fin cfg0.W) : (dat0 V c).share w = fullShare :=
  (dat0 V c).share_full (fun _ => rfl) w
theorem owed0 (c : Dev nD) (t) : (dat0 V c).owed t = 0 := by
  dsimp only [dat0]
theorem after0_in (c : Dev nD) (t : Fin cfg0.N) :
    (dat0 V c).after 0 t = iblk0 V c 0 t ∧ (dat0 V c).after 1 t = iblk0 V c 1 t ∧ (dat0 V c).after 2 t = iblk0 V c 2 t
    ∧ (dat0 V c).after 3 t = iblk0 V c 3 t ∧ (dat0 V c).after 4 t = iblk0 V c 4 t ∧ (dat0 V c).after 5 t = iblk0 V c 5 t
    ∧ (dat0 V c).after 6 t = iblk0 V c 6 t :=
  ⟨rfl, rfl, rfl, rfl, rfl, rfl, rfl⟩
theorem after0_7 (c : Dev nD) (t : Fin cfg0.N) : (dat0 V c).after 7 t = zAt0 V c t := by dsimp only [dat0]
theorem after0_8 (c : Dev nD) (t : Fin cfg0.N) : (dat0 V c).after 8 t = (accAt0 V c t.val t.isLt).1 := by dsimp only [dat0]
theorem after0_9 (c : Dev nD) (t : Fin cfg0.N) : (dat0 V c).after 9 t = (accAt0 V c t.val t.isLt).2 := by dsimp only [dat0]
theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl
theorem Phi0_pos (c : Dev nD) (n : ℕ) (h : n ≤ cfg0.N) (hz : n ≠ 0) : Phi0 V c n h = Phi0 V c (n - 1 + 1) (by omega) := by
  cases n with
  | zero => exact absurd rfl hz
  | succ n => rfl
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl
theorem accAt0_first (c : Dev nD) (t : Fin cfg0.N) (h0 : t.val = 0) :
    accAt0 V c t.val t.isLt = (k0_pay1 (zAt0 V c t) k0_pay3, k0_pay2 (zAt0 V c t) k0_pay4) := by
  obtain ⟨n, hn⟩ := t
  cases n with
  | zero => rfl
  | succ n => exact absurd h0 (Nat.succ_ne_zero n)
theorem accAt0_later (c : Dev nD) (t : Fin cfg0.N) (h0 : t.val ≠ 0) :
    accAt0 V c t.val t.isLt = (k0_pay1 (zAt0 V c t) (accAt0 V c (t.val - 1) (Nat.lt_of_le_of_lt (Nat.sub_le _ _) t.isLt)).1,
      k0_pay2 (zAt0 V c t) (accAt0 V c (t.val - 1) (Nat.lt_of_le_of_lt (Nat.sub_le _ _) t.isLt)).2) := by
  obtain ⟨n, hn⟩ := t
  cases n with
  | zero => exact absurd rfl h0
  | succ n => rfl
theorem Phi0_castSucc (c : Dev nD) (t : Fin cfg0.N) :
    (dat0 V c).Φ t.castSucc = Phi0 V c t.val (Nat.le_of_lt t.isLt) := by
  dsimp only [dat0]; simp only [Fin.coe_castSucc]
theorem before0_in (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t)
    ∧ (∀ d, (dat0 V c).before 6 t d = iblk0 V c 6 t) := by
  refine ⟨?_, ?_, ?_, ?_, ?_, ?_, ?_⟩ <;> intro d <;>
    refine Eq.trans ((dat0 V c).before_in_eq_fetched _ ?_ ?_ ?_ ?_ t d) ?_ <;>
    first
      | rfl
      | exact fun _ => rfl
      | exact fun _ _ _ => rfl
      | (intro t; simp only [after0_in V c t]; unfold Dat.blockOf iblk0; rw [A_eq0]; try rfl)
      | (unfold Dat.fetched Dat.blockOf iblk0; rw [A_eq0]; try rfl)
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))
set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in V c t, after0_in V c t, after0_7, after0_8, after0_9]
  rw [show (dat0 V c).owesAt () t.succ = (dat0 V c).owesAt () t.castSucc from rfl]
  rw [show (dat0 V c).Φ t.succ = Phi0 V c (t.val + 1) t.isLt from rfl, Phi0_succ]
  rw [Phi0_castSucc V c t]
  by_cases h0 : t.val = 0
  on_goal 1 => rw [Phi0_zero V c _ _ h0, PhiA0_eq, accAt0_first V c t h0]
  on_goal 2 => rw [Phi0_pos V c _ _ h0, Phi0_succ, accAt0_later V c t h0]
  all_goals
    dsimp only
    unfold zAt0
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  on_goal 1 => iapply (run_first0 c Set.univ (grid0.coords t) _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) _)
  on_goal 2 => iapply (run_later0 c Set.univ (grid0.coords t) _ _ _ _ _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) (iblk0 V c 6 t) _ _ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HB Hg]
    · isplitr [Hg]
      swap; · iexact Hg
      isplitr [HB]
      swap; · iexact HB
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
theorem body_obligation0 (c : Dev nD) : BodyObligation (dat0 (F := F) V c) (defs₀ (F := F)) Variants.none () Set.univ := fun t => by
  rw [bigSep_W0, bigSep_W0]
  exact sound_body0 V c t
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _
theorem Phi0_out (c : Dev nD) (t : Fin (cfg0.N + 1)) (ht : t.val ≠ 0) : (dat0 V c).Φ t ⊢ (Pipeline.ΦA spec0 c : sProp 𝕄) := by
  rw [show (dat0 V c).Φ t = Phi0 V c t.val (Nat.le_of_lt_succ t.isLt) from rfl, Phi0_pos V c _ _ ht, Phi0_succ, PhiA0_eq]
  iintro ⟨⟨⟨HS0, HS1⟩, HB⟩, Hg⟩
  isplitr [Hg]
  swap; · iexact Hg
  isplitr [HB]
  swap; · iexact HB
  isplitl [HS0]
  · iexists _; iexact HS0
  iexists _; iexact HS1
theorem hout0 (c : Dev nD) : (dat0 V c).Φ (Fin.last cfg0.N) ⊢ (Pipeline.ΦA spec0 c : sProp 𝕄) :=
  Phi0_out V c _ (by rw [Fin.val_last]; have : cfg0.N = 25 := N_0; omega)
end Cert.KernelIdeal.Hand
end
-- ==== Proof.KI.RegB1.lean ====
import proofs.«419539_j67095979099186_1_alg».proof.Proof.LibViews
import proofs.«419539_j67095979099186_1_alg».proof.Proof.Gen.KernelIdeal.Launch
import proofs.«419539_j67095979099186_1_alg».proof.Proof.Gen.KernelIdeal.Skeleton
import proofs.«419539_j67095979099186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.Views
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def outB1 (c : Dev nD) (t : Fin cfg1.N) : Vec F S2000x128 .f32 :=
  k1_pay1 (iblk1 V c 0 t) (iblk1 V c 1 t) (iblk1 V c 2 t) (iblk1 V c 3 t) (iblk1 V c 4 t)
set_option maxHeartbeats 4000000 in
theorem run1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E (cc1__kernel i arg1 harg1 arg2 harg2 arg3 harg3 arg4 harg4 arg5 harg5 arg6 harg6) K := by
  simp only [cc1__kernel_eq_skeleton]; unfold cc1__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec
  sl_step
  iapply Hk
  isplitl [H0]; · iapply (unread_held c arg1 harg1 _); iexact H0
  isplitl [H1]; · iapply (unread_held c arg2 harg2 _); iexact H1
  isplitl [H2]; · iapply (unread_held c arg3 harg3 _); iexact H2
  isplitl [H3]; · iapply (unread_held c arg4 harg4 _); iexact H3
  isplitl [H4]; · iapply (unread_held c arg5 harg5 _); iexact H4
  iexists _; isplitr
  swap; · iexact H5
  ipureintro
  refine (read_writes_unit_zero _ _ zeroOff _ _ _).trans ?_
  simp only [View.readAt_eq_ld, harg1.read_unread, harg2.read_unread, harg3.read_unread, harg4.read_unread, harg5.read_unread, View.ld_unit_zero (S := S2000x128) zeroOff, View.ld_unit_zero (S := S1x128) zeroOff]
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outB1 V c t
  Φ _ := Pipeline.ΦA spec1 c
  q _ := fullShare
  owed _ := 0
theorem A_eq1 (c : Dev nD) (w : Fin cfg1.W) : (dat1 V c).A w = V c (Pipeline.arrRef spec1 w) := by
  dsimp only [dat1]
theorem share1 (c : Dev nD) (w : Fin cfg1.W) : (dat1 V c).share w = fullShare :=
  (dat1 V c).share_full (fun _ => rfl) w
theorem owed1 (c : Dev nD) (t) : (dat1 V c).owed t = 0 := by
  dsimp only [dat1]
theorem after1_in (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t :=
  ⟨rfl, rfl, rfl, rfl, rfl⟩
theorem after1_5 (c : Dev nD) (t : Fin cfg1.N) : (dat1 V c).after 5 t = outB1 V c t := by dsimp only [dat1]
theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) := by
  refine ⟨?_, ?_, ?_, ?_, ?_⟩ <;> intro d <;>
    refine Eq.trans ((dat1 V c).before_in_eq_fetched _ ?_ ?_ ?_ ?_ t d) ?_ <;>
    first
      | rfl
      | exact fun _ => rfl
      | exact fun _ _ _ => rfl
      | (intro t; simp only [after1_in V c t]; unfold Dat.blockOf iblk1; rw [A_eq1]; try rfl)
      | (unfold Dat.fetched Dat.blockOf iblk1; rw [A_eq1]; try rfl)
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))
set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in V c t, after1_in V c t, after1_5]
  rw [show (dat1 V c).Φ t.succ = (dat1 V c).Φ t.castSucc from rfl,
    show (dat1 V c).owesAt () t.succ = (dat1 V c).owesAt () t.castSucc from rfl]
  unfold outB1
  iintro ⟨HΦ, Ho, ⟨%d0, H0⟩, ⟨%d1, H1⟩, ⟨%d2, H2⟩, ⟨%d3, H3⟩, ⟨%d4, H4⟩, ⟨%d5, H5⟩⟩
  iapply (run1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5
theorem body_obligation1 (c : Dev nD) : BodyObligation (dat1 (F := F) V c) (defs₀ (F := F)) Variants.none () Set.univ := fun t => by
  rw [bigSep_W1, bigSep_W1]
  exact sound_body1 V c t
theorem hin1 (c : Dev nD) : (Pipeline.ΦA spec1 c : sProp 𝕄) ⊢ (dat1 V c).Φ 0 := by
  rw [show (dat1 V c).Φ 0 = Pipeline.ΦA spec1 c from rfl]
theorem hout1 (c : Dev nD) : (dat1 V c).Φ (Fin.last cfg1.N) ⊢ (Pipeline.ΦA spec1 c : sProp 𝕄) := by
  rw [show (dat1 V c).Φ (Fin.last cfg1.N) = Pipeline.ΦA spec1 c from rfl]
end Cert.KernelIdeal.Hand
end
-- ==== Proof.KI.RegA2.lean ====
import proofs.«419539_j67095979099186_1_alg».proof.Proof.LibViews
import proofs.«419539_j67095979099186_1_alg».proof.Proof.Gen.KernelIdeal.Launch
import proofs.«419539_j67095979099186_1_alg».proof.Proof.Gen.KernelIdeal.Skeleton
import proofs.«419539_j67095979099186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.Views
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
def zAt2 (c : Dev nD) (t : Fin cfg2.N) : Vec F S2000x128 .f32 :=
  k2_pay5 (iblk2 V c 0 t) (iblk2 V c 1 t) (iblk2 V c 2 t) (iblk2 V c 3 t) (iblk2 V c 4 t) (iblk2 V c 5 t) (iblk2 V c 6 t)
def accAt2 (c : Dev nD) : (n : ℕ) → n < cfg2.N → Vec F S1x128 .f32 × Vec F S1x128 .f32
  | 0, h => (k2_pay1 (zAt2 V c ⟨0, h⟩) k2_pay3, k2_pay2 (zAt2 V c ⟨0, h⟩) k2_pay4)
  | n + 1, h => (k2_pay1 (zAt2 V c ⟨n + 1, h⟩) (accAt2 c n (Nat.lt_of_succ_lt h)).1, k2_pay2 (zAt2 V c ⟨n + 1, h⟩) (accAt2 c n (Nat.lt_of_succ_lt h)).2)
abbrev scM2_0 : Memref sig .tc .vmem S1x128 .f32 := Memref.whole cc2_scratch0
abbrev scM2_1 : Memref sig .tc .vmem S1x128 .f32 := Memref.whole cc2_scratch1
def Phi2 (c : Dev nD) : (n : ℕ) → n ≤ cfg2.N → sProp 𝕄
  | 0, _ => Pipeline.ΦA spec2 c
  | n + 1, hn => iprop(iprop(iprop(owns (c : Thread nD τ) scM2_0 fullShare (accAt2 V c n hn).1 ∗ owns (c : Thread nD τ) scM2_1 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r))
abbrev cond2 (i : grid2.Coords) : Prop :=
  (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)
section
variable (c : Dev nD) (E : Set ℕ) (i : grid2.Coords) (arg1 : Memref sig .tc .vmem S1x1 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
set_option maxHeartbeats 4000000 in
theorem run_first2
    (hc : cond2 i) (x0 : Vec F S1x1 .f32) (x1 x2 : Vec F S2000x128 .f32) (x3 : Vec F S128x128 .f32) (x4 : Vec F S1x128 .f32) (x5 : Vec F S128x128 .f32) (x6 : Vec F S1x128 .f32)  (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k2_pay5 x0 x1 x2 x3 x4 x5 x6) ∗ owns (c : Thread nD τ) arg9 fullShare (k2_pay1 (k2_pay5 x0 x1 x2 x3 x4 x5 x6) k2_pay3) ∗ owns (c : Thread nD τ) arg10 fullShare (k2_pay2 (k2_pay5 x0 x1 x2 x3 x4 x5 x6) k2_pay4)
            ∗ owns (c : Thread nD τ) arg11 fullShare (k2_pay1 (k2_pay5 x0 x1 x2 x3 x4 x5 x6) k2_pay3) ∗ owns (c : Thread nD τ) arg12 fullShare (k2_pay2 (k2_pay5 x0 x1 x2 x3 x4 x5 x6) k2_pay4)) -∗ K ⟨⟩))
      ⊢ wp frame (wpE (defs₀ (F := F)) Variants.none c none) E (cc2__combine_mlp_kernel i arg1 harg1 arg2 harg2 arg3 harg3 arg4 harg4 arg5 harg5 arg6 harg6 arg7 harg7 arg8 harg8 arg9 harg9 arg10 harg10 arg11 harg11 arg12 harg12) K := by
  simp only [cc2__combine_mlp_kernel_eq_skeleton]; unfold cc2__combine_mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
set_option maxHeartbeats 4000000 in
theorem run_later2
    (hc : ¬cond2 i) (x0 : Vec F S1x1 .f32) (x1 x2 : Vec F S2000x128 .f32) (x3 : Vec F S128x128 .f32) (x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k2_pay5 x0 x1 x2 x3 x4 x5 x6) ∗ owns (c : Thread nD τ) arg9 fullShare (k2_pay1 (k2_pay5 x0 x1 x2 x3 x4 x5 x6) a0) ∗ owns (c : Thread nD τ) arg10 fullShare (k2_pay2 (k2_pay5 x0 x1 x2 x3 x4 x5 x6) a1)
            ∗ owns (c : Thread nD τ) arg11 fullShare (k2_pay1 (k2_pay5 x0 x1 x2 x3 x4 x5 x6) a0) ∗ owns (c : Thread nD τ) arg12 fullShare (k2_pay2 (k2_pay5 x0 x1 x2 x3 x4 x5 x6) a1)) -∗ K ⟨⟩))
      ⊢ wp frame (wpE (defs₀ (F := F)) Variants.none c none) E (cc2__combine_mlp_kernel i arg1 harg1 arg2 harg2 arg3 harg3 arg4 harg4 arg5 harg5 arg6 harg6 arg7 harg7 arg8 harg8 arg9 harg9 arg10 harg10 arg11 harg11 arg12 harg12) K := by
  simp only [cc2__combine_mlp_kernel_eq_skeleton]; unfold cc2__combine_mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  obtain rfl := harg11.eq_unread hf10; obtain rfl := harg12.eq_unread hf11
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff, harg11.read_unread, harg12.read_unread]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
end
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => zAt2 V c t
    | ⟨8, _⟩ => (accAt2 V c t.val t.isLt).1
    | ⟨9, _⟩ => (accAt2 V c t.val t.isLt).2
  Φ t := Phi2 V c t.val (Nat.le_of_lt_succ t.isLt)
  q _ := fullShare
  owed _ := 0
theorem A_eq2 (c : Dev nD) (w : Fin cfg2.W) : (dat2 V c).A w = V c (Pipeline.arrRef spec2 w) := by
  dsimp only [dat2]
theorem share2 (c : Dev nD) (w : Fin cfg2.W) : (dat2 V c).share w = fullShare :=
  (dat2 V c).share_full (fun _ => rfl) w
theorem owed2 (c : Dev nD) (t) : (dat2 V c).owed t = 0 := by
  dsimp only [dat2]
theorem after2_in (c : Dev nD) (t : Fin cfg2.N) :
    (dat2 V c).after 0 t = iblk2 V c 0 t ∧ (dat2 V c).after 1 t = iblk2 V c 1 t ∧ (dat2 V c).after 2 t = iblk2 V c 2 t
    ∧ (dat2 V c).after 3 t = iblk2 V c 3 t ∧ (dat2 V c).after 4 t = iblk2 V c 4 t ∧ (dat2 V c).after 5 t = iblk2 V c 5 t
    ∧ (dat2 V c).after 6 t = iblk2 V c 6 t :=
  ⟨rfl, rfl, rfl, rfl, rfl, rfl, rfl⟩
theorem after2_7 (c : Dev nD) (t : Fin cfg2.N) : (dat2 V c).after 7 t = zAt2 V c t := by dsimp only [dat2]
theorem after2_8 (c : Dev nD) (t : Fin cfg2.N) : (dat2 V c).after 8 t = (accAt2 V c t.val t.isLt).1 := by dsimp only [dat2]
theorem after2_9 (c : Dev nD) (t : Fin cfg2.N) : (dat2 V c).after 9 t = (accAt2 V c t.val t.isLt).2 := by dsimp only [dat2]
theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(iprop(owns (c : Thread nD τ) scM2_0 fullShare (accAt2 V c n hn).1 ∗ owns (c : Thread nD τ) scM2_1 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl
theorem Phi2_pos (c : Dev nD) (n : ℕ) (h : n ≤ cfg2.N) (hz : n ≠ 0) : Phi2 V c n h = Phi2 V c (n - 1 + 1) (by omega) := by
  cases n with
  | zero => exact absurd rfl hz
  | succ n => rfl
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl
theorem accAt2_first (c : Dev nD) (t : Fin cfg2.N) (h0 : t.val = 0) :
    accAt2 V c t.val t.isLt = (k2_pay1 (zAt2 V c t) k2_pay3, k2_pay2 (zAt2 V c t) k2_pay4) := by
  obtain ⟨n, hn⟩ := t
  cases n with
  | zero => rfl
  | succ n => exact absurd h0 (Nat.succ_ne_zero n)
theorem accAt2_later (c : Dev nD) (t : Fin cfg2.N) (h0 : t.val ≠ 0) :
    accAt2 V c t.val t.isLt = (k2_pay1 (zAt2 V c t) (accAt2 V c (t.val - 1) (Nat.lt_of_le_of_lt (Nat.sub_le _ _) t.isLt)).1,
      k2_pay2 (zAt2 V c t) (accAt2 V c (t.val - 1) (Nat.lt_of_le_of_lt (Nat.sub_le _ _) t.isLt)).2) := by
  obtain ⟨n, hn⟩ := t
  cases n with
  | zero => exact absurd rfl h0
  | succ n => rfl
theorem Phi2_castSucc (c : Dev nD) (t : Fin cfg2.N) :
    (dat2 V c).Φ t.castSucc = Phi2 V c t.val (Nat.le_of_lt t.isLt) := by
  dsimp only [dat2]; simp only [Fin.coe_castSucc]
theorem before2_in (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t)
    ∧ (∀ d, (dat2 V c).before 6 t d = iblk2 V c 6 t) := by
  refine ⟨?_, ?_, ?_, ?_, ?_, ?_, ?_⟩ <;> intro d <;>
    refine Eq.trans ((dat2 V c).before_in_eq_fetched _ ?_ ?_ ?_ ?_ t d) ?_ <;>
    first
      | rfl
      | exact fun _ => rfl
      | exact fun _ _ _ => rfl
      | (intro t; simp only [after2_in V c t]; unfold Dat.blockOf iblk2; rw [A_eq2]; try rfl)
      | (unfold Dat.fetched Dat.blockOf iblk2; rw [A_eq2]; try rfl)
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))
set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_in V c t, after2_in V c t, after2_7, after2_8, after2_9]
  rw [show (dat2 V c).owesAt () t.succ = (dat2 V c).owesAt () t.castSucc from rfl]
  rw [show (dat2 V c).Φ t.succ = Phi2 V c (t.val + 1) t.isLt from rfl, Phi2_succ]
  rw [Phi2_castSucc V c t]
  by_cases h0 : t.val = 0
  on_goal 1 => rw [Phi2_zero V c _ _ h0, PhiA2_eq, accAt2_first V c t h0]
  on_goal 2 => rw [Phi2_pos V c _ _ h0, Phi2_succ, accAt2_later V c t h0]
  all_goals
    dsimp only
    unfold zAt2
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  on_goal 1 => iapply (run_first2 c Set.univ (grid2.coords t) _ _ _ _ _ _ _ _ _ _ _ _ _ _ _ _ _ _ _ _ _ _ _ _ ((hcond2 t).mpr h0) (iblk2 V c 0 t) (iblk2 V c 1 t) (iblk2 V c 2 t) (iblk2 V c 3 t) (iblk2 V c 4 t) (iblk2 V c 5 t) (iblk2 V c 6 t) _)
  on_goal 2 => iapply (run_later2 c Set.univ (grid2.coords t) _ _ _ _ _ _ _ _ _ _ _ _ _ _ _ _ _ _ _ _ _ _ _ _ (fun h => h0 ((hcond2 t).mp h)) (iblk2 V c 0 t) (iblk2 V c 1 t) (iblk2 V c 2 t) (iblk2 V c 3 t) (iblk2 V c 4 t) (iblk2 V c 5 t) (iblk2 V c 6 t) _ _ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HB Hg]
    · isplitr [Hg]
      swap; · iexact Hg
      isplitr [HB]
      swap; · iexact HB
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
theorem body_obligation2 (c : Dev nD) : BodyObligation (dat2 (F := F) V c) (defs₀ (F := F)) Variants.none () Set.univ := fun t => by
  rw [bigSep_W2, bigSep_W2]
  exact sound_body2 V c t
theorem hin2 (c : Dev nD) : (Pipeline.ΦA spec2 c : sProp 𝕄) ⊢ (dat2 V c).Φ 0 := by
  rw [show (dat2 V c).Φ 0 = Phi2 V c 0 (Nat.zero_le _) from rfl, Phi2_zero V c 0 _ rfl]
  try exact Idealize.SL.BI.Entails.refl _
theorem Phi2_out (c : Dev nD) (t : Fin (cfg2.N + 1)) (ht : t.val ≠ 0) : (dat2 V c).Φ t ⊢ (Pipeline.ΦA spec2 c : sProp 𝕄) := by
  rw [show (dat2 V c).Φ t = Phi2 V c t.val (Nat.le_of_lt_succ t.isLt) from rfl, Phi2_pos V c _ _ ht, Phi2_succ, PhiA2_eq]
  iintro ⟨⟨⟨HS0, HS1⟩, HB⟩, Hg⟩
  isplitr [Hg]
  swap; · iexact Hg
  isplitr [HB]
  swap; · iexact HB
  isplitl [HS0]
  · iexists _; iexact HS0
  iexists _; iexact HS1
theorem hout2 (c : Dev nD) : (dat2 V c).Φ (Fin.last cfg2.N) ⊢ (Pipeline.ΦA spec2 c : sProp 𝕄) :=
  Phi2_out V c _ (by rw [Fin.val_last]; have : cfg2.N = 25 := N_2; omega)
end Cert.KernelIdeal.Hand
end
-- ==== Proof.KI.RegB3.lean ====
import proofs.«419539_j67095979099186_1_alg».proof.Proof.LibViews
import proofs.«419539_j67095979099186_1_alg».proof.Proof.Gen.KernelIdeal.Launch
import proofs.«419539_j67095979099186_1_alg».proof.Proof.Gen.KernelIdeal.Skeleton
import proofs.«419539_j67095979099186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.Views
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
def outB3 (c : Dev nD) (t : Fin cfg3.N) : Vec F S2000x128 .f32 :=
  k3_pay1 (iblk3 V c 0 t) (iblk3 V c 1 t) (iblk3 V c 2 t) (iblk3 V c 3 t) (iblk3 V c 4 t)
set_option maxHeartbeats 4000000 in
theorem run3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k3_pay1 x0 x1 x2 x3 x4)) -∗ K ⟨⟩))
      ⊢ wp frame (wpE (defs₀ (F := F)) Variants.none c none) E (cc3__kernel i arg1 harg1 arg2 harg2 arg3 harg3 arg4 harg4 arg5 harg5 arg6 harg6) K := by
  simp only [cc3__kernel_eq_skeleton]; unfold cc3__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec
  sl_step
  iapply Hk
  isplitl [H0]; · iapply (unread_held c arg1 harg1 _); iexact H0
  isplitl [H1]; · iapply (unread_held c arg2 harg2 _); iexact H1
  isplitl [H2]; · iapply (unread_held c arg3 harg3 _); iexact H2
  isplitl [H3]; · iapply (unread_held c arg4 harg4 _); iexact H3
  isplitl [H4]; · iapply (unread_held c arg5 harg5 _); iexact H4
  iexists _; isplitr
  swap; · iexact H5
  ipureintro
  refine (read_writes_unit_zero _ _ zeroOff _ _ _).trans ?_
  simp only [View.readAt_eq_ld, harg1.read_unread, harg2.read_unread, harg3.read_unread, harg4.read_unread, harg5.read_unread, View.ld_unit_zero (S := S2000x128) zeroOff, View.ld_unit_zero (S := S1x128) zeroOff]
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outB3 V c t
  Φ _ := Pipeline.ΦA spec3 c
  q _ := fullShare
  owed _ := 0
theorem A_eq3 (c : Dev nD) (w : Fin cfg3.W) : (dat3 V c).A w = V c (Pipeline.arrRef spec3 w) := by
  dsimp only [dat3]
theorem share3 (c : Dev nD) (w : Fin cfg3.W) : (dat3 V c).share w = fullShare :=
  (dat3 V c).share_full (fun _ => rfl) w
theorem owed3 (c : Dev nD) (t) : (dat3 V c).owed t = 0 := by
  dsimp only [dat3]
theorem after3_in (c : Dev nD) (t : Fin cfg3.N) :
    (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t :=
  ⟨rfl, rfl, rfl, rfl, rfl⟩
theorem after3_5 (c : Dev nD) (t : Fin cfg3.N) : (dat3 V c).after 5 t = outB3 V c t := by dsimp only [dat3]
theorem before3_in (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) := by
  refine ⟨?_, ?_, ?_, ?_, ?_⟩ <;> intro d <;>
    refine Eq.trans ((dat3 V c).before_in_eq_fetched _ ?_ ?_ ?_ ?_ t d) ?_ <;>
    first
      | rfl
      | exact fun _ => rfl
      | exact fun _ _ _ => rfl
      | (intro t; simp only [after3_in V c t]; unfold Dat.blockOf iblk3; rw [A_eq3]; try rfl)
      | (unfold Dat.fetched Dat.blockOf iblk3; rw [A_eq3]; try rfl)
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))
set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_in V c t, after3_in V c t, after3_5]
  rw [show (dat3 V c).Φ t.succ = (dat3 V c).Φ t.castSucc from rfl,
    show (dat3 V c).owesAt () t.succ = (dat3 V c).owesAt () t.castSucc from rfl]
  unfold outB3
  iintro ⟨HΦ, Ho, ⟨%d0, H0⟩, ⟨%d1, H1⟩, ⟨%d2, H2⟩, ⟨%d3, H3⟩, ⟨%d4, H4⟩, ⟨%d5, H5⟩⟩
  iapply (run3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5
theorem body_obligation3 (c : Dev nD) : BodyObligation (dat3 (F := F) V c) (defs₀ (F := F)) Variants.none () Set.univ := fun t => by
  rw [bigSep_W3, bigSep_W3]
  exact sound_body3 V c t
theorem hin3 (c : Dev nD) : (Pipeline.ΦA spec3 c : sProp 𝕄) ⊢ (dat3 V c).Φ 0 := by
  rw [show (dat3 V c).Φ 0 = Pipeline.ΦA spec3 c from rfl]
theorem hout3 (c : Dev nD) : (dat3 V c).Φ (Fin.last cfg3.N) ⊢ (Pipeline.ΦA spec3 c : sProp 𝕄) := by
  rw [show (dat3 V c).Φ (Fin.last cfg3.N) = Pipeline.ΦA spec3 c from rfl]
end Cert.KernelIdeal.Hand
end
-- ==== Proof.KI.RegA4.lean ====
import proofs.«419539_j67095979099186_1_alg».proof.Proof.LibViews
import proofs.«419539_j67095979099186_1_alg».proof.Proof.Gen.KernelIdeal.Launch
import proofs.«419539_j67095979099186_1_alg».proof.Proof.Gen.KernelIdeal.Skeleton
import proofs.«419539_j67095979099186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.Views
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
def zAt4 (c : Dev nD) (t : Fin cfg4.N) : Vec F S2000x128 .f32 :=
  k4_pay5 (iblk4 V c 0 t) (iblk4 V c 1 t) (iblk4 V c 2 t) (iblk4 V c 3 t) (iblk4 V c 4 t) (iblk4 V c 5 t) (iblk4 V c 6 t)
def accAt4 (c : Dev nD) : (n : ℕ) → n < cfg4.N → Vec F S1x128 .f32 × Vec F S1x128 .f32
  | 0, h => (k4_pay1 (zAt4 V c ⟨0, h⟩) k4_pay3, k4_pay2 (zAt4 V c ⟨0, h⟩) k4_pay4)
  | n + 1, h => (k4_pay1 (zAt4 V c ⟨n + 1, h⟩) (accAt4 c n (Nat.lt_of_succ_lt h)).1, k4_pay2 (zAt4 V c ⟨n + 1, h⟩) (accAt4 c n (Nat.lt_of_succ_lt h)).2)
abbrev scM4_0 : Memref sig .tc .vmem S1x128 .f32 := Memref.whole cc4_scratch0
abbrev scM4_1 : Memref sig .tc .vmem S1x128 .f32 := Memref.whole cc4_scratch1
def Phi4 (c : Dev nD) : (n : ℕ) → n ≤ cfg4.N → sProp 𝕄
  | 0, _ => Pipeline.ΦA spec4 c
  | n + 1, hn => iprop(iprop(iprop(owns (c : Thread nD τ) scM4_0 fullShare (accAt4 V c n hn).1 ∗ owns (c : Thread nD τ) scM4_1 fullShare (accAt4 V c n hn).2)
      ∗ Pipeline.scopedRestBut (Ix := Unit) (Name := ℕ) (U := UR sig nD τ) (Lvl := ℕ) (Val := Elt F) spec4 c [cc4_scratch0, cc4_scratch1]) ∗ (∃ r, prngReg c r))
abbrev cond4 (i : grid4.Coords) : Prop :=
  (Scalar.cmpi .ne (Scalar.extui (Scalar.cmpi .eq (BitVec.ofNat 32 (i 0).val) 0#32)) 0#32) = 1#1
theorem hcond4 : ∀ t : Fin cfg4.N, cond4 (grid4.coords t) ↔ t.val = 0 :=
  (by decide +kernel : ∀ t : Fin grid4.N, cond4 (grid4.coords t) ↔ t.val = 0)
section
variable (c : Dev nD) (E : Set ℕ) (i : grid4.Coords) (arg1 : Memref sig .tc .vmem S1x1 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
set_option maxHeartbeats 4000000 in
theorem run_first4
    (hc : cond4 i) (x0 : Vec F S1x1 .f32) (x1 x2 : Vec F S2000x128 .f32) (x3 : Vec F S128x128 .f32) (x4 : Vec F S1x128 .f32) (x5 : Vec F S128x128 .f32) (x6 : Vec F S1x128 .f32)  (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k4_pay5 x0 x1 x2 x3 x4 x5 x6) ∗ owns (c : Thread nD τ) arg9 fullShare (k4_pay1 (k4_pay5 x0 x1 x2 x3 x4 x5 x6) k4_pay3) ∗ owns (c : Thread nD τ) arg10 fullShare (k4_pay2 (k4_pay5 x0 x1 x2 x3 x4 x5 x6) k4_pay4)
            ∗ owns (c : Thread nD τ) arg11 fullShare (k4_pay1 (k4_pay5 x0 x1 x2 x3 x4 x5 x6) k4_pay3) ∗ owns (c : Thread nD τ) arg12 fullShare (k4_pay2 (k4_pay5 x0 x1 x2 x3 x4 x5 x6) k4_pay4)) -∗ K ⟨⟩))
      ⊢ wp frame (wpE (defs₀ (F := F)) Variants.none c none) E (cc4__combine_mlp_kernel i arg1 harg1 arg2 harg2 arg3 harg3 arg4 harg4 arg5 harg5 arg6 harg6 arg7 harg7 arg8 harg8 arg9 harg9 arg10 harg10 arg11 harg11 arg12 harg12) K := by
  simp only [cc4__combine_mlp_kernel_eq_skeleton]; unfold cc4__combine_mlp_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
set_option maxHeartbeats 4000000 in
theorem run_later4
    (hc : ¬cond4 i) (x0 : Vec F S1x1 .f32) (x1 x2 : Vec F S2000x128 .f32) (x3 : Vec F S128x128 .f32) (x4 : Vec F S1x128 .f32) (x5 : Vec F S128x128 .f32) (x6 : Vec F S1x128 .f32) (a0 a1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k4_pay5 x0 x1 x2 x3 x4 x5 x6) ∗ owns (c : Thread nD τ) arg9 fullShare (k4_pay1 (k4_pay5 x0 x1 x2 x3 x4 x5 x6) a0) ∗ owns (c : Thread nD τ) arg10 fullShare (k4_pay2 (k4_pay5 x0 x1 x2 x3 x4 x5 x6) a1)
            ∗ owns (c : Thread nD τ) arg11 fullShare (k4_pay1 (k4_pay5 x0 x1 x2 x3 x4 x5 x6) a0) ∗ owns (c : Thread nD τ) arg12 fullShare (k4_pay2 (k4_pay5 x0 x1 x2 x3 x4 x5 x6) a1)) -∗ K ⟨⟩))
      ⊢ wp frame (wpE (defs₀ (F := F)) Variants.none c none) E (cc4__combine_mlp_kernel i arg1 harg1 arg2 harg2 arg3 harg3 arg4 harg4 arg5 harg5 arg6 harg6 arg7 harg7 arg8 harg8 arg9 harg9 arg10 harg10 arg11 harg11 arg12 harg12) K := by
  simp only [cc4__combine_mlp_kernel_eq_skeleton]; unfold cc4__combine_mlp_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  obtain rfl := harg11.eq_unread hf10; obtain rfl := harg12.eq_unread hf11
  sl_exec (disch := first | exact hc)
  sl_step
  sl_unfold_words
  simp only [View.readAt_eq_ld, harg1.read_unread, harg2.read_unread, harg3.read_unread, harg4.read_unread, harg5.read_unread, harg6.read_unread, harg7.read_unread, View.ld_unit_zero (S := S1x1) zeroOff, View.ld_unit_zero (S := S2000x128) zeroOff, View.ld_unit_zero (S := S128x128) zeroOff, View.ld_unit_zero (S := S1x128) zeroOff, readCov_cons_unit_zero (S := S1x128) _ zeroOff, harg11.read_unread, harg12.read_unread]
  iapply Hk
  isplitl [H0]; · iapply (unread_held (c : Thread nD τ) arg1 harg1 _); iexact H0
  isplitl [H1]; · iapply (unread_held (c : Thread nD τ) arg2 harg2 _); iexact H1
  isplitl [H2]; · iapply (unread_held (c : Thread nD τ) arg3 harg3 _); iexact H2
  isplitl [H3]; · iapply (unread_held (c : Thread nD τ) arg4 harg4 _); iexact H3
  isplitl [H4]; · iapply (unread_held (c : Thread nD τ) arg5 harg5 _); iexact H4
  isplitl [H5]; · iapply (unread_held (c : Thread nD τ) arg6 harg6 _); iexact H5
  isplitl [H6]; · iapply (unread_held (c : Thread nD τ) arg7 harg7 _); iexact H6
  isplitl [H7]
  · iexists _; isplitr
    swap; · iexact H7
    ipureintro; exact read_writes_unit_zero _ _ zeroOff _ _ _
  isplitl [H8]
  · iexists _; isplitr
    swap; · iexact H8
    ipureintro; exact read_writes_unit_zero _ _ zeroOff _ _ _
  isplitl [H9]
  · iexists _; isplitr
    swap; · iexact H9
    ipureintro; exact read_writes_unit_zero _ _ zeroOff _ _ _
  isplitl [H10]
  · iexists _; isplitr
    swap; · iexact H10
    ipureintro; exact read_writes_unit_zero _ _ zeroOff _ _ _
  · iexists _; isplitr
    swap; · iexact H11
    ipureintro; exact read_writes_unit_zero _ _ zeroOff _ _ _
end
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => zAt4 V c t
    | ⟨8, _⟩ => (accAt4 V c t.val t.isLt).1
    | ⟨9, _⟩ => (accAt4 V c t.val t.isLt).2
  Φ t := Phi4 V c t.val (Nat.le_of_lt_succ t.isLt)
  q _ := fullShare
  owed _ := 0
theorem A_eq4 (c : Dev nD) (w : Fin cfg4.W) : (dat4 V c).A w = V c (Pipeline.arrRef spec4 w) := by
  dsimp only [dat4]
theorem share4 (c : Dev nD) (w : Fin cfg4.W) : (dat4 V c).share w = fullShare :=
  (dat4 V c).share_full (fun _ => rfl) w
theorem owed4 (c : Dev nD) (t) : (dat4 V c).owed t = 0 := by
  dsimp only [dat4]
theorem after4_in (c : Dev nD) (t : Fin cfg4.N) :
    (dat4 V c).after 0 t = iblk4 V c 0 t ∧ (dat4 V c).after 1 t = iblk4 V c 1 t ∧ (dat4 V c).after 2 t = iblk4 V c 2 t
    ∧ (dat4 V c).after 3 t = iblk4 V c 3 t ∧ (dat4 V c).after 4 t = iblk4 V c 4 t ∧ (dat4 V c).after 5 t = iblk4 V c 5 t
    ∧ (dat4 V c).after 6 t = iblk4 V c 6 t :=
  ⟨rfl, rfl, rfl, rfl, rfl, rfl, rfl⟩
theorem after4_7 (c : Dev nD) (t : Fin cfg4.N) : (dat4 V c).after 7 t = zAt4 V c t := by dsimp only [dat4]
theorem after4_8 (c : Dev nD) (t : Fin cfg4.N) : (dat4 V c).after 8 t = (accAt4 V c t.val t.isLt).1 := by dsimp only [dat4]
theorem after4_9 (c : Dev nD) (t : Fin cfg4.N) : (dat4 V c).after 9 t = (accAt4 V c t.val t.isLt).2 := by dsimp only [dat4]
theorem Phi4_zero (c : Dev nD) (n : ℕ) (h : n ≤ cfg4.N) (hz : n = 0) : Phi4 V c n h = Pipeline.ΦA spec4 c := by
  subst hz; rfl
theorem Phi4_succ (c : Dev nD) (n : ℕ) (hn : n < cfg4.N) :
    Phi4 V c (n + 1) hn = iprop(iprop(iprop(owns (c : Thread nD τ) scM4_0 fullShare (accAt4 V c n hn).1 ∗ owns (c : Thread nD τ) scM4_1 fullShare (accAt4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl
theorem Phi4_pos (c : Dev nD) (n : ℕ) (h : n ≤ cfg4.N) (hz : n ≠ 0) : Phi4 V c n h = Phi4 V c (n - 1 + 1) (by omega) := by
  cases n with
  | zero => exact absurd rfl hz
  | succ n => rfl
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl
theorem accAt4_first (c : Dev nD) (t : Fin cfg4.N) (h0 : t.val = 0) :
    accAt4 V c t.val t.isLt = (k4_pay1 (zAt4 V c t) k4_pay3, k4_pay2 (zAt4 V c t) k4_pay4) := by
  obtain ⟨n, hn⟩ := t
  cases n with
  | zero => rfl
  | succ n => exact absurd h0 (Nat.succ_ne_zero n)
theorem accAt4_later (c : Dev nD) (t : Fin cfg4.N) (h0 : t.val ≠ 0) :
    accAt4 V c t.val t.isLt = (k4_pay1 (zAt4 V c t) (accAt4 V c (t.val - 1) (Nat.lt_of_le_of_lt (Nat.sub_le _ _) t.isLt)).1,
      k4_pay2 (zAt4 V c t) (accAt4 V c (t.val - 1) (Nat.lt_of_le_of_lt (Nat.sub_le _ _) t.isLt)).2) := by
  obtain ⟨n, hn⟩ := t
  cases n with
  | zero => exact absurd rfl h0
  | succ n => rfl
theorem Phi4_castSucc (c : Dev nD) (t : Fin cfg4.N) :
    (dat4 V c).Φ t.castSucc = Phi4 V c t.val (Nat.le_of_lt t.isLt) := by
  dsimp only [dat4]; simp only [Fin.coe_castSucc]
theorem before4_in (c : Dev nD) (t : Fin cfg4.N) :
    (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t)
    ∧ (∀ d, (dat4 V c).before 4 t d = iblk4 V c 4 t) ∧ (∀ d, (dat4 V c).before 5 t d = iblk4 V c 5 t)
    ∧ (∀ d, (dat4 V c).before 6 t d = iblk4 V c 6 t) := by
  refine ⟨?_, ?_, ?_, ?_, ?_, ?_, ?_⟩ <;> intro d <;>
    refine Eq.trans ((dat4 V c).before_in_eq_fetched _ ?_ ?_ ?_ ?_ t d) ?_ <;>
    first
      | rfl
      | exact fun _ => rfl
      | exact fun _ _ _ => rfl
      | (intro t; simp only [after4_in V c t]; unfold Dat.blockOf iblk4; rw [A_eq4]; try rfl)
      | (unfold Dat.fetched Dat.blockOf iblk4; rw [A_eq4]; try rfl)
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))
set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_in V c t, after4_in V c t, after4_7, after4_8, after4_9]
  rw [show (dat4 V c).owesAt () t.succ = (dat4 V c).owesAt () t.castSucc from rfl]
  rw [show (dat4 V c).Φ t.succ = Phi4 V c (t.val + 1) t.isLt from rfl, Phi4_succ]
  rw [Phi4_castSucc V c t]
  by_cases h0 : t.val = 0
  on_goal 1 => rw [Phi4_zero V c _ _ h0, PhiA4_eq, accAt4_first V c t h0]
  on_goal 2 => rw [Phi4_pos V c _ _ h0, Phi4_succ, accAt4_later V c t h0]
  all_goals
    dsimp only
    unfold zAt4
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  on_goal 1 => iapply (run_first4 c Set.univ (grid4.coords t) _ _ _ _ _ _ _ _ _ _ _ _ _ _ _ _ _ _ _ _ _ _ _ _ ((hcond4 t).mpr h0) (iblk4 V c 0 t) (iblk4 V c 1 t) (iblk4 V c 2 t) (iblk4 V c 3 t) (iblk4 V c 4 t) (iblk4 V c 5 t) (iblk4 V c 6 t) _)
  on_goal 2 => iapply (run_later4 c Set.univ (grid4.coords t) _ _ _ _ _ _ _ _ _ _ _ _ _ _ _ _ _ _ _ _ _ _ _ _ (fun h => h0 ((hcond4 t).mp h)) (iblk4 V c 0 t) (iblk4 V c 1 t) (iblk4 V c 2 t) (iblk4 V c 3 t) (iblk4 V c 4 t) (iblk4 V c 5 t) (iblk4 V c 6 t) _ _ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HB Hg]
    · isplitr [Hg]
      swap; · iexact Hg
      isplitr [HB]
      swap; · iexact HB
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
theorem body_obligation4 (c : Dev nD) : BodyObligation (dat4 (F := F) V c) (defs₀ (F := F)) Variants.none () Set.univ := fun t => by
  rw [bigSep_W4, bigSep_W4]
  exact sound_body4 V c t
theorem hin4 (c : Dev nD) : (Pipeline.ΦA spec4 c : sProp 𝕄) ⊢ (dat4 V c).Φ 0 := by
  rw [show (dat4 V c).Φ 0 = Phi4 V c 0 (Nat.zero_le _) from rfl, Phi4_zero V c 0 _ rfl]
  try exact Idealize.SL.BI.Entails.refl _
theorem Phi4_out (c : Dev nD) (t : Fin (cfg4.N + 1)) (ht : t.val ≠ 0) : (dat4 V c).Φ t ⊢ (Pipeline.ΦA spec4 c : sProp 𝕄) := by
  rw [show (dat4 V c).Φ t = Phi4 V c t.val (Nat.le_of_lt_succ t.isLt) from rfl, Phi4_pos V c _ _ ht, Phi4_succ, PhiA4_eq]
  iintro ⟨⟨⟨HS0, HS1⟩, HB⟩, Hg⟩
  isplitr [Hg]
  swap; · iexact Hg
  isplitr [HB]
  swap; · iexact HB
  isplitl [HS0]
  · iexists _; iexact HS0
  iexists _; iexact HS1
theorem hout4 (c : Dev nD) : (dat4 V c).Φ (Fin.last cfg4.N) ⊢ (Pipeline.ΦA spec4 c : sProp 𝕄) :=
  Phi4_out V c _ (by rw [Fin.val_last]; have : cfg4.N = 25 := N_4; omega)
end Cert.KernelIdeal.Hand
end
-- ==== Proof.KI.RegB5.lean ====
import proofs.«419539_j67095979099186_1_alg».proof.Proof.LibViews
import proofs.«419539_j67095979099186_1_alg».proof.Proof.Gen.KernelIdeal.Launch
import proofs.«419539_j67095979099186_1_alg».proof.Proof.Gen.KernelIdeal.Skeleton
import proofs.«419539_j67095979099186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.Views
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
def outB5 (c : Dev nD) (t : Fin cfg5.N) : Vec F S2000x128 .f32 :=
  k5_pay1 (iblk5 V c 0 t) (iblk5 V c 1 t) (iblk5 V c 2 t) (iblk5 V c 3 t) (iblk5 V c 4 t)
set_option maxHeartbeats 4000000 in
theorem run5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k5_pay1 x0 x1 x2 x3 x4)) -∗ K ⟨⟩))
      ⊢ wp frame (wpE (defs₀ (F := F)) Variants.none c none) E (cc5__kernel i arg1 harg1 arg2 harg2 arg3 harg3 arg4 harg4 arg5 harg5 arg6 harg6) K := by
  simp only [cc5__kernel_eq_skeleton]; unfold cc5__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec
  sl_step
  iapply Hk
  isplitl [H0]; · iapply (unread_held c arg1 harg1 _); iexact H0
  isplitl [H1]; · iapply (unread_held c arg2 harg2 _); iexact H1
  isplitl [H2]; · iapply (unread_held c arg3 harg3 _); iexact H2
  isplitl [H3]; · iapply (unread_held c arg4 harg4 _); iexact H3
  isplitl [H4]; · iapply (unread_held c arg5 harg5 _); iexact H4
  iexists _; isplitr
  swap; · iexact H5
  ipureintro
  refine (read_writes_unit_zero _ _ zeroOff _ _ _).trans ?_
  simp only [View.readAt_eq_ld, harg1.read_unread, harg2.read_unread, harg3.read_unread, harg4.read_unread, harg5.read_unread, View.ld_unit_zero (S := S2000x128) zeroOff, View.ld_unit_zero (S := S1x128) zeroOff]
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => outB5 V c t
  Φ _ := Pipeline.ΦA spec5 c
  q _ := fullShare
  owed _ := 0
theorem A_eq5 (c : Dev nD) (w : Fin cfg5.W) : (dat5 V c).A w = V c (Pipeline.arrRef spec5 w) := by
  dsimp only [dat5]
theorem share5 (c : Dev nD) (w : Fin cfg5.W) : (dat5 V c).share w = fullShare :=
  (dat5 V c).share_full (fun _ => rfl) w
theorem owed5 (c : Dev nD) (t) : (dat5 V c).owed t = 0 := by
  dsimp only [dat5]
theorem after5_in (c : Dev nD) (t : Fin cfg5.N) :
    (dat5 V c).after 0 t = iblk5 V c 0 t ∧ (dat5 V c).after 1 t = iblk5 V c 1 t ∧ (dat5 V c).after 2 t = iblk5 V c 2 t ∧ (dat5 V c).after 3 t = iblk5 V c 3 t ∧ (dat5 V c).after 4 t = iblk5 V c 4 t :=
  ⟨rfl, rfl, rfl, rfl, rfl⟩
theorem after5_5 (c : Dev nD) (t : Fin cfg5.N) : (dat5 V c).after 5 t = outB5 V c t := by dsimp only [dat5]
theorem before5_in (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t) ∧ (∀ d, (dat5 V c).before 3 t d = iblk5 V c 3 t) ∧ (∀ d, (dat5 V c).before 4 t d = iblk5 V c 4 t) := by
  refine ⟨?_, ?_, ?_, ?_, ?_⟩ <;> intro d <;>
    refine Eq.trans ((dat5 V c).before_in_eq_fetched _ ?_ ?_ ?_ ?_ t d) ?_ <;>
    first
      | rfl
      | exact fun _ => rfl
      | exact fun _ _ _ => rfl
      | (intro t; simp only [after5_in V c t]; unfold Dat.blockOf iblk5; rw [A_eq5]; try rfl)
      | (unfold Dat.fetched Dat.blockOf iblk5; rw [A_eq5]; try rfl)
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))
set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_in V c t, after5_in V c t, after5_5]
  rw [show (dat5 V c).Φ t.succ = (dat5 V c).Φ t.castSucc from rfl,
    show (dat5 V c).owesAt () t.succ = (dat5 V c).owesAt () t.castSucc from rfl]
  unfold outB5
  iintro ⟨HΦ, Ho, ⟨%d0, H0⟩, ⟨%d1, H1⟩, ⟨%d2, H2⟩, ⟨%d3, H3⟩, ⟨%d4, H4⟩, ⟨%d5, H5⟩⟩
  iapply (run5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5
theorem body_obligation5 (c : Dev nD) : BodyObligation (dat5 (F := F) V c) (defs₀ (F := F)) Variants.none () Set.univ := fun t => by
  rw [bigSep_W5, bigSep_W5]
  exact sound_body5 V c t
theorem hin5 (c : Dev nD) : (Pipeline.ΦA spec5 c : sProp 𝕄) ⊢ (dat5 V c).Φ 0 := by
  rw [show (dat5 V c).Φ 0 = Pipeline.ΦA spec5 c from rfl]
theorem hout5 (c : Dev nD) : (dat5 V c).Φ (Fin.last cfg5.N) ⊢ (Pipeline.ΦA spec5 c : sProp 𝕄) := by
  rw [show (dat5 V c).Φ (Fin.last cfg5.N) = Pipeline.ΦA spec5 c from rfl]
end Cert.KernelIdeal.Hand
end
-- ==== Proof.KI.RegC6.lean ====
import proofs.«419539_j67095979099186_1_alg».proof.Proof.LibViews
import proofs.«419539_j67095979099186_1_alg».proof.Proof.Gen.KernelIdeal.Launch
import proofs.«419539_j67095979099186_1_alg».proof.Proof.Gen.KernelIdeal.Skeleton
import proofs.«419539_j67095979099186_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.Views
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
def accAt6 (c : Dev nD) : (n : ℕ) → n < cfg6.N → Vec F S512x128 .f32
  | 0, h => k6_pay2 (iblk6 V c 1 ⟨0, h⟩) (iblk6 V c 0 ⟨0, h⟩) k6_pay1
  | n + 1, h => k6_pay2 (iblk6 V c 1 ⟨n + 1, h⟩) (iblk6 V c 0 ⟨n + 1, h⟩) (accAt6 c n (Nat.lt_of_succ_lt h))
abbrev scM6 : Memref sig .tc .vmem S512x128 .f32 := Memref.whole cc6_scratch0
abbrev cond6 (i : grid6.Coords) : Prop := (Scalar.cmpi .ne (Scalar.extui (Scalar.cmpi .eq (BitVec.ofNat 32 (i 0).val) 0#32)) 0#32) = 1#1
theorem hcond6 : ∀ t : Fin cfg6.N, cond6 (grid6.coords t) ↔ t.val = 0 :=
  (by decide +kernel : ∀ t : Fin grid6.N, cond6 (grid6.coords t) ↔ t.val = 0)
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
abbrev ms6_0 (t : Fin cfg6.N) : Memref sig .tc .vmem S2000x128 .f32 := win6_0.stage (cfg6.slots t 0)
abbrev ms6_1 (t : Fin cfg6.N) : Memref sig .tc .vmem S2000x1 .i32 := win6_1.stage (cfg6.slots t 1)
abbrev ms6_2 (t : Fin cfg6.N) : Memref sig .tc .vmem S512x128 .f32 := win6_2.stage (cfg6.slots t 2)
theorem PhiA6_eq (c : Dev nD) :
    (Pipeline.ΦA spec6 c : sProp 𝕄)
      = iprop(iprop((∃ d, owns (c : Thread nD τ) scM6 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl
section
variable (c : Dev nD) (i : grid6.Coords) (arg1 : Memref sig .tc .vmem S2000x128 .f32) (harg1 : arg1.IsWhole) (arg2 : Memref sig .tc .vmem S2000x1 .i32) (harg2 : arg2.IsWhole) (arg3 : Memref sig .tc .vmem S512x128 .f32) (harg3 : arg3.IsWhole) (arg4 : Memref sig .tc .vmem S512x128 .f32) (harg4 : arg4.IsWhole)
set_option maxHeartbeats 1000000 in
noncomputable def kernelRun6_A (hc0 : cond6 i)
    (x0 : Vec F S2000x128 .f32) (x1 : Vec F S2000x1 .i32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc6__pool_sum_kernel i arg1 harg1 arg2 harg2 arg3 harg3 arg4 harg4) K } := by
  refine ⟨?_, ?_, fun E K => ?run⟩
  case run =>
    simp only [cc6__pool_sum_kernel_eq_skeleton]; unfold cc6__pool_sum_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]; · iapply (unread_held c arg1 harg1 _); iexact H0
    isplitl [H1]; · iapply (unread_held c arg2 harg2 _); iexact H1
    isplitl [H2]; · iexists _; iexact H2
    iexists _; iexact HS0
set_option maxHeartbeats 1000000 in
noncomputable def kernelRun6_B (hc0 : ¬cond6 i)
    (x0 : Vec F S2000x128 .f32) (x1 : Vec F S2000x1 .i32) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc6__pool_sum_kernel i arg1 harg1 arg2 harg2 arg3 harg3 arg4 harg4) K } := by
  refine ⟨?_, ?_, fun E K => ?run⟩
  case run =>
    simp only [cc6__pool_sum_kernel_eq_skeleton]; unfold cc6__pool_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]; · iapply (unread_held c arg1 harg1 _); iexact H0
    isplitl [H1]; · iapply (unread_held c arg2 harg2 _); iexact H1
    isplitl [H2]; · iexists _; iexact H2
    iexists _; iexact HS0
theorem scover6_A (hc0 : cond6 i)
    (x0 : Vec F S2000x128 .f32) (x1 : Vec F S2000x1 .i32) (y : S512x128.Idx) :
    ∃ pc ∈ (kernelRun6_A c i arg1 harg1 arg2 harg2 arg3 harg3 arg4 harg4 hc0 x0 x1).2.1, y ∈ pc.1.set :=
  View.cover_of_tiledL (kernelRun6_A c i arg1 harg1 arg2 harg2 arg3 harg3 arg4 harg4 hc0 x0 x1).2.1 S512x128.size (by sl_kernel_rfl) y
theorem ocover6_A (hc0 : cond6 i)
    (x0 : Vec F S2000x128 .f32) (x1 : Vec F S2000x1 .i32) (y : S512x128.Idx) :
    ∃ pc ∈ (kernelRun6_A c i arg1 harg1 arg2 harg2 arg3 harg3 arg4 harg4 hc0 x0 x1).1, y ∈ pc.1.set :=
  View.cover_of_tiledL (kernelRun6_A c i arg1 harg1 arg2 harg2 arg3 harg3 arg4 harg4 hc0 x0 x1).1 S512x128.size (by sl_kernel_rfl) y
theorem scover6_B (hc0 : ¬cond6 i)
    (x0 : Vec F S2000x128 .f32) (x1 : Vec F S2000x1 .i32) (xs0 : Vec F S512x128 .f32) (y : S512x128.Idx) :
    ∃ pc ∈ (kernelRun6_B c i arg1 harg1 arg2 harg2 arg3 harg3 arg4 harg4 hc0 x0 x1 xs0).2.1, y ∈ pc.1.set :=
  View.cover_of_tiledL (kernelRun6_B c i arg1 harg1 arg2 harg2 arg3 harg3 arg4 harg4 hc0 x0 x1 xs0).2.1 S512x128.size (by sl_kernel_rfl) y
theorem ocover6_B (hc0 : ¬cond6 i)
    (x0 : Vec F S2000x128 .f32) (x1 : Vec F S2000x1 .i32) (xs0 : Vec F S512x128 .f32) (y : S512x128.Idx) :
    ∃ pc ∈ (kernelRun6_B c i arg1 harg1 arg2 harg2 arg3 harg3 arg4 harg4 hc0 x0 x1 xs0).1, y ∈ pc.1.set :=
  View.cover_of_tiledL (kernelRun6_B c i arg1 harg1 arg2 harg2 arg3 harg3 arg4 harg4 hc0 x0 x1 xs0).1 S512x128.size (by sl_kernel_rfl) y
theorem sA6_eq (hc0 : cond6 i)
    (x0 : Vec F S2000x128 .f32) (x1 : Vec F S2000x1 .i32) (v : View sig .tc .vmem S512x128 .f32) (f : v.ty.Contents (Elt F)) :
    v.read (Elt F) (v.writes (Elt F) f (kernelRun6_A c i arg1 harg1 arg2 harg2 arg3 harg3 arg4 harg4 hc0 x0 x1).2.1) = k6_pay2 x1 x0 (k6_pay1 (F := F)) := by
  rw [View.read_writes_eq_canon _ _ _ (scover6_A c i arg1 harg1 arg2 harg2 arg3 harg3 arg4 harg4 hc0 x0 x1)]
  unfold kernelRun6_A
  dsimp only
  sl_unfold_words
  rw [View.canon_cons_unit_zero (S := S512x128) zeroOff, View.readCov_cons_toLoadRect]
  simp only [View.readAt_eq_ld, harg1.read_unread, harg2.read_unread, View.ld_unit_zero (S := S2000x128) zeroOff, View.ld_unit_zero (S := S2000x1) zeroOff]
theorem oA6_eq (hc0 : cond6 i)
    (x0 : Vec F S2000x128 .f32) (x1 : Vec F S2000x1 .i32) (v : View sig .tc .vmem S512x128 .f32) (f : v.ty.Contents (Elt F)) :
    v.read (Elt F) (v.writes (Elt F) f (kernelRun6_A c i arg1 harg1 arg2 harg2 arg3 harg3 arg4 harg4 hc0 x0 x1).1) = k6_pay2 x1 x0 (k6_pay1 (F := F)) := by
  rw [View.read_writes_eq_canon _ _ _ (ocover6_A c i arg1 harg1 arg2 harg2 arg3 harg3 arg4 harg4 hc0 x0 x1)]
  unfold kernelRun6_A
  dsimp only
  sl_unfold_words
  rw [View.canon_unit_zero (S := S512x128) zeroOff, View.readCov_cons_toLoadRect, View.readCov_cons_toLoadRect]
  simp only [View.readAt_eq_ld, harg1.read_unread, harg2.read_unread, View.ld_unit_zero (S := S2000x128) zeroOff, View.ld_unit_zero (S := S2000x1) zeroOff]
theorem sB6_eq (hc0 : ¬cond6 i)
    (x0 : Vec F S2000x128 .f32) (x1 : Vec F S2000x1 .i32) (xs0 : Vec F S512x128 .f32) (v : View sig .tc .vmem S512x128 .f32) (f : v.ty.Contents (Elt F)) :
    v.read (Elt F) (v.writes (Elt F) f (kernelRun6_B c i arg1 harg1 arg2 harg2 arg3 harg3 arg4 harg4 hc0 x0 x1 xs0).2.1) = k6_pay2 x1 x0 xs0 := by
  rw [View.read_writes_eq_canon _ _ _ (scover6_B c i arg1 harg1 arg2 harg2 arg3 harg3 arg4 harg4 hc0 x0 x1 xs0)]
  unfold kernelRun6_B
  dsimp only
  sl_unfold_words
  rw [View.canon_unit_zero (S := S512x128) zeroOff]
  simp only [View.readAt_eq_ld, harg1.read_unread, harg2.read_unread, harg4.read_unread, View.ld_unit_zero (S := S2000x128) zeroOff, View.ld_unit_zero (S := S2000x1) zeroOff, View.ld_unit_zero (S := S512x128) zeroOff]
theorem oB6_eq (hc0 : ¬cond6 i)
    (x0 : Vec F S2000x128 .f32) (x1 : Vec F S2000x1 .i32) (xs0 : Vec F S512x128 .f32) (v : View sig .tc .vmem S512x128 .f32) (f : v.ty.Contents (Elt F)) :
    v.read (Elt F) (v.writes (Elt F) f (kernelRun6_B c i arg1 harg1 arg2 harg2 arg3 harg3 arg4 harg4 hc0 x0 x1 xs0).1) = k6_pay2 x1 x0 xs0 := by
  rw [View.read_writes_eq_canon _ _ _ (ocover6_B c i arg1 harg1 arg2 harg2 arg3 harg3 arg4 harg4 hc0 x0 x1 xs0)]
  unfold kernelRun6_B
  dsimp only
  sl_unfold_words
  rw [View.canon_unit_zero (S := S512x128) zeroOff, View.readCov_cons_toLoadRect]
  simp only [View.readAt_eq_ld, harg1.read_unread, harg2.read_unread, harg4.read_unread, View.ld_unit_zero (S := S2000x128) zeroOff, View.ld_unit_zero (S := S2000x1) zeroOff, View.ld_unit_zero (S := S512x128) zeroOff]
end
theorem accAt6_first (c : Dev nD) (t : Fin cfg6.N) (h0 : t.val = 0) :
    accAt6 V c t.val t.isLt = k6_pay2 (iblk6 V c 1 t) (iblk6 V c 0 t) (k6_pay1 (F := F)) := by
  obtain ⟨n, hn⟩ := t
  cases n with
  | zero => exact rfl
  | succ n => exact absurd h0 (Nat.succ_ne_zero n)
theorem accAt6_later (c : Dev nD) (t : Fin cfg6.N) (h0 : t.val ≠ 0) :
    accAt6 V c t.val t.isLt = k6_pay2 (iblk6 V c 1 t) (iblk6 V c 0 t) (accAt6 V c (t.val - 1) (Nat.lt_of_le_of_lt (Nat.sub_le _ _) t.isLt)) := by
  obtain ⟨n, hn⟩ := t
  cases n with
  | zero => exact absurd rfl h0
  | succ n => exact rfl
def Phi6 (c : Dev nD) : (n : ℕ) → n ≤ cfg6.N → sProp 𝕄
  | 0, _ => Pipeline.ΦA spec6 c
  | n + 1, hn => iprop(iprop(owns (c : Thread nD τ) scM6 fullShare (accAt6 V c n hn)
      ∗ Pipeline.scopedRestBut (Ix := Unit) (Name := ℕ) (U := UR sig nD τ) (Lvl := ℕ) (Val := Elt F) spec6 c [cc6_scratch0]) ∗ (∃ r, prngReg c r))
theorem Phi6_zero (c : Dev nD) (n : ℕ) (h : n ≤ cfg6.N) (hz : n = 0) : Phi6 V c n h = Pipeline.ΦA spec6 c := by
  subst hz; rfl
theorem Phi6_succ (c : Dev nD) (n : ℕ) (hn : n < cfg6.N) :
    Phi6 V c (n + 1) hn = iprop(iprop(owns (c : Thread nD τ) scM6 fullShare (accAt6 V c n hn)
      ∗ Pipeline.scopedRestBut (Ix := Unit) (Name := ℕ) (U := UR sig nD τ) (Lvl := ℕ) (Val := Elt F) spec6 c [cc6_scratch0]) ∗ (∃ r, prngReg c r)) := rfl
theorem Phi6_pos (c : Dev nD) (n : ℕ) (h : n ≤ cfg6.N) (hz : n ≠ 0) : Phi6 V c n h = Phi6 V c (n - 1 + 1) (by omega) := by
  cases n with
  | zero => exact absurd rfl hz
  | succ n => rfl
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => accAt6 V c t.val t.isLt
  Φ t := Phi6 V c t.val (Nat.le_of_lt_succ t.isLt)
  q _ := fullShare
  owed _ := 0
theorem A_eq6 (c : Dev nD) (w : Fin cfg6.W) : (dat6 V c).A w = V c (Pipeline.arrRef spec6 w) := by
  dsimp only [dat6]
theorem share6 (c : Dev nD) (w : Fin cfg6.W) : (dat6 V c).share w = fullShare :=
  (dat6 V c).share_full (fun _ => rfl) w
theorem owed6 (c : Dev nD) (t) : (dat6 V c).owed t = 0 := by dsimp only [dat6]
theorem Phi6_castSucc (c : Dev nD) (t : Fin cfg6.N) :
    (dat6 V c).Φ t.castSucc = Phi6 V c t.val (Nat.le_of_lt t.isLt) := by
  dsimp only [dat6]; simp only [Fin.coe_castSucc]
theorem after6_in (c : Dev nD) (t : Fin cfg6.N) :
    (dat6 V c).after 0 t = iblk6 V c 0 t ∧ (dat6 V c).after 1 t = iblk6 V c 1 t :=
  ⟨rfl, rfl⟩
theorem after6_2 (c : Dev nD) (t : Fin cfg6.N) : (dat6 V c).after 2 t = accAt6 V c t.val t.isLt := by dsimp only [dat6]
theorem before6_in (c : Dev nD) (t : Fin cfg6.N) :
    (∀ d, (dat6 V c).before 0 t d = iblk6 V c 0 t) ∧ (∀ d, (dat6 V c).before 1 t d = iblk6 V c 1 t) := by
  refine ⟨?_, ?_⟩ <;> intro d <;>
    refine Eq.trans ((dat6 V c).before_in_eq_fetched _ ?_ ?_ ?_ ?_ t d) ?_ <;>
    first
      | rfl
      | exact fun _ => rfl
      | exact fun _ _ _ => rfl
      | (intro t; simp only [after6_in V c t]; unfold Dat.blockOf iblk6; rw [A_eq6]; try rfl)
      | (unfold Dat.fetched Dat.blockOf iblk6; rw [A_eq6]; try rfl)
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)
set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_in V c t]
  rw [show (dat6 V c).owesAt () t.succ = (dat6 V c).owesAt () t.castSucc from rfl]
  rw [show (dat6 V c).Φ t.succ = Phi6 V c (t.val + 1) t.isLt from rfl, Phi6_succ]
  rw [show (dat6 V c).leavesExact 0 t = owns (c : Thread nD τ) (ms6_0 t) fullShare ((dat6 V c).after 0 t) from by
    unfold Dat.leavesExact; rw [liveAt6_0 t], (after6_in V c t).1]
  rw [show (dat6 V c).leavesExact 1 t = owns (c : Thread nD τ) (ms6_1 t) fullShare ((dat6 V c).after 1 t) from by
    unfold Dat.leavesExact; rw [liveAt6_1 t], (after6_in V c t).2]
  rw [show (dat6 V c).leavesExact 2 t = owns (c : Thread nD τ) (ms6_2 t) fullShare ((dat6 V c).after 2 t) from by
    unfold Dat.leavesExact; rw [liveAt6_2 t], after6_2]
  by_cases hz : t.val = 0
  · rw [accAt6_first V c t hz, Phi6_castSucc V c t, Phi6_zero V c _ _ hz, PhiA6_eq]
    iintro ⟨⟨⟨HS0, HR⟩, Hg⟩, Ho, ⟨%d0, H0⟩, ⟨%d1, H1⟩, ⟨%d2, H2⟩⟩
    iapply ((kernelRun6_A c (grid6.coords t) _ _ _ _ _ _ _ _ ((hcond6 t).mpr hz) (iblk6 V c 0 t) (iblk6 V c 1 t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact sA6_eq c _ _ _ _ _ _ _ _ _ _ _ _ _ _
        iexact HR
      iexact Hg
    isplitl [Ho]; · iexact Ho
    isplitl [H0]; · iexact H0
    isplitl [H1]; · iexact H1
    unfold owns; iexists _; isplitr
    swap; · iexact H2
    ipureintro; exact oA6_eq c _ _ _ _ _ _ _ _ _ _ _ _ _ _
  · rw [accAt6_later V c t hz, Phi6_castSucc V c t, Phi6_pos V c _ _ hz, Phi6_succ]
    iintro ⟨⟨⟨HS0, HR⟩, Hg⟩, Ho, ⟨%d0, H0⟩, ⟨%d1, H1⟩, ⟨%d2, H2⟩⟩
    iapply ((kernelRun6_B c (grid6.coords t) _ _ _ _ _ _ _ _ (fun h => hz ((hcond6 t).mp h)) (iblk6 V c 0 t) (iblk6 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact sB6_eq c _ _ _ _ _ _ _ _ _ _ _ _ _ _ _
        iexact HR
      iexact Hg
    isplitl [Ho]; · iexact Ho
    isplitl [H0]; · iexact H0
    isplitl [H1]; · iexact H1
    unfold owns; iexists _; isplitr
    swap; · iexact H2
    ipureintro; exact oB6_eq c _ _ _ _ _ _ _ _ _ _ _ _ _ _ _
theorem body_obligation6 (c : Dev nD) : BodyObligation (dat6 (F := F) V c) (defs₀ (F := F)) Variants.none () Set.univ := fun t => by
  rw [bigSep_W6, bigSep_W6]
  exact sound_body6 V c t
theorem hin6 (c : Dev nD) : (Pipeline.ΦA spec6 c : sProp 𝕄) ⊢ (dat6 V c).Φ 0 := by
  rw [show (dat6 V c).Φ 0 = Phi6 V c 0 (Nat.zero_le _) from rfl, Phi6_zero V c 0 _ rfl]
  try exact Idealize.SL.BI.Entails.refl _
theorem Phi6_out (c : Dev nD) (t : Fin (cfg6.N + 1)) (ht : t.val ≠ 0) : (dat6 V c).Φ t ⊢ (Pipeline.ΦA spec6 c : sProp 𝕄) := by
  rw [show (dat6 V c).Φ t = Phi6 V c t.val (Nat.le_of_lt_succ t.isLt) from rfl, Phi6_pos V c _ _ ht, Phi6_succ, PhiA6_eq]
  iintro ⟨⟨HS0, HR⟩, Hg⟩
  isplitl [HS0 HR]
  · isplitl [HS0]
    · iexists _; iexact HS0
    iexact HR
  iexact Hg
theorem hout6 (c : Dev nD) : (dat6 V c).Φ (Fin.last cfg6.N) ⊢ (Pipeline.ΦA spec6 c : sProp 𝕄) :=
  Phi6_out V c _ (by rw [Fin.val_last]; have : cfg6.N = 25 := N_6; omega)
end Cert.KernelIdeal.Hand
end
-- ==== Proof.KI.Run.lean ====
import proofs.«419539_j67095979099186_1_alg».proof.Proof.Gen.KernelIdeal.Launch
import proofs.«419539_j67095979099186_1_alg».proof.Proof.Gen.KernelIdeal.Skeleton
import proofs.«419539_j67095979099186_1_alg».proof.Proof.Gen.KernelIdeal.Points
import proofs.«419539_j67095979099186_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419539_j67095979099186_1_alg».proof.Proof.KI.RegA0
import proofs.«419539_j67095979099186_1_alg».proof.Proof.KI.RegB1
import proofs.«419539_j67095979099186_1_alg».proof.Proof.KI.RegA2
import proofs.«419539_j67095979099186_1_alg».proof.Proof.KI.RegB3
import proofs.«419539_j67095979099186_1_alg».proof.Proof.KI.RegA4
import proofs.«419539_j67095979099186_1_alg».proof.Proof.KI.RegB5
import proofs.«419539_j67095979099186_1_alg».proof.Proof.KI.RegC6
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
def W0 (c : Dev nD) : Valuation τ sig (Elt F) := fun b => m (c, b)
def W1 (c : Dev nD) : Valuation τ sig (Elt F) := StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
def W3 (c : Dev nD) : Valuation τ sig (Elt F) := StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
def W5 (c : Dev nD) : Valuation τ sig (Elt F) := StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
def W7 (c : Dev nD) : Valuation τ sig (Elt F) := StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
abbrev V8 : (c : Dev nD) → (b : Ref sig .tc) → Buf (Elt F) ((c : Thread nD τ).loc b) := fun c b => W8 m c b
def W9 (c : Dev nD) : Valuation τ sig (Elt F) := StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (V9 m) c).arrAt w cfg4.N
abbrev V10 : (c : Dev nD) → (b : Ref sig .tc) → Buf (Elt F) ((c : Thread nD τ).loc b) := fun c b => W10 m c b
def W11 (c : Dev nD) : Valuation τ sig (Elt F) := StableHlo.after hostOps5 (W10 m c)
abbrev V11 : (c : Dev nD) → (b : Ref sig .tc) → Buf (Elt F) ((c : Thread nD τ).loc b) := fun c b => W11 m c b
def W12 (c : Dev nD) : Valuation τ sig (Elt F) :=
  Pipeline.withArrays spec5 c (W11 m c) fun w => (dat5 (V11 m) c).arrAt w cfg5.N
abbrev V12 : (c : Dev nD) → (b : Ref sig .tc) → Buf (Elt F) ((c : Thread nD τ).loc b) := fun c b => W12 m c b
def W13 (c : Dev nD) : Valuation τ sig (Elt F) :=
  Pipeline.withArrays spec6 c (W12 m c) fun w => (dat6 (V12 m) c).arrAt w cfg6.N
abbrev V13 : (c : Dev nD) → (b : Ref sig .tc) → Buf (Elt F) ((c : Thread nD τ).loc b) := fun c b => W13 m c b
def W14 (c : Dev nD) : Valuation τ sig (Elt F) := StableHlo.after hostOps7 (W13 m c)
theorem keptOff {gr W : ℕ} (win : Fin W → Pipeline.WinSpec sig gr) (c : Dev nD) (V : Valuation τ sig (Elt F)) A (b : Ref sig .tc)
    (hb : b ∉ Finset.univ.image (Pipeline.arrRef win)) : Pipeline.withArrays win c V A (Proc.devRef .tc b) = V (Proc.devRef .tc b) :=
  Pipeline.withArrays_of_ne win c V A b fun w e => hb (Finset.mem_image.mpr ⟨w, Finset.mem_univ _, e⟩)
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem kept0 (c : Dev nD) : ∀ b, b ∉ Finset.univ.image (Pipeline.arrRef spec0) → V2 m c b = V1 m c b :=
  keptOff spec0 c _ _
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem kept1 (c : Dev nD) : ∀ b, b ∉ Finset.univ.image (Pipeline.arrRef spec1) → V4 m c b = V3 m c b :=
  keptOff spec1 c _ _
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
theorem kept2 (c : Dev nD) : ∀ b, b ∉ Finset.univ.image (Pipeline.arrRef spec2) → V6 m c b = V5 m c b :=
  keptOff spec2 c _ _
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w
theorem kept3 (c : Dev nD) : ∀ b, b ∉ Finset.univ.image (Pipeline.arrRef spec3) → V8 m c b = V7 m c b :=
  keptOff spec3 c _ _
theorem W10_arr (c : Dev nD) (w : Fin cfg4.W) :
    W10 m c (Proc.devRef .tc (Pipeline.arrRef spec4 w)) = (dat4 (V9 m) c).arrAt w cfg4.N :=
  Pipeline.withArrays_arr spec4 launch4.win.arr_inj c _ _ w
theorem kept4 (c : Dev nD) : ∀ b, b ∉ Finset.univ.image (Pipeline.arrRef spec4) → V10 m c b = V9 m c b :=
  keptOff spec4 c _ _
theorem W12_arr (c : Dev nD) (w : Fin cfg5.W) :
    W12 m c (Proc.devRef .tc (Pipeline.arrRef spec5 w)) = (dat5 (V11 m) c).arrAt w cfg5.N :=
  Pipeline.withArrays_arr spec5 launch5.win.arr_inj c _ _ w
theorem kept5 (c : Dev nD) : ∀ b, b ∉ Finset.univ.image (Pipeline.arrRef spec5) → V12 m c b = V11 m c b :=
  keptOff spec5 c _ _
theorem W13_arr (c : Dev nD) (w : Fin cfg6.W) :
    W13 m c (Proc.devRef .tc (Pipeline.arrRef spec6 w)) = (dat6 (V12 m) c).arrAt w cfg6.N :=
  Pipeline.withArrays_arr spec6 launch6.win.arr_inj c _ _ w
theorem kept6 (c : Dev nD) : ∀ b, b ∉ Finset.univ.image (Pipeline.arrRef spec6) → V13 m c b = V12 m c b :=
  keptOff spec6 c _ _
abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V12 m) c
abbrev noPairs : GSem nD τ sig → Finset Unit := fun _ => ∅
abbrev noLevel : GSem nD τ sig → Unit → ℕ := fun _ _ => 0
abbrev beside (c : Dev nD) : sProp 𝕄 :=
  iprop((∃ r, prngReg c r) ∗ ∃ W, owes (c : Thread nD τ) (0 : CellTallies nD τ sig Unit) W)
abbrev stateAt (W : Dev nD → Valuation τ sig (Elt F)) (c : Dev nD) : sProp 𝕄 :=
  iprop(StableHlo.held (c : Thread nD τ) (Pipeline.ucRefs τ sig) (W c) ∗ beside c)
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op hop => Pipeline.sub_ucRefs op ((List.forall_iff_forall_mem.mp hsub) op hop))
    (fun op hop => (List.forall_iff_forall_mem.mp hfresh) op hop) W beside
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩
abbrev tcOf (W : Dev nD → Valuation τ sig (Elt F)) : (c : Dev nD) → (b : Ref sig .tc) → Buf (Elt F) ((c : Thread nD τ).loc b) :=
  fun c b => W c b
def regionOf (p : Fin 7) (hl : Pipeline.LaunchFacts (nD := nD) (τ := τ) cfgs p) (Wi Wo : Dev nD → Valuation τ sig (Elt F))
    (hbody : ∀ c, BodyObligation (pdats m p c) (defs₀ (F := F)) Variants.none () Set.univ)
    (howed : ∀ c t, (pdats m p c).owed t = 0)
    (hrec : ∀ c, (pdats m p c).recorded 0 = Set.univ)
    (hshare : ∀ c w, (pdats m p c).share w = fullShare)
    (hA : ∀ c w, (pdats m p c).A w = tcOf Wi c (Pipeline.arrRef (cfgs p).spec w))
    (hΦin : ∀ c, (Pipeline.ΦA (cfgs p).spec c : sProp 𝕄) ⊢ (pdats m p c).Φ 0)
    (hΦout : ∀ c, (pdats m p c).Φ (Fin.last (cfgs p).N) ⊢ (Pipeline.ΦA (cfgs p).spec c : sProp 𝕄))
    (hleft : ∀ c w, (pdats m p c).arrAt w (cfgs p).N = tcOf Wo c (Pipeline.arrRef (cfgs p).spec w))
    (hkept : ∀ c b, b ∉ Finset.univ.image (Pipeline.arrRef (cfgs p).spec) → tcOf Wo c b = tcOf Wi c b) :
    Pipeline.RegionSeg (pcfgs (F := F)) adm (pdats m) () defs₀ Variants.none noPairs noLevel p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ noPairs noLevel p howed
  pre := stateAt Wi
  post := stateAt Wo
  X c := iprop(∃ r, prngReg c r)
  Y c := iprop(∃ r, prngReg c r)
  Z c := Pipeline.unscopedRest (Ix := Unit) (Name := ℕ) (U := UR sig nD τ) (Lvl := ℕ) (cfgs p).spec c (tcOf Wi c)
  hentry c := by
    rw [Pipeline.ownSems0_none]
    have harrs := Pipeline.arrays_of_unscopedBufs (p := p) (pcfgs (F := F)) adm (pdats m) hl.win hl.arr_whole c
      (hshare c) (tcOf Wi c) (hA c)
    rw [Pipeline.unscopedBufs_held] at harrs
    iintro ⟨⟨Hbufs, Hprng, Howes⟩, -, -⟩
    ihave Hs := harrs $$ Hbufs
    icases Hs with ⟨Harr, Hby⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      rw [howed c 0]
      icases Howes with ⟨%S, Howes⟩
      iexists S
      isplitr; · ipureintro; exact fun _ _ => Or.inl (hrec c ▸ Set.mem_univ _)
      iexact Howes
    isplitl [Hprng]; · iexact Hprng
    iexact Hby
  hin c := by
    refine BIBase.Entails.trans ?_ (hΦin c)
    unfold Pipeline.ΦA
    iintro ⟨Hprng, -, Hsc⟩
    isplitl [Hsc]; · iexact Hsc
    iexact Hprng
  hout c := by
    rw [Pipeline.ownSems0_none]
    refine BIBase.Entails.trans (hΦout c) ?_
    unfold Pipeline.ΦA
    iintro ⟨Hsc, Hprng⟩
    isplitl [Hprng]; · iexact Hprng
    isplitr; · iempintro
    iexact Hsc
  hexit c := by
    have hjoin := Pipeline.unscopedBufs_of_arrays (p := p) (pcfgs (F := F)) adm (Ix := Unit) (Name := ℕ) (U := UR sig nD τ) (Lvl := ℕ)
      hl.win hl.arr_whole c (pdats m) (hshare c)
      (tcOf Wi c) (tcOf Wo c) ((pdats m p c).arrAt · (cfgs p).N) (hleft c) (hkept c)
    rw [Pipeline.unscopedBufs_held] at hjoin
    iintro ⟨Harr, Howes, Hprng, Hby⟩
    imodintro
    isplitl [Harr Hby]
    · iapply hjoin
      isplitl [Harr] <;> iassumption
    isplitl [Hprng]; · iexact Hprng
    unfold Pipeline.Dat.owesAt Pipeline.owesWithin
    rw [howed c (Fin.last _)]
    icases Howes with ⟨%S, -, Howes⟩
    iexists S
    iexact Howes
def region0 : Pipeline.RegionSeg (pcfgs (F := F)) adm (pdats m) () defs₀ Variants.none noPairs noLevel 0 :=
  regionOf m 0 launch0 (W1 m) (W2 m) (body_obligation0 (V1 m)) (owed0 (V1 m)) (fun _ => rfl)
    (share0 (V1 m)) (A_eq0 (V1 m)) (hin0 (V1 m)) (hout0 (V1 m)) (fun c w => (W2_arr m c w).symm) (kept0 m)
def region1 : Pipeline.RegionSeg (pcfgs (F := F)) adm (pdats m) () defs₀ Variants.none noPairs noLevel 1 :=
  regionOf m 1 launch1 (W3 m) (W4 m) (body_obligation1 (V3 m)) (owed1 (V3 m)) (fun _ => rfl)
    (share1 (V3 m)) (A_eq1 (V3 m)) (hin1 (V3 m)) (hout1 (V3 m)) (fun c w => (W4_arr m c w).symm) (kept1 m)
def region2 : Pipeline.RegionSeg (pcfgs (F := F)) adm (pdats m) () defs₀ Variants.none noPairs noLevel 2 :=
  regionOf m 2 launch2 (W5 m) (W6 m) (body_obligation2 (V5 m)) (owed2 (V5 m)) (fun _ => rfl)
    (share2 (V5 m)) (A_eq2 (V5 m)) (hin2 (V5 m)) (hout2 (V5 m)) (fun c w => (W6_arr m c w).symm) (kept2 m)
def region3 : Pipeline.RegionSeg (pcfgs (F := F)) adm (pdats m) () defs₀ Variants.none noPairs noLevel 3 :=
  regionOf m 3 launch3 (W7 m) (W8 m) (body_obligation3 (V7 m)) (owed3 (V7 m)) (fun _ => rfl)
    (share3 (V7 m)) (A_eq3 (V7 m)) (hin3 (V7 m)) (hout3 (V7 m)) (fun c w => (W8_arr m c w).symm) (kept3 m)
def region4 : Pipeline.RegionSeg (pcfgs (F := F)) adm (pdats m) () defs₀ Variants.none noPairs noLevel 4 :=
  regionOf m 4 launch4 (W9 m) (W10 m) (body_obligation4 (V9 m)) (owed4 (V9 m)) (fun _ => rfl)
    (share4 (V9 m)) (A_eq4 (V9 m)) (hin4 (V9 m)) (hout4 (V9 m)) (fun c w => (W10_arr m c w).symm) (kept4 m)
def region5 : Pipeline.RegionSeg (pcfgs (F := F)) adm (pdats m) () defs₀ Variants.none noPairs noLevel 5 :=
  regionOf m 5 launch5 (W11 m) (W12 m) (body_obligation5 (V11 m)) (owed5 (V11 m)) (fun _ => rfl)
    (share5 (V11 m)) (A_eq5 (V11 m)) (hin5 (V11 m)) (hout5 (V11 m)) (fun c w => (W12_arr m c w).symm) (kept5 m)
def region6 : Pipeline.RegionSeg (pcfgs (F := F)) adm (pdats m) () defs₀ Variants.none noPairs noLevel 6 :=
  regionOf m 6 launch6 (W12 m) (W13 m) (body_obligation6 (V12 m)) (owed6 (V12 m)) (fun _ => rfl)
    (share6 (V12 m)) (A_eq6 (V12 m)) (hin6 (V12 m)) (hout6 (V12 m)) (fun c w => (W13_arr m c w).symm) (kept6 m)
abbrev mainItems : List (Pipeline.Seg (pcfgs (F := F)) adm (pdats m) () defs₀ Variants.none noPairs noLevel) :=
  [ .host (stretch hostOps0 hostOps0_sub hostOps0_fresh (W0 m)),
    .region (region0 m),
    .host (stretch hostOps1 hostOps1_sub hostOps1_fresh (W2 m)),
    .region (region1 m),
    .host (stretch hostOps2 hostOps2_sub hostOps2_fresh (W4 m)),
    .region (region2 m),
    .host (stretch hostOps3 hostOps3_sub hostOps3_fresh (W6 m)),
    .region (region3 m),
    .host (stretch hostOps4 hostOps4_sub hostOps4_fresh (W8 m)),
    .region (region4 m),
    .host (stretch hostOps5 hostOps5_sub hostOps5_fresh (W10 m)),
    .region (region5 m),
    .region (region6 m),
    .host (stretch hostOps7 hostOps7_sub hostOps7_fresh (W13 m)) ]
abbrev lastState (c : Dev nD) : sProp 𝕄 :=
  iprop(StableHlo.held (c : Thread nD τ) (Pipeline.ucRefs τ sig) (W14 m c) ∗ ∃ r, prngReg c r)
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W14 m c b) :=
  Pipeline.θ_run_regions_kit (pcfgs (F := F)) adm (pdats m) () cellOf_inj emb₁ defs₀ Variants.none noPairs noLevel m ρ main (mainItems m)
    (fun c Q => by
      rewrite [main_chain c, Pipeline.Seg.run_eq_chain,
        show (mainItems m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7 ] from rfl]
      exact .rfl)
    (by simp only [mainItems, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := stateAt (W0 m)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W14 m c) ∗ beside c) ⊢ _
        iintro ⟨Hh, Hp, Ho⟩
        isplitl [Hh Hp]
        · isplitl [Hh]; · iexact Hh
          iexact Hp
        iexact Ho⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem ((c : Thread nD τ).1, b) = W14 m c b)
    (hfin := fun c s' => by
      iintro ⟨⟨Hh, -⟩, HSI⟩
      unfold StableHlo.held
      imodintro
      iapply (pointsTo_read_all (Pipeline.ucRefs τ sig) (fun b => ((c : Thread nD τ).1, b)) (W14 m c) s')
      isplitl [Hh] <;> iassumption)
    (hQ := fun s h c => h c)
-- No step from the initial to the final valuation changes the contents at `r`.
theorem arg_kept {c : Dev nD} {x : Valuation τ sig (Elt F)} (hx : ∀ b ∈ Pipeline.ucRefs τ sig, x b = W14 m c b) (r : Ref sig .tc)
    (h : ¬ (Proc.devRef .tc r : DevRef τ sig).isScoped ∧ r ∉ hostOps7_W ∧ r ∉ Finset.univ.image (Pipeline.arrRef spec6) ∧
      r ∉ Finset.univ.image (Pipeline.arrRef spec5) ∧ r ∉ hostOps5_W ∧ r ∉ Finset.univ.image (Pipeline.arrRef spec4) ∧
      r ∉ hostOps4_W ∧ r ∉ Finset.univ.image (Pipeline.arrRef spec3) ∧ r ∉ hostOps3_W ∧
      r ∉ Finset.univ.image (Pipeline.arrRef spec2) ∧ r ∉ hostOps2_W ∧ r ∉ Finset.univ.image (Pipeline.arrRef spec1) ∧
      r ∉ hostOps1_W ∧ (∀ w, Pipeline.arrRef spec0 w = r → (cfg0.win w).isOut = false) ∧ r ∉ hostOps0_W) :
    x (Proc.devRef .tc r) = m ((c : Thread nD τ).loc r) := by
  obtain ⟨hs, h7, a6, a5, h5, a4, h4, a3, h3, a2, h2, a1, h1, a0, h0⟩ := h
  have hw : W2 m c (Proc.devRef .tc r) = W1 m c (Proc.devRef .tc r) := by
    by_cases e : ∃ w, Pipeline.arrRef spec0 w = r
    · obtain ⟨w, rfl⟩ := e
      exact (W2_arr m c w).trans (((dat0 (V1 m) c).arrAt_in w (a0 w rfl) _).trans (A_eq0 (V1 m) c w))
    · exact Pipeline.withArrays_of_ne spec0 c _ _ _ fun w ew => e ⟨w, ew⟩
  exact (hx _ (unscoped_mem r hs)).trans <|
    (StableHlo.after_of_writes_sub hostOps7 _ hostOps7_writes h7).trans <|
    (kept6 m c r a6).trans <|
    (kept5 m c r a5).trans <|
    (StableHlo.after_of_writes_sub hostOps5 _ hostOps5_writes h5).trans <|
    (kept4 m c r a4).trans <|
    (StableHlo.after_of_writes_sub hostOps4 _ hostOps4_writes h4).trans <|
    (kept3 m c r a3).trans <|
    (StableHlo.after_of_writes_sub hostOps3 _ hostOps3_writes h3).trans <|
    (kept2 m c r a2).trans <|
    (StableHlo.after_of_writes_sub hostOps2 _ hostOps2_writes h2).trans <|
    (kept1 m c r a1).trans <|
    (StableHlo.after_of_writes_sub hostOps1 _ hostOps1_writes h1).trans <|
    hw.trans (StableHlo.after_of_writes_sub hostOps0 _ hostOps0_writes h0)
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨arg_kept m (h c) main_arg0 (by decide), arg_kept m (h c) main_arg1 (by decide), arg_kept m (h c) main_arg2 (by decide),
     arg_kept m (h c) main_arg3 (by decide), arg_kept m (h c) main_arg4 (by decide), arg_kept m (h c) main_arg5 (by decide),
     arg_kept m (h c) main_arg6 (by decide), arg_kept m (h c) main_arg7 (by decide), arg_kept m (h c) main_arg8 (by decide),
     arg_kept m (h c) main_arg9 (by decide)⟩) (run_all m ρ)
end Cert.KernelIdeal.Hand
end
-- ==== Proof.Val.RunHOps.lean ====
import proofs.«419539_j67095979099186_1_alg».proof.Proof.Gen.ReferenceIdeal
import Idealize.ShloMosaic.Lib.StableHlo.Run

set_option maxRecDepth 16384

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

/-- Operations 1 … 43 of @main, in order. -/
abbrev C1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg7 main_v14 ((extractStridedSlice S1 ![0] · slices_S3_S1_0) : (⟨S3, .f32⟩ : BufTy).Contents (Elt F) → (⟨S1, .f32⟩ : BufTy).Contents (Elt F)),
    reshape main_v14 main_v15 rfl shapeCasts_S1_S_,
    nullary main_cst_1 (constant S_ .f32 0x3F800000#32),
    binary main_cst_1 main_v15 main_v16 (addf : (⟨S_, .f32⟩ : BufTy).Contents (Elt F) → (⟨S_, .f32⟩ : BufTy).Contents (Elt F) → (⟨S_, .f32⟩ : BufTy).Contents (Elt F)),
    unary main_v16 main_v17 (broadcastInDim S50000x128 ![] bcast_S_S50000x128 : (⟨S_, .f32⟩ : BufTy).Contents (Elt F) → (⟨S50000x128, .f32⟩ : BufTy).Contents (Elt F)),
    binary main_v17 main_arg0 main_v18 (mulf : (⟨S50000x128, .f32⟩ : BufTy).Contents (Elt F) → (⟨S50000x128, .f32⟩ : BufTy).Contents (Elt F) → (⟨S50000x128, .f32⟩ : BufTy).Contents (Elt F)),
    binary main_v18 main_v13 main_v19 (addf : (⟨S50000x128, .f32⟩ : BufTy).Contents (Elt F) → (⟨S50000x128, .f32⟩ : BufTy).Contents (Elt F) → (⟨S50000x128, .f32⟩ : BufTy).Contents (Elt F)),
    unary main_arg3 main_v20 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v20 main_v21 rfl shapeCasts_S1x128x128_S128x128,
    binary main_v19 main_v21 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v23 ((extractStridedSlice S1x128 ![0, 0] · slices_S3x128_S1x128_0_0) : (⟨S3x128, .f32⟩ : BufTy).Contents (Elt F) → (⟨S1x128, .f32⟩ : BufTy).Contents (Elt F)),
    reshape main_v23 main_v24 rfl shapeCasts_S1x128_S128,
    unary main_v24 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v22 main_v26 main_v27 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v27) (TRef.of (T := ⟨S50000x128, .f32⟩) main_call0_v0) (TRef.of (T := ⟨S50000x128, .f32⟩) main_v28) maximumf,
    unary main_arg5 main_v29 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v29 main_v30 rfl shapeCasts_S1x128x128_S128x128,
    binary main_v28 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v32 ((extractStridedSlice S1x128 ![0, 0] · slices_S3x128_S1x128_0_0) : (⟨S3x128, .f32⟩ : BufTy).Contents (Elt F) → (⟨S1x128, .f32⟩ : BufTy).Contents (Elt F)),
    reshape main_v32 main_v33 rfl shapeCasts_S1x128_S128,
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v31 main_v35 main_v36 (addf : (⟨S50000x128, .f32⟩ : BufTy).Contents (Elt F) → (⟨S50000x128, .f32⟩ : BufTy).Contents (Elt F) → (⟨S50000x128, .f32⟩ : BufTy).Contents (Elt F)) ]

/-- The references they write, in order. -/
abbrev W1 : List (Ref sig .tc) :=
  [ main_v0, main_v1, main_v2, main_v3, main_c, main_v4, main_v5, main_c_0, main_v6, main_v7,
    main_v8, main_v9, main_v10, main_cst, main_v11, main_v12, main_v13, main_v14, main_v15, main_cst_1,
    main_v16, main_v17, main_v18, main_v19, main_v20, main_v21, main_v22, main_v23, main_v24, main_v25,
    main_v26, main_v27, main_call0_cst, main_call0_v0, main_v28, main_v29, main_v30, main_v31, main_v32, main_v33,
    main_v34, main_v35, main_v36 ]

/-- Each touches TensorCore references only. -/
theorem C1_sub : (C1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub .., binary_bufs_sub .., binary_bufs_sub ..,
    unary_bufs_sub .., reshape_bufs_sub .., binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub .., unary_bufs_sub .., reshape_bufs_sub ..,
    unary_bufs_sub .., unary_bufs_sub .., binary_bufs_sub ..⟩

/-- Operations 44 … 80 of @main, in order. -/
abbrev C2 : List (HloOp τ sig (Elt F)) :=
  [ nullary main_cst_2 (constant S_ .f32 0x00000000#32),
    binary main_v36 main_cst_2 main_v37 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_3 (constant S_ .f32 0x47435000#32),
    unary main_cst_3 main_v38 (broadcastInDim S128 ![] bcast_S_S128 : (⟨S_, .f32⟩ : BufTy).Contents (Elt F) → (⟨S128, .f32⟩ : BufTy).Contents (Elt F)),
    binary main_v37 main_v38 main_v39 (Host.divf : (⟨S128, .f32⟩ : BufTy).Contents (Elt F) → (⟨S128, .f32⟩ : BufTy).Contents (Elt F) → (⟨S128, .f32⟩ : BufTy).Contents (Elt F)),
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S50000x128 ![0, 1] bcast_S1x128_S50000x128_0_1 : (⟨S1x128, .f32⟩ : BufTy).Contents (Elt F) → (⟨S50000x128, .f32⟩ : BufTy).Contents (Elt F)),
    binary main_v36 main_v41 main_v42 (subf : (⟨S50000x128, .f32⟩ : BufTy).Contents (Elt F) → (⟨S50000x128, .f32⟩ : BufTy).Contents (Elt F) → (⟨S50000x128, .f32⟩ : BufTy).Contents (Elt F)),
    binary main_v42 main_v42 main_v43 (mulf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v43 main_cst_4 main_v44 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v45 (broadcastInDim S128 ![] bcast_S_S128 : (⟨S_, .f32⟩ : BufTy).Contents (Elt F) → (⟨S128, .f32⟩ : BufTy).Contents (Elt F)),
    binary main_v44 main_v45 main_v46 (Host.divf : (⟨S128, .f32⟩ : BufTy).Contents (Elt F) → (⟨S128, .f32⟩ : BufTy).Contents (Elt F) → (⟨S128, .f32⟩ : BufTy).Contents (Elt F)),
    unary main_v39 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v36 main_v48 main_v49 (subf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3727C5AC#32),
    unary main_cst_6 main_v50 (broadcastInDim S128 ![] bcast_S_S128 : (⟨S_, .f32⟩ : BufTy).Contents (Elt F) → (⟨S128, .f32⟩ : BufTy).Contents (Elt F)),
    binary main_v46 main_v50 main_v51 (addf : (⟨S128, .f32⟩ : BufTy).Contents (Elt F) → (⟨S128, .f32⟩ : BufTy).Contents (Elt F) → (⟨S128, .f32⟩ : BufTy).Contents (Elt F)),
    unary main_v51 main_v52 (Host.rsqrt : (⟨S128, .f32⟩ : BufTy).Contents (Elt F) → (⟨S128, .f32⟩ : BufTy).Contents (Elt F)),
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v49 main_v54 main_v55 (mulf : (⟨S50000x128, .f32⟩ : BufTy).Contents (Elt F) → (⟨S50000x128, .f32⟩ : BufTy).Contents (Elt F) → (⟨S50000x128, .f32⟩ : BufTy).Contents (Elt F)),
    unary main_arg8 main_v56 ((extractStridedSlice S1x128 ![0, 0] · slices_S3x128_S1x128_0_0) : (⟨S3x128, .f32⟩ : BufTy).Contents (Elt F) → (⟨S1x128, .f32⟩ : BufTy).Contents (Elt F)),
    reshape main_v56 main_v57 rfl shapeCasts_S1x128_S128,
    unary main_v57 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v55 main_v59 main_v60 (mulf : (⟨S50000x128, .f32⟩ : BufTy).Contents (Elt F) → (⟨S50000x128, .f32⟩ : BufTy).Contents (Elt F) → (⟨S50000x128, .f32⟩ : BufTy).Contents (Elt F)),
    unary main_arg9 main_v61 ((extractStridedSlice S1x128 ![0, 0] · slices_S3x128_S1x128_0_0) : (⟨S3x128, .f32⟩ : BufTy).Contents (Elt F) → (⟨S1x128, .f32⟩ : BufTy).Contents (Elt F)),
    reshape main_v61 main_v62 rfl shapeCasts_S1x128_S128,
    unary main_v62 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v60 main_v64 main_v65 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v65) (TRef.of (T := ⟨S50000x128, .f32⟩) main_call1_v0) (TRef.of (T := ⟨S50000x128, .f32⟩) main_v66) maximumf ]

/-- The references they write, in order. -/
abbrev W2 : List (Ref sig .tc) :=
  [ main_cst_2, main_v37, main_cst_3, main_v38, main_v39, main_v40, main_v41, main_v42, main_v43, main_cst_4,
    main_v44, main_cst_5, main_v45, main_v46, main_v47, main_v48, main_v49, main_cst_6, main_v50, main_v51,
    main_v52, main_v53, main_v54, main_v55, main_v56, main_v57, main_v58, main_v59, main_v60, main_v61,
    main_v62, main_v63, main_v64, main_v65, main_call1_cst, main_call1_v0, main_v66 ]

/-- Each touches TensorCore references only. -/
theorem C2_sub : (C2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub .., reshape_bufs_sub .., unary_bufs_sub ..,
    unary_bufs_sub .., binary_bufs_sub .., nullary_bufs_sub .., unary_bufs_sub .., binary_bufs_sub ..⟩

/-- Operations 81 … 119 of @main, in order. -/
abbrev C3 : List (HloOp τ sig (Elt F)) :=
  [ nullary main_c_7 (constantI S_ 32 0#32),
    unary main_c_7 main_v67 (broadcastInDim S800000 ![] bcast_S_S800000 : (⟨S_, .i32⟩ : BufTy).Contents (Elt F) → (⟨S800000, .i32⟩ : BufTy).Contents (Elt F)),
    binary main_v1 main_v67 main_v68 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v69 (broadcastInDim S800000 ![] bcast_S_S800000 : (⟨S_, .i32⟩ : BufTy).Contents (Elt F) → (⟨S800000, .i32⟩ : BufTy).Contents (Elt F)),
    binary main_v1 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_v1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v66 main_v72 main_v73 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v74 (broadcastInDim S50000x128 ![] bcast_S_S50000x128 : (⟨S_, .f32⟩ : BufTy).Contents (Elt F) → (⟨S50000x128, .f32⟩ : BufTy).Contents (Elt F)),
    unary main_v3 main_v75 (broadcastInDim S800000x1 ![0] bcast_S800000_S800000x1_0 : (⟨S800000, .i32⟩ : BufTy).Contents (Elt F) → (⟨S800000x1, .i32⟩ : BufTy).Contents (Elt F)),
    ternary main_v74 main_v75 main_v73 main_v76 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg7 main_v77 ((extractStridedSlice S1 ![1] · slices_S3_S1_1) : (⟨S3, .f32⟩ : BufTy).Contents (Elt F) → (⟨S1, .f32⟩ : BufTy).Contents (Elt F)),
    reshape main_v77 main_v78 rfl shapeCasts_S1_S_,
    nullary main_cst_10 (constant S_ .f32 0x3F800000#32),
    binary main_cst_10 main_v78 main_v79 (addf : (⟨S_, .f32⟩ : BufTy).Contents (Elt F) → (⟨S_, .f32⟩ : BufTy).Contents (Elt F) → (⟨S_, .f32⟩ : BufTy).Contents (Elt F)),
    unary main_v79 main_v80 (broadcastInDim S50000x128 ![] bcast_S_S50000x128 : (⟨S_, .f32⟩ : BufTy).Contents (Elt F) → (⟨S50000x128, .f32⟩ : BufTy).Contents (Elt F)),
    binary main_v80 main_v66 main_v81 (mulf : (⟨S50000x128, .f32⟩ : BufTy).Contents (Elt F) → (⟨S50000x128, .f32⟩ : BufTy).Contents (Elt F) → (⟨S50000x128, .f32⟩ : BufTy).Contents (Elt F)),
    binary main_v81 main_v76 main_v82 (addf : (⟨S50000x128, .f32⟩ : BufTy).Contents (Elt F) → (⟨S50000x128, .f32⟩ : BufTy).Contents (Elt F) → (⟨S50000x128, .f32⟩ : BufTy).Contents (Elt F)),
    unary main_arg3 main_v83 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v83 main_v84 rfl shapeCasts_S1x128x128_S128x128,
    binary main_v82 main_v84 main_v85 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v86 ((extractStridedSlice S1x128 ![1, 0] · slices_S3x128_S1x128_1_0) : (⟨S3x128, .f32⟩ : BufTy).Contents (Elt F) → (⟨S1x128, .f32⟩ : BufTy).Contents (Elt F)),
    reshape main_v86 main_v87 rfl shapeCasts_S1x128_S128,
    unary main_v87 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v85 main_v89 main_v90 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v90) (TRef.of (T := ⟨S50000x128, .f32⟩) main_call2_v0) (TRef.of (T := ⟨S50000x128, .f32⟩) main_v91) maximumf,
    unary main_arg5 main_v92 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v92 main_v93 rfl shapeCasts_S1x128x128_S128x128,
    binary main_v91 main_v93 main_v94 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v95 ((extractStridedSlice S1x128 ![1, 0] · slices_S3x128_S1x128_1_0) : (⟨S3x128, .f32⟩ : BufTy).Contents (Elt F) → (⟨S1x128, .f32⟩ : BufTy).Contents (Elt F)),
    reshape main_v95 main_v96 rfl shapeCasts_S1x128_S128,
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v94 main_v98 main_v99 (addf : (⟨S50000x128, .f32⟩ : BufTy).Contents (Elt F) → (⟨S50000x128, .f32⟩ : BufTy).Contents (Elt F) → (⟨S50000x128, .f32⟩ : BufTy).Contents (Elt F)) ]

/-- The references they write, in order. -/
abbrev W3 : List (Ref sig .tc) :=
  [ main_c_7, main_v67, main_v68, main_c_8, main_v69, main_v70, main_v71, main_v72, main_v73, main_cst_9,
    main_v74, main_v75, main_v76, main_v77, main_v78, main_cst_10, main_v79, main_v80, main_v81, main_v82,
    main_v83, main_v84, main_v85, main_v86, main_v87, main_v88, main_v89, main_v90, main_call2_cst, main_call2_v0,
    main_v91, main_v92, main_v93, main_v94, main_v95, main_v96, main_v97, main_v98, main_v99 ]

/-- Each touches TensorCore references only. -/
theorem C3_sub : (C3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub .., reshape_bufs_sub .., nullary_bufs_sub ..,
    binary_bufs_sub .., unary_bufs_sub .., binary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub .., binary_bufs_sub ..⟩

/-- Operations 120 … 156 of @main, in order. -/
abbrev C4 : List (HloOp τ sig (Elt F)) :=
  [ nullary main_cst_11 (constant S_ .f32 0x00000000#32),
    binary main_v99 main_cst_11 main_v100 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v101 (broadcastInDim S128 ![] bcast_S_S128 : (⟨S_, .f32⟩ : BufTy).Contents (Elt F) → (⟨S128, .f32⟩ : BufTy).Contents (Elt F)),
    binary main_v100 main_v101 main_v102 (Host.divf : (⟨S128, .f32⟩ : BufTy).Contents (Elt F) → (⟨S128, .f32⟩ : BufTy).Contents (Elt F) → (⟨S128, .f32⟩ : BufTy).Contents (Elt F)),
    unary main_v102 main_v103 (broadcastInDim S1x128 ![1] bcast_S128_S1x128_1 : (⟨S128, .f32⟩ : BufTy).Contents (Elt F) → (⟨S1x128, .f32⟩ : BufTy).Contents (Elt F)),
    unary main_v103 main_v104 (broadcastInDim S50000x128 ![0, 1] bcast_S1x128_S50000x128_0_1 : (⟨S1x128, .f32⟩ : BufTy).Contents (Elt F) → (⟨S50000x128, .f32⟩ : BufTy).Contents (Elt F)),
    binary main_v99 main_v104 main_v105 (subf : (⟨S50000x128, .f32⟩ : BufTy).Contents (Elt F) → (⟨S50000x128, .f32⟩ : BufTy).Contents (Elt F) → (⟨S50000x128, .f32⟩ : BufTy).Contents (Elt F)),
    binary main_v105 main_v105 main_v106 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v106 main_cst_13 main_v107 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_14 (constant S_ .f32 0x47435000#32),
    unary main_cst_14 main_v108 (broadcastInDim S128 ![] bcast_S_S128 : (⟨S_, .f32⟩ : BufTy).Contents (Elt F) → (⟨S128, .f32⟩ : BufTy).Contents (Elt F)),
    binary main_v107 main_v108 main_v109 (Host.divf : (⟨S128, .f32⟩ : BufTy).Contents (Elt F) → (⟨S128, .f32⟩ : BufTy).Contents (Elt F) → (⟨S128, .f32⟩ : BufTy).Contents (Elt F)),
    unary main_v102 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v99 main_v111 main_v112 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v113 (broadcastInDim S128 ![] bcast_S_S128 : (⟨S_, .f32⟩ : BufTy).Contents (Elt F) → (⟨S128, .f32⟩ : BufTy).Contents (Elt F)),
    binary main_v109 main_v113 main_v114 (addf : (⟨S128, .f32⟩ : BufTy).Contents (Elt F) → (⟨S128, .f32⟩ : BufTy).Contents (Elt F) → (⟨S128, .f32⟩ : BufTy).Contents (Elt F)),
    unary main_v114 main_v115 (Host.rsqrt : (⟨S128, .f32⟩ : BufTy).Contents (Elt F) → (⟨S128, .f32⟩ : BufTy).Contents (Elt F)),
    unary main_v115 main_v116 (broadcastInDim S1x128 ![1] bcast_S128_S1x128_1 : (⟨S128, .f32⟩ : BufTy).Contents (Elt F) → (⟨S1x128, .f32⟩ : BufTy).Contents (Elt F)),
    unary main_v116 main_v117 (broadcastInDim S50000x128 ![0, 1] bcast_S1x128_S50000x128_0_1 : (⟨S1x128, .f32⟩ : BufTy).Contents (Elt F) → (⟨S50000x128, .f32⟩ : BufTy).Contents (Elt F)),
    binary main_v112 main_v117 main_v118 (mulf : (⟨S50000x128, .f32⟩ : BufTy).Contents (Elt F) → (⟨S50000x128, .f32⟩ : BufTy).Contents (Elt F) → (⟨S50000x128, .f32⟩ : BufTy).Contents (Elt F)),
    unary main_arg8 main_v119 ((extractStridedSlice S1x128 ![1, 0] · slices_S3x128_S1x128_1_0) : (⟨S3x128, .f32⟩ : BufTy).Contents (Elt F) → (⟨S1x128, .f32⟩ : BufTy).Contents (Elt F)),
    reshape main_v119 main_v120 rfl shapeCasts_S1x128_S128,
    unary main_v120 main_v121 (broadcastInDim S1x128 ![1] bcast_S128_S1x128_1 : (⟨S128, .f32⟩ : BufTy).Contents (Elt F) → (⟨S1x128, .f32⟩ : BufTy).Contents (Elt F)),
    unary main_v121 main_v122 (broadcastInDim S50000x128 ![0, 1] bcast_S1x128_S50000x128_0_1 : (⟨S1x128, .f32⟩ : BufTy).Contents (Elt F) → (⟨S50000x128, .f32⟩ : BufTy).Contents (Elt F)),
    binary main_v118 main_v122 main_v123 (mulf : (⟨S50000x128, .f32⟩ : BufTy).Contents (Elt F) → (⟨S50000x128, .f32⟩ : BufTy).Contents (Elt F) → (⟨S50000x128, .f32⟩ : BufTy).Contents (Elt F)),
    unary main_arg9 main_v124 ((extractStridedSlice S1x128 ![1, 0] · slices_S3x128_S1x128_1_0) : (⟨S3x128, .f32⟩ : BufTy).Contents (Elt F) → (⟨S1x128, .f32⟩ : BufTy).Contents (Elt F)),
    reshape main_v124 main_v125 rfl shapeCasts_S1x128_S128,
    unary main_v125 main_v126 (broadcastInDim S1x128 ![1] bcast_S128_S1x128_1 : (⟨S128, .f32⟩ : BufTy).Contents (Elt F) → (⟨S1x128, .f32⟩ : BufTy).Contents (Elt F)),
    unary main_v126 main_v127 (broadcastInDim S50000x128 ![0, 1] bcast_S1x128_S50000x128_0_1 : (⟨S1x128, .f32⟩ : BufTy).Contents (Elt F) → (⟨S50000x128, .f32⟩ : BufTy).Contents (Elt F)),
    binary main_v123 main_v127 main_v128 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v128) (TRef.of (T := ⟨S50000x128, .f32⟩) main_call3_v0) (TRef.of (T := ⟨S50000x128, .f32⟩) main_v129) maximumf ]

/-- The references they write, in order. -/
abbrev W4 : List (Ref sig .tc) :=
  [ main_cst_11, main_v100, main_cst_12, main_v101, main_v102, main_v103, main_v104, main_v105, main_v106, main_cst_13,
    main_v107, main_cst_14, main_v108, main_v109, main_v110, main_v111, main_v112, main_cst_15, main_v113, main_v114,
    main_v115, main_v116, main_v117, main_v118, main_v119, main_v120, main_v121, main_v122, main_v123, main_v124,
    main_v125, main_v126, main_v127, main_v128, main_call3_cst, main_call3_v0, main_v129 ]

/-- Each touches TensorCore references only. -/
theorem C4_sub : (C4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub .., reshape_bufs_sub .., unary_bufs_sub ..,
    unary_bufs_sub .., binary_bufs_sub .., nullary_bufs_sub .., unary_bufs_sub .., binary_bufs_sub ..⟩

/-- Operations 157 … 195 of @main, in order. -/
abbrev C5 : List (HloOp τ sig (Elt F)) :=
  [ nullary main_c_16 (constantI S_ 32 0#32),
    unary main_c_16 main_v130 (broadcastInDim S800000 ![] bcast_S_S800000 : (⟨S_, .i32⟩ : BufTy).Contents (Elt F) → (⟨S800000, .i32⟩ : BufTy).Contents (Elt F)),
    binary main_v1 main_v130 main_v131 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v132 (broadcastInDim S800000 ![] bcast_S_S800000 : (⟨S_, .i32⟩ : BufTy).Contents (Elt F) → (⟨S800000, .i32⟩ : BufTy).Contents (Elt F)),
    binary main_v1 main_v132 main_v133 (addi : (⟨S800000, .i32⟩ : BufTy).Contents (Elt F) → (⟨S800000, .i32⟩ : BufTy).Contents (Elt F) → (⟨S800000, .i32⟩ : BufTy).Contents (Elt F)),
    ternary main_v131 main_v133 main_v1 main_v134 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v134 main_v135 (broadcastInDim S800000x1 ![0] bcast_S800000_S800000x1_0 : (⟨S800000, .i32⟩ : BufTy).Contents (Elt F) → (⟨S800000x1, .i32⟩ : BufTy).Contents (Elt F)),
    binary main_v129 main_v135 main_v136 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_18 (constant S_ .f32 0x00000000#32),
    unary main_cst_18 main_v137 (broadcastInDim S50000x128 ![] bcast_S_S50000x128 : (⟨S_, .f32⟩ : BufTy).Contents (Elt F) → (⟨S50000x128, .f32⟩ : BufTy).Contents (Elt F)),
    unary main_v3 main_v138 (broadcastInDim S800000x1 ![0] bcast_S800000_S800000x1_0 : (⟨S800000, .i32⟩ : BufTy).Contents (Elt F) → (⟨S800000x1, .i32⟩ : BufTy).Contents (Elt F)),
    ternary main_v137 main_v138 main_v136 main_v139 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg7 main_v140 ((extractStridedSlice S1 ![2] · slices_S3_S1_2) : (⟨S3, .f32⟩ : BufTy).Contents (Elt F) → (⟨S1, .f32⟩ : BufTy).Contents (Elt F)),
    reshape main_v140 main_v141 rfl shapeCasts_S1_S_,
    nullary main_cst_19 (constant S_ .f32 0x3F800000#32),
    binary main_cst_19 main_v141 main_v142 (addf : (⟨S_, .f32⟩ : BufTy).Contents (Elt F) → (⟨S_, .f32⟩ : BufTy).Contents (Elt F) → (⟨S_, .f32⟩ : BufTy).Contents (Elt F)),
    unary main_v142 main_v143 (broadcastInDim S50000x128 ![] bcast_S_S50000x128 : (⟨S_, .f32⟩ : BufTy).Contents (Elt F) → (⟨S50000x128, .f32⟩ : BufTy).Contents (Elt F)),
    binary main_v143 main_v129 main_v144 (mulf : (⟨S50000x128, .f32⟩ : BufTy).Contents (Elt F) → (⟨S50000x128, .f32⟩ : BufTy).Contents (Elt F) → (⟨S50000x128, .f32⟩ : BufTy).Contents (Elt F)),
    binary main_v144 main_v139 main_v145 (addf : (⟨S50000x128, .f32⟩ : BufTy).Contents (Elt F) → (⟨S50000x128, .f32⟩ : BufTy).Contents (Elt F) → (⟨S50000x128, .f32⟩ : BufTy).Contents (Elt F)),
    unary main_arg3 main_v146 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v146 main_v147 rfl shapeCasts_S1x128x128_S128x128,
    binary main_v145 main_v147 main_v148 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v149 ((extractStridedSlice S1x128 ![2, 0] · slices_S3x128_S1x128_2_0) : (⟨S3x128, .f32⟩ : BufTy).Contents (Elt F) → (⟨S1x128, .f32⟩ : BufTy).Contents (Elt F)),
    reshape main_v149 main_v150 rfl shapeCasts_S1x128_S128,
    unary main_v150 main_v151 (broadcastInDim S1x128 ![1] bcast_S128_S1x128_1 : (⟨S128, .f32⟩ : BufTy).Contents (Elt F) → (⟨S1x128, .f32⟩ : BufTy).Contents (Elt F)),
    unary main_v151 main_v152 (broadcastInDim S50000x128 ![0, 1] bcast_S1x128_S50000x128_0_1 : (⟨S1x128, .f32⟩ : BufTy).Contents (Elt F) → (⟨S50000x128, .f32⟩ : BufTy).Contents (Elt F)),
    binary main_v148 main_v152 main_v153 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v153) (TRef.of (T := ⟨S50000x128, .f32⟩) main_call4_v0) (TRef.of (T := ⟨S50000x128, .f32⟩) main_v154) maximumf,
    unary main_arg5 main_v155 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v155 main_v156 rfl shapeCasts_S1x128x128_S128x128,
    binary main_v154 main_v156 main_v157 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v158 ((extractStridedSlice S1x128 ![2, 0] · slices_S3x128_S1x128_2_0) : (⟨S3x128, .f32⟩ : BufTy).Contents (Elt F) → (⟨S1x128, .f32⟩ : BufTy).Contents (Elt F)),
    reshape main_v158 main_v159 rfl shapeCasts_S1x128_S128,
    unary main_v159 main_v160 (broadcastInDim S1x128 ![1] bcast_S128_S1x128_1 : (⟨S128, .f32⟩ : BufTy).Contents (Elt F) → (⟨S1x128, .f32⟩ : BufTy).Contents (Elt F)),
    unary main_v160 main_v161 (broadcastInDim S50000x128 ![0, 1] bcast_S1x128_S50000x128_0_1 : (⟨S1x128, .f32⟩ : BufTy).Contents (Elt F) → (⟨S50000x128, .f32⟩ : BufTy).Contents (Elt F)),
    binary main_v157 main_v161 main_v162 (addf : (⟨S50000x128, .f32⟩ : BufTy).Contents (Elt F) → (⟨S50000x128, .f32⟩ : BufTy).Contents (Elt F) → (⟨S50000x128, .f32⟩ : BufTy).Contents (Elt F)) ]

/-- The references they write, in order. -/
abbrev W5 : List (Ref sig .tc) :=
  [ main_c_16, main_v130, main_v131, main_c_17, main_v132, main_v133, main_v134, main_v135, main_v136, main_cst_18,
    main_v137, main_v138, main_v139, main_v140, main_v141, main_cst_19, main_v142, main_v143, main_v144, main_v145,
    main_v146, main_v147, main_v148, main_v149, main_v150, main_v151, main_v152, main_v153, main_call4_cst, main_call4_v0,
    main_v154, main_v155, main_v156, main_v157, main_v158, main_v159, main_v160, main_v161, main_v162 ]

/-- Each touches TensorCore references only. -/
theorem C5_sub : (C5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub .., reshape_bufs_sub .., nullary_bufs_sub ..,
    binary_bufs_sub .., unary_bufs_sub .., binary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub .., binary_bufs_sub ..⟩

/-- Operations 196 … 229 of @main, in order. -/
abbrev C6 : List (HloOp τ sig (Elt F)) :=
  [ nullary main_cst_20 (constant S_ .f32 0x00000000#32),
    binary main_v162 main_cst_20 main_v163 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_21 (constant S_ .f32 0x47435000#32),
    unary main_cst_21 main_v164 (broadcastInDim S128 ![] bcast_S_S128 : (⟨S_, .f32⟩ : BufTy).Contents (Elt F) → (⟨S128, .f32⟩ : BufTy).Contents (Elt F)),
    binary main_v163 main_v164 main_v165 (Host.divf : (⟨S128, .f32⟩ : BufTy).Contents (Elt F) → (⟨S128, .f32⟩ : BufTy).Contents (Elt F) → (⟨S128, .f32⟩ : BufTy).Contents (Elt F)),
    unary main_v165 main_v166 (broadcastInDim S1x128 ![1] bcast_S128_S1x128_1 : (⟨S128, .f32⟩ : BufTy).Contents (Elt F) → (⟨S1x128, .f32⟩ : BufTy).Contents (Elt F)),
    unary main_v166 main_v167 (broadcastInDim S50000x128 ![0, 1] bcast_S1x128_S50000x128_0_1 : (⟨S1x128, .f32⟩ : BufTy).Contents (Elt F) → (⟨S50000x128, .f32⟩ : BufTy).Contents (Elt F)),
    binary main_v162 main_v167 main_v168 (subf : (⟨S50000x128, .f32⟩ : BufTy).Contents (Elt F) → (⟨S50000x128, .f32⟩ : BufTy).Contents (Elt F) → (⟨S50000x128, .f32⟩ : BufTy).Contents (Elt F)),
    binary main_v168 main_v168 main_v169 (mulf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x00000000#32),
    binary main_v169 main_cst_22 main_v170 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_23 (constant S_ .f32 0x47435000#32),
    unary main_cst_23 main_v171 (broadcastInDim S128 ![] bcast_S_S128 : (⟨S_, .f32⟩ : BufTy).Contents (Elt F) → (⟨S128, .f32⟩ : BufTy).Contents (Elt F)),
    binary main_v170 main_v171 main_v172 (Host.divf : (⟨S128, .f32⟩ : BufTy).Contents (Elt F) → (⟨S128, .f32⟩ : BufTy).Contents (Elt F) → (⟨S128, .f32⟩ : BufTy).Contents (Elt F)),
    unary main_v165 main_v173 (broadcastInDim S1x128 ![1] bcast_S128_S1x128_1 : (⟨S128, .f32⟩ : BufTy).Contents (Elt F) → (⟨S1x128, .f32⟩ : BufTy).Contents (Elt F)),
    unary main_v173 main_v174 (broadcastInDim S50000x128 ![0, 1] bcast_S1x128_S50000x128_0_1 : (⟨S1x128, .f32⟩ : BufTy).Contents (Elt F) → (⟨S50000x128, .f32⟩ : BufTy).Contents (Elt F)),
    binary main_v162 main_v174 main_v175 (subf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x3727C5AC#32),
    unary main_cst_24 main_v176 (broadcastInDim S128 ![] bcast_S_S128 : (⟨S_, .f32⟩ : BufTy).Contents (Elt F) → (⟨S128, .f32⟩ : BufTy).Contents (Elt F)),
    binary main_v172 main_v176 main_v177 (addf : (⟨S128, .f32⟩ : BufTy).Contents (Elt F) → (⟨S128, .f32⟩ : BufTy).Contents (Elt F) → (⟨S128, .f32⟩ : BufTy).Contents (Elt F)),
    unary main_v177 main_v178 (Host.rsqrt : (⟨S128, .f32⟩ : BufTy).Contents (Elt F) → (⟨S128, .f32⟩ : BufTy).Contents (Elt F)),
    unary main_v178 main_v179 (broadcastInDim S1x128 ![1] bcast_S128_S1x128_1 : (⟨S128, .f32⟩ : BufTy).Contents (Elt F) → (⟨S1x128, .f32⟩ : BufTy).Contents (Elt F)),
    unary main_v179 main_v180 (broadcastInDim S50000x128 ![0, 1] bcast_S1x128_S50000x128_0_1 : (⟨S1x128, .f32⟩ : BufTy).Contents (Elt F) → (⟨S50000x128, .f32⟩ : BufTy).Contents (Elt F)),
    binary main_v175 main_v180 main_v181 (mulf : (⟨S50000x128, .f32⟩ : BufTy).Contents (Elt F) → (⟨S50000x128, .f32⟩ : BufTy).Contents (Elt F) → (⟨S50000x128, .f32⟩ : BufTy).Contents (Elt F)),
    unary main_arg8 main_v182 ((extractStridedSlice S1x128 ![2, 0] · slices_S3x128_S1x128_2_0) : (⟨S3x128, .f32⟩ : BufTy).Contents (Elt F) → (⟨S1x128, .f32⟩ : BufTy).Contents (Elt F)),
    reshape main_v182 main_v183 rfl shapeCasts_S1x128_S128,
    unary main_v183 main_v184 (broadcastInDim S1x128 ![1] bcast_S128_S1x128_1 : (⟨S128, .f32⟩ : BufTy).Contents (Elt F) → (⟨S1x128, .f32⟩ : BufTy).Contents (Elt F)),
    unary main_v184 main_v185 (broadcastInDim S50000x128 ![0, 1] bcast_S1x128_S50000x128_0_1 : (⟨S1x128, .f32⟩ : BufTy).Contents (Elt F) → (⟨S50000x128, .f32⟩ : BufTy).Contents (Elt F)),
    binary main_v181 main_v185 main_v186 (mulf : (⟨S50000x128, .f32⟩ : BufTy).Contents (Elt F) → (⟨S50000x128, .f32⟩ : BufTy).Contents (Elt F) → (⟨S50000x128, .f32⟩ : BufTy).Contents (Elt F)),
    unary main_arg9 main_v187 ((extractStridedSlice S1x128 ![2, 0] · slices_S3x128_S1x128_2_0) : (⟨S3x128, .f32⟩ : BufTy).Contents (Elt F) → (⟨S1x128, .f32⟩ : BufTy).Contents (Elt F)),
    reshape main_v187 main_v188 rfl shapeCasts_S1x128_S128,
    unary main_v188 main_v189 (broadcastInDim S1x128 ![1] bcast_S128_S1x128_1 : (⟨S128, .f32⟩ : BufTy).Contents (Elt F) → (⟨S1x128, .f32⟩ : BufTy).Contents (Elt F)),
    unary main_v189 main_v190 (broadcastInDim S50000x128 ![0, 1] bcast_S1x128_S50000x128_0_1 : (⟨S1x128, .f32⟩ : BufTy).Contents (Elt F) → (⟨S50000x128, .f32⟩ : BufTy).Contents (Elt F)),
    binary main_v186 main_v190 main_v191 (addf : (⟨S50000x128, .f32⟩ : BufTy).Contents (Elt F) → (⟨S50000x128, .f32⟩ : BufTy).Contents (Elt F) → (⟨S50000x128, .f32⟩ : BufTy).Contents (Elt F)) ]

/-- The references they write, in order. -/
abbrev W6 : List (Ref sig .tc) :=
  [ main_cst_20, main_v163, main_cst_21, main_v164, main_v165, main_v166, main_v167, main_v168, main_v169, main_cst_22,
    main_v170, main_cst_23, main_v171, main_v172, main_v173, main_v174, main_v175, main_cst_24, main_v176, main_v177,
    main_v178, main_v179, main_v180, main_v181, main_v182, main_v183, main_v184, main_v185, main_v186, main_v187,
    main_v188, main_v189, main_v190, main_v191 ]

/-- Each touches TensorCore references only. -/
theorem C6_sub : (C6 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub .., reshape_bufs_sub .., unary_bufs_sub ..,
    unary_bufs_sub .., binary_bufs_sub ..⟩

/-- Operations 230 … 244 of @main, in order. -/
abbrev C7 : List (HloOp τ sig (Elt F)) :=
  [ nullary main_cst_25 (constant S_ .f32 0x00000000#32),
    unary main_cst_25 main_v192 (broadcastInDim S512x128 ![] bcast_S_S512x128 : (⟨S_, .f32⟩ : BufTy).Contents (Elt F) → (⟨S512x128, .f32⟩ : BufTy).Contents (Elt F)),
    unary main_arg2 main_v193 (broadcastInDim S50000x1 ![0] bcast_S50000_S50000x1_0 : (⟨S50000, .i32⟩ : BufTy).Contents (Elt F) → (⟨S50000x1, .i32⟩ : BufTy).Contents (Elt F)),
    ternary main_v192 main_v193 main_v191 main_v194 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_cst_26 (constant S_ .f32 0x3F800000#32),
    unary main_cst_26 main_v195 (broadcastInDim S50000x1 ![] bcast_S_S50000x1 : (⟨S_, .f32⟩ : BufTy).Contents (Elt F) → (⟨S50000x1, .f32⟩ : BufTy).Contents (Elt F)),
    nullary main_cst_27 (constant S_ .f32 0x00000000#32),
    unary main_cst_27 main_v196 (broadcastInDim S512x1 ![] bcast_S_S512x1 : (⟨S_, .f32⟩ : BufTy).Contents (Elt F) → (⟨S512x1, .f32⟩ : BufTy).Contents (Elt F)),
    unary main_arg2 main_v197 (broadcastInDim S50000x1 ![0] bcast_S50000_S50000x1_0 : (⟨S50000, .i32⟩ : BufTy).Contents (Elt F) → (⟨S50000x1, .i32⟩ : BufTy).Contents (Elt F)),
    ternary main_v196 main_v197 main_v195 main_v198 ((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)),
    nullary main_cst_28 (constant S_ .f32 0x3F800000#32),
    unary main_cst_28 main_v199 (broadcastInDim S512x1 ![] bcast_S_S512x1 : (⟨S_, .f32⟩ : BufTy).Contents (Elt F) → (⟨S512x1, .f32⟩ : BufTy).Contents (Elt F)),
    binary main_v198 main_v199 main_v200 (maximumf : (⟨S512x1, .f32⟩ : BufTy).Contents (Elt F) → (⟨S512x1, .f32⟩ : BufTy).Contents (Elt F) → (⟨S512x1, .f32⟩ : BufTy).Contents (Elt F)),
    unary main_v200 main_v201 (broadcastInDim S512x128 ![0, 1] bcast_S512x1_S512x128_0_1 : (⟨S512x1, .f32⟩ : BufTy).Contents (Elt F) → (⟨S512x128, .f32⟩ : BufTy).Contents (Elt F)),
    binary main_v194 main_v201 main_v202 (Host.divf : (⟨S512x128, .f32⟩ : BufTy).Contents (Elt F) → (⟨S512x128, .f32⟩ : BufTy).Contents (Elt F) → (⟨S512x128, .f32⟩ : BufTy).Contents (Elt F)) ]

/-- The references they write, in order. -/
abbrev W7 : List (Ref sig .tc) :=
  [ main_cst_25, main_v192, main_v193, main_v194, main_cst_26, main_v195, main_cst_27, main_v196, main_v197, main_v198,
    main_cst_28, main_v199, main_v200, main_v201, main_v202 ]

/-- Each touches TensorCore references only. -/
theorem C7_sub : (C7 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub .., binary_bufs_sub ..⟩

end Cert.ReferenceIdeal.ValueH

end
-- ==== Proof.Val.RunHArgs.lean ====
import proofs.«419539_j67095979099186_1_alg».proof.Proof.Val.RunHOps
import Idealize.ShloMosaic.Lib.StableHlo.Run
set_option maxRecDepth 16384
noncomputable section
namespace Cert.ReferenceIdeal.ValueH
open Cert.ReferenceIdeal Cert.ReferenceIdeal.Gen Idealize.ShloMosaic Idealize.ShloMosaic.TcCoe Idealize.SL.Sem Idealize.ShloMosaic.StableHlo
variable {F : FTy → Type} [FloatOps F]
abbrev argRefs : List (Ref sig .tc) :=
  [main_arg0, main_arg1, main_arg2, main_arg3, main_arg4, main_arg5, main_arg6, main_arg7, main_arg8, main_arg9]
abbrev A0 (V : Valuation τ sig (Elt F)) : (⟨S50000x128, .f32⟩ : BufTy).Contents (Elt F) := V (Proc.devRef .tc main_arg0)
abbrev A1 (V : Valuation τ sig (Elt F)) : (⟨S2x800000, .i32⟩ : BufTy).Contents (Elt F) := V (Proc.devRef .tc main_arg1)
abbrev A2 (V : Valuation τ sig (Elt F)) : (⟨S50000, .i32⟩ : BufTy).Contents (Elt F) := V (Proc.devRef .tc main_arg2)
abbrev A3 (V : Valuation τ sig (Elt F)) : (⟨S3x128x128, .f32⟩ : BufTy).Contents (Elt F) := V (Proc.devRef .tc main_arg3)
abbrev A4 (V : Valuation τ sig (Elt F)) : (⟨S3x128, .f32⟩ : BufTy).Contents (Elt F) := V (Proc.devRef .tc main_arg4)
abbrev A5 (V : Valuation τ sig (Elt F)) : (⟨S3x128x128, .f32⟩ : BufTy).Contents (Elt F) := V (Proc.devRef .tc main_arg5)
abbrev A6 (V : Valuation τ sig (Elt F)) : (⟨S3x128, .f32⟩ : BufTy).Contents (Elt F) := V (Proc.devRef .tc main_arg6)
abbrev A7 (V : Valuation τ sig (Elt F)) : (⟨S3, .f32⟩ : BufTy).Contents (Elt F) := V (Proc.devRef .tc main_arg7)
abbrev A8 (V : Valuation τ sig (Elt F)) : (⟨S3x128, .f32⟩ : BufTy).Contents (Elt F) := V (Proc.devRef .tc main_arg8)
abbrev A9 (V : Valuation τ sig (Elt F)) : (⟨S3x128, .f32⟩ : BufTy).Contents (Elt F) := V (Proc.devRef .tc main_arg9)
def Args (V X : Valuation τ sig (Elt F)) : Prop :=
  ∀ r ∈ argRefs, X (Proc.devRef .tc r) = V (Proc.devRef .tc r)
theorem Args.after {V X : Valuation τ sig (Elt F)} (h : Args V X) (ops : List (HloOp τ sig (Elt F))) (W : List (Ref sig .tc))
    (hW : ops.Forall fun op => op.writes ⊆ (W.map (Proc.devRef (τ := τ) .tc)).toFinset) (hn : ∀ r ∈ argRefs, r ∉ W) :
    Args V (StableHlo.after ops X) :=
  fun r hr => (StableHlo.after_of_writes_sub ops X hW (hn r hr)).trans (h r hr)
end Cert.ReferenceIdeal.ValueH
end
-- ==== Proof.Val.ReadP.lean ====
import proofs.«419539_j67095979099186_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws
noncomputable section
namespace Cert.ReferenceIdeal.ReadP
open Cert.ReferenceIdeal Cert.ReferenceIdeal.Gen Idealize.ShloMosaic Idealize.ShloMosaic.TcCoe Idealize.SL.Sem Idealize.ShloMosaic.StableHlo
variable {F : FTy → Type} [FloatOps F]
variable (x0 : (⟨S50000x128, .f32⟩ : BufTy).Contents (Elt F)) (x1 : (⟨S2x800000, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S3x128x128, .f32⟩ : BufTy).Contents (Elt F)) (x6 : (⟨S3x128, .f32⟩ : BufTy).Contents (Elt F)) (x7 : (⟨S3, .f32⟩ : BufTy).Contents (Elt F)) (x8 : (⟨S3x128, .f32⟩ : BufTy).Contents (Elt F)) (x9 : (⟨S3x128, .f32⟩ : BufTy).Contents (Elt F))
def val_main_v0 : (⟨S1x800000, .i32⟩ : BufTy).Contents (Elt F) :=
  extractStridedSlice S1x800000 ![0, 0] (x1) slices_S2x800000_S1x800000_0_0
def val_main_v1 : (⟨S800000, .i32⟩ : BufTy).Contents (Elt F) :=
  shapeCast _ (val_main_v0 (F := F) x1) shapeCasts_S1x800000_S800000
def val_main_v2 : (⟨S1x800000, .i32⟩ : BufTy).Contents (Elt F) :=
  extractStridedSlice S1x800000 ![1, 0] (x1) slices_S2x800000_S1x800000_1_0
def val_main_v3 : (⟨S800000, .i32⟩ : BufTy).Contents (Elt F) :=
  shapeCast _ (val_main_v2 (F := F) x1) shapeCasts_S1x800000_S800000
def val_main_c : (⟨S_, .i32⟩ : BufTy).Contents (Elt F) :=
  constantI S_ 32 0#32
def val_main_v4 : (⟨S800000, .i32⟩ : BufTy).Contents (Elt F) :=
  broadcastInDim S800000 ![] bcast_S_S800000 (val_main_c (F := F))
def val_main_v5 : (⟨S800000, .i1⟩ : BufTy).Contents (Elt F) :=
  cmpi .slt (val_main_v1 (F := F) x1) (val_main_v4 (F := F))
def val_main_c_0 : (⟨S_, .i32⟩ : BufTy).Contents (Elt F) :=
  constantI S_ 32 50000#32
def val_main_v6 : (⟨S800000, .i32⟩ : BufTy).Contents (Elt F) :=
  broadcastInDim S800000 ![] bcast_S_S800000 (val_main_c_0 (F := F))
def val_main_v7 : (⟨S800000, .i32⟩ : BufTy).Contents (Elt F) :=
  addi (val_main_v1 (F := F) x1) (val_main_v6 (F := F))
def val_main_v8 : (⟨S800000, .i32⟩ : BufTy).Contents (Elt F) :=
  select (val_main_v5 (F := F) x1) (val_main_v7 (F := F) x1) (val_main_v1 (F := F) x1)
def val_main_v9 : (⟨S800000x1, .i32⟩ : BufTy).Contents (Elt F) :=
  broadcastInDim S800000x1 ![0] bcast_S800000_S800000x1_0 (val_main_v8 (F := F) x1)
def val_main_v10 : (⟨S800000x128, .f32⟩ : BufTy).Contents (Elt F) :=
  Host.gather gather_S50000x128_S800000x1_S800000x128_1_0_n_n_0_1_1128 (x0) (val_main_v9 (F := F) x1)
def val_main_cst : (⟨S_, .f32⟩ : BufTy).Contents (Elt F) :=
  constant S_ .f32 0x00000000#32
def val_main_v11 : (⟨S50000x128, .f32⟩ : BufTy).Contents (Elt F) :=
  broadcastInDim S50000x128 ![] bcast_S_S50000x128 (val_main_cst (F := F))
def val_main_v12 : (⟨S800000x1, .i32⟩ : BufTy).Contents (Elt F) :=
  broadcastInDim S800000x1 ![0] bcast_S800000_S800000x1_0 (val_main_v3 (F := F) x1)
def val_main_v13 : (⟨S50000x128, .f32⟩ : BufTy).Contents (Elt F) :=
  Host.scatterAdd scatter_S50000x128_S800000x1_S800000x128_1_0_0_1 (val_main_v11 (F := F)) (val_main_v12 (F := F) x1) (val_main_v10 (F := F) x0 x1)
def val_main_v14 : (⟨S1, .f32⟩ : BufTy).Contents (Elt F) :=
  extractStridedSlice S1 ![0] (x7) slices_S3_S1_0
def val_main_v15 : (⟨S_, .f32⟩ : BufTy).Contents (Elt F) :=
  shapeCast _ (val_main_v14 (F := F) x7) shapeCasts_S1_S_
def val_main_cst_1 : (⟨S_, .f32⟩ : BufTy).Contents (Elt F) :=
  constant S_ .f32 0x3F800000#32
def val_main_v16 : (⟨S_, .f32⟩ : BufTy).Contents (Elt F) :=
  addf (val_main_cst_1 (F := F)) (val_main_v15 (F := F) x7)
def val_main_v17 : (⟨S50000x128, .f32⟩ : BufTy).Contents (Elt F) :=
  broadcastInDim S50000x128 ![] bcast_S_S50000x128 (val_main_v16 (F := F) x7)
def val_main_v18 : (⟨S50000x128, .f32⟩ : BufTy).Contents (Elt F) :=
  mulf (val_main_v17 (F := F) x7) (x0)
def val_main_v19 : (⟨S50000x128, .f32⟩ : BufTy).Contents (Elt F) :=
  addf (val_main_v18 (F := F) x0 x7) (val_main_v13 (F := F) x0 x1)
def val_main_v20 : (⟨S1x128x128, .f32⟩ : BufTy).Contents (Elt F) :=
  extractStridedSlice S1x128x128 ![0, 0, 0] (x3) slices_S3x128x128_S1x128x128_0_0_0
def val_main_v21 : (⟨S128x128, .f32⟩ : BufTy).Contents (Elt F) :=
  shapeCast _ (val_main_v20 (F := F) x3) shapeCasts_S1x128x128_S128x128
def val_main_v22 : (⟨S50000x128, .f32⟩ : BufTy).Contents (Elt F) :=
  Host.dotGeneral dot_S50000x128_S128x128_S50000x128_1_0_0_1_n_n none (val_main_v19 (F := F) x0 x1 x7) (val_main_v21 (F := F) x3)
def val_main_v23 : (⟨S1x128, .f32⟩ : BufTy).Contents (Elt F) :=
  extractStridedSlice S1x128 ![0, 0] (x4) slices_S3x128_S1x128_0_0
def val_main_v24 : (⟨S128, .f32⟩ : BufTy).Contents (Elt F) :=
  shapeCast _ (val_main_v23 (F := F) x4) shapeCasts_S1x128_S128
def val_main_v25 : (⟨S1x128, .f32⟩ : BufTy).Contents (Elt F) :=
  broadcastInDim S1x128 ![1] bcast_S128_S1x128_1 (val_main_v24 (F := F) x4)
def val_main_v26 : (⟨S50000x128, .f32⟩ : BufTy).Contents (Elt F) :=
  broadcastInDim S50000x128 ![0, 1] bcast_S1x128_S50000x128_0_1 (val_main_v25 (F := F) x4)
def val_main_v27 : (⟨S50000x128, .f32⟩ : BufTy).Contents (Elt F) :=
  addf (val_main_v22 (F := F) x0 x1 x3 x7) (val_main_v26 (F := F) x4)
def val_main_call0_cst : (⟨S_, .f32⟩ : BufTy).Contents (Elt F) :=
  constant S_ .f32 0x00000000#32
def val_main_call0_v0 : (⟨S50000x128, .f32⟩ : BufTy).Contents (Elt F) :=
  broadcastInDim S50000x128 ![] bcast_S_S50000x128 (val_main_call0_cst (F := F))
def val_main_v28 : (⟨S50000x128, .f32⟩ : BufTy).Contents (Elt F) :=
  maximumf (val_main_v27 (F := F) x0 x1 x3 x4 x7) (val_main_call0_v0 (F := F))
def val_main_v29 : (⟨S1x128x128, .f32⟩ : BufTy).Contents (Elt F) :=
  extractStridedSlice S1x128x128 ![0, 0, 0] (x5) slices_S3x128x128_S1x128x128_0_0_0
def val_main_v30 : (⟨S128x128, .f32⟩ : BufTy).Contents (Elt F) :=
  shapeCast _ (val_main_v29 (F := F) x5) shapeCasts_S1x128x128_S128x128
def val_main_v31 : (⟨S50000x128, .f32⟩ : BufTy).Contents (Elt F) :=
  Host.dotGeneral dot_S50000x128_S128x128_S50000x128_1_0_0_1_n_n none (val_main_v28 (F := F) x0 x1 x3 x4 x7) (val_main_v30 (F := F) x5)
def val_main_v32 : (⟨S1x128, .f32⟩ : BufTy).Contents (Elt F) :=
  extractStridedSlice S1x128 ![0, 0] (x6) slices_S3x128_S1x128_0_0
def val_main_v33 : (⟨S128, .f32⟩ : BufTy).Contents (Elt F) :=
  shapeCast _ (val_main_v32 (F := F) x6) shapeCasts_S1x128_S128
def val_main_v34 : (⟨S1x128, .f32⟩ : BufTy).Contents (Elt F) :=
  broadcastInDim S1x128 ![1] bcast_S128_S1x128_1 (val_main_v33 (F := F) x6)
def val_main_v35 : (⟨S50000x128, .f32⟩ : BufTy).Contents (Elt F) :=
  broadcastInDim S50000x128 ![0, 1] bcast_S1x128_S50000x128_0_1 (val_main_v34 (F := F) x6)
def val_main_v36 : (⟨S50000x128, .f32⟩ : BufTy).Contents (Elt F) :=
  addf (val_main_v31 (F := F) x0 x1 x3 x4 x5 x7) (val_main_v35 (F := F) x6)
def val_main_cst_2 : (⟨S_, .f32⟩ : BufTy).Contents (Elt F) :=
  constant S_ .f32 0x00000000#32
def val_main_v37 : (⟨S128, .f32⟩ : BufTy).Contents (Elt F) :=
  Host.reduceAdd (val_main_v36 (F := F) x0 x1 x3 x4 x5 x6 x7) (val_main_cst_2 (F := F)) reducesTo_S50000x128_S128_d0 h_S_
def val_main_cst_3 : (⟨S_, .f32⟩ : BufTy).Contents (Elt F) :=
  constant S_ .f32 0x47435000#32
def val_main_v38 : (⟨S128, .f32⟩ : BufTy).Contents (Elt F) :=
  broadcastInDim S128 ![] bcast_S_S128 (val_main_cst_3 (F := F))
def val_main_v39 : (⟨S128, .f32⟩ : BufTy).Contents (Elt F) :=
  Host.divf (val_main_v37 (F := F) x0 x1 x3 x4 x5 x6 x7) (val_main_v38 (F := F))
def val_main_v40 : (⟨S1x128, .f32⟩ : BufTy).Contents (Elt F) :=
  broadcastInDim S1x128 ![1] bcast_S128_S1x128_1 (val_main_v39 (F := F) x0 x1 x3 x4 x5 x6 x7)
def val_main_v41 : (⟨S50000x128, .f32⟩ : BufTy).Contents (Elt F) :=
  broadcastInDim S50000x128 ![0, 1] bcast_S1x128_S50000x128_0_1 (val_main_v40 (F := F) x0 x1 x3 x4 x5 x6 x7)
def val_main_v42 : (⟨S50000x128, .f32⟩ : BufTy).Contents (Elt F) :=
  subf (val_main_v36 (F := F) x0 x1 x3 x4 x5 x6 x7) (val_main_v41 (F := F) x0 x1 x3 x4 x5 x6 x7)
def val_main_v43 : (⟨S50000x128, .f32⟩ : BufTy).Contents (Elt F) :=
  mulf (val_main_v42 (F := F) x0 x1 x3 x4 x5 x6 x7) (val_main_v42 (F := F) x0 x1 x3 x4 x5 x6 x7)
def val_main_cst_4 : (⟨S_, .f32⟩ : BufTy).Contents (Elt F) :=
  constant S_ .f32 0x00000000#32
def val_main_v44 : (⟨S128, .f32⟩ : BufTy).Contents (Elt F) :=
  Host.reduceAdd (val_main_v43 (F := F) x0 x1 x3 x4 x5 x6 x7) (val_main_cst_4 (F := F)) reducesTo_S50000x128_S128_d0 h_S_
def val_main_cst_5 : (⟨S_, .f32⟩ : BufTy).Contents (Elt F) :=
  constant S_ .f32 0x47435000#32
def val_main_v45 : (⟨S128, .f32⟩ : BufTy).Contents (Elt F) :=
  broadcastInDim S128 ![] bcast_S_S128 (val_main_cst_5 (F := F))
def val_main_v46 : (⟨S128, .f32⟩ : BufTy).Contents (Elt F) :=
  Host.divf (val_main_v44 (F := F) x0 x1 x3 x4 x5 x6 x7) (val_main_v45 (F := F))
def val_main_v47 : (⟨S1x128, .f32⟩ : BufTy).Contents (Elt F) :=
  broadcastInDim S1x128 ![1] bcast_S128_S1x128_1 (val_main_v39 (F := F) x0 x1 x3 x4 x5 x6 x7)
def val_main_v48 : (⟨S50000x128, .f32⟩ : BufTy).Contents (Elt F) :=
  broadcastInDim S50000x128 ![0, 1] bcast_S1x128_S50000x128_0_1 (val_main_v47 (F := F) x0 x1 x3 x4 x5 x6 x7)
def val_main_v49 : (⟨S50000x128, .f32⟩ : BufTy).Contents (Elt F) :=
  subf (val_main_v36 (F := F) x0 x1 x3 x4 x5 x6 x7) (val_main_v48 (F := F) x0 x1 x3 x4 x5 x6 x7)
def val_main_cst_6 : (⟨S_, .f32⟩ : BufTy).Contents (Elt F) :=
  constant S_ .f32 0x3727C5AC#32
def val_main_v50 : (⟨S128, .f32⟩ : BufTy).Contents (Elt F) :=
  broadcastInDim S128 ![] bcast_S_S128 (val_main_cst_6 (F := F))
def val_main_v51 : (⟨S128, .f32⟩ : BufTy).Contents (Elt F) :=
  addf (val_main_v46 (F := F) x0 x1 x3 x4 x5 x6 x7) (val_main_v50 (F := F))
def val_main_v52 : (⟨S128, .f32⟩ : BufTy).Contents (Elt F) :=
  Host.rsqrt (val_main_v51 (F := F) x0 x1 x3 x4 x5 x6 x7)
def val_main_v53 : (⟨S1x128, .f32⟩ : BufTy).Contents (Elt F) :=
  broadcastInDim S1x128 ![1] bcast_S128_S1x128_1 (val_main_v52 (F := F) x0 x1 x3 x4 x5 x6 x7)
def val_main_v54 : (⟨S50000x128, .f32⟩ : BufTy).Contents (Elt F) :=
  broadcastInDim S50000x128 ![0, 1] bcast_S1x128_S50000x128_0_1 (val_main_v53 (F := F) x0 x1 x3 x4 x5 x6 x7)
def val_main_v55 : (⟨S50000x128, .f32⟩ : BufTy).Contents (Elt F) :=
  mulf (val_main_v49 (F := F) x0 x1 x3 x4 x5 x6 x7) (val_main_v54 (F := F) x0 x1 x3 x4 x5 x6 x7)
def val_main_v56 : (⟨S1x128, .f32⟩ : BufTy).Contents (Elt F) :=
  extractStridedSlice S1x128 ![0, 0] (x8) slices_S3x128_S1x128_0_0
def val_main_v57 : (⟨S128, .f32⟩ : BufTy).Contents (Elt F) :=
  shapeCast _ (val_main_v56 (F := F) x8) shapeCasts_S1x128_S128
def val_main_v58 : (⟨S1x128, .f32⟩ : BufTy).Contents (Elt F) :=
  broadcastInDim S1x128 ![1] bcast_S128_S1x128_1 (val_main_v57 (F := F) x8)
def val_main_v59 : (⟨S50000x128, .f32⟩ : BufTy).Contents (Elt F) :=
  broadcastInDim S50000x128 ![0, 1] bcast_S1x128_S50000x128_0_1 (val_main_v58 (F := F) x8)
def val_main_v60 : (⟨S50000x128, .f32⟩ : BufTy).Contents (Elt F) :=
  mulf (val_main_v55 (F := F) x0 x1 x3 x4 x5 x6 x7) (val_main_v59 (F := F) x8)
def val_main_v61 : (⟨S1x128, .f32⟩ : BufTy).Contents (Elt F) :=
  extractStridedSlice S1x128 ![0, 0] (x9) slices_S3x128_S1x128_0_0
def val_main_v62 : (⟨S128, .f32⟩ : BufTy).Contents (Elt F) :=
  shapeCast _ (val_main_v61 (F := F) x9) shapeCasts_S1x128_S128
def val_main_v63 : (⟨S1x128, .f32⟩ : BufTy).Contents (Elt F) :=
  broadcastInDim S1x128 ![1] bcast_S128_S1x128_1 (val_main_v62 (F := F) x9)
def val_main_v64 : (⟨S50000x128, .f32⟩ : BufTy).Contents (Elt F) :=
  broadcastInDim S50000x128 ![0, 1] bcast_S1x128_S50000x128_0_1 (val_main_v63 (F := F) x9)
def val_main_v65 : (⟨S50000x128, .f32⟩ : BufTy).Contents (Elt F) :=
  addf (val_main_v60 (F := F) x0 x1 x3 x4 x5 x6 x7 x8) (val_main_v64 (F := F) x9)
def val_main_call1_cst : (⟨S_, .f32⟩ : BufTy).Contents (Elt F) :=
  constant S_ .f32 0x00000000#32
def val_main_call1_v0 : (⟨S50000x128, .f32⟩ : BufTy).Contents (Elt F) :=
  broadcastInDim S50000x128 ![] bcast_S_S50000x128 (val_main_call1_cst (F := F))
def val_main_v66 : (⟨S50000x128, .f32⟩ : BufTy).Contents (Elt F) :=
  maximumf (val_main_v65 (F := F) x0 x1 x3 x4 x5 x6 x7 x8 x9) (val_main_call1_v0 (F := F))
def val_main_c_7 : (⟨S_, .i32⟩ : BufTy).Contents (Elt F) :=
  constantI S_ 32 0#32
def val_main_v67 : (⟨S800000, .i32⟩ : BufTy).Contents (Elt F) :=
  broadcastInDim S800000 ![] bcast_S_S800000 (val_main_c_7 (F := F))
def val_main_v68 : (⟨S800000, .i1⟩ : BufTy).Contents (Elt F) :=
  cmpi .slt (val_main_v1 (F := F) x1) (val_main_v67 (F := F))
def val_main_c_8 : (⟨S_, .i32⟩ : BufTy).Contents (Elt F) :=
  constantI S_ 32 50000#32
def val_main_v69 : (⟨S800000, .i32⟩ : BufTy).Contents (Elt F) :=
  broadcastInDim S800000 ![] bcast_S_S800000 (val_main_c_8 (F := F))
def val_main_v70 : (⟨S800000, .i32⟩ : BufTy).Contents (Elt F) :=
  addi (val_main_v1 (F := F) x1) (val_main_v69 (F := F))
def val_main_v71 : (⟨S800000, .i32⟩ : BufTy).Contents (Elt F) :=
  select (val_main_v68 (F := F) x1) (val_main_v70 (F := F) x1) (val_main_v1 (F := F) x1)
def val_main_v72 : (⟨S800000x1, .i32⟩ : BufTy).Contents (Elt F) :=
  broadcastInDim S800000x1 ![0] bcast_S800000_S800000x1_0 (val_main_v71 (F := F) x1)
def val_main_v73 : (⟨S800000x128, .f32⟩ : BufTy).Contents (Elt F) :=
  Host.gather gather_S50000x128_S800000x1_S800000x128_1_0_n_n_0_1_1128 (val_main_v66 (F := F) x0 x1 x3 x4 x5 x6 x7 x8 x9) (val_main_v72 (F := F) x1)
def val_main_cst_9 : (⟨S_, .f32⟩ : BufTy).Contents (Elt F) :=
  constant S_ .f32 0x00000000#32
def val_main_v74 : (⟨S50000x128, .f32⟩ : BufTy).Contents (Elt F) :=
  broadcastInDim S50000x128 ![] bcast_S_S50000x128 (val_main_cst_9 (F := F))
def val_main_v75 : (⟨S800000x1, .i32⟩ : BufTy).Contents (Elt F) :=
  broadcastInDim S800000x1 ![0] bcast_S800000_S800000x1_0 (val_main_v3 (F := F) x1)
def val_main_v76 : (⟨S50000x128, .f32⟩ : BufTy).Contents (Elt F) :=
  Host.scatterAdd scatter_S50000x128_S800000x1_S800000x128_1_0_0_1 (val_main_v74 (F := F)) (val_main_v75 (F := F) x1) (val_main_v73 (F := F) x0 x1 x3 x4 x5 x6 x7 x8 x9)
def val_main_v77 : (⟨S1, .f32⟩ : BufTy).Contents (Elt F) :=
  extractStridedSlice S1 ![1] (x7) slices_S3_S1_1
def val_main_v78 : (⟨S_, .f32⟩ : BufTy).Contents (Elt F) :=
  shapeCast _ (val_main_v77 (F := F) x7) shapeCasts_S1_S_
def val_main_cst_10 : (⟨S_, .f32⟩ : BufTy).Contents (Elt F) :=
  constant S_ .f32 0x3F800000#32
def val_main_v79 : (⟨S_, .f32⟩ : BufTy).Contents (Elt F) :=
  addf (val_main_cst_10 (F := F)) (val_main_v78 (F := F) x7)
def val_main_v80 : (⟨S50000x128, .f32⟩ : BufTy).Contents (Elt F) :=
  broadcastInDim S50000x128 ![] bcast_S_S50000x128 (val_main_v79 (F := F) x7)
def val_main_v81 : (⟨S50000x128, .f32⟩ : BufTy).Contents (Elt F) :=
  mulf (val_main_v80 (F := F) x7) (val_main_v66 (F := F) x0 x1 x3 x4 x5 x6 x7 x8 x9)
def val_main_v82 : (⟨S50000x128, .f32⟩ : BufTy).Contents (Elt F) :=
  addf (val_main_v81 (F := F) x0 x1 x3 x4 x5 x6 x7 x8 x9) (val_main_v76 (F := F) x0 x1 x3 x4 x5 x6 x7 x8 x9)
def val_main_v83 : (⟨S1x128x128, .f32⟩ : BufTy).Contents (Elt F) :=
  extractStridedSlice S1x128x128 ![1, 0, 0] (x3) slices_S3x128x128_S1x128x128_1_0_0
def val_main_v84 : (⟨S128x128, .f32⟩ : BufTy).Contents (Elt F) :=
  shapeCast _ (val_main_v83 (F := F) x3) shapeCasts_S1x128x128_S128x128
def val_main_v85 : (⟨S50000x128, .f32⟩ : BufTy).Contents (Elt F) :=
  Host.dotGeneral dot_S50000x128_S128x128_S50000x128_1_0_0_1_n_n none (val_main_v82 (F := F) x0 x1 x3 x4 x5 x6 x7 x8 x9) (val_main_v84 (F := F) x3)
def val_main_v86 : (⟨S1x128, .f32⟩ : BufTy).Contents (Elt F) :=
  extractStridedSlice S1x128 ![1, 0] (x4) slices_S3x128_S1x128_1_0
def val_main_v87 : (⟨S128, .f32⟩ : BufTy).Contents (Elt F) :=
  shapeCast _ (val_main_v86 (F := F) x4) shapeCasts_S1x128_S128
def val_main_v88 : (⟨S1x128, .f32⟩ : BufTy).Contents (Elt F) :=
  broadcastInDim S1x128 ![1] bcast_S128_S1x128_1 (val_main_v87 (F := F) x4)
def val_main_v89 : (⟨S50000x128, .f32⟩ : BufTy).Contents (Elt F) :=
  broadcastInDim S50000x128 ![0, 1] bcast_S1x128_S50000x128_0_1 (val_main_v88 (F := F) x4)
def val_main_v90 : (⟨S50000x128, .f32⟩ : BufTy).Contents (Elt F) :=
  addf (val_main_v85 (F := F) x0 x1 x3 x4 x5 x6 x7 x8 x9) (val_main_v89 (F := F) x4)
def val_main_call2_cst : (⟨S_, .f32⟩ : BufTy).Contents (Elt F) :=
  constant S_ .f32 0x00000000#32
def val_main_call2_v0 : (⟨S50000x128, .f32⟩ : BufTy).Contents (Elt F) :=
  broadcastInDim S50000x128 ![] bcast_S_S50000x128 (val_main_call2_cst (F := F))
def val_main_v91 : (⟨S50000x128, .f32⟩ : BufTy).Contents (Elt F) :=
  maximumf (val_main_v90 (F := F) x0 x1 x3 x4 x5 x6 x7 x8 x9) (val_main_call2_v0 (F := F))
def val_main_v92 : (⟨S1x128x128, .f32⟩ : BufTy).Contents (Elt F) :=
  extractStridedSlice S1x128x128 ![1, 0, 0] (x5) slices_S3x128x128_S1x128x128_1_0_0
def val_main_v93 : (⟨S128x128, .f32⟩ : BufTy).Contents (Elt F) :=
  shapeCast _ (val_main_v92 (F := F) x5) shapeCasts_S1x128x128_S128x128
def val_main_v94 : (⟨S50000x128, .f32⟩ : BufTy).Contents (Elt F) :=
  Host.dotGeneral dot_S50000x128_S128x128_S50000x128_1_0_0_1_n_n none (val_main_v91 (F := F) x0 x1 x3 x4 x5 x6 x7 x8 x9) (val_main_v93 (F := F) x5)
def val_main_v95 : (⟨S1x128, .f32⟩ : BufTy).Contents (Elt F) :=
  extractStridedSlice S1x128 ![1, 0] (x6) slices_S3x128_S1x128_1_0
def val_main_v96 : (⟨S128, .f32⟩ : BufTy).Contents (Elt F) :=
  shapeCast _ (val_main_v95 (F := F) x6) shapeCasts_S1x128_S128
def val_main_v97 : (⟨S1x128, .f32⟩ : BufTy).Contents (Elt F) :=
  broadcastInDim S1x128 ![1] bcast_S128_S1x128_1 (val_main_v96 (F := F) x6)
def val_main_v98 : (⟨S50000x128, .f32⟩ : BufTy).Contents (Elt F) :=
  broadcastInDim S50000x128 ![0, 1] bcast_S1x128_S50000x128_0_1 (val_main_v97 (F := F) x6)
def val_main_v99 : (⟨S50000x128, .f32⟩ : BufTy).Contents (Elt F) :=
  addf (val_main_v94 (F := F) x0 x1 x3 x4 x5 x6 x7 x8 x9) (val_main_v98 (F := F) x6)
def val_main_cst_11 : (⟨S_, .f32⟩ : BufTy).Contents (Elt F) :=
  constant S_ .f32 0x00000000#32
def val_main_v100 : (⟨S128, .f32⟩ : BufTy).Contents (Elt F) :=
  Host.reduceAdd (val_main_v99 (F := F) x0 x1 x3 x4 x5 x6 x7 x8 x9) (val_main_cst_11 (F := F)) reducesTo_S50000x128_S128_d0 h_S_
def val_main_cst_12 : (⟨S_, .f32⟩ : BufTy).Contents (Elt F) :=
  constant S_ .f32 0x47435000#32
def val_main_v101 : (⟨S128, .f32⟩ : BufTy).Contents (Elt F) :=
  broadcastInDim S128 ![] bcast_S_S128 (val_main_cst_12 (F := F))
def val_main_v102 : (⟨S128, .f32⟩ : BufTy).Contents (Elt F) :=
  Host.divf (val_main_v100 (F := F) x0 x1 x3 x4 x5 x6 x7 x8 x9) (val_main_v101 (F := F))
def val_main_v103 : (⟨S1x128, .f32⟩ : BufTy).Contents (Elt F) :=
  broadcastInDim S1x128 ![1] bcast_S128_S1x128_1 (val_main_v102 (F := F) x0 x1 x3 x4 x5 x6 x7 x8 x9)
def val_main_v104 : (⟨S50000x128, .f32⟩ : BufTy).Contents (Elt F) :=
  broadcastInDim S50000x128 ![0, 1] bcast_S1x128_S50000x128_0_1 (val_main_v103 (F := F) x0 x1 x3 x4 x5 x6 x7 x8 x9)
def val_main_v105 : (⟨S50000x128, .f32⟩ : BufTy).Contents (Elt F) :=
  subf (val_main_v99 (F := F) x0 x1 x3 x4 x5 x6 x7 x8 x9) (val_main_v104 (F := F) x0 x1 x3 x4 x5 x6 x7 x8 x9)
def val_main_v106 : (⟨S50000x128, .f32⟩ : BufTy).Contents (Elt F) :=
  mulf (val_main_v105 (F := F) x0 x1 x3 x4 x5 x6 x7 x8 x9) (val_main_v105 (F := F) x0 x1 x3 x4 x5 x6 x7 x8 x9)
def val_main_cst_13 : (⟨S_, .f32⟩ : BufTy).Contents (Elt F) :=
  constant S_ .f32 0x00000000#32
def val_main_v107 : (⟨S128, .f32⟩ : BufTy).Contents (Elt F) :=
  Host.reduceAdd (val_main_v106 (F := F) x0 x1 x3 x4 x5 x6 x7 x8 x9) (val_main_cst_13 (F := F)) reducesTo_S50000x128_S128_d0 h_S_
def val_main_cst_14 : (⟨S_, .f32⟩ : BufTy).Contents (Elt F) :=
  constant S_ .f32 0x47435000#32
def val_main_v108 : (⟨S128, .f32⟩ : BufTy).Contents (Elt F) :=
  broadcastInDim S128 ![] bcast_S_S128 (val_main_cst_14 (F := F))
def val_main_v109 : (⟨S128, .f32⟩ : BufTy).Contents (Elt F) :=
  Host.divf (val_main_v107 (F := F) x0 x1 x3 x4 x5 x6 x7 x8 x9) (val_main_v108 (F := F))
def val_main_v110 : (⟨S1x128, .f32⟩ : BufTy).Contents (Elt F) :=
  broadcastInDim S1x128 ![1] bcast_S128_S1x128_1 (val_main_v102 (F := F) x0 x1 x3 x4 x5 x6 x7 x8 x9)
def val_main_v111 : (⟨S50000x128, .f32⟩ : BufTy).Contents (Elt F) :=
  broadcastInDim S50000x128 ![0, 1] bcast_S1x128_S50000x128_0_1 (val_main_v110 (F := F) x0 x1 x3 x4 x5 x6 x7 x8 x9)
def val_main_v112 : (⟨S50000x128, .f32⟩ : BufTy).Contents (Elt F) :=
  subf (val_main_v99 (F := F) x0 x1 x3 x4 x5 x6 x7 x8 x9) (val_main_v111 (F := F) x0 x1 x3 x4 x5 x6 x7 x8 x9)
def val_main_cst_15 : (⟨S_, .f32⟩ : BufTy).Contents (Elt F) :=
  constant S_ .f32 0x3727C5AC#32
def val_main_v113 : (⟨S128, .f32⟩ : BufTy).Contents (Elt F) :=
  broadcastInDim S128 ![] bcast_S_S128 (val_main_cst_15 (F := F))
def val_main_v114 : (⟨S128, .f32⟩ : BufTy).Contents (Elt F) :=
  addf (val_main_v109 (F := F) x0 x1 x3 x4 x5 x6 x7 x8 x9) (val_main_v113 (F := F))
def val_main_v115 : (⟨S128, .f32⟩ : BufTy).Contents (Elt F) :=
  Host.rsqrt (val_main_v114 (F := F) x0 x1 x3 x4 x5 x6 x7 x8 x9)
def val_main_v116 : (⟨S1x128, .f32⟩ : BufTy).Contents (Elt F) :=
  broadcastInDim S1x128 ![1] bcast_S128_S1x128_1 (val_main_v115 (F := F) x0 x1 x3 x4 x5 x6 x7 x8 x9)
def val_main_v117 : (⟨S50000x128, .f32⟩ : BufTy).Contents (Elt F) :=
  broadcastInDim S50000x128 ![0, 1] bcast_S1x128_S50000x128_0_1 (val_main_v116 (F := F) x0 x1 x3 x4 x5 x6 x7 x8 x9)
def val_main_v118 : (⟨S50000x128, .f32⟩ : BufTy).Contents (Elt F) :=
  mulf (val_main_v112 (F := F) x0 x1 x3 x4 x5 x6 x7 x8 x9) (val_main_v117 (F := F) x0 x1 x3 x4 x5 x6 x7 x8 x9)
def val_main_v119 : (⟨S1x128, .f32⟩ : BufTy).Contents (Elt F) :=
  extractStridedSlice S1x128 ![1, 0] (x8) slices_S3x128_S1x128_1_0
def val_main_v120 : (⟨S128, .f32⟩ : BufTy).Contents (Elt F) :=
  shapeCast _ (val_main_v119 (F := F) x8) shapeCasts_S1x128_S128
def val_main_v121 : (⟨S1x128, .f32⟩ : BufTy).Contents (Elt F) :=
  broadcastInDim S1x128 ![1] bcast_S128_S1x128_1 (val_main_v120 (F := F) x8)
def val_main_v122 : (⟨S50000x128, .f32⟩ : BufTy).Contents (Elt F) :=
  broadcastInDim S50000x128 ![0, 1] bcast_S1x128_S50000x128_0_1 (val_main_v121 (F := F) x8)
def val_main_v123 : (⟨S50000x128, .f32⟩ : BufTy).Contents (Elt F) :=
  mulf (val_main_v118 (F := F) x0 x1 x3 x4 x5 x6 x7 x8 x9) (val_main_v122 (F := F) x8)
def val_main_v124 : (⟨S1x128, .f32⟩ : BufTy).Contents (Elt F) :=
  extractStridedSlice S1x128 ![1, 0] (x9) slices_S3x128_S1x128_1_0
def val_main_v125 : (⟨S128, .f32⟩ : BufTy).Contents (Elt F) :=
  shapeCast _ (val_main_v124 (F := F) x9) shapeCasts_S1x128_S128
def val_main_v126 : (⟨S1x128, .f32⟩ : BufTy).Contents (Elt F) :=
  broadcastInDim S1x128 ![1] bcast_S128_S1x128_1 (val_main_v125 (F := F) x9)
def val_main_v127 : (⟨S50000x128, .f32⟩ : BufTy).Contents (Elt F) :=
  broadcastInDim S50000x128 ![0, 1] bcast_S1x128_S50000x128_0_1 (val_main_v126 (F := F) x9)
def val_main_v128 : (⟨S50000x128, .f32⟩ : BufTy).Contents (Elt F) :=
  addf (val_main_v123 (F := F) x0 x1 x3 x4 x5 x6 x7 x8 x9) (val_main_v127 (F := F) x9)
def val_main_call3_cst : (⟨S_, .f32⟩ : BufTy).Contents (Elt F) :=
  constant S_ .f32 0x00000000#32
def val_main_call3_v0 : (⟨S50000x128, .f32⟩ : BufTy).Contents (Elt F) :=
  broadcastInDim S50000x128 ![] bcast_S_S50000x128 (val_main_call3_cst (F := F))
def val_main_v129 : (⟨S50000x128, .f32⟩ : BufTy).Contents (Elt F) :=
  maximumf (val_main_v128 (F := F) x0 x1 x3 x4 x5 x6 x7 x8 x9) (val_main_call3_v0 (F := F))
def val_main_c_16 : (⟨S_, .i32⟩ : BufTy).Contents (Elt F) :=
  constantI S_ 32 0#32
def val_main_v130 : (⟨S800000, .i32⟩ : BufTy).Contents (Elt F) :=
  broadcastInDim S800000 ![] bcast_S_S800000 (val_main_c_16 (F := F))
def val_main_v131 : (⟨S800000, .i1⟩ : BufTy).Contents (Elt F) :=
  cmpi .slt (val_main_v1 (F := F) x1) (val_main_v130 (F := F))
def val_main_c_17 : (⟨S_, .i32⟩ : BufTy).Contents (Elt F) :=
  constantI S_ 32 50000#32
def val_main_v132 : (⟨S800000, .i32⟩ : BufTy).Contents (Elt F) :=
  broadcastInDim S800000 ![] bcast_S_S800000 (val_main_c_17 (F := F))
def val_main_v133 : (⟨S800000, .i32⟩ : BufTy).Contents (Elt F) :=
  addi (val_main_v1 (F := F) x1) (val_main_v132 (F := F))
def val_main_v134 : (⟨S800000, .i32⟩ : BufTy).Contents (Elt F) :=
  select (val_main_v131 (F := F) x1) (val_main_v133 (F := F) x1) (val_main_v1 (F := F) x1)
def val_main_v135 : (⟨S800000x1, .i32⟩ : BufTy).Contents (Elt F) :=
  broadcastInDim S800000x1 ![0] bcast_S800000_S800000x1_0 (val_main_v134 (F := F) x1)
def val_main_v136 : (⟨S800000x128, .f32⟩ : BufTy).Contents (Elt F) :=
  Host.gather gather_S50000x128_S800000x1_S800000x128_1_0_n_n_0_1_1128 (val_main_v129 (F := F) x0 x1 x3 x4 x5 x6 x7 x8 x9) (val_main_v135 (F := F) x1)
def val_main_cst_18 : (⟨S_, .f32⟩ : BufTy).Contents (Elt F) :=
  constant S_ .f32 0x00000000#32
def val_main_v137 : (⟨S50000x128, .f32⟩ : BufTy).Contents (Elt F) :=
  broadcastInDim S50000x128 ![] bcast_S_S50000x128 (val_main_cst_18 (F := F))
def val_main_v138 : (⟨S800000x1, .i32⟩ : BufTy).Contents (Elt F) :=
  broadcastInDim S800000x1 ![0] bcast_S800000_S800000x1_0 (val_main_v3 (F := F) x1)
def val_main_v139 : (⟨S50000x128, .f32⟩ : BufTy).Contents (Elt F) :=
  Host.scatterAdd scatter_S50000x128_S800000x1_S800000x128_1_0_0_1 (val_main_v137 (F := F)) (val_main_v138 (F := F) x1) (val_main_v136 (F := F) x0 x1 x3 x4 x5 x6 x7 x8 x9)
def val_main_v140 : (⟨S1, .f32⟩ : BufTy).Contents (Elt F) :=
  extractStridedSlice S1 ![2] (x7) slices_S3_S1_2
def val_main_v141 : (⟨S_, .f32⟩ : BufTy).Contents (Elt F) :=
  shapeCast _ (val_main_v140 (F := F) x7) shapeCasts_S1_S_
def val_main_cst_19 : (⟨S_, .f32⟩ : BufTy).Contents (Elt F) :=
  constant S_ .f32 0x3F800000#32
def val_main_v142 : (⟨S_, .f32⟩ : BufTy).Contents (Elt F) :=
  addf (val_main_cst_19 (F := F)) (val_main_v141 (F := F) x7)
def val_main_v143 : (⟨S50000x128, .f32⟩ : BufTy).Contents (Elt F) :=
  broadcastInDim S50000x128 ![] bcast_S_S50000x128 (val_main_v142 (F := F) x7)
def val_main_v144 : (⟨S50000x128, .f32⟩ : BufTy).Contents (Elt F) :=
  mulf (val_main_v143 (F := F) x7) (val_main_v129 (F := F) x0 x1 x3 x4 x5 x6 x7 x8 x9)
def val_main_v145 : (⟨S50000x128, .f32⟩ : BufTy).Contents (Elt F) :=
  addf (val_main_v144 (F := F) x0 x1 x3 x4 x5 x6 x7 x8 x9) (val_main_v139 (F := F) x0 x1 x3 x4 x5 x6 x7 x8 x9)
def val_main_v146 : (⟨S1x128x128, .f32⟩ : BufTy).Contents (Elt F) :=
  extractStridedSlice S1x128x128 ![2, 0, 0] (x3) slices_S3x128x128_S1x128x128_2_0_0
def val_main_v147 : (⟨S128x128, .f32⟩ : BufTy).Contents (Elt F) :=
  shapeCast _ (val_main_v146 (F := F) x3) shapeCasts_S1x128x128_S128x128
def val_main_v148 : (⟨S50000x128, .f32⟩ : BufTy).Contents (Elt F) :=
  Host.dotGeneral dot_S50000x128_S128x128_S50000x128_1_0_0_1_n_n none (val_main_v145 (F := F) x0 x1 x3 x4 x5 x6 x7 x8 x9) (val_main_v147 (F := F) x3)
def val_main_v149 : (⟨S1x128, .f32⟩ : BufTy).Contents (Elt F) :=
  extractStridedSlice S1x128 ![2, 0] (x4) slices_S3x128_S1x128_2_0
def val_main_v150 : (⟨S128, .f32⟩ : BufTy).Contents (Elt F) :=
  shapeCast _ (val_main_v149 (F := F) x4) shapeCasts_S1x128_S128
def val_main_v151 : (⟨S1x128, .f32⟩ : BufTy).Contents (Elt F) :=
  broadcastInDim S1x128 ![1] bcast_S128_S1x128_1 (val_main_v150 (F := F) x4)
def val_main_v152 : (⟨S50000x128, .f32⟩ : BufTy).Contents (Elt F) :=
  broadcastInDim S50000x128 ![0, 1] bcast_S1x128_S50000x128_0_1 (val_main_v151 (F := F) x4)
def val_main_v153 : (⟨S50000x128, .f32⟩ : BufTy).Contents (Elt F) :=
  addf (val_main_v148 (F := F) x0 x1 x3 x4 x5 x6 x7 x8 x9) (val_main_v152 (F := F) x4)
def val_main_call4_cst : (⟨S_, .f32⟩ : BufTy).Contents (Elt F) :=
  constant S_ .f32 0x00000000#32
def val_main_call4_v0 : (⟨S50000x128, .f32⟩ : BufTy).Contents (Elt F) :=
  broadcastInDim S50000x128 ![] bcast_S_S50000x128 (val_main_call4_cst (F := F))
def val_main_v154 : (⟨S50000x128, .f32⟩ : BufTy).Contents (Elt F) :=
  maximumf (val_main_v153 (F := F) x0 x1 x3 x4 x5 x6 x7 x8 x9) (val_main_call4_v0 (F := F))
def val_main_v155 : (⟨S1x128x128, .f32⟩ : BufTy).Contents (Elt F) :=
  extractStridedSlice S1x128x128 ![2, 0, 0] (x5) slices_S3x128x128_S1x128x128_2_0_0
def val_main_v156 : (⟨S128x128, .f32⟩ : BufTy).Contents (Elt F) :=
  shapeCast _ (val_main_v155 (F := F) x5) shapeCasts_S1x128x128_S128x128
def val_main_v157 : (⟨S50000x128, .f32⟩ : BufTy).Contents (Elt F) :=
  Host.dotGeneral dot_S50000x128_S128x128_S50000x128_1_0_0_1_n_n none (val_main_v154 (F := F) x0 x1 x3 x4 x5 x6 x7 x8 x9) (val_main_v156 (F := F) x5)
def val_main_v158 : (⟨S1x128, .f32⟩ : BufTy).Contents (Elt F) :=
  extractStridedSlice S1x128 ![2, 0] (x6) slices_S3x128_S1x128_2_0
def val_main_v159 : (⟨S128, .f32⟩ : BufTy).Contents (Elt F) :=
  shapeCast _ (val_main_v158 (F := F) x6) shapeCasts_S1x128_S128
def val_main_v160 : (⟨S1x128, .f32⟩ : BufTy).Contents (Elt F) :=
  broadcastInDim S1x128 ![1] bcast_S128_S1x128_1 (val_main_v159 (F := F) x6)
def val_main_v161 : (⟨S50000x128, .f32⟩ : BufTy).Contents (Elt F) :=
  broadcastInDim S50000x128 ![0, 1] bcast_S1x128_S50000x128_0_1 (val_main_v160 (F := F) x6)
def val_main_v162 : (⟨S50000x128, .f32⟩ : BufTy).Contents (Elt F) :=
  addf (val_main_v157 (F := F) x0 x1 x3 x4 x5 x6 x7 x8 x9) (val_main_v161 (F := F) x6)
def val_main_cst_20 : (⟨S_, .f32⟩ : BufTy).Contents (Elt F) :=
  constant S_ .f32 0x00000000#32
def val_main_v163 : (⟨S128, .f32⟩ : BufTy).Contents (Elt F) :=
  Host.reduceAdd (val_main_v162 (F := F) x0 x1 x3 x4 x5 x6 x7 x8 x9) (val_main_cst_20 (F := F)) reducesTo_S50000x128_S128_d0 h_S_
def val_main_cst_21 : (⟨S_, .f32⟩ : BufTy).Contents (Elt F) :=
  constant S_ .f32 0x47435000#32
def val_main_v164 : (⟨S128, .f32⟩ : BufTy).Contents (Elt F) :=
  broadcastInDim S128 ![] bcast_S_S128 (val_main_cst_21 (F := F))
def val_main_v165 : (⟨S128, .f32⟩ : BufTy).Contents (Elt F) :=
  Host.divf (val_main_v163 (F := F) x0 x1 x3 x4 x5 x6 x7 x8 x9) (val_main_v164 (F := F))
def val_main_v166 : (⟨S1x128, .f32⟩ : BufTy).Contents (Elt F) :=
  broadcastInDim S1x128 ![1] bcast_S128_S1x128_1 (val_main_v165 (F := F) x0 x1 x3 x4 x5 x6 x7 x8 x9)
def val_main_v167 : (⟨S50000x128, .f32⟩ : BufTy).Contents (Elt F) :=
  broadcastInDim S50000x128 ![0, 1] bcast_S1x128_S50000x128_0_1 (val_main_v166 (F := F) x0 x1 x3 x4 x5 x6 x7 x8 x9)
def val_main_v168 : (⟨S50000x128, .f32⟩ : BufTy).Contents (Elt F) :=
  subf (val_main_v162 (F := F) x0 x1 x3 x4 x5 x6 x7 x8 x9) (val_main_v167 (F := F) x0 x1 x3 x4 x5 x6 x7 x8 x9)
def val_main_v169 : (⟨S50000x128, .f32⟩ : BufTy).Contents (Elt F) :=
  mulf (val_main_v168 (F := F) x0 x1 x3 x4 x5 x6 x7 x8 x9) (val_main_v168 (F := F) x0 x1 x3 x4 x5 x6 x7 x8 x9)
def val_main_cst_22 : (⟨S_, .f32⟩ : BufTy).Contents (Elt F) :=
  constant S_ .f32 0x00000000#32
def val_main_v170 : (⟨S128, .f32⟩ : BufTy).Contents (Elt F) :=
  Host.reduceAdd (val_main_v169 (F := F) x0 x1 x3 x4 x5 x6 x7 x8 x9) (val_main_cst_22 (F := F)) reducesTo_S50000x128_S128_d0 h_S_
def val_main_cst_23 : (⟨S_, .f32⟩ : BufTy).Contents (Elt F) :=
  constant S_ .f32 0x47435000#32
def val_main_v171 : (⟨S128, .f32⟩ : BufTy).Contents (Elt F) :=
  broadcastInDim S128 ![] bcast_S_S128 (val_main_cst_23 (F := F))
def val_main_v172 : (⟨S128, .f32⟩ : BufTy).Contents (Elt F) :=
  Host.divf (val_main_v170 (F := F) x0 x1 x3 x4 x5 x6 x7 x8 x9) (val_main_v171 (F := F))
def val_main_v173 : (⟨S1x128, .f32⟩ : BufTy).Contents (Elt F) :=
  broadcastInDim S1x128 ![1] bcast_S128_S1x128_1 (val_main_v165 (F := F) x0 x1 x3 x4 x5 x6 x7 x8 x9)
def val_main_v174 : (⟨S50000x128, .f32⟩ : BufTy).Contents (Elt F) :=
  broadcastInDim S50000x128 ![0, 1] bcast_S1x128_S50000x128_0_1 (val_main_v173 (F := F) x0 x1 x3 x4 x5 x6 x7 x8 x9)
def val_main_v175 : (⟨S50000x128, .f32⟩ : BufTy).Contents (Elt F) :=
  subf (val_main_v162 (F := F) x0 x1 x3 x4 x5 x6 x7 x8 x9) (val_main_v174 (F := F) x0 x1 x3 x4 x5 x6 x7 x8 x9)
def val_main_cst_24 : (⟨S_, .f32⟩ : BufTy).Contents (Elt F) :=
  constant S_ .f32 0x3727C5AC#32
def val_main_v176 : (⟨S128, .f32⟩ : BufTy).Contents (Elt F) :=
  broadcastInDim S128 ![] bcast_S_S128 (val_main_cst_24 (F := F))
def val_main_v177 : (⟨S128, .f32⟩ : BufTy).Contents (Elt F) :=
  addf (val_main_v172 (F := F) x0 x1 x3 x4 x5 x6 x7 x8 x9) (val_main_v176 (F := F))
def val_main_v178 : (⟨S128, .f32⟩ : BufTy).Contents (Elt F) :=
  Host.rsqrt (val_main_v177 (F := F) x0 x1 x3 x4 x5 x6 x7 x8 x9)
def val_main_v179 : (⟨S1x128, .f32⟩ : BufTy).Contents (Elt F) :=
  broadcastInDim S1x128 ![1] bcast_S128_S1x128_1 (val_main_v178 (F := F) x0 x1 x3 x4 x5 x6 x7 x8 x9)
def val_main_v180 : (⟨S50000x128, .f32⟩ : BufTy).Contents (Elt F) :=
  broadcastInDim S50000x128 ![0, 1] bcast_S1x128_S50000x128_0_1 (val_main_v179 (F := F) x0 x1 x3 x4 x5 x6 x7 x8 x9)
def val_main_v181 : (⟨S50000x128, .f32⟩ : BufTy).Contents (Elt F) :=
  mulf (val_main_v175 (F := F) x0 x1 x3 x4 x5 x6 x7 x8 x9) (val_main_v180 (F := F) x0 x1 x3 x4 x5 x6 x7 x8 x9)
def val_main_v182 : (⟨S1x128, .f32⟩ : BufTy).Contents (Elt F) :=
  extractStridedSlice S1x128 ![2, 0] (x8) slices_S3x128_S1x128_2_0
def val_main_v183 : (⟨S128, .f32⟩ : BufTy).Contents (Elt F) :=
  shapeCast _ (val_main_v182 (F := F) x8) shapeCasts_S1x128_S128
def val_main_v184 : (⟨S1x128, .f32⟩ : BufTy).Contents (Elt F) :=
  broadcastInDim S1x128 ![1] bcast_S128_S1x128_1 (val_main_v183 (F := F) x8)
def val_main_v185 : (⟨S50000x128, .f32⟩ : BufTy).Contents (Elt F) :=
  broadcastInDim S50000x128 ![0, 1] bcast_S1x128_S50000x128_0_1 (val_main_v184 (F := F) x8)
def val_main_v186 : (⟨S50000x128, .f32⟩ : BufTy).Contents (Elt F) :=
  mulf (val_main_v181 (F := F) x0 x1 x3 x4 x5 x6 x7 x8 x9) (val_main_v185 (F := F) x8)
def val_main_v187 : (⟨S1x128, .f32⟩ : BufTy).Contents (Elt F) :=
  extractStridedSlice S1x128 ![2, 0] (x9) slices_S3x128_S1x128_2_0
def val_main_v188 : (⟨S128, .f32⟩ : BufTy).Contents (Elt F) :=
  shapeCast _ (val_main_v187 (F := F) x9) shapeCasts_S1x128_S128
def val_main_v189 : (⟨S1x128, .f32⟩ : BufTy).Contents (Elt F) :=
  broadcastInDim S1x128 ![1] bcast_S128_S1x128_1 (val_main_v188 (F := F) x9)
def val_main_v190 : (⟨S50000x128, .f32⟩ : BufTy).Contents (Elt F) :=
  broadcastInDim S50000x128 ![0, 1] bcast_S1x128_S50000x128_0_1 (val_main_v189 (F := F) x9)
def val_main_v191 : (⟨S50000x128, .f32⟩ : BufTy).Contents (Elt F) :=
  addf (val_main_v186 (F := F) x0 x1 x3 x4 x5 x6 x7 x8 x9) (val_main_v190 (F := F) x9)
def val_main_cst_25 : (⟨S_, .f32⟩ : BufTy).Contents (Elt F) :=
  constant S_ .f32 0x00000000#32
def val_main_v192 : (⟨S512x128, .f32⟩ : BufTy).Contents (Elt F) :=
  broadcastInDim S512x128 ![] bcast_S_S512x128 (val_main_cst_25 (F := F))
def val_main_v193 : (⟨S50000x1, .i32⟩ : BufTy).Contents (Elt F) :=
  broadcastInDim S50000x1 ![0] bcast_S50000_S50000x1_0 (x2)
def val_main_v194 : (⟨S512x128, .f32⟩ : BufTy).Contents (Elt F) :=
  Host.scatterAdd scatter_S512x128_S50000x1_S50000x128_1_0_0_1 (val_main_v192 (F := F)) (val_main_v193 (F := F) x2) (val_main_v191 (F := F) x0 x1 x3 x4 x5 x6 x7 x8 x9)
def val_main_cst_26 : (⟨S_, .f32⟩ : BufTy).Contents (Elt F) :=
  constant S_ .f32 0x3F800000#32
def val_main_v195 : (⟨S50000x1, .f32⟩ : BufTy).Contents (Elt F) :=
  broadcastInDim S50000x1 ![] bcast_S_S50000x1 (val_main_cst_26 (F := F))
def val_main_cst_27 : (⟨S_, .f32⟩ : BufTy).Contents (Elt F) :=
  constant S_ .f32 0x00000000#32
def val_main_v196 : (⟨S512x1, .f32⟩ : BufTy).Contents (Elt F) :=
  broadcastInDim S512x1 ![] bcast_S_S512x1 (val_main_cst_27 (F := F))
def val_main_v197 : (⟨S50000x1, .i32⟩ : BufTy).Contents (Elt F) :=
  broadcastInDim S50000x1 ![0] bcast_S50000_S50000x1_0 (x2)
def val_main_v198 : (⟨S512x1, .f32⟩ : BufTy).Contents (Elt F) :=
  Host.scatterAdd scatter_S512x1_S50000x1_S50000x1_1_0_0_1 (val_main_v196 (F := F)) (val_main_v197 (F := F) x2) (val_main_v195 (F := F))
def val_main_cst_28 : (⟨S_, .f32⟩ : BufTy).Contents (Elt F) :=
  constant S_ .f32 0x3F800000#32
theorem val_main_cst_28_apply (i : S_.Idx) :
    val_main_cst_28 (F := F) i = FloatOps.ofBits .f32 0x3F800000#32 := rfl
def val_main_v199 : (⟨S512x1, .f32⟩ : BufTy).Contents (Elt F) :=
  broadcastInDim S512x1 ![] bcast_S_S512x1 (val_main_cst_28 (F := F))
abbrev idx_main_v199 (i : S512x1.Idx) : S_.Idx := fun a => a.elim0
theorem val_main_v199_apply (i : S512x1.Idx) :
    val_main_v199 (F := F) i = val_main_cst_28 (F := F) (idx_main_v199 i) := by
  unfold val_main_v199
  generalize val_main_cst_28 (F := F) = y
  exact broadcastInDim_apply _ bcast_S_S512x1 y i (idx_main_v199 i) (fun a => a.elim0)
def val_main_v200 : (⟨S512x1, .f32⟩ : BufTy).Contents (Elt F) :=
  maximumf (val_main_v198 (F := F) x2) (val_main_v199 (F := F))
theorem val_main_v200_apply (i : S512x1.Idx) :
    val_main_v200 (F := F) x2 i = FloatOps.maximumf (val_main_v198 (F := F) x2 i) (val_main_v199 (F := F) i) := rfl
def val_main_v201 : (⟨S512x128, .f32⟩ : BufTy).Contents (Elt F) :=
  broadcastInDim S512x128 ![0, 1] bcast_S512x1_S512x128_0_1 (val_main_v200 (F := F) x2)
abbrev idx_main_v201 (i : S512x128.Idx) : S512x1.Idx := fun a => match a with
  | ⟨0, _⟩ => ⟨(i 0).val, (i 0).isLt⟩
  | ⟨1, _⟩ => ⟨0, Nat.one_pos⟩
theorem val_main_v201_apply (i : S512x128.Idx) :
    val_main_v201 (F := F) x2 i = val_main_v200 (F := F) x2 (idx_main_v201 i) := by
  unfold val_main_v201
  generalize val_main_v200 (F := F) x2 = y
  exact broadcastInDim_apply _ bcast_S512x1_S512x128_0_1 y i (idx_main_v201 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])
def val_main_v202 : (⟨S512x128, .f32⟩ : BufTy).Contents (Elt F) :=
  Host.divf (val_main_v194 (F := F) x0 x1 x2 x3 x4 x5 x6 x7 x8 x9) (val_main_v201 (F := F) x2)
theorem val_main_v202_apply (i : S512x128.Idx) :
    val_main_v202 (F := F) x0 x1 x2 x3 x4 x5 x6 x7 x8 x9 i = FloatOps.hostDivf (val_main_v194 (F := F) x0 x1 x2 x3 x4 x5 x6 x7 x8 x9 i) (val_main_v201 (F := F) x2 i) := rfl
end Cert.ReferenceIdeal.ReadP
end
-- ==== Proof.Val.RunH1.lean ====
import proofs.«419539_j67095979099186_1_alg».proof.Proof.Val.RunHOps
import proofs.«419539_j67095979099186_1_alg».proof.Proof.Val.RunHArgs
import proofs.«419539_j67095979099186_1_alg».proof.Proof.Val.ReadP
import Idealize.ShloMosaic.Lib.StableHlo.Run
set_option maxRecDepth 16384
noncomputable section
namespace Cert.ReferenceIdeal.ValueH
open Cert.ReferenceIdeal Cert.ReferenceIdeal.Gen Cert.ReferenceIdeal.ReadP Idealize.ShloMosaic Idealize.ShloMosaic.TcCoe Idealize.SL.Sem Idealize.ShloMosaic.StableHlo
variable {F : FTy → Type} [FloatOps F]
theorem step1 (V X : Valuation τ sig (Elt F)) (hA : Args V X) :
    StableHlo.after C1 X (Proc.devRef .tc main_v36) =
        val_main_v36 (F := F) (A0 V) (A1 V) (A3 V) (A4 V) (A5 V) (A6 V) (A7 V)
      ∧ StableHlo.after C1 X (Proc.devRef .tc main_v1) = val_main_v1 (F := F) (A1 V)
      ∧ StableHlo.after C1 X (Proc.devRef .tc main_v3) = val_main_v3 (F := F) (A1 V) := by
  have e0 := hA main_arg0 (by decide)
  have e1 := hA main_arg1 (by decide)
  have e3 := hA main_arg3 (by decide)
  have e4 := hA main_arg4 (by decide)
  have e5 := hA main_arg5 (by decide)
  have e6 := hA main_arg6 (by decide)
  have e7 := hA main_arg7 (by decide)
  refine ⟨?_, ?_, ?_⟩
  · after_results_simp
    simp only [e0, e1, e3, e4, e5, e6, e7, TRef.ofBuf, TRef.toBuf, cast_eq]
    rfl
  · after_results_simp
    simp only [e1]
    rfl
  · after_results_simp
    simp only [e1]
    rfl
end Cert.ReferenceIdeal.ValueH
end
-- ==== Proof.Val.RunH2.lean ====
import proofs.«419539_j67095979099186_1_alg».proof.Proof.Val.RunHOps
import proofs.«419539_j67095979099186_1_alg».proof.Proof.Val.RunHArgs
import proofs.«419539_j67095979099186_1_alg».proof.Proof.Val.ReadP
import Idealize.ShloMosaic.Lib.StableHlo.Run
set_option maxRecDepth 16384
noncomputable section
namespace Cert.ReferenceIdeal.ValueH
open Cert.ReferenceIdeal Cert.ReferenceIdeal.Gen Cert.ReferenceIdeal.ReadP Idealize.ShloMosaic Idealize.ShloMosaic.TcCoe Idealize.SL.Sem Idealize.ShloMosaic.StableHlo
variable {F : FTy → Type} [FloatOps F]
theorem step2 (V X : Valuation τ sig (Elt F)) (hA : Args V X)
    (h36 : X (Proc.devRef .tc main_v36) = val_main_v36 (F := F) (A0 V) (A1 V) (A3 V) (A4 V) (A5 V) (A6 V) (A7 V)) :
    StableHlo.after C2 X (Proc.devRef .tc main_v66) =
      val_main_v66 (F := F) (A0 V) (A1 V) (A3 V) (A4 V) (A5 V) (A6 V) (A7 V) (A8 V) (A9 V) := by
  have e8 := hA main_arg8 (by decide)
  have e9 := hA main_arg9 (by decide)
  after_results_simp
  simp only [h36, e8, e9, TRef.ofBuf, TRef.toBuf, cast_eq]
  rfl
end Cert.ReferenceIdeal.ValueH
end
-- ==== Proof.Val.RunH3.lean ====
import proofs.«419539_j67095979099186_1_alg».proof.Proof.Val.RunHOps
import proofs.«419539_j67095979099186_1_alg».proof.Proof.Val.RunHArgs
import proofs.«419539_j67095979099186_1_alg».proof.Proof.Val.ReadP
import Idealize.ShloMosaic.Lib.StableHlo.Run
set_option maxRecDepth 16384
noncomputable section
namespace Cert.ReferenceIdeal.ValueH
open Cert.ReferenceIdeal Cert.ReferenceIdeal.Gen Cert.ReferenceIdeal.ReadP Idealize.ShloMosaic Idealize.ShloMosaic.TcCoe Idealize.SL.Sem Idealize.ShloMosaic.StableHlo
variable {F : FTy → Type} [FloatOps F]
theorem step3 (V X : Valuation τ sig (Elt F)) (hA : Args V X)
    (h66 : X (Proc.devRef .tc main_v66) =
      val_main_v66 (F := F) (A0 V) (A1 V) (A3 V) (A4 V) (A5 V) (A6 V) (A7 V) (A8 V) (A9 V))
    (h1 : X (Proc.devRef .tc main_v1) = val_main_v1 (F := F) (A1 V))
    (h3 : X (Proc.devRef .tc main_v3) = val_main_v3 (F := F) (A1 V)) :
    StableHlo.after C3 X (Proc.devRef .tc main_v99) =
      val_main_v99 (F := F) (A0 V) (A1 V) (A3 V) (A4 V) (A5 V) (A6 V) (A7 V) (A8 V) (A9 V) := by
  have e3 := hA main_arg3 (by decide)
  have e4 := hA main_arg4 (by decide)
  have e5 := hA main_arg5 (by decide)
  have e6 := hA main_arg6 (by decide)
  have e7 := hA main_arg7 (by decide)
  after_results_simp
  simp only [h66, h1, h3, e3, e4, e5, e6, e7, TRef.ofBuf, TRef.toBuf, cast_eq]
  rfl
end Cert.ReferenceIdeal.ValueH
end
-- ==== Proof.Val.RunH4.lean ====
import proofs.«419539_j67095979099186_1_alg».proof.Proof.Val.RunHOps
import proofs.«419539_j67095979099186_1_alg».proof.Proof.Val.RunHArgs
import proofs.«419539_j67095979099186_1_alg».proof.Proof.Val.ReadP
import Idealize.ShloMosaic.Lib.StableHlo.Run
set_option maxRecDepth 16384
noncomputable section
namespace Cert.ReferenceIdeal.ValueH
open Cert.ReferenceIdeal Cert.ReferenceIdeal.Gen Cert.ReferenceIdeal.ReadP Idealize.ShloMosaic Idealize.ShloMosaic.TcCoe Idealize.SL.Sem Idealize.ShloMosaic.StableHlo
variable {F : FTy → Type} [FloatOps F]
theorem step4 (V X : Valuation τ sig (Elt F)) (hA : Args V X)
    (h99 : X (Proc.devRef .tc main_v99) =
      val_main_v99 (F := F) (A0 V) (A1 V) (A3 V) (A4 V) (A5 V) (A6 V) (A7 V) (A8 V) (A9 V)) :
    StableHlo.after C4 X (Proc.devRef .tc main_v129) =
      val_main_v129 (F := F) (A0 V) (A1 V) (A3 V) (A4 V) (A5 V) (A6 V) (A7 V) (A8 V) (A9 V) := by
  have e8 := hA main_arg8 (by decide)
  have e9 := hA main_arg9 (by decide)
  after_results_simp
  simp only [h99, e8, e9, TRef.ofBuf, TRef.toBuf, cast_eq]
  rfl
end Cert.ReferenceIdeal.ValueH
end
-- ==== Proof.Val.RunH5.lean ====
import proofs.«419539_j67095979099186_1_alg».proof.Proof.Val.RunHOps
import proofs.«419539_j67095979099186_1_alg».proof.Proof.Val.RunHArgs
import proofs.«419539_j67095979099186_1_alg».proof.Proof.Val.ReadP
import Idealize.ShloMosaic.Lib.StableHlo.Run
set_option maxRecDepth 16384
noncomputable section
namespace Cert.ReferenceIdeal.ValueH
open Cert.ReferenceIdeal Cert.ReferenceIdeal.Gen Cert.ReferenceIdeal.ReadP Idealize.ShloMosaic Idealize.ShloMosaic.TcCoe Idealize.SL.Sem Idealize.ShloMosaic.StableHlo
variable {F : FTy → Type} [FloatOps F]
theorem step5 (V X : Valuation τ sig (Elt F)) (hA : Args V X)
    (h129 : X (Proc.devRef .tc main_v129) =
      val_main_v129 (F := F) (A0 V) (A1 V) (A3 V) (A4 V) (A5 V) (A6 V) (A7 V) (A8 V) (A9 V))
    (h1 : X (Proc.devRef .tc main_v1) = val_main_v1 (F := F) (A1 V))
    (h3 : X (Proc.devRef .tc main_v3) = val_main_v3 (F := F) (A1 V)) :
    StableHlo.after C5 X (Proc.devRef .tc main_v162) =
      val_main_v162 (F := F) (A0 V) (A1 V) (A3 V) (A4 V) (A5 V) (A6 V) (A7 V) (A8 V) (A9 V) := by
  have e3 := hA main_arg3 (by decide)
  have e4 := hA main_arg4 (by decide)
  have e5 := hA main_arg5 (by decide)
  have e6 := hA main_arg6 (by decide)
  have e7 := hA main_arg7 (by decide)
  after_results_simp
  simp only [h129, h1, h3, e3, e4, e5, e6, e7, TRef.ofBuf, TRef.toBuf, cast_eq]
  rfl
end Cert.ReferenceIdeal.ValueH
end
-- ==== Proof.Val.RunH6.lean ====
import proofs.«419539_j67095979099186_1_alg».proof.Proof.Val.RunHOps
import proofs.«419539_j67095979099186_1_alg».proof.Proof.Val.RunHArgs
import proofs.«419539_j67095979099186_1_alg».proof.Proof.Val.ReadP
import Idealize.ShloMosaic.Lib.StableHlo.Run
set_option maxRecDepth 16384
noncomputable section
namespace Cert.ReferenceIdeal.ValueH
open Cert.ReferenceIdeal Cert.ReferenceIdeal.Gen Cert.ReferenceIdeal.ReadP Idealize.ShloMosaic Idealize.ShloMosaic.TcCoe Idealize.SL.Sem Idealize.ShloMosaic.StableHlo
variable {F : FTy → Type} [FloatOps F]
theorem step6 (V X : Valuation τ sig (Elt F)) (hA : Args V X)
    (h162 : X (Proc.devRef .tc main_v162) =
      val_main_v162 (F := F) (A0 V) (A1 V) (A3 V) (A4 V) (A5 V) (A6 V) (A7 V) (A8 V) (A9 V)) :
    StableHlo.after C6 X (Proc.devRef .tc main_v191) =
      val_main_v191 (F := F) (A0 V) (A1 V) (A3 V) (A4 V) (A5 V) (A6 V) (A7 V) (A8 V) (A9 V) := by
  have e8 := hA main_arg8 (by decide)
  have e9 := hA main_arg9 (by decide)
  after_results_simp
  simp only [h162, e8, e9, TRef.ofBuf, TRef.toBuf, cast_eq]
  rfl
end Cert.ReferenceIdeal.ValueH
end
-- ==== Proof.Val.RunH7.lean ====
import proofs.«419539_j67095979099186_1_alg».proof.Proof.Val.RunHOps
import proofs.«419539_j67095979099186_1_alg».proof.Proof.Val.RunHArgs
import proofs.«419539_j67095979099186_1_alg».proof.Proof.Val.ReadP
import Idealize.ShloMosaic.Lib.StableHlo.Run
set_option maxRecDepth 16384
noncomputable section
namespace Cert.ReferenceIdeal.ValueH
open Cert.ReferenceIdeal Cert.ReferenceIdeal.Gen Cert.ReferenceIdeal.ReadP Idealize.ShloMosaic Idealize.ShloMosaic.TcCoe Idealize.SL.Sem Idealize.ShloMosaic.StableHlo
variable {F : FTy → Type} [FloatOps F]
theorem step7 (V X : Valuation τ sig (Elt F)) (hA : Args V X)
    (h191 : X (Proc.devRef .tc main_v191) =
      val_main_v191 (F := F) (A0 V) (A1 V) (A3 V) (A4 V) (A5 V) (A6 V) (A7 V) (A8 V) (A9 V)) :
    StableHlo.after C7 X (Proc.devRef .tc main_v202) =
      val_main_v202 (F := F) (A0 V) (A1 V) (A2 V) (A3 V) (A4 V) (A5 V) (A6 V) (A7 V) (A8 V) (A9 V) := by
  have e2 := hA main_arg2 (by decide)
  after_results_simp
  simp only [h191, e2]
  rfl
end Cert.ReferenceIdeal.ValueH
end
-- ==== Proof.Val.RunH.lean ====
import proofs.«419539_j67095979099186_1_alg».proof.Proof.Val.RunHOps
import proofs.«419539_j67095979099186_1_alg».proof.Proof.Val.RunHArgs
import proofs.«419539_j67095979099186_1_alg».proof.Proof.Val.RunH1
import proofs.«419539_j67095979099186_1_alg».proof.Proof.Val.RunH2
import proofs.«419539_j67095979099186_1_alg».proof.Proof.Val.RunH3
import proofs.«419539_j67095979099186_1_alg».proof.Proof.Val.RunH4
import proofs.«419539_j67095979099186_1_alg».proof.Proof.Val.RunH5
import proofs.«419539_j67095979099186_1_alg».proof.Proof.Val.RunH6
import proofs.«419539_j67095979099186_1_alg».proof.Proof.Val.RunH7
import proofs.«419539_j67095979099186_1_alg».proof.Proof.Val.ReadP
import Idealize.ShloMosaic.Lib.StableHlo.Run
import Idealize.ShloMosaic.Lib.Pipeline.Frame
import Idealize.ShloMosaic.Lib.Pipeline.Regions
set_option maxRecDepth 16384
noncomputable section
namespace Cert.ReferenceIdeal.ValueH
open Cert.ReferenceIdeal Cert.ReferenceIdeal.Gen Cert.ReferenceIdeal.ReadP Idealize.ShloMosaic Idealize.ShloMosaic.TcCoe Idealize.SL.Sem Idealize.ShloMosaic.StableHlo
variable {F : FTy → Type} [FloatOps F]
abbrev ops : List (HloOp τ sig (Elt F)) := C1 ++ (C2 ++ (C3 ++ (C4 ++ (C5 ++ (C6 ++ C7)))))
set_option maxHeartbeats 4000000 in
theorem main_eq (c : Dev nD) : main (F := F) c = seq ops := by
  chain_rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_append.2 ⟨C1_sub, List.forall_append.2 ⟨C2_sub, List.forall_append.2 ⟨C3_sub, List.forall_append.2 ⟨C4_sub,
    List.forall_append.2 ⟨C5_sub, List.forall_append.2 ⟨C6_sub, C7_sub⟩⟩⟩⟩⟩⟩
theorem ops_fresh : ∀ op ∈ (ops : List (HloOp τ sig (Elt F))), op.fresh = ∅ := by
  intro op h
  simp only [ops, List.mem_append] at h
  rcases h with h | h | h | h | h | h | h <;>
    (repeat (cases h with | head => rfl | tail _ h => ?_)) <;> exact nomatch h
abbrev Wr (C : List (HloOp τ sig (Elt F))) (W : List (Ref sig .tc)) : Prop :=
  C.Forall fun op => op.writes ⊆ (W.map (Proc.devRef (τ := τ) .tc)).toFinset
theorem C_writes : Wr (F := F) C1 W1 ∧ Wr (F := F) C2 W2 ∧ Wr (F := F) C3 W3 ∧ Wr (F := F) C4 W4 ∧ Wr (F := F) C5 W5 ∧
    Wr (F := F) C6 W6 ∧ Wr (F := F) C7 W7 := by
  refine ⟨?_, ?_, ?_, ?_, ?_, ?_, ?_⟩ <;> (simp only [Wr, List.Forall]; repeat' constructor) <;>
    (simp only [StableHlo.nullary_writes, StableHlo.unary_writes, StableHlo.binary_writes, StableHlo.ternary_writes,
      StableHlo.reshape_writes, Finset.singleton_subset_iff, List.mem_toFinset]
     exact List.mem_map_of_mem (by decide))
theorem after_ops (V : Valuation τ sig (Elt F)) :
    StableHlo.after ops V (Proc.devRef .tc main_v202) =
        val_main_v202 (F := F) (A0 V) (A1 V) (A2 V) (A3 V) (A4 V) (A5 V) (A6 V) (A7 V) (A8 V) (A9 V)
      ∧ Args V (StableHlo.after ops V) := by
  obtain ⟨w1, w2, w3, w4, w5, w6, w7⟩ := C_writes (F := F)
  have hA0 : Args V V := fun _ _ => rfl
  obtain ⟨h36, h1, h3⟩ := step1 V V hA0
  have hA1 : Args V (StableHlo.after C1 V) := hA0.after C1 W1 w1 (by decide)
  have h66 := step2 V _ hA1 h36
  have h1b := (StableHlo.after_of_writes_sub (r := main_v1) C2 (StableHlo.after C1 V) w2 (by decide)).trans h1
  have h3b := (StableHlo.after_of_writes_sub (r := main_v3) C2 (StableHlo.after C1 V) w2 (by decide)).trans h3
  have hA2 := hA1.after C2 W2 w2 (by decide)
  have h99 := step3 V _ hA2 h66 h1b h3b
  have h1c := (StableHlo.after_of_writes_sub (r := main_v1) C3 _ w3 (by decide)).trans h1b
  have h3c := (StableHlo.after_of_writes_sub (r := main_v3) C3 _ w3 (by decide)).trans h3b
  have hA3 := hA2.after C3 W3 w3 (by decide)
  have h129 := step4 V _ hA3 h99
  have h1d := (StableHlo.after_of_writes_sub (r := main_v1) C4 _ w4 (by decide)).trans h1c
  have h3d := (StableHlo.after_of_writes_sub (r := main_v3) C4 _ w4 (by decide)).trans h3c
  have hA4 := hA3.after C4 W4 w4 (by decide)
  have h162 := step5 V _ hA4 h129 h1d h3d
  have hA5 := hA4.after C5 W5 w5 (by decide)
  have h191 := step6 V _ hA5 h162
  have hA6 := hA5.after C6 W6 w6 (by decide)
  have h202 := step7 V _ hA6 h191
  have hA7 := hA6.after C7 W7 w7 (by decide)
  have e : StableHlo.after ops V = StableHlo.after C7 (StableHlo.after C6 (StableHlo.after C5 (StableHlo.after C4
      (StableHlo.after C3 (StableHlo.after C2 (StableHlo.after C1 V)))))) := by
    simp only [ops, StableHlo.after_append]
  rw [e]
  exact ⟨h202, hA7⟩
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v202) =
          val_main_v202 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      have hp := after_ops (F := F) (launchContents m c)
      ⟨(h c main_v202).trans hp.1,
        (h c main_arg0).trans (hp.2 main_arg0 (by decide)),
        (h c main_arg1).trans (hp.2 main_arg1 (by decide)),
        (h c main_arg2).trans (hp.2 main_arg2 (by decide)),
        (h c main_arg3).trans (hp.2 main_arg3 (by decide)),
        (h c main_arg4).trans (hp.2 main_arg4 (by decide)),
        (h c main_arg5).trans (hp.2 main_arg5 (by decide)),
        (h c main_arg6).trans (hp.2 main_arg6 (by decide)),
        (h c main_arg7).trans (hp.2 main_arg7 (by decide)),
        (h c main_arg8).trans (hp.2 main_arg8 (by decide)),
        (h c main_arg9).trans (hp.2 main_arg9 (by decide))⟩)
    (run_seq scopedRefs_eq scopedSems_eq defs main (fun _ => ops) main_eq (fun _ => ops_sub) m ρ (fun _ => ops_fresh))
end Cert.ReferenceIdeal.ValueH
end
-- ==== Proof.Val.Spec.lean ====
import Idealize.ShloMosaic.PureOps.Ideal
noncomputable section
namespace Cert.GinSpec
open Idealize.ShloMosaic
abbrev Mat (a b : ℕ) : Type := Fin a → Fin b → EReal
abbrev Row (b : ℕ) : Type := Fin b → EReal
def cnt : EReal := ((50000 : ℝ) : EReal)
def zpre (s : EReal) (h agg : Mat 50000 128) : Mat 50000 128 := fun n k => s * h n k + agg n k
def lin (x : Mat 50000 128) (W : Mat 128 128) (b : Row 128) : Mat 50000 128 :=
  fun n d => (∑ k : Fin 128, x n k * W k d) + b d
def relu (x : Mat 50000 128) : Mat 50000 128 := fun n d => max (x n d) 0
def mlp (s : EReal) (h agg : Mat 50000 128) (W1 : Mat 128 128) (b1 : Row 128) (W2 : Mat 128 128) (b2 : Row 128) :
    Mat 50000 128 :=
  lin (relu (lin (zpre s h agg) W1 b1)) W2 b2
def colSum (z : Mat 50000 128) : Row 128 := fun d => ∑ n : Fin 50000, z n d
def colSumSq (z : Mat 50000 128) : Row 128 := fun d => ∑ n : Fin 50000, z n d * z n d
def mean (z : Mat 50000 128) : Row 128 := fun d => Ideal.div (colSum z d) cnt
def varK (z : Mat 50000 128) : Row 128 := fun d => Ideal.div (colSumSq z d) cnt - mean z d * mean z d
def varR (z : Mat 50000 128) : Row 128 :=
  fun d => Ideal.div (∑ n : Fin 50000, (z n d - mean z d) * (z n d - mean z d)) cnt
def invStd (v : Row 128) (eps : EReal) : Row 128 := fun d => Ideal.rsqrt (v d + eps)
def bn (z : Mat 50000 128) (mu inv gamma beta : Row 128) : Mat 50000 128 :=
  fun n d => (z n d - mu d) * inv d * gamma d + beta d
def norm (act : Bool) (eps : EReal) (z : Mat 50000 128) (v : Row 128) (gamma beta : Row 128) : Mat 50000 128 :=
  if act then relu (bn z (mean z) (invStd v eps) gamma beta) else bn z (mean z) (invStd v eps) gamma beta
def layerK (act : Bool) (eps s : EReal) (h agg : Mat 50000 128) (W1 : Mat 128 128) (b1 : Row 128) (W2 : Mat 128 128)
    (b2 gamma beta : Row 128) : Mat 50000 128 :=
  norm act eps (mlp s h agg W1 b1 W2 b2) (varK (mlp s h agg W1 b1 W2 b2)) gamma beta
def layerR (act : Bool) (eps s : EReal) (h agg : Mat 50000 128) (W1 : Mat 128 128) (b1 : Row 128) (W2 : Mat 128 128)
    (b2 gamma beta : Row 128) : Mat 50000 128 :=
  norm act eps (mlp s h agg W1 b1 W2 b2) (varR (mlp s h agg W1 b1 W2 b2)) gamma beta
def pool (hit : Fin 50000 → Fin 512 → Prop) [∀ n g, Decidable (hit n g)] (h : Mat 50000 128) : Mat 512 128 :=
  fun g d => ∑ n : Fin 50000, (if hit n g then (1 : EReal) else 0) * h n d
def IsRealM {a b : ℕ} (x : Mat a b) : Prop := ∀ i j, ∃ r : ℝ, x i j = (r : EReal)
def IsRealR {b : ℕ} (x : Row b) : Prop := ∀ j, ∃ r : ℝ, x j = (r : EReal)
end Cert.GinSpec
end
-- ==== Proof.Val.Conv.lean ====
import proofs.«419539_j67095979099186_1_alg».proof.Proof.Val.Spec
import Idealize.ShloMosaic.Lib.ValueIdx
noncomputable section
namespace Cert.GinSpec
open Idealize.ShloMosaic Idealize.ShloMosaic.ValueIdx
def toMat {a b : ℕ} (x : (⟨2, ![a, b]⟩ : Shape).Idx → EReal) : Mat a b := fun p q => x (ix2 p q)
def toRow1 {b : ℕ} (x : (⟨2, ![1, b]⟩ : Shape).Idx → EReal) : Row b := fun q => x (ix2 0 q)
def toRow {b : ℕ} (x : (⟨1, ![b]⟩ : Shape).Idx → EReal) : Row b := fun q => x (ix1 q)
def matOf3 (x : (⟨3, ![3, 128, 128]⟩ : Shape).Idx → EReal) (l : Fin 3) : Mat 128 128 := fun a b => x (ix3 l a b)
def rowOf3 (x : (⟨2, ![3, 128]⟩ : Shape).Idx → EReal) (l : Fin 3) : Row 128 := fun q => x (ix2 l q)
def scaleOf (x : (⟨1, ![3]⟩ : Shape).Idx → EReal) (l : Fin 3) : EReal := 1 + x (ix1 l)
def epsLit : EReal := Ideal.ofBits .f32 0x3727C5AC#32
def hitOf (b : (⟨1, ![50000]⟩ : Shape).Idx → BitVec 32) : Fin 50000 → Fin 512 → Prop :=
  fun n g => (b (ix1 n)).toInt = (g.val : ℤ)
instance (b : (⟨1, ![50000]⟩ : Shape).Idx → BitVec 32) (n : Fin 50000) (g : Fin 512) : Decidable (hitOf b n g) := by
  unfold hitOf; infer_instance
end Cert.GinSpec
end
-- ==== Proof.Val.GinMath.lean ====
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv
import Mathlib.Algebra.BigOperators.Fin
import Mathlib.Algebra.BigOperators.Group.Finset.Basic
import Mathlib.Data.Fintype.BigOperators
import Mathlib.Logic.Equiv.Fin.Basic
import Mathlib.Tactic.Ring
import Mathlib.Tactic.FieldSimp
import Mathlib.Tactic.Positivity
import Mathlib.Tactic.NormNum
noncomputable section
namespace Cert.GinMath
open Idealize.ShloMosaic
open scoped BigOperators
theorem sum_tiles (f : Fin 50000 → EReal) :
    (∑ t : Fin 25, ∑ r : Fin 2000, f ⟨2000 * t.val + r.val, by omega⟩) = ∑ n : Fin 50000, f n := by
  rw [← Fintype.sum_prod_type' (fun (t : Fin 25) (r : Fin 2000) => f ⟨2000 * t.val + r.val, by omega⟩)]
  refine Fintype.sum_equiv (finProdFinEquiv (m := 25) (n := 2000)) _ _ fun p => congrArg f (Fin.ext ?_)
  show 2000 * p.1.val + p.2.val = p.2.val + 2000 * p.1.val
  exact Nat.add_comm _ _
def accSum (S : Fin 25 → EReal) : (n : ℕ) → n < 25 → EReal
  | 0, _ => 0 + S 0
  | n + 1, h => accSum S n (Nat.lt_of_succ_lt h) + S ⟨n + 1, h⟩
theorem accSum_eq (S : Fin 25 → EReal) :
    ∀ (n : ℕ) (h : n < 25), accSum S n h = ∑ i : Fin (n + 1), S ⟨i.val, by omega⟩
  | 0, h => by
      rw [accSum, Fin.sum_univ_one, zero_add]
      rfl
  | n + 1, h => by
      rw [accSum, accSum_eq S n (Nat.lt_of_succ_lt h)]
      exact (Fin.sum_univ_castSucc (fun i : Fin (n + 1 + 1) => S ⟨i.val, by omega⟩)).symm
theorem fold_tiles (S : Fin 25 → EReal) : accSum S 24 (by decide) = ∑ t : Fin 25, S t := by
  exact (accSum_eq S 24 (by decide)).trans (Finset.sum_congr rfl fun i _ => rfl)
def IsReal (x : EReal) : Prop := ∃ r : ℝ, x = (r : EReal)
def IsRealV {ι : Type} (z : ι → EReal) : Prop := ∀ i, ∃ r : ℝ, z i = (r : EReal)
theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.sub {x y : EReal} (hx : IsReal x) (hy : IsReal y) : IsReal (x - y) := by
  obtain ⟨a, rfl⟩ := hx; obtain ⟨b, rfl⟩ := hy
  exact ⟨a - b, (EReal.coe_sub a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩
theorem IsReal.sum {ι : Type} (s : Finset ι) {f : ι → EReal} (hf : ∀ i ∈ s, IsReal (f i)) :
    IsReal (∑ i ∈ s, f i) :=
  Finset.sum_induction f IsReal (fun _ _ => IsReal.add) IsReal.zero hf
theorem IsReal.div_const {x : EReal} (hx : IsReal x) {c : ℝ} (hc : c ≠ 0) : IsReal (Ideal.div x (c : EReal)) := by
  rw [Ideal.div_coe hc]
  exact hx.mul (IsReal.coe _)
theorem IsReal.rsqrt_add_eps {x e : ℝ} (hx : 0 ≤ x) (he : 0 < e) :
    ∃ s : ℝ, 0 < s ∧ Ideal.rsqrt ((x : EReal) + (e : EReal)) = (s : EReal) := by
  have hpos : 0 < x + e := by linarith
  refine ⟨(Real.sqrt (x + e))⁻¹, inv_pos.2 (Real.sqrt_pos.2 hpos), ?_⟩
  rw [← EReal.coe_add, Ideal.rsqrt_coe, if_neg (not_lt.2 hpos.le), if_neg hpos.ne']
theorem IsRealV.add {ι : Type} {z w : ι → EReal} (hz : IsRealV z) (hw : IsRealV w) :
    IsRealV (fun i => z i + w i) := fun i => IsReal.add (hz i) (hw i)
theorem IsRealV.sub {ι : Type} {z w : ι → EReal} (hz : IsRealV z) (hw : IsRealV w) :
    IsRealV (fun i => z i - w i) := fun i => IsReal.sub (hz i) (hw i)
theorem IsRealV.mul {ι : Type} {z w : ι → EReal} (hz : IsRealV z) (hw : IsRealV w) :
    IsRealV (fun i => z i * w i) := fun i => IsReal.mul (hz i) (hw i)
theorem IsRealV.max {ι : Type} {z w : ι → EReal} (hz : IsRealV z) (hw : IsRealV w) :
    IsRealV (fun i => max (z i) (w i)) := fun i => IsReal.max (hz i) (hw i)
theorem IsRealV.sum {ι κ : Type} (s : Finset κ) {f : ι → κ → EReal} (hf : ∀ k ∈ s, IsRealV (fun i => f i k)) :
    IsRealV (fun i => ∑ k ∈ s, f i k) := fun i => IsReal.sum s fun k hk => hf k hk i
theorem IsRealV.div_const {ι : Type} {z : ι → EReal} (hz : IsRealV z) {c : ℝ} (hc : c ≠ 0) :
    IsRealV (fun i => Ideal.div (z i) (c : EReal)) := fun i => IsReal.div_const (hz i) hc
theorem coe_sum {ι : Type} (s : Finset ι) (r : ι → ℝ) :
    (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]
theorem real_var_identity {ι : Type} [Fintype ι] (r : ι → ℝ) (c : ℝ) (hc : c ≠ 0)
    (hcard : (Fintype.card ι : ℝ) = c) :
    (∑ n, r n * r n) * (1 / c) - (∑ n, r n) * (1 / c) * ((∑ n, r n) * (1 / c))
      = (∑ n, (r n - (∑ n, r n) * (1 / c)) * (r n - (∑ n, r n) * (1 / c))) * (1 / c) := by
  generalize hm : (∑ n, r n) * (1 / c) = m
  have h1 : ∑ n, (r n - m) * (r n - m) = (∑ n, r n * r n) - 2 * m * (∑ n, r n) + c * (m * m) := by
    have h2 : ∀ n, (r n - m) * (r n - m) = r n * r n - 2 * m * r n + m * m := fun n => by ring
    simp only [h2, Finset.sum_add_distrib, Finset.sum_sub_distrib, ← Finset.mul_sum, Finset.sum_const,
      Finset.card_univ, nsmul_eq_mul, hcard]
    ring
  rw [h1, ← hm]
  field_simp
  ring
theorem var_forms (z : Fin 50000 → EReal) (hz : IsRealV z) (N : EReal) (hN : N = ((50000 : ℝ) : EReal)) :
    ∃ r : Fin 50000 → ℝ,
      Ideal.div (0 + ∑ n, z n * z n) N - Ideal.div (0 + ∑ n, z n) N * Ideal.div (0 + ∑ n, z n) N
        = (((∑ n, r n * r n) * (1 / 50000) - (∑ n, r n) * (1 / 50000) * ((∑ n, r n) * (1 / 50000)) : ℝ) : EReal)
      ∧ Ideal.div (0 + ∑ n, (z n - Ideal.div (0 + ∑ n, z n) N) * (z n - Ideal.div (0 + ∑ n, z n) N)) N
        = (((∑ n, (r n - (∑ n, r n) * (1 / 50000)) * (r n - (∑ n, r n) * (1 / 50000))) * (1 / 50000) : ℝ) : EReal) := by
  subst hN
  choose r hr using hz
  have hc : (50000 : ℝ) ≠ 0 := by norm_num
  refine ⟨r, ?_, ?_⟩ <;>
    simp only [hr, zero_add, Ideal.div_coe hc, ← EReal.coe_mul, coe_sum, ← EReal.coe_sub]
theorem var_two_ways (z : Fin 50000 → EReal) (hz : IsRealV z) (N : EReal) (hN : N = ((50000 : ℝ) : EReal)) :
    Ideal.div (0 + ∑ n, z n * z n) N - Ideal.div (0 + ∑ n, z n) N * Ideal.div (0 + ∑ n, z n) N
      = Ideal.div (0 + ∑ n, (z n - Ideal.div (0 + ∑ n, z n) N) * (z n - Ideal.div (0 + ∑ n, z n) N)) N := by
  obtain ⟨r, hl, hr⟩ := var_forms z hz N hN
  rw [hl, hr, real_var_identity r 50000 (by norm_num) (by simp)]
theorem var_real_nonneg (z : Fin 50000 → EReal) (hz : IsRealV z) (N : EReal) (hN : N = ((50000 : ℝ) : EReal)) :
    ∃ v : ℝ, 0 ≤ v ∧
      Ideal.div (0 + ∑ n, z n * z n) N - Ideal.div (0 + ∑ n, z n) N * Ideal.div (0 + ∑ n, z n) N = (v : EReal) := by
  obtain ⟨r, hl, _⟩ := var_forms z hz N hN
  rw [hl, real_var_identity r 50000 (by norm_num) (by simp)]
  exact ⟨_, mul_nonneg (Finset.sum_nonneg fun n _ => mul_self_nonneg _) (by norm_num), rfl⟩
theorem mean_real (z : Fin 50000 → EReal) (hz : IsRealV z) (N : EReal) (hN : N = ((50000 : ℝ) : EReal)) :
    IsReal (Ideal.div (0 + ∑ n, z n) N) := by
  subst hN
  exact ((IsReal.zero).add (IsReal.sum _ fun n _ => hz n)).div_const (by norm_num)
theorem var_dev_real_nonneg (z : Fin 50000 → EReal) (hz : IsRealV z) (N : EReal) (hN : N = ((50000 : ℝ) : EReal)) :
    ∃ v : ℝ, 0 ≤ v ∧
      Ideal.div (0 + ∑ n, (z n - Ideal.div (0 + ∑ n, z n) N) * (z n - Ideal.div (0 + ∑ n, z n) N)) N = (v : EReal) := by
  rw [← var_two_ways z hz N hN]
  exact var_real_nonneg z hz N hN
theorem var_two_ways' (z : Fin 50000 → EReal) (hz : IsRealV z) (N : EReal) (hN : N = ((50000 : ℝ) : EReal)) :
    Ideal.div (∑ n, z n * z n) N - Ideal.div (∑ n, z n) N * Ideal.div (∑ n, z n) N
      = Ideal.div (∑ n, (z n - Ideal.div (∑ n, z n) N) * (z n - Ideal.div (∑ n, z n) N)) N := by
  have h := var_two_ways z hz N hN
  simp only [zero_add] at h
  exact h
theorem var_dev_real_nonneg' (z : Fin 50000 → EReal) (hz : IsRealV z) (N : EReal) (hN : N = ((50000 : ℝ) : EReal)) :
    ∃ v : ℝ, 0 ≤ v ∧
      Ideal.div (∑ n, (z n - Ideal.div (∑ n, z n) N) * (z n - Ideal.div (∑ n, z n) N)) N = (v : EReal) := by
  have h := var_dev_real_nonneg z hz N hN
  simp only [zero_add] at h
  exact h
theorem mean_real' (z : Fin 50000 → EReal) (hz : IsRealV z) (N : EReal) (hN : N = ((50000 : ℝ) : EReal)) :
    IsReal (Ideal.div (∑ n, z n) N) := by
  have h := mean_real z hz N hN
  simp only [zero_add] at h
  exact h
theorem lit_50000 : Ideal.ofBits .f32 0x47435000#32 = ((50000 : ℝ) : EReal) := by
  simp [Ideal.ofBits, Ideal.ieee, -EReal.coe_mul]; norm_num
theorem lit_eps : ∃ e : ℝ, 0 < e ∧ Ideal.ofBits .f32 0x3727C5AC#32 = (e : EReal) := by
  have h : Ideal.ofBits .f32 0x3727C5AC#32 = (((10995116 : ℝ) * (2 : ℝ) ^ (-40 : ℤ) : ℝ) : EReal) := by
    simp [Ideal.ofBits, Ideal.ieee, -EReal.coe_mul]
  exact ⟨_, by positivity, h⟩
theorem lit_zero : Ideal.ofBits .f32 0x00000000#32 = 0 := Ideal.ofBits_zero_f32
theorem lit_one : Ideal.ofBits .f32 0x3F800000#32 = 1 := by
  simp [Ideal.ofBits, Ideal.ieee, -EReal.coe_mul]; norm_num
end Cert.GinMath
end
-- ==== Proof.Val.KerHostA.lean ====
import proofs.«419539_j67095979099186_1_alg».proof.Proof.Gen.KernelIdeal.Launch
import proofs.«419539_j67095979099186_1_alg».proof.Proof.Gen.KernelIdeal.Regions
import proofs.«419539_j67095979099186_1_alg».proof.Proof.Val.Conv
import proofs.«419539_j67095979099186_1_alg».proof.Proof.Val.GinMath
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
set_option maxRecDepth 16384
noncomputable section
namespace Cert.KernelIdeal.HandV
open Cert.KernelIdeal Cert.KernelIdeal.Gen Cert.GinSpec
open Idealize.ShloMosaic Idealize.ShloMosaic.TcCoe Idealize.ShloMosaic.ValueIdx
open Idealize.SL Idealize.SL.Sem
variable (X : Valuation τ sig (Elt Ideal))
def edgeRow0 (a1 : (⟨S2x800000, .i32⟩ : BufTy).Contents (Elt Ideal)) : (⟨S800000, .i32⟩ : BufTy).Contents (Elt Ideal) :=
  shapeCast S800000 (extractStridedSlice S1x800000 ![0, 0] a1 slices_S2x800000_S1x800000_0_0) shapeCasts_S1x800000_S800000
def edgeRow1 (a1 : (⟨S2x800000, .i32⟩ : BufTy).Contents (Elt Ideal)) : (⟨S800000, .i32⟩ : BufTy).Contents (Elt Ideal) :=
  shapeCast S800000 (extractStridedSlice S1x800000 ![1, 0] a1 slices_S2x800000_S1x800000_1_0) shapeCasts_S1x800000_S800000
def srcCol (e : (⟨S800000, .i32⟩ : BufTy).Contents (Elt Ideal)) : (⟨S800000x1, .i32⟩ : BufTy).Contents (Elt Ideal) :=
  broadcastInDim S800000x1 ![0] bcast_S800000_S800000x1_0
    (select (cmpi .slt e (broadcastInDim S800000 ![] bcast_S_S800000 (constantI S_ 32 0#32)))
      (addi e (broadcastInDim S800000 ![] bcast_S_S800000 (constantI S_ 32 50000#32))) e)
def dstCol (e : (⟨S800000, .i32⟩ : BufTy).Contents (Elt Ideal)) : (⟨S800000x1, .i32⟩ : BufTy).Contents (Elt Ideal) :=
  broadcastInDim S800000x1 ![0] bcast_S800000_S800000x1_0 e
def aggCols (s d : (⟨S800000x1, .i32⟩ : BufTy).Contents (Elt Ideal)) (h : (⟨S50000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    d
    (Host.gather gather_S50000x128_S800000x1_S800000x128_1_0_n_n_0_1_1128 h s)
def aggK (a1 : (⟨S2x800000, .i32⟩ : BufTy).Contents (Elt Ideal)) (h : (⟨S50000x128, .f32⟩ : BufTy).Contents (Elt Ideal)) :
    (⟨S50000x128, .f32⟩ : BufTy).Contents (Elt Ideal) :=
  aggCols (srcCol (edgeRow0 a1)) (dstCol (edgeRow1 a1)) h
theorem row_cut {a : S1x128.Idx → EReal} {x : (⟨2, ![3, 128]⟩ : Shape).Idx → EReal} {o : Nat} (h : S3x128.Slices ![o, 0] S1x128)
    (l : Fin 3) (hl : l.val = o)
    (e : a = shapeCast S1x128 (shapeCast S128 (extractStridedSlice S1x128 ![o, 0] x h) shapeCasts_S1x128_S128) shapeCasts_S128_S1x128) :
    toRow1 a = rowOf3 x l := by
  subst e
  funext q
  unfold toRow1 rowOf3
  rw [shapeCast_a_1a_apply, shapeCast_1a_a_apply]
  exact slice2_axis0_apply o x h 0 q l (by rw [hl]; rfl)
theorem mat_cut {a : S128x128.Idx → EReal} {x : (⟨3, ![3, 128, 128]⟩ : Shape).Idx → EReal} {o : Nat}
    (h : S3x128x128.Slices ![o, 0, 0] S1x128x128) (l : Fin 3) (hl : l.val = o)
    (e : a = shapeCast S128x128 (extractStridedSlice S1x128x128 ![o, 0, 0] x h) shapeCasts_S1x128x128_S128x128) :
    toMat a = matOf3 x l := by
  subst e
  funext i j
  unfold toMat matOf3
  rw [shapeCast_1ab_ab_apply]
  exact extractStridedSlice_apply _ x h _ (ix3 l i j) (fun ax => by
    match ax with
    | ⟨0, _⟩ => exact hl.trans (Nat.add_zero o).symm
    | ⟨1, _⟩ => exact (Nat.zero_add _).symm
    | ⟨2, _⟩ => exact (Nat.zero_add _).symm)
theorem scale_cut {a : S1x1.Idx → EReal} {x : (⟨1, ![3]⟩ : Shape).Idx → EReal} {o : Nat} (h : S3.Slices ![o] S1) (l : Fin 3)
    (hl : l.val = o)
    (e : a = shapeCast S1x1 (addf (constant (F := Ideal) S_ .f32 0x3F800000#32) (shapeCast S_ (extractStridedSlice S1 ![o] x h) shapeCasts_S1_S_)) shapeCasts_S_S1x1) :
    a (ix2 0 0) = scaleOf x l := by
  subst e
  have h1 : (S_.rowMajor ix0).val = (S1x1.rowMajor (ix2 (0 : Fin 1) (0 : Fin 1))).val := by
    rw [Shape.rowMajor_val_two]; exact Shape.rowMajorPi_zero _ _
  have h2 : (S1.rowMajor (ix1 (0 : Fin 1))).val = (S_.rowMajor ix0).val := by
    rw [Shape.rowMajor_val_one]; exact (Shape.rowMajorPi_zero _ _).symm
  rw [shapeCast_apply _ _ (ix2 0 0) ix0 h1, addf_apply, constant_apply, Cert.GinMath.lit_one,
    shapeCast_apply _ _ ix0 (ix1 (0 : Fin 1)) h2]
  unfold scaleOf
  congr 1
  exact extractStridedSlice_apply _ x h _ (ix1 l) (fun ax => by
    match ax with
    | ⟨0, _⟩ => exact hl.trans (Nat.add_zero o).symm)
theorem host0_v2 : StableHlo.after hostOps0 X (Proc.devRef .tc main_v2) = edgeRow0 (X (Proc.devRef .tc main_arg1)) := by
  after_results_simp <;> rfl
theorem host0_v4 : StableHlo.after hostOps0 X (Proc.devRef .tc main_v4) = edgeRow1 (X (Proc.devRef .tc main_arg1)) := by
  after_results_simp <;> rfl
set_option maxHeartbeats 1000000 in
theorem host0_v14 : StableHlo.after hostOps0 X (Proc.devRef .tc main_v14)
    = aggK (X (Proc.devRef .tc main_arg1)) (X (Proc.devRef .tc main_arg0)) := by
  after_results_simp <;> rfl
set_option maxHeartbeats 1000000 in
theorem host2_v55 (hv2 : X (Proc.devRef .tc main_v2) = edgeRow0 (X (Proc.devRef .tc main_arg1)))
    (hv4 : X (Proc.devRef .tc main_v4) = edgeRow1 (X (Proc.devRef .tc main_arg1))) :
    StableHlo.after hostOps2 X (Proc.devRef .tc main_v55)
      = aggK (X (Proc.devRef .tc main_arg1)) (X (Proc.devRef .tc main_v45)) := by
  have e : StableHlo.after hostOps2 X (Proc.devRef .tc main_v55)
      = aggCols (srcCol (X (Proc.devRef .tc main_v2))) (dstCol (X (Proc.devRef .tc main_v4))) (X (Proc.devRef .tc main_v45)) := by
    after_results_simp <;> rfl
  rw [e, hv2, hv4]; rfl
set_option maxHeartbeats 1000000 in
theorem host4_v96 (hv2 : X (Proc.devRef .tc main_v2) = edgeRow0 (X (Proc.devRef .tc main_arg1)))
    (hv4 : X (Proc.devRef .tc main_v4) = edgeRow1 (X (Proc.devRef .tc main_arg1))) :
    StableHlo.after hostOps4 X (Proc.devRef .tc main_v96)
      = aggK (X (Proc.devRef .tc main_arg1)) (X (Proc.devRef .tc main_v86)) := by
  have e : StableHlo.after hostOps4 X (Proc.devRef .tc main_v96)
      = aggCols (srcCol (X (Proc.devRef .tc main_v2))) (dstCol (X (Proc.devRef .tc main_v4))) (X (Proc.devRef .tc main_v86)) := by
    after_results_simp <;> rfl
  rw [e, hv2, hv4]; rfl
theorem host0_v18 : StableHlo.after hostOps0 X (Proc.devRef .tc main_v18) (ix2 0 0) = scaleOf (X (Proc.devRef .tc main_arg7)) 0 :=
  scale_cut slices_S3_S1_0 0 rfl (by after_results_simp <;> rfl)
theorem host0_v26 : toMat (StableHlo.after hostOps0 X (Proc.devRef .tc main_v26)) = matOf3 (X (Proc.devRef .tc main_arg3)) 0 :=
  mat_cut slices_S3x128x128_S1x128x128_0_0_0 0 rfl (by after_results_simp <;> rfl)
theorem host0_v21 : toRow1 (StableHlo.after hostOps0 X (Proc.devRef .tc main_v21)) = rowOf3 (X (Proc.devRef .tc main_arg4)) 0 :=
  row_cut slices_S3x128_S1x128_0_0 0 rfl (by after_results_simp <;> rfl)
theorem host0_v28 : toMat (StableHlo.after hostOps0 X (Proc.devRef .tc main_v28)) = matOf3 (X (Proc.devRef .tc main_arg5)) 0 :=
  mat_cut slices_S3x128x128_S1x128x128_0_0_0 0 rfl (by after_results_simp <;> rfl)
theorem host0_v24 : toRow1 (StableHlo.after hostOps0 X (Proc.devRef .tc main_v24)) = rowOf3 (X (Proc.devRef .tc main_arg6)) 0 :=
  row_cut slices_S3x128_S1x128_0_0 0 rfl (by after_results_simp <;> rfl)
theorem host2_v59 : StableHlo.after hostOps2 X (Proc.devRef .tc main_v59) (ix2 0 0) = scaleOf (X (Proc.devRef .tc main_arg7)) 1 :=
  scale_cut slices_S3_S1_1 1 rfl (by after_results_simp <;> rfl)
theorem host2_v67 : toMat (StableHlo.after hostOps2 X (Proc.devRef .tc main_v67)) = matOf3 (X (Proc.devRef .tc main_arg3)) 1 :=
  mat_cut slices_S3x128x128_S1x128x128_1_0_0 1 rfl (by after_results_simp <;> rfl)
theorem host2_v62 : toRow1 (StableHlo.after hostOps2 X (Proc.devRef .tc main_v62)) = rowOf3 (X (Proc.devRef .tc main_arg4)) 1 :=
  row_cut slices_S3x128_S1x128_1_0 1 rfl (by after_results_simp <;> rfl)
theorem host2_v69 : toMat (StableHlo.after hostOps2 X (Proc.devRef .tc main_v69)) = matOf3 (X (Proc.devRef .tc main_arg5)) 1 :=
  mat_cut slices_S3x128x128_S1x128x128_1_0_0 1 rfl (by after_results_simp <;> rfl)
theorem host2_v65 : toRow1 (StableHlo.after hostOps2 X (Proc.devRef .tc main_v65)) = rowOf3 (X (Proc.devRef .tc main_arg6)) 1 :=
  row_cut slices_S3x128_S1x128_1_0 1 rfl (by after_results_simp <;> rfl)
theorem host4_v100 : StableHlo.after hostOps4 X (Proc.devRef .tc main_v100) (ix2 0 0) = scaleOf (X (Proc.devRef .tc main_arg7)) 2 :=
  scale_cut slices_S3_S1_2 2 rfl (by after_results_simp <;> rfl)
theorem host4_v108 : toMat (StableHlo.after hostOps4 X (Proc.devRef .tc main_v108)) = matOf3 (X (Proc.devRef .tc main_arg3)) 2 :=
  mat_cut slices_S3x128x128_S1x128x128_2_0_0 2 rfl (by after_results_simp <;> rfl)
theorem host4_v103 : toRow1 (StableHlo.after hostOps4 X (Proc.devRef .tc main_v103)) = rowOf3 (X (Proc.devRef .tc main_arg4)) 2 :=
  row_cut slices_S3x128_S1x128_2_0 2 rfl (by after_results_simp <;> rfl)
theorem host4_v110 : toMat (StableHlo.after hostOps4 X (Proc.devRef .tc main_v110)) = matOf3 (X (Proc.devRef .tc main_arg5)) 2 :=
  mat_cut slices_S3x128x128_S1x128x128_2_0_0 2 rfl (by after_results_simp <;> rfl)
theorem host4_v106 : toRow1 (StableHlo.after hostOps4 X (Proc.devRef .tc main_v106)) = rowOf3 (X (Proc.devRef .tc main_arg6)) 2 :=
  row_cut slices_S3x128_S1x128_2_0 2 rfl (by after_results_simp <;> rfl)
end Cert.KernelIdeal.HandV
end
-- ==== Proof.Val.KerPersist.lean ====
import proofs.«419539_j67095979099186_1_alg».proof.Proof.KI.Run
import Idealize.ShloMosaic.Lib.Pipeline.Value
set_option maxRecDepth 16384
noncomputable section
namespace Cert.KernelIdeal.HandV
open Cert.KernelIdeal Cert.KernelIdeal.Gen Cert.KernelIdeal.Hand
open Idealize.ShloMosaic Idealize.ShloMosaic.TcCoe
open Idealize.ShloMosaic.Pipeline (Dat)
variable {F : FTy → Type} [FloatOps F]
variable (m : (ℓ : Loc nD τ sig) → Buf (Elt F) ℓ)
theorem W2_same (c : Dev nD) (r : Ref sig .tc) (h : ∀ w, Pipeline.arrRef spec0 w = r → (cfg0.win w).isOut = false) :
    W2 m c (Proc.devRef .tc r) = W1 m c (Proc.devRef .tc r) := by
  by_cases e : ∃ w, Pipeline.arrRef spec0 w = r
  · obtain ⟨w, rfl⟩ := e
    exact (W2_arr m c w).trans (((dat0 (V1 m) c).arrAt_in w (h w rfl) _).trans (A_eq0 (V1 m) c w))
  · exact Pipeline.withArrays_of_ne spec0 c _ _ _ fun w ew => e ⟨w, ew⟩
theorem layer {gr W : ℕ} (win : Fin W → Pipeline.WinSpec sig gr) (ops : List (HloOp τ sig (Elt F))) {L : List (Ref sig .tc)}
    (hL : ops.Forall fun op => op.writes ⊆ (L.map (Proc.devRef (τ := τ) .tc)).toFinset) (c : Dev nD) (V : Valuation τ sig (Elt F)) A
    (r : Ref sig .tc) (h : r ∉ Finset.univ.image (Pipeline.arrRef win) ∧ r ∉ L) :
    Pipeline.withArrays win c (StableHlo.after ops V) A (Proc.devRef .tc r) = V (Proc.devRef .tc r) :=
  (keptOff win c _ A r h.1).trans (StableHlo.after_of_writes_sub ops V hL h.2)
abbrev argRefs : List (Ref sig .tc) :=
  [main_arg0, main_arg1, main_arg2, main_arg3, main_arg4, main_arg5, main_arg6, main_arg7, main_arg8, main_arg9]
theorem arg_quiet : ∀ r ∈ argRefs, r ∉ hostOps0_W ∧ (∀ w, Pipeline.arrRef spec0 w = r → (cfg0.win w).isOut = false) ∧
    (r ∉ Finset.univ.image (Pipeline.arrRef spec1) ∧ r ∉ hostOps1_W) ∧ (r ∉ Finset.univ.image (Pipeline.arrRef spec2) ∧ r ∉ hostOps2_W) ∧
    (r ∉ Finset.univ.image (Pipeline.arrRef spec3) ∧ r ∉ hostOps3_W) ∧ (r ∉ Finset.univ.image (Pipeline.arrRef spec4) ∧ r ∉ hostOps4_W) := by decide
theorem W1_arg (c : Dev nD) (r : Ref sig .tc) (hr : r ∈ argRefs) : W1 m c (Proc.devRef .tc r) = m ((c : Thread nD τ).loc r) :=
  StableHlo.after_of_writes_sub hostOps0 _ hostOps0_writes (arg_quiet r hr).1
theorem W2_arg (c : Dev nD) (r : Ref sig .tc) (hr : r ∈ argRefs) : W2 m c (Proc.devRef .tc r) = m ((c : Thread nD τ).loc r) :=
  (W2_same m c r (arg_quiet r hr).2.1).trans (W1_arg m c r hr)
theorem W4_arg (c : Dev nD) (r : Ref sig .tc) (hr : r ∈ argRefs) : W4 m c (Proc.devRef .tc r) = m ((c : Thread nD τ).loc r) :=
  (layer spec1 hostOps1 hostOps1_writes c _ _ r (arg_quiet r hr).2.2.1).trans (W2_arg m c r hr)
theorem W6_arg (c : Dev nD) (r : Ref sig .tc) (hr : r ∈ argRefs) : W6 m c (Proc.devRef .tc r) = m ((c : Thread nD τ).loc r) :=
  (layer spec2 hostOps2 hostOps2_writes c _ _ r (arg_quiet r hr).2.2.2.1).trans (W4_arg m c r hr)
theorem W8_arg (c : Dev nD) (r : Ref sig .tc) (hr : r ∈ argRefs) : W8 m c (Proc.devRef .tc r) = m ((c : Thread nD τ).loc r) :=
  (layer spec3 hostOps3 hostOps3_writes c _ _ r (arg_quiet r hr).2.2.2.2.1).trans (W6_arg m c r hr)
theorem W10_arg (c : Dev nD) (r : Ref sig .tc) (hr : r ∈ argRefs) : W10 m c (Proc.devRef .tc r) = m ((c : Thread nD τ).loc r) :=
  (layer spec4 hostOps4 hostOps4_writes c _ _ r (arg_quiet r hr).2.2.2.2.2).trans (W8_arg m c r hr)
theorem W4_W1 (c : Dev nD) (r : Ref sig .tc)
    (h : (r ∉ Finset.univ.image (Pipeline.arrRef spec1) ∧ r ∉ hostOps1_W) ∧ r ∉ Finset.univ.image (Pipeline.arrRef spec0)) : W4 m c (Proc.devRef .tc r) = W1 m c (Proc.devRef .tc r) :=
  (layer spec1 hostOps1 hostOps1_writes c _ _ r h.1).trans (kept0 m c r h.2)
theorem W8_W4 (c : Dev nD) (r : Ref sig .tc)
    (h : (r ∉ Finset.univ.image (Pipeline.arrRef spec3) ∧ r ∉ hostOps3_W) ∧ r ∉ Finset.univ.image (Pipeline.arrRef spec2) ∧ r ∉ hostOps2_W) : W8 m c (Proc.devRef .tc r) = W4 m c (Proc.devRef .tc r) :=
  (layer spec3 hostOps3 hostOps3_writes c _ _ r h.1).trans (layer spec2 hostOps2 hostOps2_writes c _ _ r h.2)
theorem W4_v2 (c : Dev nD) : W4 m c main_v2 = W1 m c main_v2 := W4_W1 m c main_v2 (by decide)
theorem W8_v2 (c : Dev nD) : W8 m c main_v2 = W1 m c main_v2 := (W8_W4 m c main_v2 (by decide)).trans (W4_v2 m c)
theorem W4_v4 (c : Dev nD) : W4 m c main_v4 = W1 m c main_v4 := W4_W1 m c main_v4 (by decide)
theorem W8_v4 (c : Dev nD) : W8 m c main_v4 = W1 m c main_v4 := (W8_W4 m c main_v4 (by decide)).trans (W4_v4 m c)
theorem W2_v29_0 (c : Dev nD) : W2 m c main_v29_0 = (dat0 (V1 m) c).arrAt 7 cfg0.N := W2_arr m c 7
theorem W2_v29_1 (c : Dev nD) : W2 m c main_v29_1 = (dat0 (V1 m) c).arrAt 8 cfg0.N := W2_arr m c 8
theorem W2_v29_2 (c : Dev nD) : W2 m c main_v29_2 = (dat0 (V1 m) c).arrAt 9 cfg0.N := W2_arr m c 9
theorem W4_v45 (c : Dev nD) : W4 m c main_v45 = (dat1 (V3 m) c).arrAt 5 cfg1.N := W4_arr m c 5
theorem W6_v70_0 (c : Dev nD) : W6 m c main_v70_0 = (dat2 (V5 m) c).arrAt 7 cfg2.N := W6_arr m c 7
theorem W6_v70_1 (c : Dev nD) : W6 m c main_v70_1 = (dat2 (V5 m) c).arrAt 8 cfg2.N := W6_arr m c 8
theorem W6_v70_2 (c : Dev nD) : W6 m c main_v70_2 = (dat2 (V5 m) c).arrAt 9 cfg2.N := W6_arr m c 9
theorem W8_v86 (c : Dev nD) : W8 m c main_v86 = (dat3 (V7 m) c).arrAt 5 cfg3.N := W8_arr m c 5
theorem W10_v111_0 (c : Dev nD) : W10 m c main_v111_0 = (dat4 (V9 m) c).arrAt 7 cfg4.N := W10_arr m c 7
theorem W10_v111_1 (c : Dev nD) : W10 m c main_v111_1 = (dat4 (V9 m) c).arrAt 8 cfg4.N := W10_arr m c 8
theorem W10_v111_2 (c : Dev nD) : W10 m c main_v111_2 = (dat4 (V9 m) c).arrAt 9 cfg4.N := W10_arr m c 9
theorem W12_v127 (c : Dev nD) : W12 m c main_v127 = (dat5 (V11 m) c).arrAt 5 cfg5.N := W12_arr m c 5
theorem W3_v29_0 (c : Dev nD) : W3 m c main_v29_0 = W2 m c main_v29_0 := StableHlo.after_of_writes_sub hostOps1 _ hostOps1_writes (by decide)
theorem W5_v45 (c : Dev nD) : W5 m c main_v45 = W4 m c main_v45 := StableHlo.after_of_writes_sub hostOps2 _ hostOps2_writes (by decide)
theorem W7_v70_0 (c : Dev nD) : W7 m c main_v70_0 = W6 m c main_v70_0 := StableHlo.after_of_writes_sub hostOps3 _ hostOps3_writes (by decide)
theorem W9_v86 (c : Dev nD) : W9 m c main_v86 = W8 m c main_v86 := StableHlo.after_of_writes_sub hostOps4 _ hostOps4_writes (by decide)
theorem W11_v111_0 (c : Dev nD) : W11 m c main_v111_0 = W10 m c main_v111_0 := StableHlo.after_of_writes_sub hostOps5 _ hostOps5_writes (by decide)
end Cert.KernelIdeal.HandV
end
-- ==== Proof.Val.KerLayer.lean ====
import proofs.«419539_j67095979099186_1_alg».proof.Proof.Val.KerHostA
import proofs.«419539_j67095979099186_1_alg».proof.Proof.Val.KerPersist
namespace Cert.KernelIdeal.HandV
open Cert.KernelIdeal Cert.KernelIdeal.Hand Cert.GinSpec
open Idealize.ShloMosaic Idealize.ShloMosaic.TcCoe Idealize.ShloMosaic.ValueIdx Idealize.SL.Sem
variable (m : (ℓ : Loc nD τ sig) → Buf (Elt Ideal) ℓ) (c : Dev nD)
abbrev argAt (r : Ref sig .tc) : Buf (Elt Ideal) ((c : Thread nD τ).loc r) := m ((c : Thread nD τ).loc r)
variable {X Y : Valuation τ sig (Elt Ideal)} (hX : ∀ r ∈ argRefs, X (Proc.devRef .tc r) = argAt m c r)
include hX
-- v2 and v4 still hold what the first stretch wrote: rows 0 and 1 of argument 1.
theorem of_edges {P : Prop} (h2 : X (Proc.devRef .tc main_v2) = W1 m c main_v2)
    (h4 : X (Proc.devRef .tc main_v4) = W1 m c main_v4)
    (k : X (Proc.devRef .tc main_v2) = edgeRow0 (X (Proc.devRef .tc main_arg1)) →
      X (Proc.devRef .tc main_v4) = edgeRow1 (X (Proc.devRef .tc main_arg1)) → P) : P := by
  refine k ?_ ?_ <;> rw [hX main_arg1 (by decide)]
  · exact h2.trans (host0_v2 (W0 m c))
  · exact h4.trans (host0_v4 (W0 m c))
variable (hY : ∀ r ∈ argRefs, Y (Proc.devRef .tc r) = argAt m c r)
include hY
-- t, u are the column sums and sums of squares of M, so mu, inv are mean M, invStd (varK M) and the normalised z is layerK.
theorem layer_of_parts (act : Bool) (l : Fin 3)
    {s : EReal} {h hA a z zY zB o oD : S50000x128.Idx → EReal} {w1 w2 : S128x128.Idx → EReal}
    {b1 b2 t tY u uY mu inv ga be : S1x128.Idx → EReal} {M : Mat 50000 128}
    (es : s = scaleOf (X (Proc.devRef .tc main_arg7)) l) (eh : hA = h)
    (ea : a = aggK (X (Proc.devRef .tc main_arg1)) h)
    (e1 : toMat w1 = matOf3 (X (Proc.devRef .tc main_arg3)) l)
    (eb1 : toRow1 b1 = rowOf3 (X (Proc.devRef .tc main_arg4)) l)
    (e2 : toMat w2 = matOf3 (X (Proc.devRef .tc main_arg5)) l)
    (eb2 : toRow1 b2 = rowOf3 (X (Proc.devRef .tc main_arg6)) l)
    (eM : M = mlp s (toMat hA) (toMat a) (toMat w1) (toRow1 b1) (toMat w2) (toRow1 b2))
    (ez : zY = z) (hz : ∀ p q, z (ix2 p q) = M p q)
    (et : tY = t) (ht : ∀ q, t (ix2 0 q) = colSum M q)
    (eu : uY = u) (hu : ∀ q, u (ix2 0 q) = colSumSq M q)
    (hmu : ∀ q, mu (ix2 0 q) = Ideal.div (tY (ix2 0 q)) cnt)
    (hinv : ∀ q, inv (ix2 0 q) = Ideal.rsqrt ((Ideal.div (uY (ix2 0 q)) cnt
      - Ideal.div (tY (ix2 0 q)) cnt * Ideal.div (tY (ix2 0 q)) cnt) + epsLit))
    (hga : toRow1 ga = rowOf3 (Y (Proc.devRef .tc main_arg8)) l)
    (hbe : toRow1 be = rowOf3 (Y (Proc.devRef .tc main_arg9)) l)
    (ezB : zB = zY) (eo : oD = o)
    (ho : ∀ p q, o (ix2 p q) = (if act then relu (bn (toMat zB) (toRow1 mu) (toRow1 inv) (toRow1 ga) (toRow1 be))
      else bn (toMat zB) (toRow1 mu) (toRow1 inv) (toRow1 ga) (toRow1 be)) p q) :
    toMat oD = layerK act epsLit (scaleOf (argAt m c main_arg7) l) (toMat h) (toMat (aggK (argAt m c main_arg1) h))
      (matOf3 (argAt m c main_arg3) l) (rowOf3 (argAt m c main_arg4) l) (matOf3 (argAt m c main_arg5) l)
      (rowOf3 (argAt m c main_arg6) l) (rowOf3 (argAt m c main_arg8) l) (rowOf3 (argAt m c main_arg9) l) := by
  subst es eh ea ez et eu ezB eo
  rw [e1, eb1, e2, eb2, hX main_arg7 (by decide), hX main_arg1 (by decide), hX main_arg3 (by decide),
    hX main_arg4 (by decide), hX main_arg5 (by decide), hX main_arg6 (by decide)] at eM
  rw [hY main_arg8 (by decide)] at hga
  rw [hY main_arg9 (by decide)] at hbe
  subst eM
  have eZ : toMat zB = _ := funext fun p => funext fun q => hz p q
  have emu : toRow1 mu = mean _ := funext fun q => (hmu q).trans (by rw [ht q]; rfl)
  have einv : toRow1 inv = invStd (varK _) epsLit := funext fun q => (hinv q).trans (by rw [ht q, hu q]; rfl)
  funext p q
  show oD (ix2 p q) = _
  rw [ho p q, eZ, emu, einv, hga, hbe]
  rfl
end Cert.KernelIdeal.HandV
-- ==== Proof.Val.KerAlg.lean ====
import proofs.«419539_j67095979099186_1_alg».proof.Proof.Gen.KernelIdeal.Launch
import proofs.«419539_j67095979099186_1_alg».proof.Proof.Gen.KernelIdeal.Skeleton
import proofs.«419539_j67095979099186_1_alg».proof.Proof.Gen.KernelIdeal.Points
import proofs.«419539_j67095979099186_1_alg».proof.Proof.Val.Conv
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.GinSpec
open Idealize.ShloMosaic Idealize.ShloMosaic.TcCoe Idealize.ShloMosaic.ValueIdx
theorem dotA_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dotA_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dotA_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dotA_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl
theorem matmulA_apply (x : FVec Ideal S2000x128 .bf16) (w : FVec Ideal S128x128 .bf16) (r : Fin 2000) (q : Fin 128) :
    matmul dot_S2000x128_S128x128_S2000x128_1_0_0_1_n_n none x w (constant (F := Ideal) S2000x128 .f32 0x00000000#32) (ix2 r q)
      = ∑ k : Fin 128, x (ix2 r k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k := funext fun a => Fin.ext (by
    match a with
    | ⟨0, _⟩ => exact dotA_lhs_0 _ _
    | ⟨1, _⟩ => exact (dotA_lhs_1 _ _).trans hk)
  have er : dot_S2000x128_S128x128_S2000x128_1_0_0_1_n_n.rhsIdx (ix2 r q) ((contrEquiv1 dot_S2000x128_S128x128_S2000x128_1_0_0_1_n_n 128 rfl rfl).symm k) = ix2 k q := funext fun a => Fin.ext (by
    match a with
    | ⟨0, _⟩ => exact (dotA_rhs_0 _ _).trans hk
    | ⟨1, _⟩ => exact dotA_rhs_1 _ _)
  rw [el, er]
theorem extractA (x : Vec Ideal S1x1 .f32) : extractAt ![0, 0] x inpos_S1x1_p0_0 = x (ix2 0 0) :=
  congrArg x (funext fun a => Fin.ext (by match a with | ⟨0, _⟩ => rfl | ⟨1, _⟩ => rfl))
theorem zeroLitA : (Scalar.ofBits (F := Ideal) .f32 0x00000000#32 : EReal) = 0 := Ideal.ofBits_zero_f32
theorem lift_rows (q : Fin 128) (r : Fin 2000) : reduces_S2000x128_S128.lift (ix1 q) r = ix2 r q := by
  funext a
  apply Fin.ext
  match a with
  | ⟨0, _⟩ => rfl
  | ⟨1, _⟩ => rfl
theorem rowsum_apply (x : FVec Ideal S2000x128 .f32) (hφ : FKind.Formats .f32)
    (hacc : (0x00000000#32 : BitVec 32) = FKind.add.neutral .f32 hφ) (q : Fin 128) :
    multiReduction .add [0] S128 x 0x00000000#32 reduces_S2000x128_S128 hφ hacc (ix1 q) = ∑ r : Fin 2000, x (ix2 r q) := by
  refine (Ideal.multiReduction_add_single x 0x00000000#32 reduces_S2000x128_S128 hφ hacc (ix1 q)).trans ?_
  exact Finset.sum_congr rfl fun r _ => congrArg x (lift_rows q r)
end Cert.KernelIdeal.HandV
end
-- ==== Proof.Val.KerAz0.lean ====
import proofs.«419539_j67095979099186_1_alg».proof.Proof.KI.RegA0
import proofs.«419539_j67095979099186_1_alg».proof.Proof.Val.Conv
import proofs.«419539_j67095979099186_1_alg».proof.Proof.Val.KerAlg
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.ShloMosaic.ValueIdx
open Idealize.ShloMosaic.Pipeline (Dat)
variable (V : (c : Dev nD) → (b : Ref sig .tc) → Buf (Elt Ideal) ((c : Thread nD τ).loc b))
theorem payA0_apply (x0 : Vec Ideal S1x1 .f32) (x1 x2 : Vec Ideal S2000x128 .f32) (x3 : Vec Ideal S128x128 .f32)
    (x4 : Vec Ideal S1x128 .f32) (x5 : Vec Ideal S128x128 .f32) (x6 : Vec Ideal S1x128 .f32) (r : Fin 2000) (q : Fin 128) :
    k0_pay5 (F := Ideal) x0 x1 x2 x3 x4 x5 x6 (ix2 r q)
      = (∑ j : Fin 128, max ((∑ k : Fin 128, (x0 (ix2 0 0) * x1 (ix2 r k) + x2 (ix2 r k)) * x3 (ix2 k j)) + x4 (ix2 0 j)) 0
            * x5 (ix2 j q)) + x6 (ix2 0 q) := by
  unfold k0_pay5
  simp only [shapeCast_self]
  rw [addf_apply, matmulA_apply, broadcastTo_1b_ab_apply]
  refine congrArg (· + x6 (ix2 0 q)) (Finset.sum_congr rfl fun j _ => ?_)
  rw [truncf_apply, truncf_apply, maximumf_apply, broadcast_apply, zeroLitA, addf_apply, matmulA_apply, broadcastTo_1b_ab_apply]
  refine congrArg (fun s => max (s + x4 (ix2 0 j)) 0 * x5 (ix2 j q)) (Finset.sum_congr rfl fun k _ => ?_)
  rw [← extractA x0]
  rfl
theorem idxA0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)
theorem blkA0_0 (c : Dev nD) (t : Fin cfg0.N) :
    (iblk0 (F := Ideal) V c 0 t : Vec Ideal S1x1 .f32) (ix2 0 0) = (V c main_v18 : S1x1.Idx → EReal) (ix2 0 0) := by
  obtain ⟨e0, e1, -⟩ := idxA0 t
  unfold iblk0
  rw [View.read_apply]
  show V c main_v18 _ = V c main_v18 _
  congr 1
  funext a
  apply Fin.ext
  match a with
  | ⟨0, _⟩ => show win0_0.index t (0 : Fin 2) * 1 + 1 * 0 = 0; omega
  | ⟨1, _⟩ => show win0_0.index t (1 : Fin 2) * 1 + 1 * 0 = 0; omega
theorem blkA0_1 (c : Dev nD) (t : Fin cfg0.N) (r : Fin 2000) (k : Fin 128) (n : Fin 50000) (hn : n.val = 2000 * t.val + r.val) :
    (iblk0 (F := Ideal) V c 1 t : Vec Ideal S2000x128 .f32) (ix2 r k) = (V c main_arg0 : S50000x128.Idx → EReal) (ix2 n k) := by
  obtain ⟨-, -, e0, e1, -⟩ := idxA0 t
  unfold iblk0
  rw [View.read_apply]
  show V c main_arg0 _ = V c main_arg0 _
  congr 1
  funext a
  apply Fin.ext
  match a with
  | ⟨0, _⟩ => show win0_1.index t (0 : Fin 2) * 2000 + 1 * r.val = n.val; omega
  | ⟨1, _⟩ => show win0_1.index t (1 : Fin 2) * 128 + 1 * k.val = k.val; omega
theorem blkA0_2 (c : Dev nD) (t : Fin cfg0.N) (r : Fin 2000) (k : Fin 128) (n : Fin 50000) (hn : n.val = 2000 * t.val + r.val) :
    (iblk0 (F := Ideal) V c 2 t : Vec Ideal S2000x128 .f32) (ix2 r k) = (V c main_v14 : S50000x128.Idx → EReal) (ix2 n k) := by
  obtain ⟨-, -, -, -, e0, e1, -⟩ := idxA0 t
  unfold iblk0
  rw [View.read_apply]
  show V c main_v14 _ = V c main_v14 _
  congr 1
  funext a
  apply Fin.ext
  match a with
  | ⟨0, _⟩ => show win0_2.index t (0 : Fin 2) * 2000 + 1 * r.val = n.val; omega
  | ⟨1, _⟩ => show win0_2.index t (1 : Fin 2) * 128 + 1 * k.val = k.val; omega
theorem blkA0_3 (c : Dev nD) (t : Fin cfg0.N) (k j : Fin 128) :
    (iblk0 (F := Ideal) V c 3 t : Vec Ideal S128x128 .f32) (ix2 k j) = (V c main_v26 : S128x128.Idx → EReal) (ix2 k j) := by
  obtain ⟨-, -, -, -, -, -, e0, e1, -⟩ := idxA0 t
  unfold iblk0
  rw [View.read_apply]
  show V c main_v26 _ = V c main_v26 _
  congr 1
  funext a
  apply Fin.ext
  match a with
  | ⟨0, _⟩ => show win0_3.index t (0 : Fin 2) * 128 + 1 * k.val = k.val; omega
  | ⟨1, _⟩ => show win0_3.index t (1 : Fin 2) * 128 + 1 * j.val = j.val; omega
theorem blkA0_4 (c : Dev nD) (t : Fin cfg0.N) (j : Fin 128) :
    (iblk0 (F := Ideal) V c 4 t : Vec Ideal S1x128 .f32) (ix2 0 j) = (V c main_v21 : S1x128.Idx → EReal) (ix2 0 j) := by
  obtain ⟨-, -, -, -, -, -, -, -, e0, e1, -⟩ := idxA0 t
  unfold iblk0
  rw [View.read_apply]
  show V c main_v21 _ = V c main_v21 _
  congr 1
  funext a
  apply Fin.ext
  match a with
  | ⟨0, _⟩ => show win0_4.index t (0 : Fin 2) * 1 + 1 * 0 = 0; omega
  | ⟨1, _⟩ => show win0_4.index t (1 : Fin 2) * 128 + 1 * j.val = j.val; omega
theorem blkA0_5 (c : Dev nD) (t : Fin cfg0.N) (k j : Fin 128) :
    (iblk0 (F := Ideal) V c 5 t : Vec Ideal S128x128 .f32) (ix2 k j) = (V c main_v28 : S128x128.Idx → EReal) (ix2 k j) := by
  obtain ⟨-, -, -, -, -, -, -, -, -, -, e0, e1, -⟩ := idxA0 t
  unfold iblk0
  rw [View.read_apply]
  show V c main_v28 _ = V c main_v28 _
  congr 1
  funext a
  apply Fin.ext
  match a with
  | ⟨0, _⟩ => show win0_5.index t (0 : Fin 2) * 128 + 1 * k.val = k.val; omega
  | ⟨1, _⟩ => show win0_5.index t (1 : Fin 2) * 128 + 1 * j.val = j.val; omega
theorem blkA0_6 (c : Dev nD) (t : Fin cfg0.N) (j : Fin 128) :
    (iblk0 (F := Ideal) V c 6 t : Vec Ideal S1x128 .f32) (ix2 0 j) = (V c main_v24 : S1x128.Idx → EReal) (ix2 0 j) := by
  obtain ⟨-, -, -, -, -, -, -, -, -, -, -, -, e0, e1, -⟩ := idxA0 t
  unfold iblk0
  rw [View.read_apply]
  show V c main_v24 _ = V c main_v24 _
  congr 1
  funext a
  apply Fin.ext
  match a with
  | ⟨0, _⟩ => show win0_6.index t (0 : Fin 2) * 1 + 1 * 0 = 0; omega
  | ⟨1, _⟩ => show win0_6.index t (1 : Fin 2) * 128 + 1 * j.val = j.val; omega
abbrev mlpA0 (c : Dev nD) :=
  mlp ((V c main_v18 : S1x1.Idx → EReal) (ix2 0 0)) (toMat (V c main_arg0 : S50000x128.Idx → EReal))
    (toMat (V c main_v14 : S50000x128.Idx → EReal)) (toMat (V c main_v26 : S128x128.Idx → EReal))
    (toRow1 (V c main_v21 : S1x128.Idx → EReal)) (toMat (V c main_v28 : S128x128.Idx → EReal))
    (toRow1 (V c main_v24 : S1x128.Idx → EReal))
def zGA0 (c : Dev nD) : S50000x128.Idx → EReal := fun i => mlpA0 V c (i 0) (i 1)
theorem zAt0_row (c : Dev nD) (t : Fin cfg0.N) (r : Fin 2000) (q : Fin 128) (n : Fin 50000) (hn : n.val = 2000 * t.val + r.val) :
    zAt0 (F := Ideal) V c t (ix2 r q) = mlpA0 V c n q := by
  unfold zAt0
  refine (payA0_apply _ _ _ _ _ _ _ r q).trans ?_
  unfold mlpA0 mlp lin relu zpre toMat toRow1
  rw [blkA0_6 V c t q]
  refine congrArg (· + _) (Finset.sum_congr rfl fun j _ => ?_)
  rw [blkA0_5 V c t j q, blkA0_4 V c t j]
  refine congrArg (fun s => max (s + _) 0 * _) (Finset.sum_congr rfl fun k _ => ?_)
  rw [blkA0_0 V c t, blkA0_1 V c t r k n hn, blkA0_2 V c t r k n hn, blkA0_3 V c t k j]
theorem zGA0_apply (c : Dev nD) (i : S50000x128.Idx) (n : Fin 50000) (q : Fin 128) (h0 : (i 0).val = n.val) (h1 : (i 1).val = q.val) :
    zGA0 V c i = mlpA0 V c n q := by
  obtain ⟨a, b, rfl⟩ : ∃ (a : Fin 50000) (b : Fin 128), i = ix2 a b := ⟨i 0, i 1, eq_ix2 i⟩
  obtain rfl : a = n := Fin.ext h0
  obtain rfl : b = q := Fin.ext h1
  rfl
theorem flushedA0 (c : Dev nD) (t : Fin cfg0.N) :
    (dat0 (F := Ideal) V c).flushed 7 t = ((cfg0.win 7).blk t).view.read (Elt Ideal) (zGA0 V c) := by
  funext y
  obtain ⟨r, q, rfl⟩ : ∃ (r : Fin 2000) (q : Fin 128), y = ix2 r q := ⟨y 0, y 1, eq_ix2 y⟩
  rw [View.read_apply]
  show (dat0 (F := Ideal) V c).after 7 t (ix2 r q) = zGA0 V c _
  rw [after0_7]
  obtain ⟨-, -, -, -, -, -, -, -, -, -, -, -, -, -, e0, e1⟩ := idxA0 t
  have ht : t.val < 25 := by have := t.isLt; have : cfg0.N = 25 := N_0; omega
  have hr : r.val < 2000 := r.isLt
  refine (zAt0_row V c t r q ⟨2000 * t.val + r.val, by omega⟩ rfl).trans (zGA0_apply V c _ _ q ?_ ?_).symm
  · show win0_7.index t (0 : Fin 2) * 2000 + 1 * r.val = 2000 * t.val + r.val; omega
  · show win0_7.index t (1 : Fin 2) * 128 + 1 * q.val = q.val; omega
theorem coverA0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, -, -, -, -, -, -, -, -, e0, e1⟩ := idxA0 t
  refine ⟨t, flush0_7 t, ?_⟩
  show i ∈ ((View.whole main_v29_0).slice (win0_7.rect t)).set
  rw [View.set_slice_whole, Rect.mem_set_unit]
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 128 ≤ (i 1).val ∧ (i 1).val < win0_7.index t (1 : Fin 2) * 128 + 128
    omega
theorem zArr0_eq (c : Dev nD) : (dat0 (F := Ideal) V c).arrAt 7 cfg0.N = zGA0 V c :=
  (dat0 (F := Ideal) V c).arrAt_eq_of_cover 7 (zGA0 V c) (fun t _ => flushedA0 V c t) coverA0
theorem zAt0_apply (c : Dev nD) (t : Fin cfg0.N) (r : Fin 2000) (q : Fin 128) :
    zAt0 (F := Ideal) V c t (ix2 r q)
      = mlpA0 V c ⟨2000 * t.val + r.val, by have := t.isLt; have : cfg0.N = 25 := N_0; have := r.isLt; omega⟩ q :=
  zAt0_row V c t r q _ rfl
theorem zArr0 (c : Dev nD) (p : Fin 50000) (q : Fin 128) :
    ((dat0 (F := Ideal) V c).arrAt 7 cfg0.N : S50000x128.Idx → EReal) (ix2 p q)
      = mlp ((V c main_v18 : S1x1.Idx → EReal) (ix2 0 0)) (toMat (V c main_arg0 : S50000x128.Idx → EReal))
          (toMat (V c main_v14 : S50000x128.Idx → EReal)) (toMat (V c main_v26 : S128x128.Idx → EReal))
          (toRow1 (V c main_v21 : S1x128.Idx → EReal)) (toMat (V c main_v28 : S128x128.Idx → EReal))
          (toRow1 (V c main_v24 : S1x128.Idx → EReal)) p q :=
  congrFun (zArr0_eq V c) (ix2 p q)
end Cert.KernelIdeal.HandV
end
-- ==== Proof.Val.KerAs0.lean ====
import proofs.«419539_j67095979099186_1_alg».proof.Proof.KI.RegA0
import proofs.«419539_j67095979099186_1_alg».proof.Proof.Val.Conv
import proofs.«419539_j67095979099186_1_alg».proof.Proof.Val.GinMath
import proofs.«419539_j67095979099186_1_alg».proof.Proof.Val.KerAz0
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.ShloMosaic.ValueIdx
open Idealize.ShloMosaic.Pipeline (Dat)
open scoped BigOperators
variable (V : (c : Dev nD) → (b : Ref sig .tc) → Buf (Elt Ideal) ((c : Thread nD τ).loc b))
theorem pay0_1_apply (z : FVec Ideal S2000x128 .f32) (acc : Vec Ideal S1x128 .f32) (q : Fin 128) :
    k0_pay1 z acc (ix2 0 q) = acc (ix2 0 q) + ∑ r : Fin 2000, z (ix2 r q) := by
  unfold k0_pay1
  rw [shapeCast_self]
  show acc (ix2 0 q) + shapeCast S1x128 _ shapeCasts_S128_S1x128 (ix2 0 q) = _
  rw [shapeCast_a_1a_apply]
  exact congrArg (fun s => acc (ix2 0 q) + s) (rowsum_apply z _ _ q)
theorem pay0_2_apply (z : FVec Ideal S2000x128 .f32) (acc : Vec Ideal S1x128 .f32) (q : Fin 128) :
    k0_pay2 z acc (ix2 0 q) = acc (ix2 0 q) + ∑ r : Fin 2000, z (ix2 r q) * z (ix2 r q) := by
  unfold k0_pay2
  rw [shapeCast_self]
  show acc (ix2 0 q) + shapeCast S1x128 _ shapeCasts_S128_S1x128 (ix2 0 q) = _
  rw [shapeCast_a_1a_apply]
  exact congrArg (fun s => acc (ix2 0 q) + s) (rowsum_apply (mulf z z) _ _ q)
theorem pay0_3_apply (q : Fin 128) : (k0_pay3 (F := Ideal)) (ix2 0 q) = 0 := by
  unfold k0_pay3
  rw [shapeCast_self]
  exact Ideal.ofBits_zero_f32
theorem pay0_4_apply (q : Fin 128) : (k0_pay4 (F := Ideal)) (ix2 0 q) = 0 := by
  unfold k0_pay4
  rw [shapeCast_self]
  exact Ideal.ofBits_zero_f32
abbrev pt0 (t : Fin 25) : Fin cfg0.N := ⟨t.val, by have hN : cfg0.N = 25 := N_0; have := t.isLt; omega⟩
def tileS0 (c : Dev nD) (q : Fin 128) : Fin 25 → EReal :=
  fun t => ∑ r : Fin 2000, zAt0 (F := Ideal) V c (pt0 t) (ix2 r q)
def tileSq0 (c : Dev nD) (q : Fin 128) : Fin 25 → EReal :=
  fun t => ∑ r : Fin 2000, zAt0 (F := Ideal) V c (pt0 t) (ix2 r q) * zAt0 (F := Ideal) V c (pt0 t) (ix2 r q)
theorem acc0_eq (c : Dev nD) (q : Fin 128) : ∀ (n : ℕ) (h : n < cfg0.N) (h' : n < 25),
    (accAt0 (F := Ideal) V c n h).1 (ix2 0 q) = Cert.GinMath.accSum (tileS0 V c q) n h'
      ∧ (accAt0 (F := Ideal) V c n h).2 (ix2 0 q) = Cert.GinMath.accSum (tileSq0 V c q) n h'
  | 0, h, h' => by
      rw [accAt0]
      refine ⟨?_, ?_⟩
      · show k0_pay1 _ _ (ix2 0 q) = _
        rw [pay0_1_apply, pay0_3_apply]
        rfl
      · show k0_pay2 _ _ (ix2 0 q) = _
        rw [pay0_2_apply, pay0_4_apply]
        rfl
  | n + 1, h, h' => by
      obtain ⟨ih1, ih2⟩ := acc0_eq c q n (Nat.lt_of_succ_lt h) (Nat.lt_of_succ_lt h')
      rw [accAt0]
      refine ⟨?_, ?_⟩
      · show k0_pay1 _ _ (ix2 0 q) = _
        rw [pay0_1_apply, ih1]
        rfl
      · show k0_pay2 _ _ (ix2 0 q) = _
        rw [pay0_2_apply, ih2]
        rfl
theorem tileS0_eq (c : Dev nD) (q : Fin 128) (t : Fin 25) :
    tileS0 V c q t = ∑ r : Fin 2000, mlpA0 V c ⟨2000 * t.val + r.val, by have := t.isLt; omega⟩ q := by
  unfold tileS0
  exact Finset.sum_congr rfl fun r _ => zAt0_apply V c (pt0 t) r q
theorem tileSq0_eq (c : Dev nD) (q : Fin 128) (t : Fin 25) :
    tileSq0 V c q t = ∑ r : Fin 2000, mlpA0 V c ⟨2000 * t.val + r.val, by have := t.isLt; omega⟩ q * mlpA0 V c ⟨2000 * t.val + r.val, by have := t.isLt; omega⟩ q := by
  unfold tileSq0
  exact Finset.sum_congr rfl fun r _ =>
    congrArg₂ (fun x y : EReal => x * y) (zAt0_apply V c (pt0 t) r q) (zAt0_apply V c (pt0 t) r q)
theorem last0_lt : 24 < cfg0.N := by rw [show cfg0.N = 25 from N_0]; decide
abbrev tLast0 : Fin cfg0.N := ⟨24, last0_lt⟩
abbrev sRow0 (c : Dev nD) : Buf (Elt Ideal) ((c : Thread nD τ).loc main_v29_1) := (accAt0 (F := Ideal) V c 24 last0_lt).1
abbrev ssRow0 (c : Dev nD) : Buf (Elt Ideal) ((c : Thread nD τ).loc main_v29_2) := (accAt0 (F := Ideal) V c 24 last0_lt).2
theorem sRow0_apply (c : Dev nD) (q : Fin 128) : sRow0 V c (ix2 0 q) = Cert.GinSpec.colSum (mlpA0 V c) q := by
  show (accAt0 (F := Ideal) V c 24 last0_lt).1 (ix2 0 q) = _
  rw [(acc0_eq V c q 24 last0_lt (by decide)).1, Cert.GinMath.fold_tiles]
  refine (Finset.sum_congr rfl fun t _ => tileS0_eq V c q t).trans ?_
  exact Cert.GinMath.sum_tiles (fun n => mlpA0 V c n q)
theorem ssRow0_apply (c : Dev nD) (q : Fin 128) : ssRow0 V c (ix2 0 q) = Cert.GinSpec.colSumSq (mlpA0 V c) q := by
  show (accAt0 (F := Ideal) V c 24 last0_lt).2 (ix2 0 q) = _
  rw [(acc0_eq V c q 24 last0_lt (by decide)).2, Cert.GinMath.fold_tiles]
  refine (Finset.sum_congr rfl fun t _ => tileSq0_eq V c q t).trans ?_
  exact Cert.GinMath.sum_tiles (fun n => mlpA0 V c n q * mlpA0 V c n q)
theorem flushed0_8_eq (c : Dev nD) (t : Fin cfg0.N) (hf : (cfg0.win 8).flush t = true) :
    (dat0 (F := Ideal) V c).flushed 8 t = ((cfg0.win 8).blk t).view.read (Elt Ideal) (sRow0 V c) := by
  have hN : cfg0.N = 25 := N_0
  have h1 : t.val = 24 := by have := (flush0_8 t).mp hf; have := t.isLt; omega
  obtain rfl : t = tLast0 := Fin.ext h1
  show (cfg0.win 8).cut (grid0.coords tLast0) ((dat0 (F := Ideal) V c).after 8 tLast0) = _
  rw [after0_8]
  have hz' : (fun a => win0_8.index tLast0 a * main_v29_1.ty.shape.size a) = fun _ => 0 := funext fun a => by fin_cases a <;> decide
  exact (Memref.read_access_unit_zero (Elt Ideal) main_v29_1 hz' (fun a => by rw [congrFun hz' a]; simp) (sRow0 V c)).symm
theorem flushed0_9_eq (c : Dev nD) (t : Fin cfg0.N) (hf : (cfg0.win 9).flush t = true) :
    (dat0 (F := Ideal) V c).flushed 9 t = ((cfg0.win 9).blk t).view.read (Elt Ideal) (ssRow0 V c) := by
  have hN : cfg0.N = 25 := N_0
  have h1 : t.val = 24 := by have := (flush0_9 t).mp hf; have := t.isLt; omega
  obtain rfl : t = tLast0 := Fin.ext h1
  show (cfg0.win 9).cut (grid0.coords tLast0) ((dat0 (F := Ideal) V c).after 9 tLast0) = _
  rw [after0_9]
  have hz' : (fun a => win0_9.index tLast0 a * main_v29_2.ty.shape.size a) = fun _ => 0 := funext fun a => by fin_cases a <;> decide
  exact (Memref.read_access_unit_zero (Elt Ideal) main_v29_2 hz' (fun a => by rw [congrFun hz' a]; simp) (ssRow0 V c)).symm
theorem final0_8 (c : Dev nD) : (dat0 (F := Ideal) V c).arrAt 8 cfg0.N = sRow0 V c :=
  (dat0 (F := Ideal) V c).arrAt_eq_of_cover 8 (sRow0 V c) (flushed0_8_eq V c) fun i =>
    ⟨tLast0, (flush0_8 tLast0).mpr rfl, by
      show i ∈ ((View.whole main_v29_1).slice (win0_8.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_8.index tLast0 0 * win0_8.size 0 ≤ (i 0 : Nat) ∧ (i 0 : Nat) < win0_8.index tLast0 0 * win0_8.size 0 + win0_8.xsize (grid0.coords tLast0) 0
                  rw [show win0_8.index tLast0 0 * win0_8.size 0 = 0 from by decide +kernel, show win0_8.xsize (grid0.coords tLast0) 0 = 1 from by decide +kernel]; omega
      | ⟨1, _⟩ => show win0_8.index tLast0 1 * win0_8.size 1 ≤ (i 1 : Nat) ∧ (i 1 : Nat) < win0_8.index tLast0 1 * win0_8.size 1 + win0_8.xsize (grid0.coords tLast0) 1
                  rw [show win0_8.index tLast0 1 * win0_8.size 1 = 0 from by decide +kernel, show win0_8.xsize (grid0.coords tLast0) 1 = 128 from by decide +kernel]; omega⟩
theorem final0_9 (c : Dev nD) : (dat0 (F := Ideal) V c).arrAt 9 cfg0.N = ssRow0 V c :=
  (dat0 (F := Ideal) V c).arrAt_eq_of_cover 9 (ssRow0 V c) (flushed0_9_eq V c) fun i =>
    ⟨tLast0, (flush0_9 tLast0).mpr rfl, by
      show i ∈ ((View.whole main_v29_2).slice (win0_9.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_9.index tLast0 0 * win0_9.size 0 ≤ (i 0 : Nat) ∧ (i 0 : Nat) < win0_9.index tLast0 0 * win0_9.size 0 + win0_9.xsize (grid0.coords tLast0) 0
                  rw [show win0_9.index tLast0 0 * win0_9.size 0 = 0 from by decide +kernel, show win0_9.xsize (grid0.coords tLast0) 0 = 1 from by decide +kernel]; omega
      | ⟨1, _⟩ => show win0_9.index tLast0 1 * win0_9.size 1 ≤ (i 1 : Nat) ∧ (i 1 : Nat) < win0_9.index tLast0 1 * win0_9.size 1 + win0_9.xsize (grid0.coords tLast0) 1
                  rw [show win0_9.index tLast0 1 * win0_9.size 1 = 0 from by decide +kernel, show win0_9.xsize (grid0.coords tLast0) 1 = 128 from by decide +kernel]; omega⟩
theorem sArr0 (c : Dev nD) (q : Fin 128) :
    (dat0 (F := Ideal) V c).arrAt 8 cfg0.N (ix2 0 q) = Cert.GinSpec.colSum ((Cert.GinSpec.mlp ((V c main_v18) (ix2 0 0)) (toMat (V c main_arg0)) (toMat (V c main_v14)) (toMat (V c main_v26))
        (toRow1 (V c main_v21)) (toMat (V c main_v28)) (toRow1 (V c main_v24)))) q := by
  rw [final0_8]
  exact sRow0_apply V c q
theorem ssArr0 (c : Dev nD) (q : Fin 128) :
    (dat0 (F := Ideal) V c).arrAt 9 cfg0.N (ix2 0 q) = Cert.GinSpec.colSumSq ((Cert.GinSpec.mlp ((V c main_v18) (ix2 0 0)) (toMat (V c main_arg0)) (toMat (V c main_v14)) (toMat (V c main_v26))
        (toRow1 (V c main_v21)) (toMat (V c main_v28)) (toRow1 (V c main_v24)))) q := by
  rw [final0_9]
  exact ssRow0_apply V c q
end Cert.KernelIdeal.HandV
end
-- ==== Proof.Val.KerBOut.lean ====
import proofs.«419539_j67095979099186_1_alg».proof.Proof.Val.Conv
import Idealize.ShloMosaic.Lib.ValueIdx
noncomputable section
namespace Cert.KernelIdeal.HandV
open Cert.GinSpec Idealize.ShloMosaic Idealize.ShloMosaic.ValueIdx
-- entry (p, q) of the normalised matrix followed by f, read at a flat index whose column is q.
def outFn (f : EReal → EReal) (z : (⟨2, ![50000, 128]⟩ : Shape).Idx → EReal) (mu inv ga be : (⟨2, ![1, 128]⟩ : Shape).Idx → EReal) :
    (⟨2, ![50000, 128]⟩ : Shape).Idx → EReal :=
  fun i => f (bn (toMat z) (toRow1 mu) (toRow1 inv) (toRow1 ga) (toRow1 be) (i 0) (i 1))
theorem outFn_at (f : EReal → EReal) (z : (⟨2, ![50000, 128]⟩ : Shape).Idx → EReal) (mu inv ga be : (⟨2, ![1, 128]⟩ : Shape).Idx → EReal)
    (k : (⟨2, ![50000, 128]⟩ : Shape).Idx) (q : Fin 128) (hq : (k 1).val = q.val) :
    outFn f z mu inv ga be k = f ((z k - mu (ix2 0 q)) * inv (ix2 0 q) * ga (ix2 0 q) + be (ix2 0 q)) := by
  obtain ⟨p, q', rfl⟩ : ∃ (p : Fin 50000) (q' : Fin 128), k = ix2 p q' := ⟨k 0, k 1, eq_ix2 k⟩
  obtain rfl : q' = q := Fin.ext hq
  rfl
end Cert.KernelIdeal.HandV
end
-- ==== Proof.Val.KerB1.lean ====
import proofs.«419539_j67095979099186_1_alg».proof.Proof.KI.RegB1
import proofs.«419539_j67095979099186_1_alg».proof.Proof.Val.Conv
import proofs.«419539_j67095979099186_1_alg».proof.Proof.Val.KerBOut
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.ShloMosaic.ValueIdx
open Idealize.ShloMosaic.Pipeline (Dat)
variable (V : (c : Dev nD) → (b : Ref sig .tc) → Buf (Elt Ideal) ((c : Thread nD τ).loc b))
theorem pay1_apply (v0 : Vec Ideal S2000x128 .f32) (v2 v6 v10 v14 : Vec Ideal S1x128 .f32) (r : Fin 2000) (q : Fin 128) :
    k1_pay1 v0 v2 v6 v10 v14 (ix2 r q)
      = max ((v0 (ix2 r q) - v2 (ix2 0 q)) * v6 (ix2 0 q) * v10 (ix2 0 q) + v14 (ix2 0 q)) 0 := by
  unfold k1_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  show max _ (Ideal.ofBits .f32 0x00000000#32) = _
  rw [Ideal.ofBits_zero_f32]
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)
theorem iblk1_0_apply (c : Dev nD) (t : Fin cfg1.N) (r : Fin 2000) (q : Fin 128) (k : S50000x128.Idx)
    (hk0 : (k 0).val = 2000 * t.val + r.val) (hk1 : (k 1).val = q.val) :
    (iblk1 V c 0 t : Vec Ideal S2000x128 .f32) (ix2 r q) = (V c main_v29_0 : S50000x128.Idx → EReal) k := by
  obtain ⟨e0, e1, -⟩ := idx_facts1 t
  unfold iblk1
  rw [View.read_apply]
  show (V c main_v29_0 : S50000x128.Idx → EReal) _ = _
  refine congrArg _ (funext fun a => Fin.ext ?_)
  match a with
  | ⟨0, _⟩ => show win1_0.index t (0 : Fin 2) * 2000 + 1 * r.val = (k 0).val; rw [e0, hk0]; omega
  | ⟨1, _⟩ => show win1_0.index t (1 : Fin 2) * 128 + 1 * q.val = (k 1).val; rw [e1, hk1]; omega
theorem iblk1_rows (c : Dev nD) (t : Fin cfg1.N) (q : Fin 128) :
    (iblk1 V c 1 t : Vec Ideal S1x128 .f32) (ix2 0 q) = (V c main_v31 : S1x128.Idx → EReal) (ix2 0 q)
    ∧ (iblk1 V c 2 t : Vec Ideal S1x128 .f32) (ix2 0 q) = (V c main_v38 : S1x128.Idx → EReal) (ix2 0 q)
    ∧ (iblk1 V c 3 t : Vec Ideal S1x128 .f32) (ix2 0 q) = (V c main_v41 : S1x128.Idx → EReal) (ix2 0 q)
    ∧ (iblk1 V c 4 t : Vec Ideal S1x128 .f32) (ix2 0 q) = (V c main_v44 : S1x128.Idx → EReal) (ix2 0 q) := by
  obtain ⟨-, -, a0, a1, b0, b1, c0, c1, d0, d1, -⟩ := idx_facts1 t
  have z0 : ∀ x : Nat, x = 0 → x * 1 + 1 * 0 = 0 := fun _ h => by rw [h]
  have z1 : ∀ x : Nat, x = 0 → x * 128 + 1 * q.val = q.val := fun _ h => by rw [h]; omega
  unfold iblk1
  refine ⟨?_, ?_, ?_, ?_⟩ <;> rw [View.read_apply]
  on_goal 1 => show (V c main_v31 : S1x128.Idx → EReal) _ = _
  on_goal 2 => show (V c main_v38 : S1x128.Idx → EReal) _ = _
  on_goal 3 => show (V c main_v41 : S1x128.Idx → EReal) _ = _
  on_goal 4 => show (V c main_v44 : S1x128.Idx → EReal) _ = _
  all_goals
    refine congrArg _ (funext fun a => Fin.ext ?_)
    match a with
    | ⟨0, _⟩ => first | exact z0 _ a0 | exact z0 _ b0 | exact z0 _ c0 | exact z0 _ d0
    | ⟨1, _⟩ => first | exact z1 _ a1 | exact z1 _ b1 | exact z1 _ c1 | exact z1 _ d1
theorem flushed1_eq (c : Dev nD) (t : Fin cfg1.N) :
    (dat1 (F := Ideal) V c).flushed 5 t
      = ((cfg1.win 5).blk t).view.read (Elt Ideal)
          (outFn (max · 0) (V c main_v29_0) (V c main_v31) (V c main_v38) (V c main_v41) (V c main_v44)) := by
  show (cfg1.win 5).cut (grid1.coords t) ((dat1 (F := Ideal) V c).after 5 t) = _
  rw [after1_5]
  unfold outB1
  funext j
  obtain ⟨r, q, rfl⟩ : ∃ (r : Fin 2000) (q : Fin 128), j = ix2 r q := ⟨j 0, j 1, eq_ix2 j⟩
  rw [View.read_apply]
  obtain ⟨-, -, -, -, -, -, -, -, -, -, e0, e1⟩ := idx_facts1 t
  have hk0 : ((((cfg1.win 5).blk t).view.emb (ix2 r q) : S50000x128.Idx) 0).val = 2000 * t.val + r.val := by
    show win1_5.index t (0 : Fin 2) * 2000 + 1 * r.val = _; rw [e0]; omega
  have hk1 : ((((cfg1.win 5).blk t).view.emb (ix2 r q) : S50000x128.Idx) 1).val = q.val := by
    show win1_5.index t (1 : Fin 2) * 128 + 1 * q.val = _; rw [e1]; omega
  have h0 := iblk1_0_apply V c t r q _ hk0 hk1
  obtain ⟨h1, h2, h3, h4⟩ := iblk1_rows V c t q
  show k1_pay1 (iblk1 V c 0 t) (iblk1 V c 1 t) (iblk1 V c 2 t) (iblk1 V c 3 t) (iblk1 V c 4 t) (ix2 r q) = _
  refine (pay1_apply _ _ _ _ _ r q).trans ?_
  rw [h0, h1, h2, h3, h4]
  exact (outFn_at (max · 0) _ _ _ _ _ _ q hk1).symm
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := idx_facts1 t
  refine ⟨t, flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega
theorem final1 (c : Dev nD) :
    (dat1 (F := Ideal) V c).arrAt 5 cfg1.N
      = outFn (max · 0) (V c main_v29_0) (V c main_v31) (V c main_v38) (V c main_v41) (V c main_v44) :=
  (dat1 (F := Ideal) V c).arrAt_eq_of_cover 5 _ (fun t _ => flushed1_eq V c t) cover1
theorem hArr1 (c : Dev nD) (p : Fin 50000) (q : Fin 128) :
    ((dat1 (F := Ideal) V c).arrAt 5 cfg1.N : S50000x128.Idx → EReal) (ix2 p q)
      = Cert.GinSpec.relu (Cert.GinSpec.bn (toMat (V c main_v29_0 : S50000x128.Idx → EReal))
          (toRow1 (V c main_v31 : S1x128.Idx → EReal)) (toRow1 (V c main_v38 : S1x128.Idx → EReal))
          (toRow1 (V c main_v41 : S1x128.Idx → EReal)) (toRow1 (V c main_v44 : S1x128.Idx → EReal))) p q := by
  rw [final1]; rfl
end Cert.KernelIdeal.HandV
end
-- ==== Proof.Val.KerHostS.lean ====
import proofs.«419539_j67095979099186_1_alg».proof.Proof.Val.KerHostA
set_option maxRecDepth 16384
noncomputable section
namespace Cert.KernelIdeal.HandV
open Cert.KernelIdeal Cert.KernelIdeal.Gen Cert.GinSpec
open Idealize.ShloMosaic Idealize.ShloMosaic.TcCoe Idealize.ShloMosaic.ValueIdx
theorem mean_of {a s : S1x128.Idx → EReal} (hb : S_.BroadcastsInDim S1x128 (![] : Fin 0 → Fin S1x128.rank))
    (e : a = Host.divf (F := Ideal) (φ := .f32) s (broadcastInDim S1x128 ![] hb (constant (F := Ideal) S_ .f32 0x47435000#32)))
    (q : Fin 128) : a (ix2 0 q) = Ideal.div (s (ix2 0 q)) Cert.GinSpec.cnt := by
  subst e
  show Ideal.div (s (ix2 0 q)) (Ideal.ofBits .f32 0x47435000#32) = _
  rw [Cert.GinMath.lit_50000]; rfl
def invTerm (hb : S_.BroadcastsInDim S1x128 (![] : Fin 0 → Fin S1x128.rank)) (s ss : S1x128.Idx → EReal) : S1x128.Idx → EReal :=
  Host.rsqrt (F := Ideal) (φ := .f32)
    (addf (F := Ideal) (φ := .f32)
      (subf (F := Ideal) (φ := .f32)
        (Host.divf (F := Ideal) (φ := .f32) ss (broadcastInDim S1x128 ![] hb (constant (F := Ideal) S_ .f32 0x47435000#32)))
        (mulf (F := Ideal) (φ := .f32)
          (Host.divf (F := Ideal) (φ := .f32) s (broadcastInDim S1x128 ![] hb (constant (F := Ideal) S_ .f32 0x47435000#32)))
          (Host.divf (F := Ideal) (φ := .f32) s (broadcastInDim S1x128 ![] hb (constant (F := Ideal) S_ .f32 0x47435000#32)))))
      (broadcastInDim S1x128 ![] hb (constant (F := Ideal) S_ .f32 0x3727C5AC#32)))
theorem inv_of {a s ss : S1x128.Idx → EReal} (hb : S_.BroadcastsInDim S1x128 (![] : Fin 0 → Fin S1x128.rank))
    (e : a = invTerm hb s ss) (q : Fin 128) :
    a (ix2 0 q)
      = Ideal.rsqrt ((Ideal.div (ss (ix2 0 q)) Cert.GinSpec.cnt
          - Ideal.div (s (ix2 0 q)) Cert.GinSpec.cnt * Ideal.div (s (ix2 0 q)) Cert.GinSpec.cnt) + Cert.GinSpec.epsLit) := by
  subst e
  show Ideal.rsqrt ((Ideal.div (ss (ix2 0 q)) (Ideal.ofBits .f32 0x47435000#32)
      - Ideal.div (s (ix2 0 q)) (Ideal.ofBits .f32 0x47435000#32) * Ideal.div (s (ix2 0 q)) (Ideal.ofBits .f32 0x47435000#32))
      + Ideal.ofBits .f32 0x3727C5AC#32) = _
  rw [Cert.GinMath.lit_50000]; rfl
theorem mean1 (X : Valuation τ sig (Elt Ideal)) (q : Fin 128) :
    (StableHlo.after (hostOps1 (F := Ideal)) X (Proc.devRef .tc main_v31) : S1x128.Idx → EReal) (ix2 0 q)
      = Ideal.div ((X (Proc.devRef .tc main_v29_1) : S1x128.Idx → EReal) (ix2 0 q)) Cert.GinSpec.cnt :=
  mean_of bcast_S_S1x128 (by after_results) q
theorem inv1 (X : Valuation τ sig (Elt Ideal)) (q : Fin 128) :
    (StableHlo.after (hostOps1 (F := Ideal)) X (Proc.devRef .tc main_v38) : S1x128.Idx → EReal) (ix2 0 q)
      = Ideal.rsqrt ((Ideal.div ((X (Proc.devRef .tc main_v29_2) : S1x128.Idx → EReal) (ix2 0 q)) Cert.GinSpec.cnt
          - Ideal.div ((X (Proc.devRef .tc main_v29_1) : S1x128.Idx → EReal) (ix2 0 q)) Cert.GinSpec.cnt
            * Ideal.div ((X (Proc.devRef .tc main_v29_1) : S1x128.Idx → EReal) (ix2 0 q)) Cert.GinSpec.cnt)
          + Cert.GinSpec.epsLit) :=
  inv_of bcast_S_S1x128 (by after_results; rfl) q
theorem gamma1 (X : Valuation τ sig (Elt Ideal)) :
    toRow1 (StableHlo.after (hostOps1 (F := Ideal)) X (Proc.devRef .tc main_v41) : S1x128.Idx → EReal)
      = rowOf3 (X (Proc.devRef .tc main_arg8) : S3x128.Idx → EReal) 0 :=
  row_cut slices_S3x128_S1x128_0_0 0 rfl (by after_results; rfl)
theorem beta1 (X : Valuation τ sig (Elt Ideal)) :
    toRow1 (StableHlo.after (hostOps1 (F := Ideal)) X (Proc.devRef .tc main_v44) : S1x128.Idx → EReal)
      = rowOf3 (X (Proc.devRef .tc main_arg9) : S3x128.Idx → EReal) 0 :=
  row_cut slices_S3x128_S1x128_0_0 0 rfl (by after_results; rfl)
theorem mean3 (X : Valuation τ sig (Elt Ideal)) (q : Fin 128) :
    (StableHlo.after (hostOps3 (F := Ideal)) X (Proc.devRef .tc main_v72) : S1x128.Idx → EReal) (ix2 0 q)
      = Ideal.div ((X (Proc.devRef .tc main_v70_1) : S1x128.Idx → EReal) (ix2 0 q)) Cert.GinSpec.cnt :=
  mean_of bcast_S_S1x128 (by after_results) q
theorem inv3 (X : Valuation τ sig (Elt Ideal)) (q : Fin 128) :
    (StableHlo.after (hostOps3 (F := Ideal)) X (Proc.devRef .tc main_v79) : S1x128.Idx → EReal) (ix2 0 q)
      = Ideal.rsqrt ((Ideal.div ((X (Proc.devRef .tc main_v70_2) : S1x128.Idx → EReal) (ix2 0 q)) Cert.GinSpec.cnt
          - Ideal.div ((X (Proc.devRef .tc main_v70_1) : S1x128.Idx → EReal) (ix2 0 q)) Cert.GinSpec.cnt
            * Ideal.div ((X (Proc.devRef .tc main_v70_1) : S1x128.Idx → EReal) (ix2 0 q)) Cert.GinSpec.cnt)
          + Cert.GinSpec.epsLit) :=
  inv_of bcast_S_S1x128 (by after_results; rfl) q
theorem gamma3 (X : Valuation τ sig (Elt Ideal)) :
    toRow1 (StableHlo.after (hostOps3 (F := Ideal)) X (Proc.devRef .tc main_v82) : S1x128.Idx → EReal)
      = rowOf3 (X (Proc.devRef .tc main_arg8) : S3x128.Idx → EReal) 1 :=
  row_cut slices_S3x128_S1x128_1_0 1 rfl (by after_results; rfl)
theorem beta3 (X : Valuation τ sig (Elt Ideal)) :
    toRow1 (StableHlo.after (hostOps3 (F := Ideal)) X (Proc.devRef .tc main_v85) : S1x128.Idx → EReal)
      = rowOf3 (X (Proc.devRef .tc main_arg9) : S3x128.Idx → EReal) 1 :=
  row_cut slices_S3x128_S1x128_1_0 1 rfl (by after_results; rfl)
theorem mean5 (X : Valuation τ sig (Elt Ideal)) (q : Fin 128) :
    (StableHlo.after (hostOps5 (F := Ideal)) X (Proc.devRef .tc main_v113) : S1x128.Idx → EReal) (ix2 0 q)
      = Ideal.div ((X (Proc.devRef .tc main_v111_1) : S1x128.Idx → EReal) (ix2 0 q)) Cert.GinSpec.cnt :=
  mean_of bcast_S_S1x128 (by after_results) q
theorem inv5 (X : Valuation τ sig (Elt Ideal)) (q : Fin 128) :
    (StableHlo.after (hostOps5 (F := Ideal)) X (Proc.devRef .tc main_v120) : S1x128.Idx → EReal) (ix2 0 q)
      = Ideal.rsqrt ((Ideal.div ((X (Proc.devRef .tc main_v111_2) : S1x128.Idx → EReal) (ix2 0 q)) Cert.GinSpec.cnt
          - Ideal.div ((X (Proc.devRef .tc main_v111_1) : S1x128.Idx → EReal) (ix2 0 q)) Cert.GinSpec.cnt
            * Ideal.div ((X (Proc.devRef .tc main_v111_1) : S1x128.Idx → EReal) (ix2 0 q)) Cert.GinSpec.cnt)
          + Cert.GinSpec.epsLit) :=
  inv_of bcast_S_S1x128 (by after_results; rfl) q
theorem gamma5 (X : Valuation τ sig (Elt Ideal)) :
    toRow1 (StableHlo.after (hostOps5 (F := Ideal)) X (Proc.devRef .tc main_v123) : S1x128.Idx → EReal)
      = rowOf3 (X (Proc.devRef .tc main_arg8) : S3x128.Idx → EReal) 2 :=
  row_cut slices_S3x128_S1x128_2_0 2 rfl (by after_results; rfl)
theorem beta5 (X : Valuation τ sig (Elt Ideal)) :
    toRow1 (StableHlo.after (hostOps5 (F := Ideal)) X (Proc.devRef .tc main_v126) : S1x128.Idx → EReal)
      = rowOf3 (X (Proc.devRef .tc main_arg9) : S3x128.Idx → EReal) 2 :=
  row_cut slices_S3x128_S1x128_2_0 2 rfl (by after_results; rfl)
end Cert.KernelIdeal.HandV
end
-- ==== Proof.Val.KerHost1.lean ====
import proofs.«419539_j67095979099186_1_alg».proof.Proof.Val.KerLayer
import proofs.«419539_j67095979099186_1_alg».proof.Proof.Val.KerAs0
import proofs.«419539_j67095979099186_1_alg».proof.Proof.Val.KerB1
import proofs.«419539_j67095979099186_1_alg».proof.Proof.Val.KerHostS
namespace Cert.KernelIdeal.HandV
open Cert.KernelIdeal Cert.KernelIdeal.Hand Cert.GinSpec
open Idealize.ShloMosaic Idealize.ShloMosaic.TcCoe
variable (m : (ℓ : Loc nD τ sig) → Buf (Elt Ideal) ℓ)
theorem ker_layer1 (c : Dev nD) :
    toMat (W4 m c (Proc.devRef .tc main_v45) : S50000x128.Idx → EReal)
      = layerK true epsLit (scaleOf (argAt m c main_arg7 : S3.Idx → EReal) 0) (toMat (argAt m c main_arg0 : S50000x128.Idx → EReal))
          (toMat (aggK (argAt m c main_arg1) (argAt m c main_arg0)))
          (matOf3 (argAt m c main_arg3 : S3x128x128.Idx → EReal) 0) (rowOf3 (argAt m c main_arg4 : S3x128.Idx → EReal) 0)
          (matOf3 (argAt m c main_arg5 : S3x128x128.Idx → EReal) 0) (rowOf3 (argAt m c main_arg6 : S3x128.Idx → EReal) 0)
          (rowOf3 (argAt m c main_arg8 : S3x128.Idx → EReal) 0) (rowOf3 (argAt m c main_arg9 : S3x128.Idx → EReal) 0) :=
  layer_of_parts m c (X := W0 m c) (fun _ _ => rfl) (W2_arg m c) true 0
    (host0_v18 _) (W1_arg m c main_arg0 (by decide)) (host0_v14 _) (host0_v26 _) (host0_v21 _) (host0_v28 _) (host0_v24 _) rfl
    (W2_v29_0 m c) (zArr0 (Hand.V1 m) c) (W2_v29_1 m c) (sArr0 (Hand.V1 m) c) (W2_v29_2 m c) (ssArr0 (Hand.V1 m) c)
    (mean1 (W2 m c)) (inv1 (W2 m c)) (gamma1 (W2 m c)) (beta1 (W2 m c))
    (W3_v29_0 m c) (W4_v45 m c) (hArr1 (Hand.V3 m) c)
end Cert.KernelIdeal.HandV
-- ==== Proof.Val.KerAz2.lean ====
import proofs.«419539_j67095979099186_1_alg».proof.Proof.KI.RegA2
import proofs.«419539_j67095979099186_1_alg».proof.Proof.Val.Conv
import proofs.«419539_j67095979099186_1_alg».proof.Proof.Val.KerAlg
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.ShloMosaic.ValueIdx
open Idealize.ShloMosaic.Pipeline (Dat)
variable (V : (c : Dev nD) → (b : Ref sig .tc) → Buf (Elt Ideal) ((c : Thread nD τ).loc b))
theorem payA2_apply (x0 : Vec Ideal S1x1 .f32) (x1 x2 : Vec Ideal S2000x128 .f32) (x3 : Vec Ideal S128x128 .f32)
    (x4 : Vec Ideal S1x128 .f32) (x5 : Vec Ideal S128x128 .f32) (x6 : Vec Ideal S1x128 .f32) (r : Fin 2000) (q : Fin 128) :
    k2_pay5 (F := Ideal) x0 x1 x2 x3 x4 x5 x6 (ix2 r q)
      = (∑ j : Fin 128, max ((∑ k : Fin 128, (x0 (ix2 0 0) * x1 (ix2 r k) + x2 (ix2 r k)) * x3 (ix2 k j)) + x4 (ix2 0 j)) 0
            * x5 (ix2 j q)) + x6 (ix2 0 q) := by
  unfold k2_pay5
  simp only [shapeCast_self]
  rw [addf_apply, matmulA_apply, broadcastTo_1b_ab_apply]
  refine congrArg (· + x6 (ix2 0 q)) (Finset.sum_congr rfl fun j _ => ?_)
  rw [truncf_apply, truncf_apply, maximumf_apply, broadcast_apply, zeroLitA, addf_apply, matmulA_apply, broadcastTo_1b_ab_apply]
  refine congrArg (fun s => max (s + x4 (ix2 0 j)) 0 * x5 (ix2 j q)) (Finset.sum_congr rfl fun k _ => ?_)
  rw [← extractA x0]
  rfl
theorem idxA2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)
theorem blkA2_0 (c : Dev nD) (t : Fin cfg2.N) :
    (iblk2 (F := Ideal) V c 0 t : Vec Ideal S1x1 .f32) (ix2 0 0) = (V c main_v59 : S1x1.Idx → EReal) (ix2 0 0) := by
  obtain ⟨e0, e1, -⟩ := idxA2 t
  unfold iblk2
  rw [View.read_apply]
  show V c main_v59 _ = V c main_v59 _
  congr 1
  funext a
  apply Fin.ext
  match a with
  | ⟨0, _⟩ => show win2_0.index t (0 : Fin 2) * 1 + 1 * 0 = 0; omega
  | ⟨1, _⟩ => show win2_0.index t (1 : Fin 2) * 1 + 1 * 0 = 0; omega
theorem blkA2_1 (c : Dev nD) (t : Fin cfg2.N) (r : Fin 2000) (k : Fin 128) (n : Fin 50000) (hn : n.val = 2000 * t.val + r.val) :
    (iblk2 (F := Ideal) V c 1 t : Vec Ideal S2000x128 .f32) (ix2 r k) = (V c main_v45 : S50000x128.Idx → EReal) (ix2 n k) := by
  obtain ⟨-, -, e0, e1, -⟩ := idxA2 t
  unfold iblk2
  rw [View.read_apply]
  show V c main_v45 _ = V c main_v45 _
  congr 1
  funext a
  apply Fin.ext
  match a with
  | ⟨0, _⟩ => show win2_1.index t (0 : Fin 2) * 2000 + 1 * r.val = n.val; omega
  | ⟨1, _⟩ => show win2_1.index t (1 : Fin 2) * 128 + 1 * k.val = k.val; omega
theorem blkA2_2 (c : Dev nD) (t : Fin cfg2.N) (r : Fin 2000) (k : Fin 128) (n : Fin 50000) (hn : n.val = 2000 * t.val + r.val) :
    (iblk2 (F := Ideal) V c 2 t : Vec Ideal S2000x128 .f32) (ix2 r k) = (V c main_v55 : S50000x128.Idx → EReal) (ix2 n k) := by
  obtain ⟨-, -, -, -, e0, e1, -⟩ := idxA2 t
  unfold iblk2
  rw [View.read_apply]
  show V c main_v55 _ = V c main_v55 _
  congr 1
  funext a
  apply Fin.ext
  match a with
  | ⟨0, _⟩ => show win2_2.index t (0 : Fin 2) * 2000 + 1 * r.val = n.val; omega
  | ⟨1, _⟩ => show win2_2.index t (1 : Fin 2) * 128 + 1 * k.val = k.val; omega
theorem blkA2_3 (c : Dev nD) (t : Fin cfg2.N) (k j : Fin 128) :
    (iblk2 (F := Ideal) V c 3 t : Vec Ideal S128x128 .f32) (ix2 k j) = (V c main_v67 : S128x128.Idx → EReal) (ix2 k j) := by
  obtain ⟨-, -, -, -, -, -, e0, e1, -⟩ := idxA2 t
  unfold iblk2
  rw [View.read_apply]
  show V c main_v67 _ = V c main_v67 _
  congr 1
  funext a
  apply Fin.ext
  match a with
  | ⟨0, _⟩ => show win2_3.index t (0 : Fin 2) * 128 + 1 * k.val = k.val; omega
  | ⟨1, _⟩ => show win2_3.index t (1 : Fin 2) * 128 + 1 * j.val = j.val; omega
theorem blkA2_4 (c : Dev nD) (t : Fin cfg2.N) (j : Fin 128) :
    (iblk2 (F := Ideal) V c 4 t : Vec Ideal S1x128 .f32) (ix2 0 j) = (V c main_v62 : S1x128.Idx → EReal) (ix2 0 j) := by
  obtain ⟨-, -, -, -, -, -, -, -, e0, e1, -⟩ := idxA2 t
  unfold iblk2
  rw [View.read_apply]
  show V c main_v62 _ = V c main_v62 _
  congr 1
  funext a
  apply Fin.ext
  match a with
  | ⟨0, _⟩ => show win2_4.index t (0 : Fin 2) * 1 + 1 * 0 = 0; omega
  | ⟨1, _⟩ => show win2_4.index t (1 : Fin 2) * 128 + 1 * j.val = j.val; omega
theorem blkA2_5 (c : Dev nD) (t : Fin cfg2.N) (k j : Fin 128) :
    (iblk2 (F := Ideal) V c 5 t : Vec Ideal S128x128 .f32) (ix2 k j) = (V c main_v69 : S128x128.Idx → EReal) (ix2 k j) := by
  obtain ⟨-, -, -, -, -, -, -, -, -, -, e0, e1, -⟩ := idxA2 t
  unfold iblk2
  rw [View.read_apply]
  show V c main_v69 _ = V c main_v69 _
  congr 1
  funext a
  apply Fin.ext
  match a with
  | ⟨0, _⟩ => show win2_5.index t (0 : Fin 2) * 128 + 1 * k.val = k.val; omega
  | ⟨1, _⟩ => show win2_5.index t (1 : Fin 2) * 128 + 1 * j.val = j.val; omega
theorem blkA2_6 (c : Dev nD) (t : Fin cfg2.N) (j : Fin 128) :
    (iblk2 (F := Ideal) V c 6 t : Vec Ideal S1x128 .f32) (ix2 0 j) = (V c main_v65 : S1x128.Idx → EReal) (ix2 0 j) := by
  obtain ⟨-, -, -, -, -, -, -, -, -, -, -, -, e0, e1, -⟩ := idxA2 t
  unfold iblk2
  rw [View.read_apply]
  show V c main_v65 _ = V c main_v65 _
  congr 1
  funext a
  apply Fin.ext
  match a with
  | ⟨0, _⟩ => show win2_6.index t (0 : Fin 2) * 1 + 1 * 0 = 0; omega
  | ⟨1, _⟩ => show win2_6.index t (1 : Fin 2) * 128 + 1 * j.val = j.val; omega
abbrev mlpA2 (c : Dev nD) :=
  mlp ((V c main_v59 : S1x1.Idx → EReal) (ix2 0 0)) (toMat (V c main_v45 : S50000x128.Idx → EReal))
    (toMat (V c main_v55 : S50000x128.Idx → EReal)) (toMat (V c main_v67 : S128x128.Idx → EReal))
    (toRow1 (V c main_v62 : S1x128.Idx → EReal)) (toMat (V c main_v69 : S128x128.Idx → EReal))
    (toRow1 (V c main_v65 : S1x128.Idx → EReal))
def zGA2 (c : Dev nD) : S50000x128.Idx → EReal := fun i => mlpA2 V c (i 0) (i 1)
theorem zAt2_row (c : Dev nD) (t : Fin cfg2.N) (r : Fin 2000) (q : Fin 128) (n : Fin 50000) (hn : n.val = 2000 * t.val + r.val) :
    zAt2 (F := Ideal) V c t (ix2 r q) = mlpA2 V c n q := by
  unfold zAt2
  refine (payA2_apply _ _ _ _ _ _ _ r q).trans ?_
  unfold mlpA2 mlp lin relu zpre toMat toRow1
  rw [blkA2_6 V c t q]
  refine congrArg (· + _) (Finset.sum_congr rfl fun j _ => ?_)
  rw [blkA2_5 V c t j q, blkA2_4 V c t j]
  refine congrArg (fun s => max (s + _) 0 * _) (Finset.sum_congr rfl fun k _ => ?_)
  rw [blkA2_0 V c t, blkA2_1 V c t r k n hn, blkA2_2 V c t r k n hn, blkA2_3 V c t k j]
theorem zGA2_apply (c : Dev nD) (i : S50000x128.Idx) (n : Fin 50000) (q : Fin 128) (h0 : (i 0).val = n.val) (h1 : (i 1).val = q.val) :
    zGA2 V c i = mlpA2 V c n q := by
  obtain ⟨a, b, rfl⟩ : ∃ (a : Fin 50000) (b : Fin 128), i = ix2 a b := ⟨i 0, i 1, eq_ix2 i⟩
  obtain rfl : a = n := Fin.ext h0
  obtain rfl : b = q := Fin.ext h1
  rfl
theorem flushedA2 (c : Dev nD) (t : Fin cfg2.N) :
    (dat2 (F := Ideal) V c).flushed 7 t = ((cfg2.win 7).blk t).view.read (Elt Ideal) (zGA2 V c) := by
  funext y
  obtain ⟨r, q, rfl⟩ : ∃ (r : Fin 2000) (q : Fin 128), y = ix2 r q := ⟨y 0, y 1, eq_ix2 y⟩
  rw [View.read_apply]
  show (dat2 (F := Ideal) V c).after 7 t (ix2 r q) = zGA2 V c _
  rw [after2_7]
  obtain ⟨-, -, -, -, -, -, -, -, -, -, -, -, -, -, e0, e1⟩ := idxA2 t
  have ht : t.val < 25 := by have := t.isLt; have : cfg2.N = 25 := N_2; omega
  have hr : r.val < 2000 := r.isLt
  refine (zAt2_row V c t r q ⟨2000 * t.val + r.val, by omega⟩ rfl).trans (zGA2_apply V c _ _ q ?_ ?_).symm
  · show win2_7.index t (0 : Fin 2) * 2000 + 1 * r.val = 2000 * t.val + r.val; omega
  · show win2_7.index t (1 : Fin 2) * 128 + 1 * q.val = q.val; omega
theorem coverA2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, -, -, -, -, -, -, -, -, e0, e1⟩ := idxA2 t
  refine ⟨t, flush2_7 t, ?_⟩
  show i ∈ ((View.whole main_v70_0).slice (win2_7.rect t)).set
  rw [View.set_slice_whole, Rect.mem_set_unit]
  intro a
  match a with
  | ⟨0, _⟩ =>
    show win2_7.index t (0 : Fin 2) * 2000 ≤ (i 0).val ∧ (i 0).val < win2_7.index t (0 : Fin 2) * 2000 + 2000
    omega
  | ⟨1, _⟩ =>
    show win2_7.index t (1 : Fin 2) * 128 ≤ (i 1).val ∧ (i 1).val < win2_7.index t (1 : Fin 2) * 128 + 128
    omega
theorem zArr2_eq (c : Dev nD) : (dat2 (F := Ideal) V c).arrAt 7 cfg2.N = zGA2 V c :=
  (dat2 (F := Ideal) V c).arrAt_eq_of_cover 7 (zGA2 V c) (fun t _ => flushedA2 V c t) coverA2
theorem zAt2_apply (c : Dev nD) (t : Fin cfg2.N) (r : Fin 2000) (q : Fin 128) :
    zAt2 (F := Ideal) V c t (ix2 r q)
      = mlpA2 V c ⟨2000 * t.val + r.val, by have := t.isLt; have : cfg2.N = 25 := N_2; have := r.isLt; omega⟩ q :=
  zAt2_row V c t r q _ rfl
theorem zArr2 (c : Dev nD) (p : Fin 50000) (q : Fin 128) :
    ((dat2 (F := Ideal) V c).arrAt 7 cfg2.N : S50000x128.Idx → EReal) (ix2 p q)
      = mlp ((V c main_v59 : S1x1.Idx → EReal) (ix2 0 0)) (toMat (V c main_v45 : S50000x128.Idx → EReal))
          (toMat (V c main_v55 : S50000x128.Idx → EReal)) (toMat (V c main_v67 : S128x128.Idx → EReal))
          (toRow1 (V c main_v62 : S1x128.Idx → EReal)) (toMat (V c main_v69 : S128x128.Idx → EReal))
          (toRow1 (V c main_v65 : S1x128.Idx → EReal)) p q :=
  congrFun (zArr2_eq V c) (ix2 p q)
end Cert.KernelIdeal.HandV
end
-- ==== Proof.Val.KerAs2.lean ====
import proofs.«419539_j67095979099186_1_alg».proof.Proof.KI.RegA2
import proofs.«419539_j67095979099186_1_alg».proof.Proof.Val.Conv
import proofs.«419539_j67095979099186_1_alg».proof.Proof.Val.GinMath
import proofs.«419539_j67095979099186_1_alg».proof.Proof.Val.KerAz2
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.ShloMosaic.ValueIdx
open Idealize.ShloMosaic.Pipeline (Dat)
open scoped BigOperators
variable (V : (c : Dev nD) → (b : Ref sig .tc) → Buf (Elt Ideal) ((c : Thread nD τ).loc b))
theorem pay2_1_apply (z : FVec Ideal S2000x128 .f32) (acc : Vec Ideal S1x128 .f32) (q : Fin 128) :
    k2_pay1 z acc (ix2 0 q) = acc (ix2 0 q) + ∑ r : Fin 2000, z (ix2 r q) := by
  unfold k2_pay1
  rw [shapeCast_self]
  show acc (ix2 0 q) + shapeCast S1x128 _ shapeCasts_S128_S1x128 (ix2 0 q) = _
  rw [shapeCast_a_1a_apply]
  exact congrArg (fun s => acc (ix2 0 q) + s) (rowsum_apply z _ _ q)
theorem pay2_2_apply (z : FVec Ideal S2000x128 .f32) (acc : Vec Ideal S1x128 .f32) (q : Fin 128) :
    k2_pay2 z acc (ix2 0 q) = acc (ix2 0 q) + ∑ r : Fin 2000, z (ix2 r q) * z (ix2 r q) := by
  unfold k2_pay2
  rw [shapeCast_self]
  show acc (ix2 0 q) + shapeCast S1x128 _ shapeCasts_S128_S1x128 (ix2 0 q) = _
  rw [shapeCast_a_1a_apply]
  exact congrArg (fun s => acc (ix2 0 q) + s) (rowsum_apply (mulf z z) _ _ q)
theorem pay2_3_apply (q : Fin 128) : (k2_pay3 (F := Ideal)) (ix2 0 q) = 0 := by
  unfold k2_pay3
  rw [shapeCast_self]
  exact Ideal.ofBits_zero_f32
theorem pay2_4_apply (q : Fin 128) : (k2_pay4 (F := Ideal)) (ix2 0 q) = 0 := by
  unfold k2_pay4
  rw [shapeCast_self]
  exact Ideal.ofBits_zero_f32
abbrev pt2 (t : Fin 25) : Fin cfg2.N := ⟨t.val, by have hN : cfg2.N = 25 := N_2; have := t.isLt; omega⟩
def tileS2 (c : Dev nD) (q : Fin 128) : Fin 25 → EReal :=
  fun t => ∑ r : Fin 2000, zAt2 (F := Ideal) V c (pt2 t) (ix2 r q)
def tileSq2 (c : Dev nD) (q : Fin 128) : Fin 25 → EReal :=
  fun t => ∑ r : Fin 2000, zAt2 (F := Ideal) V c (pt2 t) (ix2 r q) * zAt2 (F := Ideal) V c (pt2 t) (ix2 r q)
theorem acc2_eq (c : Dev nD) (q : Fin 128) : ∀ (n : ℕ) (h : n < cfg2.N) (h' : n < 25),
    (accAt2 (F := Ideal) V c n h).1 (ix2 0 q) = Cert.GinMath.accSum (tileS2 V c q) n h'
      ∧ (accAt2 (F := Ideal) V c n h).2 (ix2 0 q) = Cert.GinMath.accSum (tileSq2 V c q) n h'
  | 0, h, h' => by
      rw [accAt2]
      refine ⟨?_, ?_⟩
      · show k2_pay1 _ _ (ix2 0 q) = _
        rw [pay2_1_apply, pay2_3_apply]
        rfl
      · show k2_pay2 _ _ (ix2 0 q) = _
        rw [pay2_2_apply, pay2_4_apply]
        rfl
  | n + 1, h, h' => by
      obtain ⟨ih1, ih2⟩ := acc2_eq c q n (Nat.lt_of_succ_lt h) (Nat.lt_of_succ_lt h')
      rw [accAt2]
      refine ⟨?_, ?_⟩
      · show k2_pay1 _ _ (ix2 0 q) = _
        rw [pay2_1_apply, ih1]
        rfl
      · show k2_pay2 _ _ (ix2 0 q) = _
        rw [pay2_2_apply, ih2]
        rfl
theorem tileS2_eq (c : Dev nD) (q : Fin 128) (t : Fin 25) :
    tileS2 V c q t = ∑ r : Fin 2000, mlpA2 V c ⟨2000 * t.val + r.val, by have := t.isLt; omega⟩ q := by
  unfold tileS2
  exact Finset.sum_congr rfl fun r _ => zAt2_apply V c (pt2 t) r q
theorem tileSq2_eq (c : Dev nD) (q : Fin 128) (t : Fin 25) :
    tileSq2 V c q t = ∑ r : Fin 2000, mlpA2 V c ⟨2000 * t.val + r.val, by have := t.isLt; omega⟩ q * mlpA2 V c ⟨2000 * t.val + r.val, by have := t.isLt; omega⟩ q := by
  unfold tileSq2
  exact Finset.sum_congr rfl fun r _ =>
    congrArg₂ (fun x y : EReal => x * y) (zAt2_apply V c (pt2 t) r q) (zAt2_apply V c (pt2 t) r q)
theorem last2_lt : 24 < cfg2.N := by rw [show cfg2.N = 25 from N_2]; decide
abbrev tLast2 : Fin cfg2.N := ⟨24, last2_lt⟩
abbrev sRow2 (c : Dev nD) : Buf (Elt Ideal) ((c : Thread nD τ).loc main_v70_1) := (accAt2 (F := Ideal) V c 24 last2_lt).1
abbrev ssRow2 (c : Dev nD) : Buf (Elt Ideal) ((c : Thread nD τ).loc main_v70_2) := (accAt2 (F := Ideal) V c 24 last2_lt).2
theorem sRow2_apply (c : Dev nD) (q : Fin 128) : sRow2 V c (ix2 0 q) = Cert.GinSpec.colSum (mlpA2 V c) q := by
  show (accAt2 (F := Ideal) V c 24 last2_lt).1 (ix2 0 q) = _
  rw [(acc2_eq V c q 24 last2_lt (by decide)).1, Cert.GinMath.fold_tiles]
  refine (Finset.sum_congr rfl fun t _ => tileS2_eq V c q t).trans ?_
  exact Cert.GinMath.sum_tiles (fun n => mlpA2 V c n q)
theorem ssRow2_apply (c : Dev nD) (q : Fin 128) : ssRow2 V c (ix2 0 q) = Cert.GinSpec.colSumSq (mlpA2 V c) q := by
  show (accAt2 (F := Ideal) V c 24 last2_lt).2 (ix2 0 q) = _
  rw [(acc2_eq V c q 24 last2_lt (by decide)).2, Cert.GinMath.fold_tiles]
  refine (Finset.sum_congr rfl fun t _ => tileSq2_eq V c q t).trans ?_
  exact Cert.GinMath.sum_tiles (fun n => mlpA2 V c n q * mlpA2 V c n q)
theorem flushed2_8_eq (c : Dev nD) (t : Fin cfg2.N) (hf : (cfg2.win 8).flush t = true) :
    (dat2 (F := Ideal) V c).flushed 8 t = ((cfg2.win 8).blk t).view.read (Elt Ideal) (sRow2 V c) := by
  have hN : cfg2.N = 25 := N_2
  have h1 : t.val = 24 := by have := (flush2_8 t).mp hf; have := t.isLt; omega
  obtain rfl : t = tLast2 := Fin.ext h1
  show (cfg2.win 8).cut (grid2.coords tLast2) ((dat2 (F := Ideal) V c).after 8 tLast2) = _
  rw [after2_8]
  have hz' : (fun a => win2_8.index tLast2 a * main_v70_1.ty.shape.size a) = fun _ => 0 := funext fun a => by fin_cases a <;> decide
  exact (Memref.read_access_unit_zero (Elt Ideal) main_v70_1 hz' (fun a => by rw [congrFun hz' a]; simp) (sRow2 V c)).symm
theorem flushed2_9_eq (c : Dev nD) (t : Fin cfg2.N) (hf : (cfg2.win 9).flush t = true) :
    (dat2 (F := Ideal) V c).flushed 9 t = ((cfg2.win 9).blk t).view.read (Elt Ideal) (ssRow2 V c) := by
  have hN : cfg2.N = 25 := N_2
  have h1 : t.val = 24 := by have := (flush2_9 t).mp hf; have := t.isLt; omega
  obtain rfl : t = tLast2 := Fin.ext h1
  show (cfg2.win 9).cut (grid2.coords tLast2) ((dat2 (F := Ideal) V c).after 9 tLast2) = _
  rw [after2_9]
  have hz' : (fun a => win2_9.index tLast2 a * main_v70_2.ty.shape.size a) = fun _ => 0 := funext fun a => by fin_cases a <;> decide
  exact (Memref.read_access_unit_zero (Elt Ideal) main_v70_2 hz' (fun a => by rw [congrFun hz' a]; simp) (ssRow2 V c)).symm
theorem final2_8 (c : Dev nD) : (dat2 (F := Ideal) V c).arrAt 8 cfg2.N = sRow2 V c :=
  (dat2 (F := Ideal) V c).arrAt_eq_of_cover 8 (sRow2 V c) (flushed2_8_eq V c) fun i =>
    ⟨tLast2, (flush2_8 tLast2).mpr rfl, by
      show i ∈ ((View.whole main_v70_1).slice (win2_8.rect tLast2)).set
      rw [View.set_slice_whole, Rect.mem_set_unit]
      intro a
      have h0 : (i 0 : Nat) < 1 := (i 0).isLt
      have h1 : (i 1 : Nat) < 128 := (i 1).isLt
      match a with
      | ⟨0, _⟩ => show win2_8.index tLast2 0 * win2_8.size 0 ≤ (i 0 : Nat) ∧ (i 0 : Nat) < win2_8.index tLast2 0 * win2_8.size 0 + win2_8.xsize (grid2.coords tLast2) 0
                  rw [show win2_8.index tLast2 0 * win2_8.size 0 = 0 from by decide +kernel, show win2_8.xsize (grid2.coords tLast2) 0 = 1 from by decide +kernel]; omega
      | ⟨1, _⟩ => show win2_8.index tLast2 1 * win2_8.size 1 ≤ (i 1 : Nat) ∧ (i 1 : Nat) < win2_8.index tLast2 1 * win2_8.size 1 + win2_8.xsize (grid2.coords tLast2) 1
                  rw [show win2_8.index tLast2 1 * win2_8.size 1 = 0 from by decide +kernel, show win2_8.xsize (grid2.coords tLast2) 1 = 128 from by decide +kernel]; omega⟩
theorem final2_9 (c : Dev nD) : (dat2 (F := Ideal) V c).arrAt 9 cfg2.N = ssRow2 V c :=
  (dat2 (F := Ideal) V c).arrAt_eq_of_cover 9 (ssRow2 V c) (flushed2_9_eq V c) fun i =>
    ⟨tLast2, (flush2_9 tLast2).mpr rfl, by
      show i ∈ ((View.whole main_v70_2).slice (win2_9.rect tLast2)).set
      rw [View.set_slice_whole, Rect.mem_set_unit]
      intro a
      have h0 : (i 0 : Nat) < 1 := (i 0).isLt
      have h1 : (i 1 : Nat) < 128 := (i 1).isLt
      match a with
      | ⟨0, _⟩ => show win2_9.index tLast2 0 * win2_9.size 0 ≤ (i 0 : Nat) ∧ (i 0 : Nat) < win2_9.index tLast2 0 * win2_9.size 0 + win2_9.xsize (grid2.coords tLast2) 0
                  rw [show win2_9.index tLast2 0 * win2_9.size 0 = 0 from by decide +kernel, show win2_9.xsize (grid2.coords tLast2) 0 = 1 from by decide +kernel]; omega
      | ⟨1, _⟩ => show win2_9.index tLast2 1 * win2_9.size 1 ≤ (i 1 : Nat) ∧ (i 1 : Nat) < win2_9.index tLast2 1 * win2_9.size 1 + win2_9.xsize (grid2.coords tLast2) 1
                  rw [show win2_9.index tLast2 1 * win2_9.size 1 = 0 from by decide +kernel, show win2_9.xsize (grid2.coords tLast2) 1 = 128 from by decide +kernel]; omega⟩
theorem sArr2 (c : Dev nD) (q : Fin 128) :
    (dat2 (F := Ideal) V c).arrAt 8 cfg2.N (ix2 0 q) = Cert.GinSpec.colSum ((Cert.GinSpec.mlp ((V c main_v59) (ix2 0 0)) (toMat (V c main_v45)) (toMat (V c main_v55)) (toMat (V c main_v67))
        (toRow1 (V c main_v62)) (toMat (V c main_v69)) (toRow1 (V c main_v65)))) q := by
  rw [final2_8]
  exact sRow2_apply V c q
theorem ssArr2 (c : Dev nD) (q : Fin 128) :
    (dat2 (F := Ideal) V c).arrAt 9 cfg2.N (ix2 0 q) = Cert.GinSpec.colSumSq ((Cert.GinSpec.mlp ((V c main_v59) (ix2 0 0)) (toMat (V c main_v45)) (toMat (V c main_v55)) (toMat (V c main_v67))
        (toRow1 (V c main_v62)) (toMat (V c main_v69)) (toRow1 (V c main_v65)))) q := by
  rw [final2_9]
  exact ssRow2_apply V c q
end Cert.KernelIdeal.HandV
end
-- ==== Proof.Val.KerB3.lean ====
import proofs.«419539_j67095979099186_1_alg».proof.Proof.KI.RegB3
import proofs.«419539_j67095979099186_1_alg».proof.Proof.Val.Conv
import proofs.«419539_j67095979099186_1_alg».proof.Proof.Val.KerBOut
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.ShloMosaic.ValueIdx
open Idealize.ShloMosaic.Pipeline (Dat)
variable (V : (c : Dev nD) → (b : Ref sig .tc) → Buf (Elt Ideal) ((c : Thread nD τ).loc b))
theorem pay3_apply (v0 : Vec Ideal S2000x128 .f32) (v2 v6 v10 v14 : Vec Ideal S1x128 .f32) (r : Fin 2000) (q : Fin 128) :
    k3_pay1 v0 v2 v6 v10 v14 (ix2 r q)
      = max ((v0 (ix2 r q) - v2 (ix2 0 q)) * v6 (ix2 0 q) * v10 (ix2 0 q) + v14 (ix2 0 q)) 0 := by
  unfold k3_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  show max _ (Ideal.ofBits .f32 0x00000000#32) = _
  rw [Ideal.ofBits_zero_f32]
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)
theorem iblk3_0_apply (c : Dev nD) (t : Fin cfg3.N) (r : Fin 2000) (q : Fin 128) (k : S50000x128.Idx)
    (hk0 : (k 0).val = 2000 * t.val + r.val) (hk1 : (k 1).val = q.val) :
    (iblk3 V c 0 t : Vec Ideal S2000x128 .f32) (ix2 r q) = (V c main_v70_0 : S50000x128.Idx → EReal) k := by
  obtain ⟨e0, e1, -⟩ := idx_facts3 t
  unfold iblk3
  rw [View.read_apply]
  show (V c main_v70_0 : S50000x128.Idx → EReal) _ = _
  refine congrArg _ (funext fun a => Fin.ext ?_)
  match a with
  | ⟨0, _⟩ => show win3_0.index t (0 : Fin 2) * 2000 + 1 * r.val = (k 0).val; rw [e0, hk0]; omega
  | ⟨1, _⟩ => show win3_0.index t (1 : Fin 2) * 128 + 1 * q.val = (k 1).val; rw [e1, hk1]; omega
theorem iblk3_rows (c : Dev nD) (t : Fin cfg3.N) (q : Fin 128) :
    (iblk3 V c 1 t : Vec Ideal S1x128 .f32) (ix2 0 q) = (V c main_v72 : S1x128.Idx → EReal) (ix2 0 q)
    ∧ (iblk3 V c 2 t : Vec Ideal S1x128 .f32) (ix2 0 q) = (V c main_v79 : S1x128.Idx → EReal) (ix2 0 q)
    ∧ (iblk3 V c 3 t : Vec Ideal S1x128 .f32) (ix2 0 q) = (V c main_v82 : S1x128.Idx → EReal) (ix2 0 q)
    ∧ (iblk3 V c 4 t : Vec Ideal S1x128 .f32) (ix2 0 q) = (V c main_v85 : S1x128.Idx → EReal) (ix2 0 q) := by
  obtain ⟨-, -, a0, a1, b0, b1, c0, c1, d0, d1, -⟩ := idx_facts3 t
  have z0 : ∀ x : Nat, x = 0 → x * 1 + 1 * 0 = 0 := fun _ h => by rw [h]
  have z1 : ∀ x : Nat, x = 0 → x * 128 + 1 * q.val = q.val := fun _ h => by rw [h]; omega
  unfold iblk3
  refine ⟨?_, ?_, ?_, ?_⟩ <;> rw [View.read_apply]
  on_goal 1 => show (V c main_v72 : S1x128.Idx → EReal) _ = _
  on_goal 2 => show (V c main_v79 : S1x128.Idx → EReal) _ = _
  on_goal 3 => show (V c main_v82 : S1x128.Idx → EReal) _ = _
  on_goal 4 => show (V c main_v85 : S1x128.Idx → EReal) _ = _
  all_goals
    refine congrArg _ (funext fun a => Fin.ext ?_)
    match a with
    | ⟨0, _⟩ => first | exact z0 _ a0 | exact z0 _ b0 | exact z0 _ c0 | exact z0 _ d0
    | ⟨1, _⟩ => first | exact z1 _ a1 | exact z1 _ b1 | exact z1 _ c1 | exact z1 _ d1
theorem flushed3_eq (c : Dev nD) (t : Fin cfg3.N) :
    (dat3 (F := Ideal) V c).flushed 5 t
      = ((cfg3.win 5).blk t).view.read (Elt Ideal)
          (outFn (max · 0) (V c main_v70_0) (V c main_v72) (V c main_v79) (V c main_v82) (V c main_v85)) := by
  show (cfg3.win 5).cut (grid3.coords t) ((dat3 (F := Ideal) V c).after 5 t) = _
  rw [after3_5]
  unfold outB3
  funext j
  obtain ⟨r, q, rfl⟩ : ∃ (r : Fin 2000) (q : Fin 128), j = ix2 r q := ⟨j 0, j 1, eq_ix2 j⟩
  rw [View.read_apply]
  obtain ⟨-, -, -, -, -, -, -, -, -, -, e0, e1⟩ := idx_facts3 t
  have hk0 : ((((cfg3.win 5).blk t).view.emb (ix2 r q) : S50000x128.Idx) 0).val = 2000 * t.val + r.val := by
    show win3_5.index t (0 : Fin 2) * 2000 + 1 * r.val = _; rw [e0]; omega
  have hk1 : ((((cfg3.win 5).blk t).view.emb (ix2 r q) : S50000x128.Idx) 1).val = q.val := by
    show win3_5.index t (1 : Fin 2) * 128 + 1 * q.val = _; rw [e1]; omega
  have h0 := iblk3_0_apply V c t r q _ hk0 hk1
  obtain ⟨h1, h2, h3, h4⟩ := iblk3_rows V c t q
  show k3_pay1 (iblk3 V c 0 t) (iblk3 V c 1 t) (iblk3 V c 2 t) (iblk3 V c 3 t) (iblk3 V c 4 t) (ix2 r q) = _
  refine (pay3_apply _ _ _ _ _ r q).trans ?_
  rw [h0, h1, h2, h3, h4]
  exact (outFn_at (max · 0) _ _ _ _ _ _ q hk1).symm
theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v86).slice (win3_5.rect t)).set ↔ _
  rw [View.set_slice_whole, Rect.mem_set_unit]
  exact Iff.rfl
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, e0, e1⟩ := idx_facts3 t
  refine ⟨t, flush3_5 t, ?_⟩
  rw [mem_blk3]
  intro a
  match a with
  | ⟨0, _⟩ =>
    show win3_5.index t (0 : Fin 2) * 2000 ≤ (i 0).val ∧ (i 0).val < win3_5.index t (0 : Fin 2) * 2000 + 2000
    rw [e0, ht]; omega
  | ⟨1, _⟩ =>
    show win3_5.index t (1 : Fin 2) * 128 ≤ (i 1).val ∧ (i 1).val < win3_5.index t (1 : Fin 2) * 128 + 128
    rw [e1]; omega
theorem final3 (c : Dev nD) :
    (dat3 (F := Ideal) V c).arrAt 5 cfg3.N
      = outFn (max · 0) (V c main_v70_0) (V c main_v72) (V c main_v79) (V c main_v82) (V c main_v85) :=
  (dat3 (F := Ideal) V c).arrAt_eq_of_cover 5 _ (fun t _ => flushed3_eq V c t) cover3
theorem hArr3 (c : Dev nD) (p : Fin 50000) (q : Fin 128) :
    ((dat3 (F := Ideal) V c).arrAt 5 cfg3.N : S50000x128.Idx → EReal) (ix2 p q)
      = Cert.GinSpec.relu (Cert.GinSpec.bn (toMat (V c main_v70_0 : S50000x128.Idx → EReal))
          (toRow1 (V c main_v72 : S1x128.Idx → EReal)) (toRow1 (V c main_v79 : S1x128.Idx → EReal))
          (toRow1 (V c main_v82 : S1x128.Idx → EReal)) (toRow1 (V c main_v85 : S1x128.Idx → EReal))) p q := by
  rw [final3]; rfl
end Cert.KernelIdeal.HandV
end
-- ==== Proof.Val.KerHost2.lean ====
import proofs.«419539_j67095979099186_1_alg».proof.Proof.Val.KerLayer
import proofs.«419539_j67095979099186_1_alg».proof.Proof.Val.KerAs2
import proofs.«419539_j67095979099186_1_alg».proof.Proof.Val.KerB3
import proofs.«419539_j67095979099186_1_alg».proof.Proof.Val.KerHostS
namespace Cert.KernelIdeal.HandV
open Cert.KernelIdeal Cert.KernelIdeal.Hand Cert.GinSpec
open Idealize.ShloMosaic Idealize.ShloMosaic.TcCoe
variable (m : (ℓ : Loc nD τ sig) → Buf (Elt Ideal) ℓ)
theorem ker_layer2 (c : Dev nD) :
    toMat (W8 m c (Proc.devRef .tc main_v86) : S50000x128.Idx → EReal)
      = Cert.GinSpec.layerK true epsLit (scaleOf (m ((c : Thread nD τ).loc main_arg7)) 1)
        (toMat (W4 m c (Proc.devRef .tc main_v45))) (toMat (aggK (m ((c : Thread nD τ).loc main_arg1)) (W4 m c (Proc.devRef .tc main_v45))))
        (matOf3 (m ((c : Thread nD τ).loc main_arg3)) 1) (rowOf3 (m ((c : Thread nD τ).loc main_arg4)) 1) (matOf3 (m ((c : Thread nD τ).loc main_arg5)) 1) (rowOf3 (m ((c : Thread nD τ).loc main_arg6)) 1)
        (rowOf3 (m ((c : Thread nD τ).loc main_arg8)) 1) (rowOf3 (m ((c : Thread nD τ).loc main_arg9)) 1) :=
  layer_of_parts m c (W4_arg m c) (W6_arg m c) true 1
    (host2_v59 _) (W5_v45 m c) (of_edges m c (W4_arg m c) (W4_v2 m c) (W4_v4 m c) (host2_v55 _))
    (host2_v67 _) (host2_v62 _) (host2_v69 _) (host2_v65 _) rfl
    (W6_v70_0 m c) (zArr2 (V5 m) c) (W6_v70_1 m c) (sArr2 (V5 m) c) (W6_v70_2 m c) (ssArr2 (V5 m) c)
    (mean3 (W6 m c)) (inv3 (W6 m c)) (gamma3 (W6 m c)) (beta3 (W6 m c))
    (W7_v70_0 m c) (W8_v86 m c) (hArr3 (V7 m) c)
end Cert.KernelIdeal.HandV
-- ==== Proof.Val.KerAz4.lean ====
import proofs.«419539_j67095979099186_1_alg».proof.Proof.KI.RegA4
import proofs.«419539_j67095979099186_1_alg».proof.Proof.Val.Conv
import proofs.«419539_j67095979099186_1_alg».proof.Proof.Val.KerAlg
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.ShloMosaic.ValueIdx
open Idealize.ShloMosaic.Pipeline (Dat)
variable (V : (c : Dev nD) → (b : Ref sig .tc) → Buf (Elt Ideal) ((c : Thread nD τ).loc b))
theorem payA4_apply (x0 : Vec Ideal S1x1 .f32) (x1 x2 : Vec Ideal S2000x128 .f32) (x3 : Vec Ideal S128x128 .f32)
    (x4 : Vec Ideal S1x128 .f32) (x5 : Vec Ideal S128x128 .f32) (x6 : Vec Ideal S1x128 .f32) (r : Fin 2000) (q : Fin 128) :
    k4_pay5 (F := Ideal) x0 x1 x2 x3 x4 x5 x6 (ix2 r q)
      = (∑ j : Fin 128, max ((∑ k : Fin 128, (x0 (ix2 0 0) * x1 (ix2 r k) + x2 (ix2 r k)) * x3 (ix2 k j)) + x4 (ix2 0 j)) 0
            * x5 (ix2 j q)) + x6 (ix2 0 q) := by
  unfold k4_pay5
  simp only [shapeCast_self]
  rw [addf_apply, matmulA_apply, broadcastTo_1b_ab_apply]
  refine congrArg (· + x6 (ix2 0 q)) (Finset.sum_congr rfl fun j _ => ?_)
  rw [truncf_apply, truncf_apply, maximumf_apply, broadcast_apply, zeroLitA, addf_apply, matmulA_apply, broadcastTo_1b_ab_apply]
  refine congrArg (fun s => max (s + x4 (ix2 0 j)) 0 * x5 (ix2 j q)) (Finset.sum_congr rfl fun k _ => ?_)
  rw [← extractA x0]
  rfl
theorem idxA4 : ∀ t : Fin cfg4.N,
    win4_0.index t (0 : Fin 2) = 0 ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)
theorem blkA4_0 (c : Dev nD) (t : Fin cfg4.N) :
    (iblk4 (F := Ideal) V c 0 t : Vec Ideal S1x1 .f32) (ix2 0 0) = (V c main_v100 : S1x1.Idx → EReal) (ix2 0 0) := by
  obtain ⟨e0, e1, -⟩ := idxA4 t
  unfold iblk4
  rw [View.read_apply]
  show V c main_v100 _ = V c main_v100 _
  congr 1
  funext a
  apply Fin.ext
  match a with
  | ⟨0, _⟩ => show win4_0.index t (0 : Fin 2) * 1 + 1 * 0 = 0; omega
  | ⟨1, _⟩ => show win4_0.index t (1 : Fin 2) * 1 + 1 * 0 = 0; omega
theorem blkA4_1 (c : Dev nD) (t : Fin cfg4.N) (r : Fin 2000) (k : Fin 128) (n : Fin 50000) (hn : n.val = 2000 * t.val + r.val) :
    (iblk4 (F := Ideal) V c 1 t : Vec Ideal S2000x128 .f32) (ix2 r k) = (V c main_v86 : S50000x128.Idx → EReal) (ix2 n k) := by
  obtain ⟨-, -, e0, e1, -⟩ := idxA4 t
  unfold iblk4
  rw [View.read_apply]
  show V c main_v86 _ = V c main_v86 _
  congr 1
  funext a
  apply Fin.ext
  match a with
  | ⟨0, _⟩ => show win4_1.index t (0 : Fin 2) * 2000 + 1 * r.val = n.val; omega
  | ⟨1, _⟩ => show win4_1.index t (1 : Fin 2) * 128 + 1 * k.val = k.val; omega
theorem blkA4_2 (c : Dev nD) (t : Fin cfg4.N) (r : Fin 2000) (k : Fin 128) (n : Fin 50000) (hn : n.val = 2000 * t.val + r.val) :
    (iblk4 (F := Ideal) V c 2 t : Vec Ideal S2000x128 .f32) (ix2 r k) = (V c main_v96 : S50000x128.Idx → EReal) (ix2 n k) := by
  obtain ⟨-, -, -, -, e0, e1, -⟩ := idxA4 t
  unfold iblk4
  rw [View.read_apply]
  show V c main_v96 _ = V c main_v96 _
  congr 1
  funext a
  apply Fin.ext
  match a with
  | ⟨0, _⟩ => show win4_2.index t (0 : Fin 2) * 2000 + 1 * r.val = n.val; omega
  | ⟨1, _⟩ => show win4_2.index t (1 : Fin 2) * 128 + 1 * k.val = k.val; omega
theorem blkA4_3 (c : Dev nD) (t : Fin cfg4.N) (k j : Fin 128) :
    (iblk4 (F := Ideal) V c 3 t : Vec Ideal S128x128 .f32) (ix2 k j) = (V c main_v108 : S128x128.Idx → EReal) (ix2 k j) := by
  obtain ⟨-, -, -, -, -, -, e0, e1, -⟩ := idxA4 t
  unfold iblk4
  rw [View.read_apply]
  show V c main_v108 _ = V c main_v108 _
  congr 1
  funext a
  apply Fin.ext
  match a with
  | ⟨0, _⟩ => show win4_3.index t (0 : Fin 2) * 128 + 1 * k.val = k.val; omega
  | ⟨1, _⟩ => show win4_3.index t (1 : Fin 2) * 128 + 1 * j.val = j.val; omega
theorem blkA4_4 (c : Dev nD) (t : Fin cfg4.N) (j : Fin 128) :
    (iblk4 (F := Ideal) V c 4 t : Vec Ideal S1x128 .f32) (ix2 0 j) = (V c main_v103 : S1x128.Idx → EReal) (ix2 0 j) := by
  obtain ⟨-, -, -, -, -, -, -, -, e0, e1, -⟩ := idxA4 t
  unfold iblk4
  rw [View.read_apply]
  show V c main_v103 _ = V c main_v103 _
  congr 1
  funext a
  apply Fin.ext
  match a with
  | ⟨0, _⟩ => show win4_4.index t (0 : Fin 2) * 1 + 1 * 0 = 0; omega
  | ⟨1, _⟩ => show win4_4.index t (1 : Fin 2) * 128 + 1 * j.val = j.val; omega
theorem blkA4_5 (c : Dev nD) (t : Fin cfg4.N) (k j : Fin 128) :
    (iblk4 (F := Ideal) V c 5 t : Vec Ideal S128x128 .f32) (ix2 k j) = (V c main_v110 : S128x128.Idx → EReal) (ix2 k j) := by
  obtain ⟨-, -, -, -, -, -, -, -, -, -, e0, e1, -⟩ := idxA4 t
  unfold iblk4
  rw [View.read_apply]
  show V c main_v110 _ = V c main_v110 _
  congr 1
  funext a
  apply Fin.ext
  match a with
  | ⟨0, _⟩ => show win4_5.index t (0 : Fin 2) * 128 + 1 * k.val = k.val; omega
  | ⟨1, _⟩ => show win4_5.index t (1 : Fin 2) * 128 + 1 * j.val = j.val; omega
theorem blkA4_6 (c : Dev nD) (t : Fin cfg4.N) (j : Fin 128) :
    (iblk4 (F := Ideal) V c 6 t : Vec Ideal S1x128 .f32) (ix2 0 j) = (V c main_v106 : S1x128.Idx → EReal) (ix2 0 j) := by
  obtain ⟨-, -, -, -, -, -, -, -, -, -, -, -, e0, e1, -⟩ := idxA4 t
  unfold iblk4
  rw [View.read_apply]
  show V c main_v106 _ = V c main_v106 _
  congr 1
  funext a
  apply Fin.ext
  match a with
  | ⟨0, _⟩ => show win4_6.index t (0 : Fin 2) * 1 + 1 * 0 = 0; omega
  | ⟨1, _⟩ => show win4_6.index t (1 : Fin 2) * 128 + 1 * j.val = j.val; omega
abbrev mlpA4 (c : Dev nD) :=
  mlp ((V c main_v100 : S1x1.Idx → EReal) (ix2 0 0)) (toMat (V c main_v86 : S50000x128.Idx → EReal))
    (toMat (V c main_v96 : S50000x128.Idx → EReal)) (toMat (V c main_v108 : S128x128.Idx → EReal))
    (toRow1 (V c main_v103 : S1x128.Idx → EReal)) (toMat (V c main_v110 : S128x128.Idx → EReal))
    (toRow1 (V c main_v106 : S1x128.Idx → EReal))
def zGA4 (c : Dev nD) : S50000x128.Idx → EReal := fun i => mlpA4 V c (i 0) (i 1)
theorem zAt4_row (c : Dev nD) (t : Fin cfg4.N) (r : Fin 2000) (q : Fin 128) (n : Fin 50000) (hn : n.val = 2000 * t.val + r.val) :
    zAt4 (F := Ideal) V c t (ix2 r q) = mlpA4 V c n q := by
  unfold zAt4
  refine (payA4_apply _ _ _ _ _ _ _ r q).trans ?_
  unfold mlpA4 mlp lin relu zpre toMat toRow1
  rw [blkA4_6 V c t q]
  refine congrArg (· + _) (Finset.sum_congr rfl fun j _ => ?_)
  rw [blkA4_5 V c t j q, blkA4_4 V c t j]
  refine congrArg (fun s => max (s + _) 0 * _) (Finset.sum_congr rfl fun k _ => ?_)
  rw [blkA4_0 V c t, blkA4_1 V c t r k n hn, blkA4_2 V c t r k n hn, blkA4_3 V c t k j]
theorem zGA4_apply (c : Dev nD) (i : S50000x128.Idx) (n : Fin 50000) (q : Fin 128) (h0 : (i 0).val = n.val) (h1 : (i 1).val = q.val) :
    zGA4 V c i = mlpA4 V c n q := by
  obtain ⟨a, b, rfl⟩ : ∃ (a : Fin 50000) (b : Fin 128), i = ix2 a b := ⟨i 0, i 1, eq_ix2 i⟩
  obtain rfl : a = n := Fin.ext h0
  obtain rfl : b = q := Fin.ext h1
  rfl
theorem flushedA4 (c : Dev nD) (t : Fin cfg4.N) :
    (dat4 (F := Ideal) V c).flushed 7 t = ((cfg4.win 7).blk t).view.read (Elt Ideal) (zGA4 V c) := by
  funext y
  obtain ⟨r, q, rfl⟩ : ∃ (r : Fin 2000) (q : Fin 128), y = ix2 r q := ⟨y 0, y 1, eq_ix2 y⟩
  rw [View.read_apply]
  show (dat4 (F := Ideal) V c).after 7 t (ix2 r q) = zGA4 V c _
  rw [after4_7]
  obtain ⟨-, -, -, -, -, -, -, -, -, -, -, -, -, -, e0, e1⟩ := idxA4 t
  have ht : t.val < 25 := by have := t.isLt; have : cfg4.N = 25 := N_4; omega
  have hr : r.val < 2000 := r.isLt
  refine (zAt4_row V c t r q ⟨2000 * t.val + r.val, by omega⟩ rfl).trans (zGA4_apply V c _ _ q ?_ ?_).symm
  · show win4_7.index t (0 : Fin 2) * 2000 + 1 * r.val = 2000 * t.val + r.val; omega
  · show win4_7.index t (1 : Fin 2) * 128 + 1 * q.val = q.val; omega
theorem coverA4 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by omega⟩, rfl⟩
  obtain ⟨-, -, -, -, -, -, -, -, -, -, -, -, -, -, e0, e1⟩ := idxA4 t
  refine ⟨t, flush4_7 t, ?_⟩
  show i ∈ ((View.whole main_v111_0).slice (win4_7.rect t)).set
  rw [View.set_slice_whole, Rect.mem_set_unit]
  intro a
  match a with
  | ⟨0, _⟩ =>
    show win4_7.index t (0 : Fin 2) * 2000 ≤ (i 0).val ∧ (i 0).val < win4_7.index t (0 : Fin 2) * 2000 + 2000
    omega
  | ⟨1, _⟩ =>
    show win4_7.index t (1 : Fin 2) * 128 ≤ (i 1).val ∧ (i 1).val < win4_7.index t (1 : Fin 2) * 128 + 128
    omega
theorem zArr4_eq (c : Dev nD) : (dat4 (F := Ideal) V c).arrAt 7 cfg4.N = zGA4 V c :=
  (dat4 (F := Ideal) V c).arrAt_eq_of_cover 7 (zGA4 V c) (fun t _ => flushedA4 V c t) coverA4
theorem zAt4_apply (c : Dev nD) (t : Fin cfg4.N) (r : Fin 2000) (q : Fin 128) :
    zAt4 (F := Ideal) V c t (ix2 r q)
      = mlpA4 V c ⟨2000 * t.val + r.val, by have := t.isLt; have : cfg4.N = 25 := N_4; have := r.isLt; omega⟩ q :=
  zAt4_row V c t r q _ rfl
theorem zArr4 (c : Dev nD) (p : Fin 50000) (q : Fin 128) :
    ((dat4 (F := Ideal) V c).arrAt 7 cfg4.N : S50000x128.Idx → EReal) (ix2 p q)
      = mlp ((V c main_v100 : S1x1.Idx → EReal) (ix2 0 0)) (toMat (V c main_v86 : S50000x128.Idx → EReal))
          (toMat (V c main_v96 : S50000x128.Idx → EReal)) (toMat (V c main_v108 : S128x128.Idx → EReal))
          (toRow1 (V c main_v103 : S1x128.Idx → EReal)) (toMat (V c main_v110 : S128x128.Idx → EReal))
          (toRow1 (V c main_v106 : S1x128.Idx → EReal)) p q :=
  congrFun (zArr4_eq V c) (ix2 p q)
end Cert.KernelIdeal.HandV
end
-- ==== Proof.Val.KerAs4.lean ====
import proofs.«419539_j67095979099186_1_alg».proof.Proof.KI.RegA4
import proofs.«419539_j67095979099186_1_alg».proof.Proof.Val.Conv
import proofs.«419539_j67095979099186_1_alg».proof.Proof.Val.GinMath
import proofs.«419539_j67095979099186_1_alg».proof.Proof.Val.KerAz4
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.ShloMosaic.ValueIdx
open Idealize.ShloMosaic.Pipeline (Dat)
open scoped BigOperators
variable (V : (c : Dev nD) → (b : Ref sig .tc) → Buf (Elt Ideal) ((c : Thread nD τ).loc b))
theorem pay4_1_apply (z : FVec Ideal S2000x128 .f32) (acc : Vec Ideal S1x128 .f32) (q : Fin 128) :
    k4_pay1 z acc (ix2 0 q) = acc (ix2 0 q) + ∑ r : Fin 2000, z (ix2 r q) := by
  unfold k4_pay1
  rw [shapeCast_self]
  show acc (ix2 0 q) + shapeCast S1x128 _ shapeCasts_S128_S1x128 (ix2 0 q) = _
  rw [shapeCast_a_1a_apply]
  exact congrArg (fun s => acc (ix2 0 q) + s) (rowsum_apply z _ _ q)
theorem pay4_2_apply (z : FVec Ideal S2000x128 .f32) (acc : Vec Ideal S1x128 .f32) (q : Fin 128) :
    k4_pay2 z acc (ix2 0 q) = acc (ix2 0 q) + ∑ r : Fin 2000, z (ix2 r q) * z (ix2 r q) := by
  unfold k4_pay2
  rw [shapeCast_self]
  show acc (ix2 0 q) + shapeCast S1x128 _ shapeCasts_S128_S1x128 (ix2 0 q) = _
  rw [shapeCast_a_1a_apply]
  exact congrArg (fun s => acc (ix2 0 q) + s) (rowsum_apply (mulf z z) _ _ q)
theorem pay4_3_apply (q : Fin 128) : (k4_pay3 (F := Ideal)) (ix2 0 q) = 0 := by
  unfold k4_pay3
  rw [shapeCast_self]
  exact Ideal.ofBits_zero_f32
theorem pay4_4_apply (q : Fin 128) : (k4_pay4 (F := Ideal)) (ix2 0 q) = 0 := by
  unfold k4_pay4
  rw [shapeCast_self]
  exact Ideal.ofBits_zero_f32
abbrev pt4 (t : Fin 25) : Fin cfg4.N := ⟨t.val, by have hN : cfg4.N = 25 := N_4; have := t.isLt; omega⟩
def tileS4 (c : Dev nD) (q : Fin 128) : Fin 25 → EReal :=
  fun t => ∑ r : Fin 2000, zAt4 (F := Ideal) V c (pt4 t) (ix2 r q)
def tileSq4 (c : Dev nD) (q : Fin 128) : Fin 25 → EReal :=
  fun t => ∑ r : Fin 2000, zAt4 (F := Ideal) V c (pt4 t) (ix2 r q) * zAt4 (F := Ideal) V c (pt4 t) (ix2 r q)
theorem acc4_eq (c : Dev nD) (q : Fin 128) : ∀ (n : ℕ) (h : n < cfg4.N) (h' : n < 25),
    (accAt4 (F := Ideal) V c n h).1 (ix2 0 q) = Cert.GinMath.accSum (tileS4 V c q) n h'
      ∧ (accAt4 (F := Ideal) V c n h).2 (ix2 0 q) = Cert.GinMath.accSum (tileSq4 V c q) n h'
  | 0, h, h' => by
      rw [accAt4]
      refine ⟨?_, ?_⟩
      · show k4_pay1 _ _ (ix2 0 q) = _
        rw [pay4_1_apply, pay4_3_apply]
        rfl
      · show k4_pay2 _ _ (ix2 0 q) = _
        rw [pay4_2_apply, pay4_4_apply]
        rfl
  | n + 1, h, h' => by
      obtain ⟨ih1, ih2⟩ := acc4_eq c q n (Nat.lt_of_succ_lt h) (Nat.lt_of_succ_lt h')
      rw [accAt4]
      refine ⟨?_, ?_⟩
      · show k4_pay1 _ _ (ix2 0 q) = _
        rw [pay4_1_apply, ih1]
        rfl
      · show k4_pay2 _ _ (ix2 0 q) = _
        rw [pay4_2_apply, ih2]
        rfl
theorem tileS4_eq (c : Dev nD) (q : Fin 128) (t : Fin 25) :
    tileS4 V c q t = ∑ r : Fin 2000, mlpA4 V c ⟨2000 * t.val + r.val, by have := t.isLt; omega⟩ q := by
  unfold tileS4
  exact Finset.sum_congr rfl fun r _ => zAt4_apply V c (pt4 t) r q
theorem tileSq4_eq (c : Dev nD) (q : Fin 128) (t : Fin 25) :
    tileSq4 V c q t = ∑ r : Fin 2000, mlpA4 V c ⟨2000 * t.val + r.val, by have := t.isLt; omega⟩ q * mlpA4 V c ⟨2000 * t.val + r.val, by have := t.isLt; omega⟩ q := by
  unfold tileSq4
  exact Finset.sum_congr rfl fun r _ =>
    congrArg₂ (fun x y : EReal => x * y) (zAt4_apply V c (pt4 t) r q) (zAt4_apply V c (pt4 t) r q)
theorem last4_lt : 24 < cfg4.N := by rw [show cfg4.N = 25 from N_4]; decide
abbrev tLast4 : Fin cfg4.N := ⟨24, last4_lt⟩
abbrev sRow4 (c : Dev nD) : Buf (Elt Ideal) ((c : Thread nD τ).loc main_v111_1) := (accAt4 (F := Ideal) V c 24 last4_lt).1
abbrev ssRow4 (c : Dev nD) : Buf (Elt Ideal) ((c : Thread nD τ).loc main_v111_2) := (accAt4 (F := Ideal) V c 24 last4_lt).2
theorem sRow4_apply (c : Dev nD) (q : Fin 128) : sRow4 V c (ix2 0 q) = Cert.GinSpec.colSum (mlpA4 V c) q := by
  show (accAt4 (F := Ideal) V c 24 last4_lt).1 (ix2 0 q) = _
  rw [(acc4_eq V c q 24 last4_lt (by decide)).1, Cert.GinMath.fold_tiles]
  refine (Finset.sum_congr rfl fun t _ => tileS4_eq V c q t).trans ?_
  exact Cert.GinMath.sum_tiles (fun n => mlpA4 V c n q)
theorem ssRow4_apply (c : Dev nD) (q : Fin 128) : ssRow4 V c (ix2 0 q) = Cert.GinSpec.colSumSq (mlpA4 V c) q := by
  show (accAt4 (F := Ideal) V c 24 last4_lt).2 (ix2 0 q) = _
  rw [(acc4_eq V c q 24 last4_lt (by decide)).2, Cert.GinMath.fold_tiles]
  refine (Finset.sum_congr rfl fun t _ => tileSq4_eq V c q t).trans ?_
  exact Cert.GinMath.sum_tiles (fun n => mlpA4 V c n q * mlpA4 V c n q)
theorem flushed4_8_eq (c : Dev nD) (t : Fin cfg4.N) (hf : (cfg4.win 8).flush t = true) :
    (dat4 (F := Ideal) V c).flushed 8 t = ((cfg4.win 8).blk t).view.read (Elt Ideal) (sRow4 V c) := by
  have hN : cfg4.N = 25 := N_4
  have h1 : t.val = 24 := by have := (flush4_8 t).mp hf; have := t.isLt; omega
  obtain rfl : t = tLast4 := Fin.ext h1
  show (cfg4.win 8).cut (grid4.coords tLast4) ((dat4 (F := Ideal) V c).after 8 tLast4) = _
  rw [after4_8]
  have hz' : (fun a => win4_8.index tLast4 a * main_v111_1.ty.shape.size a) = fun _ => 0 := funext fun a => by fin_cases a <;> decide
  exact (Memref.read_access_unit_zero (Elt Ideal) main_v111_1 hz' (fun a => by rw [congrFun hz' a]; simp) (sRow4 V c)).symm
theorem flushed4_9_eq (c : Dev nD) (t : Fin cfg4.N) (hf : (cfg4.win 9).flush t = true) :
    (dat4 (F := Ideal) V c).flushed 9 t = ((cfg4.win 9).blk t).view.read (Elt Ideal) (ssRow4 V c) := by
  have hN : cfg4.N = 25 := N_4
  have h1 : t.val = 24 := by have := (flush4_9 t).mp hf; have := t.isLt; omega
  obtain rfl : t = tLast4 := Fin.ext h1
  show (cfg4.win 9).cut (grid4.coords tLast4) ((dat4 (F := Ideal) V c).after 9 tLast4) = _
  rw [after4_9]
  have hz' : (fun a => win4_9.index tLast4 a * main_v111_2.ty.shape.size a) = fun _ => 0 := funext fun a => by fin_cases a <;> decide
  exact (Memref.read_access_unit_zero (Elt Ideal) main_v111_2 hz' (fun a => by rw [congrFun hz' a]; simp) (ssRow4 V c)).symm
theorem final4_8 (c : Dev nD) : (dat4 (F := Ideal) V c).arrAt 8 cfg4.N = sRow4 V c :=
  (dat4 (F := Ideal) V c).arrAt_eq_of_cover 8 (sRow4 V c) (flushed4_8_eq V c) fun i =>
    ⟨tLast4, (flush4_8 tLast4).mpr rfl, by
      show i ∈ ((View.whole main_v111_1).slice (win4_8.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_8.index tLast4 0 * win4_8.size 0 ≤ (i 0 : Nat) ∧ (i 0 : Nat) < win4_8.index tLast4 0 * win4_8.size 0 + win4_8.xsize (grid4.coords tLast4) 0
                  rw [show win4_8.index tLast4 0 * win4_8.size 0 = 0 from by decide +kernel, show win4_8.xsize (grid4.coords tLast4) 0 = 1 from by decide +kernel]; omega
      | ⟨1, _⟩ => show win4_8.index tLast4 1 * win4_8.size 1 ≤ (i 1 : Nat) ∧ (i 1 : Nat) < win4_8.index tLast4 1 * win4_8.size 1 + win4_8.xsize (grid4.coords tLast4) 1
                  rw [show win4_8.index tLast4 1 * win4_8.size 1 = 0 from by decide +kernel, show win4_8.xsize (grid4.coords tLast4) 1 = 128 from by decide +kernel]; omega⟩
theorem final4_9 (c : Dev nD) : (dat4 (F := Ideal) V c).arrAt 9 cfg4.N = ssRow4 V c :=
  (dat4 (F := Ideal) V c).arrAt_eq_of_cover 9 (ssRow4 V c) (flushed4_9_eq V c) fun i =>
    ⟨tLast4, (flush4_9 tLast4).mpr rfl, by
      show i ∈ ((View.whole main_v111_2).slice (win4_9.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_9.index tLast4 0 * win4_9.size 0 ≤ (i 0 : Nat) ∧ (i 0 : Nat) < win4_9.index tLast4 0 * win4_9.size 0 + win4_9.xsize (grid4.coords tLast4) 0
                  rw [show win4_9.index tLast4 0 * win4_9.size 0 = 0 from by decide +kernel, show win4_9.xsize (grid4.coords tLast4) 0 = 1 from by decide +kernel]; omega
      | ⟨1, _⟩ => show win4_9.index tLast4 1 * win4_9.size 1 ≤ (i 1 : Nat) ∧ (i 1 : Nat) < win4_9.index tLast4 1 * win4_9.size 1 + win4_9.xsize (grid4.coords tLast4) 1
                  rw [show win4_9.index tLast4 1 * win4_9.size 1 = 0 from by decide +kernel, show win4_9.xsize (grid4.coords tLast4) 1 = 128 from by decide +kernel]; omega⟩
theorem sArr4 (c : Dev nD) (q : Fin 128) :
    (dat4 (F := Ideal) V c).arrAt 8 cfg4.N (ix2 0 q) = Cert.GinSpec.colSum ((Cert.GinSpec.mlp ((V c main_v100) (ix2 0 0)) (toMat (V c main_v86)) (toMat (V c main_v96)) (toMat (V c main_v108))
        (toRow1 (V c main_v103)) (toMat (V c main_v110)) (toRow1 (V c main_v106)))) q := by
  rw [final4_8]
  exact sRow4_apply V c q
theorem ssArr4 (c : Dev nD) (q : Fin 128) :
    (dat4 (F := Ideal) V c).arrAt 9 cfg4.N (ix2 0 q) = Cert.GinSpec.colSumSq ((Cert.GinSpec.mlp ((V c main_v100) (ix2 0 0)) (toMat (V c main_v86)) (toMat (V c main_v96)) (toMat (V c main_v108))
        (toRow1 (V c main_v103)) (toMat (V c main_v110)) (toRow1 (V c main_v106)))) q := by
  rw [final4_9]
  exact ssRow4_apply V c q
end Cert.KernelIdeal.HandV
end
-- ==== Proof.Val.KerB5.lean ====
import proofs.«419539_j67095979099186_1_alg».proof.Proof.KI.RegB5
import proofs.«419539_j67095979099186_1_alg».proof.Proof.Val.Conv
import proofs.«419539_j67095979099186_1_alg».proof.Proof.Val.KerBOut
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.ShloMosaic.ValueIdx
open Idealize.ShloMosaic.Pipeline (Dat)
variable (V : (c : Dev nD) → (b : Ref sig .tc) → Buf (Elt Ideal) ((c : Thread nD τ).loc b))
theorem pay5_apply (v0 : Vec Ideal S2000x128 .f32) (v2 v6 v10 v14 : Vec Ideal S1x128 .f32) (r : Fin 2000) (q : Fin 128) :
    k5_pay1 v0 v2 v6 v10 v14 (ix2 r q)
      = (v0 (ix2 r q) - v2 (ix2 0 q)) * v6 (ix2 0 q) * v10 (ix2 0 q) + v14 (ix2 0 q) := by
  unfold k5_pay1
  simp only [shapeCast_self]
  rw [addf_apply, mulf_apply, mulf_apply, subf_apply]
  rw [broadcastTo_1b_ab_apply, broadcastTo_1b_ab_apply, broadcastTo_1b_ab_apply, broadcastTo_1b_ab_apply]
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)
theorem iblk5_0_apply (c : Dev nD) (t : Fin cfg5.N) (r : Fin 2000) (q : Fin 128) (k : S50000x128.Idx)
    (hk0 : (k 0).val = 2000 * t.val + r.val) (hk1 : (k 1).val = q.val) :
    (iblk5 V c 0 t : Vec Ideal S2000x128 .f32) (ix2 r q) = (V c main_v111_0 : S50000x128.Idx → EReal) k := by
  obtain ⟨e0, e1, -⟩ := idx_facts5 t
  unfold iblk5
  rw [View.read_apply]
  show (V c main_v111_0 : S50000x128.Idx → EReal) _ = _
  refine congrArg _ (funext fun a => Fin.ext ?_)
  match a with
  | ⟨0, _⟩ => show win5_0.index t (0 : Fin 2) * 2000 + 1 * r.val = (k 0).val; rw [e0, hk0]; omega
  | ⟨1, _⟩ => show win5_0.index t (1 : Fin 2) * 128 + 1 * q.val = (k 1).val; rw [e1, hk1]; omega
theorem iblk5_rows (c : Dev nD) (t : Fin cfg5.N) (q : Fin 128) :
    (iblk5 V c 1 t : Vec Ideal S1x128 .f32) (ix2 0 q) = (V c main_v113 : S1x128.Idx → EReal) (ix2 0 q)
    ∧ (iblk5 V c 2 t : Vec Ideal S1x128 .f32) (ix2 0 q) = (V c main_v120 : S1x128.Idx → EReal) (ix2 0 q)
    ∧ (iblk5 V c 3 t : Vec Ideal S1x128 .f32) (ix2 0 q) = (V c main_v123 : S1x128.Idx → EReal) (ix2 0 q)
    ∧ (iblk5 V c 4 t : Vec Ideal S1x128 .f32) (ix2 0 q) = (V c main_v126 : S1x128.Idx → EReal) (ix2 0 q) := by
  obtain ⟨-, -, a0, a1, b0, b1, c0, c1, d0, d1, -⟩ := idx_facts5 t
  have z0 : ∀ x : Nat, x = 0 → x * 1 + 1 * 0 = 0 := fun _ h => by rw [h]
  have z1 : ∀ x : Nat, x = 0 → x * 128 + 1 * q.val = q.val := fun _ h => by rw [h]; omega
  unfold iblk5
  refine ⟨?_, ?_, ?_, ?_⟩ <;> rw [View.read_apply]
  on_goal 1 => show (V c main_v113 : S1x128.Idx → EReal) _ = _
  on_goal 2 => show (V c main_v120 : S1x128.Idx → EReal) _ = _
  on_goal 3 => show (V c main_v123 : S1x128.Idx → EReal) _ = _
  on_goal 4 => show (V c main_v126 : S1x128.Idx → EReal) _ = _
  all_goals
    refine congrArg _ (funext fun a => Fin.ext ?_)
    match a with
    | ⟨0, _⟩ => first | exact z0 _ a0 | exact z0 _ b0 | exact z0 _ c0 | exact z0 _ d0
    | ⟨1, _⟩ => first | exact z1 _ a1 | exact z1 _ b1 | exact z1 _ c1 | exact z1 _ d1
theorem flushed5_eq (c : Dev nD) (t : Fin cfg5.N) :
    (dat5 (F := Ideal) V c).flushed 5 t
      = ((cfg5.win 5).blk t).view.read (Elt Ideal)
          (outFn id (V c main_v111_0) (V c main_v113) (V c main_v120) (V c main_v123) (V c main_v126)) := by
  show (cfg5.win 5).cut (grid5.coords t) ((dat5 (F := Ideal) V c).after 5 t) = _
  rw [after5_5]
  unfold outB5
  funext j
  obtain ⟨r, q, rfl⟩ : ∃ (r : Fin 2000) (q : Fin 128), j = ix2 r q := ⟨j 0, j 1, eq_ix2 j⟩
  rw [View.read_apply]
  obtain ⟨-, -, -, -, -, -, -, -, -, -, e0, e1⟩ := idx_facts5 t
  have hk0 : ((((cfg5.win 5).blk t).view.emb (ix2 r q) : S50000x128.Idx) 0).val = 2000 * t.val + r.val := by
    show win5_5.index t (0 : Fin 2) * 2000 + 1 * r.val = _; rw [e0]; omega
  have hk1 : ((((cfg5.win 5).blk t).view.emb (ix2 r q) : S50000x128.Idx) 1).val = q.val := by
    show win5_5.index t (1 : Fin 2) * 128 + 1 * q.val = _; rw [e1]; omega
  have h0 := iblk5_0_apply V c t r q _ hk0 hk1
  obtain ⟨h1, h2, h3, h4⟩ := iblk5_rows V c t q
  show k5_pay1 (iblk5 V c 0 t) (iblk5 V c 1 t) (iblk5 V c 2 t) (iblk5 V c 3 t) (iblk5 V c 4 t) (ix2 r q) = _
  refine (pay5_apply _ _ _ _ _ r q).trans ?_
  rw [h0, h1, h2, h3, h4]
  exact (outFn_at id _ _ _ _ _ _ q hk1).symm
theorem mem_blk5 (t : Fin cfg5.N) (i : S50000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v127).slice (win5_5.rect t)).set ↔ _
  rw [View.set_slice_whole, Rect.mem_set_unit]
  exact Iff.rfl
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 25 := N_5
  obtain ⟨t, ht⟩ : ∃ t : Fin cfg5.N, t.val = (i 0).val / 2000 := ⟨⟨(i 0).val / 2000, by rw [hN]; omega⟩, rfl⟩
  obtain ⟨-, -, -, -, -, -, -, -, -, -, e0, e1⟩ := idx_facts5 t
  refine ⟨t, flush5_5 t, ?_⟩
  rw [mem_blk5]
  intro a
  match a with
  | ⟨0, _⟩ =>
    show win5_5.index t (0 : Fin 2) * 2000 ≤ (i 0).val ∧ (i 0).val < win5_5.index t (0 : Fin 2) * 2000 + 2000
    rw [e0, ht]; omega
  | ⟨1, _⟩ =>
    show win5_5.index t (1 : Fin 2) * 128 ≤ (i 1).val ∧ (i 1).val < win5_5.index t (1 : Fin 2) * 128 + 128
    rw [e1]; omega
theorem final5 (c : Dev nD) :
    (dat5 (F := Ideal) V c).arrAt 5 cfg5.N
      = outFn id (V c main_v111_0) (V c main_v113) (V c main_v120) (V c main_v123) (V c main_v126) :=
  (dat5 (F := Ideal) V c).arrAt_eq_of_cover 5 _ (fun t _ => flushed5_eq V c t) cover5
theorem hArr5 (c : Dev nD) (p : Fin 50000) (q : Fin 128) :
    ((dat5 (F := Ideal) V c).arrAt 5 cfg5.N : S50000x128.Idx → EReal) (ix2 p q)
      = Cert.GinSpec.bn (toMat (V c main_v111_0 : S50000x128.Idx → EReal))
          (toRow1 (V c main_v113 : S1x128.Idx → EReal)) (toRow1 (V c main_v120 : S1x128.Idx → EReal))
          (toRow1 (V c main_v123 : S1x128.Idx → EReal)) (toRow1 (V c main_v126 : S1x128.Idx → EReal)) p q := by
  rw [final5]; rfl
end Cert.KernelIdeal.HandV
end
-- ==== Proof.Val.KerHost3.lean ====
import proofs.«419539_j67095979099186_1_alg».proof.Proof.Val.KerLayer
import proofs.«419539_j67095979099186_1_alg».proof.Proof.Val.KerAs4
import proofs.«419539_j67095979099186_1_alg».proof.Proof.Val.KerB5
import proofs.«419539_j67095979099186_1_alg».proof.Proof.Val.KerHostS
namespace Cert.KernelIdeal.HandV
open Cert.KernelIdeal Cert.KernelIdeal.Hand Cert.GinSpec
open Idealize.ShloMosaic Idealize.ShloMosaic.TcCoe
variable (m : (ℓ : Loc nD τ sig) → Buf (Elt Ideal) ℓ)
theorem ker_layer3 (c : Dev nD) :
    toMat (W12 m c (Proc.devRef .tc main_v127) : S50000x128.Idx → EReal)
      = layerK false epsLit (scaleOf (m ((c : Thread nD τ).loc main_arg7) : S3.Idx → EReal) 2)
          (toMat (W8 m c (Proc.devRef .tc main_v86) : S50000x128.Idx → EReal))
          (toMat (aggK (m ((c : Thread nD τ).loc main_arg1)) (W8 m c (Proc.devRef .tc main_v86)) : S50000x128.Idx → EReal))
          (matOf3 (m ((c : Thread nD τ).loc main_arg3) : S3x128x128.Idx → EReal) 2)
          (rowOf3 (m ((c : Thread nD τ).loc main_arg4) : S3x128.Idx → EReal) 2)
          (matOf3 (m ((c : Thread nD τ).loc main_arg5) : S3x128x128.Idx → EReal) 2)
          (rowOf3 (m ((c : Thread nD τ).loc main_arg6) : S3x128.Idx → EReal) 2)
          (rowOf3 (m ((c : Thread nD τ).loc main_arg8) : S3x128.Idx → EReal) 2)
          (rowOf3 (m ((c : Thread nD τ).loc main_arg9) : S3x128.Idx → EReal) 2) :=
  layer_of_parts m c (W8_arg m c) (W10_arg m c) false 2
    (host4_v100 _) (W9_v86 m c) (of_edges m c (W8_arg m c) (W8_v2 m c) (W8_v4 m c) (host4_v96 _))
    (host4_v108 _) (host4_v103 _) (host4_v110 _) (host4_v106 _) rfl
    (W10_v111_0 m c) (zArr4 (V9 m) c) (W10_v111_1 m c) (sArr4 (V9 m) c) (W10_v111_2 m c) (ssArr4 (V9 m) c)
    (mean5 (W10 m c)) (inv5 (W10 m c)) (gamma5 (W10 m c)) (beta5 (W10 m c))
    (W11_v111_0 m c) (W12_v127 m c) (hArr5 (V11 m) c)
end Cert.KernelIdeal.HandV
-- ==== Proof.Val.KerC6.lean ====
import proofs.«419539_j67095979099186_1_alg».proof.Proof.KI.RegC6
import proofs.«419539_j67095979099186_1_alg».proof.Proof.Val.Conv
import proofs.«419539_j67095979099186_1_alg».proof.Proof.Val.GinMath
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.ShloMosaic.ValueIdx
open Idealize.ShloMosaic.Pipeline (Dat)
open scoped BigOperators
theorem onehot_word (a b : BitVec 32) :
    (FloatOps.sitofp (F := Ideal) .f32 ((IntOp.cmpi .eq a b).setWidth 32) : EReal) = if a = b then 1 else 0 := by
  by_cases h : a = b
  · subst h
    rw [if_pos rfl]
    have : (IntOp.cmpi .eq a a).setWidth 32 = 1#32 := by simp [IntOp.cmpi]
    rw [this]
    show (((1#32 : BitVec 32).toInt : ℝ) : EReal) = 1
    norm_num
  · rw [if_neg h]
    have hb : (a == b) = false := by simpa using h
    have : (IntOp.cmpi .eq a b).setWidth 32 = 0#32 := by simp [IntOp.cmpi, hb]
    rw [this]
    show (((0#32 : BitVec 32).toInt : ℝ) : EReal) = 0
    norm_num
theorem pay1_zero6 (j : S512x128.Idx) : (k6_pay1 (F := Ideal)) j = 0 := by
  unfold k6_pay1
  rw [shapeCast_self]
  exact Ideal.ofBits_zero_f32
theorem pay2_apply (x1 : Vec Ideal S2000x1 .i32) (x0 : Vec Ideal S2000x128 .f32) (acc : Vec Ideal S512x128 .f32)
    (g : Fin 512) (d : Fin 128) :
    k6_pay2 x1 x0 acc (ix2 g d)
      = acc (ix2 g d) + ∑ r : Fin 2000, (if x1 (ix2 r 0) = BitVec.ofNat 32 g.val then (1 : EReal) else 0) * x0 (ix2 r d) := by
  unfold k6_pay2
  simp only [shapeCast_self]
  rw [addf_apply]
  congr 1
  refine (Ideal.matmul_constant_zero_apply dot_S2000x512_S2000x128_S512x128_0_0_1_1_n_n none _ _ (ix2 g d)).trans ?_
  rw [← Equiv.sum_comp (contrEquiv1 dot_S2000x512_S2000x128_S512x128_0_0_1_1_n_n 2000 rfl rfl).symm]
  refine Finset.sum_congr rfl fun r _ => ?_
  have c2 := contrEquiv1_symm_val dot_S2000x512_S2000x128_S512x128_0_0_1_1_n_n 2000 rfl rfl r
  have l2 : dot_S2000x512_S2000x128_S512x128_0_0_1_1_n_n.lhsIdx (ix2 g d)
      ((contrEquiv1 dot_S2000x512_S2000x128_S512x128_0_0_1_1_n_n 2000 rfl rfl).symm r) = ix2 r g := by
    funext ax; apply Fin.ext
    match ax with
    | ⟨0, _⟩ => simp [DotDims.lhsIdx, dot_S2000x512_S2000x128_S512x128_0_0_1_1_n_n]; exact c2
    | ⟨1, _⟩ => simp [DotDims.lhsIdx, dot_S2000x512_S2000x128_S512x128_0_0_1_1_n_n]; rfl
  have r2 : dot_S2000x512_S2000x128_S512x128_0_0_1_1_n_n.rhsIdx (ix2 g d)
      ((contrEquiv1 dot_S2000x512_S2000x128_S512x128_0_0_1_1_n_n 2000 rfl rfl).symm r) = ix2 r d := by
    funext ax; apply Fin.ext
    match ax with
    | ⟨0, _⟩ => simp [DotDims.rhsIdx, dot_S2000x512_S2000x128_S512x128_0_0_1_1_n_n]; exact c2
    | ⟨1, _⟩ => simp [DotDims.rhsIdx, dot_S2000x512_S2000x128_S512x128_0_0_1_1_n_n]; rfl
  rw [l2, r2, truncf_apply, truncf_apply, sitofp_apply, extui_apply]
  show FloatOps.sitofp (F := Ideal) .f32 ((IntOp.cmpi .eq (broadcastTo S2000x512 x1 broadcasts_S2000x1_S2000x512 (ix2 r g))
      (iota .tc S2000x512 32 [1] iota_S2000x512_d1_w32 (ix2 r g))).setWidth 32) * x0 (ix2 r d) = _
  rw [iota_single_apply, broadcastTo_apply x1 broadcasts_S2000x1_S2000x512 (ix2 r g) (ix2 r 0) (fun a => by
    match a with
    | ⟨0, _⟩ => rfl
    | ⟨1, _⟩ => rfl), onehot_word]
variable (V : (c : Dev nD) → (b : Ref sig .tc) → Buf (Elt Ideal) ((c : Thread nD τ).loc b))
theorem N6 : cfg6.N = 25 := N_6
theorem idx6_0 : ∀ t : Fin cfg6.N, win6_0.index t 0 = t.val ∧ win6_0.index t 1 = 0 :=
  (by decide +kernel : ∀ t : Fin grid6.N, win6_0.index t 0 = t.val ∧ win6_0.index t 1 = 0)
theorem idx6_1 : ∀ t : Fin cfg6.N, win6_1.index t 0 = t.val ∧ win6_1.index t 1 = 0 :=
  (by decide +kernel : ∀ t : Fin grid6.N, win6_1.index t 0 = t.val ∧ win6_1.index t 1 = 0)
theorem iblk6_0_apply (c : Dev nD) (t : Fin cfg6.N) (r : Fin 2000) (d : Fin 128) (k : Fin 50000)
    (hk : k.val = 2000 * t.val + r.val) :
    (iblk6 V c 0 t : Vec Ideal S2000x128 .f32) (ix2 r d) = (V c main_v127 : S50000x128.Idx → EReal) (ix2 k d) := by
  have hi := idx6_0 t
  unfold iblk6
  rw [View.read_apply]
  show V c main_v127 _ = V c main_v127 _
  congr 1
  funext a
  apply Fin.ext
  match a with
  | ⟨0, _⟩ => show win6_0.index t 0 * 2000 + 1 * r.val = k.val; rw [hi.1, hk]; omega
  | ⟨1, _⟩ => show win6_0.index t 1 * 128 + 1 * d.val = d.val; rw [hi.2]; omega
theorem iblk6_1_apply (c : Dev nD) (t : Fin cfg6.N) (r : Fin 2000) (k : Fin 50000)
    (hk : k.val = 2000 * t.val + r.val) :
    (iblk6 V c 1 t : Vec Ideal S2000x1 .i32) (ix2 r 0) = (V c main_v0 : S50000x1.Idx → BitVec 32) (ix2 k 0) := by
  have hi := idx6_1 t
  unfold iblk6
  rw [View.read_apply]
  show V c main_v0 _ = V c main_v0 _
  congr 1
  funext a
  apply Fin.ext
  match a with
  | ⟨0, _⟩ => show win6_1.index t 0 * 2000 + 1 * r.val = k.val; rw [hi.1, hk]; omega
  | ⟨1, _⟩ => show win6_1.index t 1 * 1 + 1 * (0 : Fin 1).val = (0 : Fin 1).val; rw [hi.2]; rfl
def term (c : Dev nD) (g : Fin 512) (d : Fin 128) (n : Fin 50000) : EReal :=
  (if (V c main_v0 : S50000x1.Idx → BitVec 32) (ix2 n 0) = BitVec.ofNat 32 g.val then (1 : EReal) else 0)
    * (V c main_v127 : S50000x128.Idx → EReal) (ix2 n d)
def tile (c : Dev nD) (g : Fin 512) (d : Fin 128) (t : Fin 25) : EReal :=
  ∑ r : Fin 2000, term V c g d ⟨2000 * t.val + r.val, by omega⟩
theorem step_apply (c : Dev nD) (g : Fin 512) (d : Fin 128) (n : ℕ) (h : n < cfg6.N) (h' : n < 25)
    (acc : Vec Ideal S512x128 .f32) :
    k6_pay2 (iblk6 V c 1 ⟨n, h⟩) (iblk6 V c 0 ⟨n, h⟩) acc (ix2 g d) = acc (ix2 g d) + tile V c g d ⟨n, h'⟩ := by
  rw [pay2_apply]
  refine congrArg (acc (ix2 g d) + ·) (Finset.sum_congr rfl fun r _ => ?_)
  rw [iblk6_1_apply V c ⟨n, h⟩ r ⟨2000 * n + r.val, by omega⟩ rfl,
    iblk6_0_apply V c ⟨n, h⟩ r d ⟨2000 * n + r.val, by omega⟩ rfl]
  rfl
theorem accAt6_apply (c : Dev nD) (g : Fin 512) (d : Fin 128) :
    ∀ (n : ℕ) (h : n < cfg6.N) (h' : n < 25), accAt6 V c n h (ix2 g d) = Cert.GinMath.accSum (tile V c g d) n h'
  | 0, h, h' => by
      rw [accAt6, step_apply V c g d 0 h h', pay1_zero6, Cert.GinMath.accSum]
      rfl
  | n + 1, h, h' => by
      rw [accAt6, step_apply V c g d (n + 1) h h', accAt6_apply c g d n (Nat.lt_of_succ_lt h) (Nat.lt_of_succ_lt h'),
        Cert.GinMath.accSum]
abbrev tLast : Fin cfg6.N := ⟨24, by rw [N6]; decide⟩
theorem flushed6_eq (c : Dev nD) (t : Fin cfg6.N) (hf : (cfg6.win 2).flush t = true) :
    (dat6 V c).flushed 2 t = ((cfg6.win 2).blk t).view.read (Elt Ideal) (accAt6 V c 24 tLast.isLt) := by
  have hN : cfg6.N = 25 := N6
  have h24 : t.val = 24 := by have := (flush6_2 t).mp hf; have := t.isLt; omega
  obtain rfl : t = tLast := Fin.ext h24
  show (cfg6.win 2).cut (grid6.coords tLast) ((dat6 V c).after 2 tLast) = _
  rw [after6_2]
  have hz' : (fun a => win6_2.index tLast a * main_v128.ty.shape.size a) = fun _ => 0 :=
    funext fun a => by fin_cases a <;> decide +kernel
  exact (Memref.read_access_unit_zero (Elt Ideal) main_v128 hz' (fun a => by rw [congrFun hz' a]; simp) _).symm
theorem final6 (c : Dev nD) : (dat6 V c).arrAt 2 cfg6.N = accAt6 V c 24 tLast.isLt :=
  (dat6 V c).arrAt_eq_of_cover 2 (accAt6 V c 24 tLast.isLt) (flushed6_eq V c) fun i =>
    ⟨tLast, (flush6_2 tLast).mpr rfl, by
      show i ∈ ((View.whole main_v128).slice (win6_2.rect tLast)).set
      rw [View.set_slice_whole, Rect.mem_set_unit]
      intro a
      have h0 : (i 0 : Nat) < 512 := (i 0).isLt
      have h1 : (i 1 : Nat) < 128 := (i 1).isLt
      match a with
      | ⟨0, _⟩ =>
        show win6_2.index tLast 0 * win6_2.size 0 ≤ (i 0 : Nat) ∧ (i 0 : Nat) < win6_2.index tLast 0 * win6_2.size 0 + win6_2.xsize (grid6.coords tLast) 0
        rw [show win6_2.index tLast 0 * win6_2.size 0 = 0 from by decide +kernel, show win6_2.xsize (grid6.coords tLast) 0 = 512 from by decide +kernel]; omega
      | ⟨1, _⟩ =>
        show win6_2.index tLast 1 * win6_2.size 1 ≤ (i 1 : Nat) ∧ (i 1 : Nat) < win6_2.index tLast 1 * win6_2.size 1 + win6_2.xsize (grid6.coords tLast) 1
        rw [show win6_2.index tLast 1 * win6_2.size 1 = 0 from by decide +kernel, show win6_2.xsize (grid6.coords tLast) 1 = 128 from by decide +kernel]; omega⟩
theorem poolArr (c : Dev nD) (g : Fin 512) (d : Fin 128) :
    (dat6 (F := Ideal) V c).arrAt 2 cfg6.N (ix2 g d)
      = pool (fun n g => (V c main_v0 : S50000x1.Idx → BitVec 32) (ix2 n 0) = BitVec.ofNat 32 g.val)
          (toMat (V c main_v127 : S50000x128.Idx → EReal)) g d := by
  rw [final6 V c, accAt6_apply V c g d 24 tLast.isLt (by decide), Cert.GinMath.fold_tiles]
  unfold tile
  rw [Cert.GinMath.sum_tiles (term V c g d)]
  rfl
end Cert.KernelIdeal.HandV
end
-- ==== Proof.Val.AggLaws.lean ====
import Idealize.ShloMosaic.PureOps
import Idealize.ShloMosaic.PureOps.Ideal
import proofs.«419539_j67095979099186_1_alg».proof.Proof.Val.GinMath
noncomputable section
namespace Cert.GinMath
open Idealize.ShloMosaic
open scoped BigOperators
variable {s si t su : Shape} {w : Nat}
theorem gather_real (d : GatherDims s si t) (x : s.Idx → EReal) (idx : IVec si w) (hx : IsRealV x) :
    IsRealV (Host.gather d x idx) := fun j => hx (d.operandIdx j idx)
theorem scatterAdd_apply {φ : FTy} (d : ScatterDims s si su) (x : FVec Ideal s φ) (idx : IVec si w)
    (upd : FVec Ideal su φ) (i : s.Idx) :
    Host.scatterAdd d x idx upd i
      = x i + ∑ j ∈ Finset.univ.filter (fun j => d.resultIdx? j idx = some i), upd j := rfl
theorem scatterAdd_real {φ : FTy} (d : ScatterDims s si su) (x : FVec Ideal s φ) (idx : IVec si w)
    (upd : FVec Ideal su φ) (hx : IsRealV x) (hu : IsRealV upd) : IsRealV (Host.scatterAdd d x idx upd) :=
  fun i => by
    rw [scatterAdd_apply]
    exact IsReal.add (hx i) (IsReal.sum _ fun j _ => hu j)
theorem constant_apply (S : Shape) (φ : FTy) (b : BitVec φ.bits) (i : S.Idx) :
    constant (F := Ideal) S φ b i = Ideal.ofBits φ b := rfl
theorem splat_real (S T : Shape) (φ : FTy) (b : BitVec φ.bits) (dims : Fin S.rank → Fin T.rank)
    (h : S.BroadcastsInDim T dims) (hb : IsReal (Ideal.ofBits φ b)) :
    IsRealV (broadcastInDim T dims h (constant (F := Ideal) S φ b)) := fun _ => hb
theorem isReal_lit_zero : IsReal (Ideal.ofBits .f32 0x00000000#32) := ⟨0, lit_zero⟩
theorem splat_zero_real (S T : Shape) (dims : Fin S.rank → Fin T.rank) (h : S.BroadcastsInDim T dims) :
    IsRealV (broadcastInDim T dims h (constant (F := Ideal) S .f32 0x00000000#32)) :=
  splat_real S T .f32 _ dims h isReal_lit_zero
theorem toInt_eq_fin_iff (b : BitVec 32) (g : Fin 512) :
    b.toInt = (g.val : ℤ) ↔ b = BitVec.ofNat 32 g.val := by
  have hg := g.isLt
  have hb := b.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega
end Cert.GinMath
end
-- ==== Proof.Val.KerHostT.lean ====
import proofs.«419539_j67095979099186_1_alg».proof.Proof.Gen.KernelIdeal.Launch
import proofs.«419539_j67095979099186_1_alg».proof.Proof.Gen.KernelIdeal.Regions
import proofs.«419539_j67095979099186_1_alg».proof.Proof.Val.Conv
import proofs.«419539_j67095979099186_1_alg».proof.Proof.Val.GinMath
import proofs.«419539_j67095979099186_1_alg».proof.Proof.Val.AggLaws
import Idealize.ShloMosaic.Lib.StableHlo.Run
import Idealize.ShloMosaic.Lib.Pipeline.FrameSuffix
import Idealize.ShloMosaic.Lib.Pipeline.Value
import Idealize.ShloMosaic.Lib.ValueIdx
set_option maxRecDepth 16384
noncomputable section
namespace Cert.KernelIdeal.HandV
open Cert.KernelIdeal Cert.KernelIdeal.Gen Cert.GinSpec
open Idealize.ShloMosaic Idealize.ShloMosaic.TcCoe Idealize.SL.Sem Idealize.ShloMosaic.StableHlo Idealize.ShloMosaic.ValueIdx
def cntCol (a2 : (⟨S50000, .i32⟩ : BufTy).Contents (Elt Ideal)) : FVec Ideal S512x1 .f32 :=
  Host.scatterAdd (F := Ideal) scatter_S512x1_S50000x1_S50000x1_1_0_0_1
    (broadcastInDim S512x1 ![] bcast_S_S512x1 (constant (F := Ideal) S_ .f32 0x00000000#32))
    (broadcastInDim S50000x1 ![0] bcast_S50000_S50000x1_0 a2)
    (broadcastInDim S50000x1 ![] bcast_S_S50000x1 (constant (F := Ideal) S_ .f32 0x3F800000#32))
def cntK (a2 : (⟨S50000, .i32⟩ : BufTy).Contents (Elt Ideal)) (g : Fin 512) : EReal := cntCol a2 (ix2 g 0)
theorem tail_read (A : FVec Ideal S512x128 .f32) (a2 : (⟨S50000, .i32⟩ : BufTy).Contents (Elt Ideal)) (g : Fin 512) (d : Fin 128) :
    Host.divf (F := Ideal) A
      (broadcastInDim S512x128 ![0, 1] bcast_S512x1_S512x128_0_1
        (maximumf (cntCol a2) (broadcastInDim S512x1 ![] bcast_S_S512x1 (constant (F := Ideal) S_ .f32 0x3F800000#32)))) (ix2 g d) =
      Ideal.div (A (ix2 g d)) (max (cntK a2 g) 1) := by
  have hk : cntK a2 g = cntCol a2 (ix2 g 0) := rfl
  rw [hk]
  generalize cntCol a2 = C
  show Ideal.div (A (ix2 g d))
    (broadcastInDim S512x128 ![0, 1] bcast_S512x1_S512x128_0_1
      (maximumf C (broadcastInDim S512x1 ![] bcast_S_S512x1 (constant (F := Ideal) S_ .f32 0x3F800000#32))) (ix2 g d)) = _
  rw [broadcastInDim_apply _ bcast_S512x1_S512x128_0_1 _ (ix2 g d) (ix2 g 0) (fun a => match a with
    | ⟨0, _⟩ => by show g.val = if (512 : Nat) = 1 then 0 else g.val; rw [if_neg (by decide)]
    | ⟨1, _⟩ => by show 0 = if (1 : Nat) = 1 then 0 else d.val; rw [if_pos rfl])]
  show Ideal.div _ (max (C (ix2 g 0)) (Ideal.ofBits .f32 0x3F800000#32)) = _
  rw [Cert.GinMath.lit_one]
theorem tail7_term (X : Valuation τ sig (Elt Ideal)) :
    StableHlo.after hostOps7 X (Proc.devRef .tc main_v136) =
      Host.divf (F := Ideal) (X (Proc.devRef .tc main_v128))
        (broadcastInDim S512x128 ![0, 1] bcast_S512x1_S512x128_0_1
          (maximumf (cntCol (X (Proc.devRef .tc main_arg2)))
            (broadcastInDim S512x1 ![] bcast_S_S512x1 (constant (F := Ideal) S_ .f32 0x3F800000#32)))) := by
  after_results
  rfl
theorem tail7 (X : Valuation τ sig (Elt Ideal)) (g : Fin 512) (d : Fin 128) :
    (StableHlo.after hostOps7 X (Proc.devRef .tc main_v136) : S512x128.Idx → EReal) (ix2 g d) =
      Ideal.div ((X (Proc.devRef .tc main_v128) : S512x128.Idx → EReal) (ix2 g d))
        (max (cntK (X (Proc.devRef .tc main_arg2)) g) 1) := by
  rw [tail7_term]
  exact tail_read (X (Proc.devRef .tc main_v128)) (X (Proc.devRef .tc main_arg2)) g d
theorem ids0_term (X : Valuation τ sig (Elt Ideal)) :
    StableHlo.after hostOps0 X (Proc.devRef .tc main_v0) =
      shapeCast S50000x1 (X (Proc.devRef .tc main_arg2) : S50000.Idx → BitVec 32) shapeCasts_S50000_S50000x1 := by
  after_results
  rfl
theorem ids0 (X : Valuation τ sig (Elt Ideal)) (n : Fin 50000) :
    (StableHlo.after hostOps0 X (Proc.devRef .tc main_v0) : S50000x1.Idx → BitVec 32) (ix2 n 0) =
      (X (Proc.devRef .tc main_arg2) : S50000.Idx → BitVec 32) (ix1 n) := by
  rw [ids0_term]
  exact shapeCast_apply _ shapeCasts_S50000_S50000x1 (ix2 n 0) (ix1 n) (by
    rewrite [Shape.rowMajor_val_one, Shape.rowMajor_val_two]
    show n.val = n.val * 1 + 0; omega)
theorem v0_chain (c : Dev nD) (X1 : Valuation τ sig (Elt Ideal))
    (A0 : (w : Fin 10) → Buf (Elt Ideal) ((spec0 w).arr.view.loc (c.tc : Thread nD τ)))
    (A1 : (w : Fin 6) → Buf (Elt Ideal) ((spec1 w).arr.view.loc (c.tc : Thread nD τ)))
    (A2 : (w : Fin 10) → Buf (Elt Ideal) ((spec2 w).arr.view.loc (c.tc : Thread nD τ)))
    (A3 : (w : Fin 6) → Buf (Elt Ideal) ((spec3 w).arr.view.loc (c.tc : Thread nD τ)))
    (A4 : (w : Fin 10) → Buf (Elt Ideal) ((spec4 w).arr.view.loc (c.tc : Thread nD τ)))
    (A5 : (w : Fin 6) → Buf (Elt Ideal) ((spec5 w).arr.view.loc (c.tc : Thread nD τ))) :
    Pipeline.withArrays spec5 c (StableHlo.after hostOps5 (Pipeline.withArrays spec4 c (StableHlo.after hostOps4
      (Pipeline.withArrays spec3 c (StableHlo.after hostOps3 (Pipeline.withArrays spec2 c (StableHlo.after hostOps2
        (Pipeline.withArrays spec1 c (StableHlo.after hostOps1 (Pipeline.withArrays spec0 c X1 A0)) A1)) A2)) A3)) A4)) A5
      (Proc.devRef .tc main_v0) = X1 (Proc.devRef .tc main_v0) := by
  rw [Pipeline.withArrays_of_ne spec5 c _ _ main_v0 (by decide),
    StableHlo.after_of_writes_sub hostOps5 _ hostOps5_writes (by decide),
    Pipeline.withArrays_of_ne spec4 c _ _ main_v0 (by decide),
    StableHlo.after_of_writes_sub hostOps4 _ hostOps4_writes (by decide),
    Pipeline.withArrays_of_ne spec3 c _ _ main_v0 (by decide),
    StableHlo.after_of_writes_sub hostOps3 _ hostOps3_writes (by decide),
    Pipeline.withArrays_of_ne spec2 c _ _ main_v0 (by decide),
    StableHlo.after_of_writes_sub hostOps2 _ hostOps2_writes (by decide),
    Pipeline.withArrays_of_ne spec1 c _ _ main_v0 (by decide),
    StableHlo.after_of_writes_sub hostOps1 _ hostOps1_writes (by decide),
    Pipeline.withArrays_of_ne spec0 c _ _ main_v0 (by decide)]
theorem a2_chain (c : Dev nD) (X0 : Valuation τ sig (Elt Ideal))
    (A0 : (w : Fin 10) → Buf (Elt Ideal) ((spec0 w).arr.view.loc (c.tc : Thread nD τ)))
    (A1 : (w : Fin 6) → Buf (Elt Ideal) ((spec1 w).arr.view.loc (c.tc : Thread nD τ)))
    (A2 : (w : Fin 10) → Buf (Elt Ideal) ((spec2 w).arr.view.loc (c.tc : Thread nD τ)))
    (A3 : (w : Fin 6) → Buf (Elt Ideal) ((spec3 w).arr.view.loc (c.tc : Thread nD τ)))
    (A4 : (w : Fin 10) → Buf (Elt Ideal) ((spec4 w).arr.view.loc (c.tc : Thread nD τ)))
    (A5 : (w : Fin 6) → Buf (Elt Ideal) ((spec5 w).arr.view.loc (c.tc : Thread nD τ)))
    (A6 : (w : Fin 3) → Buf (Elt Ideal) ((spec6 w).arr.view.loc (c.tc : Thread nD τ))) :
    Pipeline.withArrays spec6 c (Pipeline.withArrays spec5 c (StableHlo.after hostOps5 (Pipeline.withArrays spec4 c
      (StableHlo.after hostOps4 (Pipeline.withArrays spec3 c (StableHlo.after hostOps3 (Pipeline.withArrays spec2 c
        (StableHlo.after hostOps2 (Pipeline.withArrays spec1 c (StableHlo.after hostOps1 (Pipeline.withArrays spec0 c
          (StableHlo.after hostOps0 X0) A0)) A1)) A2)) A3)) A4)) A5) A6
      (Proc.devRef .tc main_arg2) = X0 (Proc.devRef .tc main_arg2) := by
  rw [Pipeline.withArrays_of_ne spec6 c _ _ main_arg2 (by decide),
    Pipeline.withArrays_of_ne spec5 c _ _ main_arg2 (by decide),
    StableHlo.after_of_writes_sub hostOps5 _ hostOps5_writes (by decide),
    Pipeline.withArrays_of_ne spec4 c _ _ main_arg2 (by decide),
    StableHlo.after_of_writes_sub hostOps4 _ hostOps4_writes (by decide),
    Pipeline.withArrays_of_ne spec3 c _ _ main_arg2 (by decide),
    StableHlo.after_of_writes_sub hostOps3 _ hostOps3_writes (by decide),
    Pipeline.withArrays_of_ne spec2 c _ _ main_arg2 (by decide),
    StableHlo.after_of_writes_sub hostOps2 _ hostOps2_writes (by decide),
    Pipeline.withArrays_of_ne spec1 c _ _ main_arg2 (by decide),
    StableHlo.after_of_writes_sub hostOps1 _ hostOps1_writes (by decide),
    Pipeline.withArrays_of_ne spec0 c _ _ main_arg2 (by decide),
    StableHlo.after_of_writes_sub hostOps0 _ hostOps0_writes (by decide)]
theorem pool_congr (hit hit' : Fin 50000 → Fin 512 → Prop) [∀ n g, Decidable (hit n g)] [∀ n g, Decidable (hit' n g)]
    (h : ∀ n g, hit n g ↔ hit' n g) (H : Mat 50000 128) (g : Fin 512) (d : Fin 128) :
    Cert.GinSpec.pool hit H g d = Cert.GinSpec.pool hit' H g d := by
  unfold Cert.GinSpec.pool
  refine Finset.sum_congr rfl fun n _ => ?_
  by_cases hh : hit n g
  · rw [if_pos hh, if_pos ((h n g).1 hh)]
  · rw [if_neg hh, if_neg (mt (h n g).2 hh)]
end Cert.KernelIdeal.HandV
end
-- ==== Proof.Val.KerFinal.lean ====
import proofs.«419539_j67095979099186_1_alg».proof.Proof.KI.Run
import proofs.«419539_j67095979099186_1_alg».proof.Proof.Val.KerC6
import proofs.«419539_j67095979099186_1_alg».proof.Proof.Val.KerHostT
set_option maxRecDepth 16384
noncomputable section
namespace Cert.KernelIdeal.HandV
open Cert.KernelIdeal Cert.KernelIdeal.Gen Cert.KernelIdeal.Hand Cert.GinSpec
open Idealize.ShloMosaic Idealize.ShloMosaic.TcCoe Idealize.SL.Sem Idealize.ShloMosaic.StableHlo Idealize.ShloMosaic.ValueIdx
variable (m : (ℓ : Loc nD τ sig) → Buf (Elt Ideal) ℓ)
theorem fin_ids_kept (c : Dev nD) : W12 m c (Proc.devRef .tc main_v0) = W1 m c (Proc.devRef .tc main_v0) :=
  v0_chain c (W1 m c) _ _ _ _ _ _
theorem fin_arg2_kept (c : Dev nD) : W13 m c (Proc.devRef .tc main_arg2) = m ((c : Thread nD τ).loc main_arg2) :=
  a2_chain c (W0 m c) _ _ _ _ _ _ _
theorem fin_sums_arr (c : Dev nD) :
    W13 m c (Proc.devRef .tc main_v128) = (dat6 (F := Ideal) (V12 m) c).arrAt 2 cfg6.N := by
  unfold W13
  exact Pipeline.withArrays_arr spec6 launch6.win.arr_inj c _ _ 2
theorem fin_ids_read (c : Dev nD) (n : Fin 50000) :
    (V12 m c main_v0 : S50000x1.Idx → BitVec 32) (ix2 n 0) =
      (m ((c : Thread nD τ).loc main_arg2) : S50000.Idx → BitVec 32) (ix1 n) := by
  show (W12 m c (Proc.devRef .tc main_v0) : S50000x1.Idx → BitVec 32) (ix2 n 0) = _
  rw [fin_ids_kept]
  exact ids0 (W0 m c) n
theorem ker_final (c : Dev nD) (g : Fin 512) (d : Fin 128) :
    (W14 m c (Proc.devRef .tc main_v136) : S512x128.Idx → EReal) (ix2 g d) =
      Ideal.div (Cert.GinSpec.pool (hitOf (m ((c : Thread nD τ).loc main_arg2)))
          (toMat (W12 m c (Proc.devRef .tc main_v127) : S50000x128.Idx → EReal)) g d)
        (max (cntK (m ((c : Thread nD τ).loc main_arg2)) g) 1) := by
  have e14 : W14 m c = StableHlo.after hostOps7 (W13 m c) := rfl
  rw [e14, tail7, fin_arg2_kept, fin_sums_arr, poolArr (V12 m) c g d]
  refine congrArg (fun t => Ideal.div t (max (cntK (m ((c : Thread nD τ).loc main_arg2)) g) 1)) ?_
  refine pool_congr _ _ (fun n g' => ?_) _ g d
  rw [fin_ids_read m c n]
  exact (Cert.GinMath.toInt_eq_fin_iff _ g').symm
end Cert.KernelIdeal.HandV
end
-- ==== Proof.Val.RefSide.lean ====
import proofs.«419539_j67095979099186_1_alg».proof.Proof.Val.ReadP
import proofs.«419539_j67095979099186_1_alg».proof.Proof.Val.Conv
import proofs.«419539_j67095979099186_1_alg».proof.Proof.Val.GinMath
set_option maxRecDepth 16384
noncomputable section
namespace Cert.GinRef
open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.GinSpec
def srcOf (x1 : (⟨S2x800000, .i32⟩ : BufTy).Contents (Elt Ideal)) : (⟨S800000x1, .i32⟩ : BufTy).Contents (Elt Ideal) :=
  broadcastInDim S800000x1 ![0] bcast_S800000_S800000x1_0
    (select
      (cmpi .slt (shapeCast _ (extractStridedSlice S1x800000 ![0, 0] x1 slices_S2x800000_S1x800000_0_0) shapeCasts_S1x800000_S800000)
        (broadcastInDim S800000 ![] bcast_S_S800000 (constantI S_ 32 0#32)))
      (addi (shapeCast _ (extractStridedSlice S1x800000 ![0, 0] x1 slices_S2x800000_S1x800000_0_0) shapeCasts_S1x800000_S800000)
        (broadcastInDim S800000 ![] bcast_S_S800000 (constantI S_ 32 50000#32)))
      (shapeCast _ (extractStridedSlice S1x800000 ![0, 0] x1 slices_S2x800000_S1x800000_0_0) shapeCasts_S1x800000_S800000))
def dstOf (x1 : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![1, 0] x1 slices_S2x800000_S1x800000_1_0) shapeCasts_S1x800000_S800000)
def aggR (x1 : (⟨S2x800000, .i32⟩ : BufTy).Contents (Elt Ideal)) (h : (⟨S50000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (dstOf x1)
    (Host.gather gather_S50000x128_S800000x1_S800000x128_1_0_n_n_0_1_1128 h (srcOf x1))
abbrev CF (S : Shape) : Type := FVec Ideal S .f32
abbrev DD := dot_S50000x128_S128x128_S50000x128_1_0_0_1_n_n
def bcS (s : CF S_) : CF S50000x128 := broadcastInDim S50000x128 ![] bcast_S_S50000x128 s
def bcS1 (s : CF S_) : CF S128 := broadcastInDim S128 ![] bcast_S_S128 s
def bcRow (b : CF S128) : CF S50000x128 :=
  broadcastInDim S50000x128 ![0, 1] bcast_S1x128_S50000x128_0_1 (broadcastInDim S1x128 ![1] bcast_S128_S1x128_1 b)
theorem bcS_read (s : CF S_) (i : S50000x128.Idx) : bcS s i = s ix0 :=
  broadcastInDim_apply _ bcast_S_S50000x128 s i ix0 (fun a => a.elim0)
theorem bcS1_read (s : CF S_) (i : S128.Idx) : bcS1 s i = s ix0 :=
  broadcastInDim_apply _ bcast_S_S128 s i ix0 (fun a => a.elim0)
theorem bcRow_read (b : CF S128) (p : Fin 50000) (q : Fin 128) : bcRow b (ix2 p q) = b (ix1 q) := by
  unfold bcRow
  rw [broadcastInDim_apply _ bcast_S1x128_S50000x128_0_1 _ (ix2 p q) (ix2 0 q) (fun a => match a with
      | ⟨0, _⟩ => by show 0 = if (1 : Nat) = 1 then 0 else p.val; rw [if_pos rfl]
      | ⟨1, _⟩ => by show q.val = if (128 : Nat) = 1 then 0 else q.val; rw [if_neg (by decide)])]
  exact broadcastInDim_apply _ bcast_S128_S1x128_1 b (ix2 0 q) (ix1 q) (fun a => match a with
      | ⟨0, _⟩ => by show q.val = if (128 : Nat) = 1 then 0 else q.val; rw [if_neg (by decide)])
theorem dd_lhs0 (i : S50000x128.Idx) (c : DD.contr.Idx) : (DD.lhsIdx i c 0).val = (i 0).val := by
  unfold DotDims.lhsIdx
  rw [dif_neg (show ¬(0 : Fin S50000x128.rank) ∈ DD.lhsBatch by decide),
    dif_pos (show (0 : Fin S50000x128.rank) ∈ DD.lhsNonContracting by decide)]
  rfl
theorem dd_rhs1 (i : S50000x128.Idx) (c : DD.contr.Idx) : (DD.rhsIdx i c 1).val = (i 1).val := by
  unfold DotDims.rhsIdx
  rw [dif_neg (show ¬(1 : Fin S128x128.rank) ∈ DD.rhsBatch by decide),
    dif_pos (show (1 : Fin S128x128.rank) ∈ DD.rhsNonContracting by decide)]
  rfl
theorem dot_read (A : CF S50000x128) (B : CF S128x128) (p : Fin 50000) (q : Fin 128) :
    Host.dotGeneral (F := Ideal) DD none A B (ix2 p q) = ∑ k : Fin 128, A (ix2 p k) * B (ix2 k q) := by
  simp only [Host.dotGeneral]
  rw [Ideal.dotGeneral_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact dd_lhs0 _ _
    | ⟨1, _⟩ => exact (DD.lhsIdx_val_of_single rfl _ _).trans hk)
  have er : DD.rhsIdx (ix2 p q) ((contrEquiv1 DD 128 rfl rfl).symm k) = ix2 k q := funext fun a => Fin.ext (by
    match a with
    | ⟨0, _⟩ => exact (DD.rhsIdx_val_of_single rfl _ _).trans hk
    | ⟨1, _⟩ => exact dd_rhs1 _ _)
  rw [el, er]
theorem red_read (A : CF S50000x128) (init : CF S_) (d : Fin 128) :
    Host.reduceAdd (F := Ideal) A init reducesTo_S50000x128_S128_d0 h_S_ (ix1 d) = init ix0 + ∑ n : Fin 50000, A (ix2 n d) := by
  simp only [Host.reduceAdd, Ideal.hostReduceAdd_def]
  rw [Ideal.hostReduceAdd_single reducesTo_S50000x128_S128_d0 (by decide), eq_ix0 (Shape.Idx.first h_S_)]
  refine congrArg (_ + ·) (Finset.sum_congr rfl fun k _ => ?_)
  exact congrArg A (funext fun a => Fin.ext (by match a with | ⟨0, _⟩ => rfl | ⟨1, _⟩ => rfl))
theorem mat3_read (l : ℕ) (hl : l < 3) (x : CF S3x128x128) (hs : S3x128x128.Slices ![l, 0, 0] S1x128x128) (k q : Fin 128) :
    shapeCast S128x128 (extractStridedSlice S1x128x128 ![l, 0, 0] x hs) shapeCasts_S1x128x128_S128x128 (ix2 k q) =
      x (ix3 ⟨l, hl⟩ k q) := by
  rw [shapeCast_apply _ shapeCasts_S1x128x128_S128x128 (ix2 k q) (ix3 0 k q) (by
    rewrite [Shape.rowMajor_val_three, Shape.rowMajor_val_two]
    show (0 * 128 + k.val) * 128 + q.val = k.val * 128 + q.val; omega)]
  exact extractStridedSlice_apply _ x hs (ix3 0 k q) (ix3 ⟨l, hl⟩ k q) (fun a => match a with
    | ⟨0, _⟩ => by show l = l + 0; omega
    | ⟨1, _⟩ => by show k.val = 0 + k.val; omega
    | ⟨2, _⟩ => by show q.val = 0 + q.val; omega)
theorem row3_read (l : ℕ) (hl : l < 3) (x : CF S3x128) (hs : S3x128.Slices ![l, 0] S1x128) (q : Fin 128) :
    shapeCast S128 (extractStridedSlice S1x128 ![l, 0] x hs) shapeCasts_S1x128_S128 (ix1 q) = x (ix2 ⟨l, hl⟩ q) := by
  rw [shapeCast_apply _ shapeCasts_S1x128_S128 (ix1 q) (ix2 0 q) (by
    rewrite [Shape.rowMajor_val_two, Shape.rowMajor_val_one]
    show 0 * 128 + q.val = q.val; omega)]
  exact extractStridedSlice_apply _ x hs (ix2 0 q) (ix2 ⟨l, hl⟩ q) (fun a => match a with
    | ⟨0, _⟩ => by show l = l + 0; omega
    | ⟨1, _⟩ => by show q.val = 0 + q.val; omega)
theorem scal3_read (l : ℕ) (hl : l < 3) (x : CF S3) (hs : S3.Slices ![l] S1) (i : S_.Idx) :
    shapeCast S_ (extractStridedSlice S1 ![l] x hs) shapeCasts_S1_S_ i = x (ix1 ⟨l, hl⟩) := by
  rw [shapeCast_apply _ shapeCasts_S1_S_ i (ix1 0) (by
    rewrite [Shape.rowMajor_val_one]
    have h1 : (S_.rowMajor i).val < 1 := (S_.rowMajor i).isLt
    show 0 = (S_.rowMajor i).val; omega)]
  exact extractStridedSlice_apply _ x hs (ix1 0) (ix1 ⟨l, hl⟩) (fun a => match a with
    | ⟨0, _⟩ => by show l = l + 0; omega)
def mlpRef (s : CF S_) (h agg : CF S50000x128) (W1 : CF S128x128) (b1 : CF S128) (W2 : CF S128x128) (b2 : CF S128) :
    CF S50000x128 :=
  addf
    (Host.dotGeneral (F := Ideal) DD none
      (maximumf
        (addf (Host.dotGeneral (F := Ideal) DD none (addf (mulf (bcS s) h) agg) W1) (bcRow b1))
        (bcS (constant (F := Ideal) S_ .f32 0x00000000#32)))
      W2)
    (bcRow b2)
def meanRef (z : CF S50000x128) : CF S128 :=
  Host.divf (F := Ideal)
    (Host.reduceAdd (F := Ideal) z (constant (F := Ideal) S_ .f32 0x00000000#32) reducesTo_S50000x128_S128_d0 h_S_)
    (bcS1 (constant (F := Ideal) S_ .f32 0x47435000#32))
def varRef (z : CF S50000x128) : CF S128 :=
  Host.divf (F := Ideal)
    (Host.reduceAdd (F := Ideal) (mulf (subf z (bcRow (meanRef z))) (subf z (bcRow (meanRef z))))
      (constant (F := Ideal) S_ .f32 0x00000000#32) reducesTo_S50000x128_S128_d0 h_S_)
    (bcS1 (constant (F := Ideal) S_ .f32 0x47435000#32))
def invRef (z : CF S50000x128) : CF S128 :=
  Host.rsqrt (F := Ideal) (addf (varRef z) (bcS1 (constant (F := Ideal) S_ .f32 0x3727C5AC#32)))
def normRef (z : CF S50000x128) (gamma beta : CF S128) : CF S50000x128 :=
  addf (mulf (mulf (subf z (bcRow (meanRef z))) (bcRow (invRef z))) (bcRow gamma)) (bcRow beta)
def reluRef (y : CF S50000x128) : CF S50000x128 :=
  maximumf y (bcS (constant (F := Ideal) S_ .f32 0x00000000#32))
theorem mlpRef_read (s : CF S_) (h agg : CF S50000x128) (W1 : CF S128x128) (b1 : CF S128) (W2 : CF S128x128) (b2 : CF S128)
    (p : Fin 50000) (q : Fin 128) :
    mlpRef s h agg W1 b1 W2 b2 (ix2 p q) =
      Cert.GinSpec.mlp (s ix0) (toMat h) (toMat agg) (toMat W1) (toRow b1) (toMat W2) (toRow b2) p q := by
  have h1 : ∀ (n : Fin 50000) (k : Fin 128), (addf (mulf (bcS s) h) agg) (ix2 n k) = zpre (s ix0) (toMat h) (toMat agg) n k :=
    fun n k => by
      show bcS s (ix2 n k) * h (ix2 n k) + agg (ix2 n k) = _
      rw [bcS_read]; rfl
  have h2 : ∀ (n : Fin 50000) (k : Fin 128),
      (maximumf (addf (Host.dotGeneral (F := Ideal) DD none (addf (mulf (bcS s) h) agg) W1) (bcRow b1))
        (bcS (constant (F := Ideal) S_ .f32 0x00000000#32))) (ix2 n k) =
      relu (lin (zpre (s ix0) (toMat h) (toMat agg)) (toMat W1) (toRow b1)) n k := fun n k => by
      show max (Host.dotGeneral (F := Ideal) DD none (addf (mulf (bcS s) h) agg) W1 (ix2 n k) + bcRow b1 (ix2 n k))
        (bcS (constant (F := Ideal) S_ .f32 0x00000000#32) (ix2 n k)) = _
      rw [dot_read, bcRow_read, bcS_read]
      show max ((∑ j : Fin 128, (addf (mulf (bcS s) h) agg) (ix2 n j) * W1 (ix2 j k)) + b1 (ix1 k)) (Ideal.ofBits .f32 0x00000000#32) = _
      rw [Ideal.ofBits_zero_f32]
      unfold relu lin
      refine congrArg (fun t => max (t + b1 (ix1 k)) 0) (Finset.sum_congr rfl fun j _ => ?_)
      rw [h1]; rfl
  unfold mlpRef
  show Host.dotGeneral (F := Ideal) DD none _ W2 (ix2 p q) + bcRow b2 (ix2 p q) = _
  rw [dot_read, bcRow_read]
  unfold mlp
  show _ = (∑ k : Fin 128, relu (lin (zpre (s ix0) (toMat h) (toMat agg)) (toMat W1) (toRow b1)) p k * toMat W2 k q) + toRow b2 q
  refine congrArg (fun t => t + b2 (ix1 q)) (Finset.sum_congr rfl fun k _ => ?_)
  rw [h2]; rfl
theorem meanRef_read (z : CF S50000x128) (d : Fin 128) : meanRef z (ix1 d) = mean (toMat z) d := by
  unfold meanRef
  show Ideal.div (Host.reduceAdd (F := Ideal) z (constant (F := Ideal) S_ .f32 0x00000000#32) reducesTo_S50000x128_S128_d0 h_S_ (ix1 d))
    (bcS1 (constant (F := Ideal) S_ .f32 0x47435000#32) (ix1 d)) = _
  rw [red_read, bcS1_read]
  show Ideal.div (Ideal.ofBits .f32 0x00000000#32 + ∑ n : Fin 50000, z (ix2 n d)) (Ideal.ofBits .f32 0x47435000#32) = _
  rw [Ideal.ofBits_zero_f32, zero_add, Cert.GinMath.lit_50000]
  rfl
theorem varRef_read (z : CF S50000x128) (d : Fin 128) : varRef z (ix1 d) = varR (toMat z) d := by
  unfold varRef
  show Ideal.div (Host.reduceAdd (F := Ideal) (mulf (subf z (bcRow (meanRef z))) (subf z (bcRow (meanRef z))))
      (constant (F := Ideal) S_ .f32 0x00000000#32) reducesTo_S50000x128_S128_d0 h_S_ (ix1 d))
    (bcS1 (constant (F := Ideal) S_ .f32 0x47435000#32) (ix1 d)) = _
  rw [red_read, bcS1_read]
  show Ideal.div (Ideal.ofBits .f32 0x00000000#32 + ∑ n : Fin 50000,
      (z (ix2 n d) - bcRow (meanRef z) (ix2 n d)) * (z (ix2 n d) - bcRow (meanRef z) (ix2 n d)))
    (Ideal.ofBits .f32 0x47435000#32) = _
  rw [Ideal.ofBits_zero_f32, zero_add, Cert.GinMath.lit_50000]
  unfold varR
  refine congrArg (fun t => Ideal.div t cnt) (Finset.sum_congr rfl fun n _ => ?_)
  rw [bcRow_read, meanRef_read]; rfl
theorem invRef_read (z : CF S50000x128) (d : Fin 128) : invRef z (ix1 d) = invStd (varR (toMat z)) epsLit d := by
  unfold invRef
  show Ideal.rsqrt (varRef z (ix1 d) + bcS1 (constant (F := Ideal) S_ .f32 0x3727C5AC#32) (ix1 d)) = _
  rw [varRef_read, bcS1_read]; rfl
theorem normRef_read (z : CF S50000x128) (gamma beta : CF S128) (p : Fin 50000) (q : Fin 128) :
    normRef z gamma beta (ix2 p q) =
      bn (toMat z) (mean (toMat z)) (invStd (varR (toMat z)) epsLit) (toRow gamma) (toRow beta) p q := by
  unfold normRef
  show (z (ix2 p q) - bcRow (meanRef z) (ix2 p q)) * bcRow (invRef z) (ix2 p q) * bcRow gamma (ix2 p q) + bcRow beta (ix2 p q) = _
  rw [bcRow_read, bcRow_read, bcRow_read, bcRow_read, meanRef_read, invRef_read]; rfl
theorem reluRef_read (y : CF S50000x128) (i : S50000x128.Idx) : reluRef y i = max (y i) 0 := by
  unfold reluRef
  show max (y i) (bcS (constant (F := Ideal) S_ .f32 0x00000000#32) i) = _
  rw [bcS_read]
  show max (y i) (Ideal.ofBits .f32 0x00000000#32) = _
  rw [Ideal.ofBits_zero_f32]
theorem layerRef_act (s : CF S_) (h agg : CF S50000x128) (W1 : CF S128x128) (b1 : CF S128) (W2 : CF S128x128) (b2 gamma beta : CF S128) :
    toMat (reluRef (normRef (mlpRef s h agg W1 b1 W2 b2) gamma beta)) =
      Cert.GinSpec.layerR true epsLit (s ix0) (toMat h) (toMat agg) (toMat W1) (toRow b1) (toMat W2) (toRow b2) (toRow gamma) (toRow beta) := by
  have hz : toMat (mlpRef s h agg W1 b1 W2 b2) =
      Cert.GinSpec.mlp (s ix0) (toMat h) (toMat agg) (toMat W1) (toRow b1) (toMat W2) (toRow b2) :=
    funext fun p => funext fun q => mlpRef_read s h agg W1 b1 W2 b2 p q
  funext p q
  show reluRef (normRef (mlpRef s h agg W1 b1 W2 b2) gamma beta) (ix2 p q) = _
  rw [reluRef_read, normRef_read, hz]
  rfl
theorem layerRef_lin (s : CF S_) (h agg : CF S50000x128) (W1 : CF S128x128) (b1 : CF S128) (W2 : CF S128x128) (b2 gamma beta : CF S128) :
    toMat (normRef (mlpRef s h agg W1 b1 W2 b2) gamma beta) =
      Cert.GinSpec.layerR false epsLit (s ix0) (toMat h) (toMat agg) (toMat W1) (toRow b1) (toMat W2) (toRow b2) (toRow gamma) (toRow beta) := by
  have hz : toMat (mlpRef s h agg W1 b1 W2 b2) =
      Cert.GinSpec.mlp (s ix0) (toMat h) (toMat agg) (toMat W1) (toRow b1) (toMat W2) (toRow b2) :=
    funext fun p => funext fun q => mlpRef_read s h agg W1 b1 W2 b2 p q
  funext p q
  show normRef (mlpRef s h agg W1 b1 W2 b2) gamma beta (ix2 p q) = _
  rw [normRef_read, hz]
  rfl
theorem matSlice (l : ℕ) (hl : l < 3) (x : CF S3x128x128) (hs : S3x128x128.Slices ![l, 0, 0] S1x128x128) :
    toMat (shapeCast S128x128 (extractStridedSlice S1x128x128 ![l, 0, 0] x hs) shapeCasts_S1x128x128_S128x128) =
      matOf3 x ⟨l, hl⟩ :=
  funext fun k => funext fun q => mat3_read l hl x hs k q
theorem rowSlice (l : ℕ) (hl : l < 3) (x : CF S3x128) (hs : S3x128.Slices ![l, 0] S1x128) :
    toRow (shapeCast S128 (extractStridedSlice S1x128 ![l, 0] x hs) shapeCasts_S1x128_S128) = rowOf3 x ⟨l, hl⟩ :=
  funext fun q => row3_read l hl x hs q
theorem scaleSlice (l : ℕ) (hl : l < 3) (x : CF S3) (hs : S3.Slices ![l] S1) :
    (addf (constant (F := Ideal) S_ .f32 0x3F800000#32) (shapeCast S_ (extractStridedSlice S1 ![l] x hs) shapeCasts_S1_S_)) ix0 =
      scaleOf x ⟨l, hl⟩ := by
  show Ideal.ofBits .f32 0x3F800000#32 + shapeCast S_ (extractStridedSlice S1 ![l] x hs) shapeCasts_S1_S_ ix0 = _
  rw [scal3_read l hl x hs ix0, Cert.GinMath.lit_one]
  rfl
section Pool
abbrev DP := scatter_S512x128_S50000x1_S50000x128_1_0_0_1
variable (idx : (⟨S50000x1, .i32⟩ : BufTy).Contents (Elt Ideal))
theorem pool_start0 (n : Fin 50000) (c : Fin 128) :
    DP.start (ix2 n c : S50000x128.Idx) idx 0 = (idx (ix2 n 0)).toInt := by
  unfold ScatterDims.start
  rw [dif_pos (show (0 : Fin S512x128.rank) ∈ DP.scatterDimsToOperandDims by decide)]
  refine congrArg (fun k => (idx k).toInt) (funext fun b => ?_)
  match b with
  | ⟨0, _⟩ => exact Fin.ext rfl
  | ⟨1, _⟩ => exact Fin.ext rfl
theorem pool_start1 (n : Fin 50000) (c : Fin 128) :
    DP.start (ix2 n c : S50000x128.Idx) idx 1 = 0 := by
  unfold ScatterDims.start
  rw [dif_neg (show ¬ (1 : Fin S512x128.rank) ∈ DP.scatterDimsToOperandDims by decide)]
theorem pool_window0 (n : Fin 50000) (c : Fin 128) :
    DP.window (ix2 n c : S50000x128.Idx) 0 = 0 := by
  unfold ScatterDims.window
  rw [dif_neg (show ¬ (0 : Fin S512x128.rank) ∈ DP.sKept by decide)]
theorem pool_window1 (n : Fin 50000) (c : Fin 128) :
    DP.window (ix2 n c : S50000x128.Idx) 1 = c.val := by
  unfold ScatterDims.window
  rw [dif_pos (show (1 : Fin S512x128.rank) ∈ DP.sKept by decide)]
  rfl
theorem pool_hit (n : Fin 50000) (c : Fin 128) (g : Fin 512) (d : Fin 128) :
    DP.resultIdx? (ix2 n c : S50000x128.Idx) idx = some (ix2 g d) ↔ ((idx (ix2 n 0)).toInt = (g.val : ℤ) ∧ c = d) := by
  have s0 := pool_start0 idx n c
  have s1 := pool_start1 idx n c
  have w0 := pool_window0 n c
  have w1 := pool_window1 n c
  have hg : g.val < 512 := g.isLt
  have hc : c.val < 128 := c.isLt
  unfold ScatterDims.resultIdx?
  by_cases hall : ∀ a, 0 ≤ DP.start (ix2 n c : S50000x128.Idx) idx a + DP.window (ix2 n c : S50000x128.Idx) a ∧
      DP.start (ix2 n c : S50000x128.Idx) idx a + DP.window (ix2 n c : S50000x128.Idx) a < S512x128.size a
  · rw [dif_pos hall, Option.some.injEq]
    have h0 := (hall 0).1
    rw [s0, w0] at h0
    constructor
    · intro h
      have e0 : (DP.start (ix2 n c : S50000x128.Idx) idx 0 + DP.window (ix2 n c : S50000x128.Idx) 0).toNat = g.val :=
        congrArg Fin.val (congrFun h 0)
      have e1 : (DP.start (ix2 n c : S50000x128.Idx) idx 1 + DP.window (ix2 n c : S50000x128.Idx) 1).toNat = d.val :=
        congrArg Fin.val (congrFun h 1)
      rw [s0, w0] at e0
      rw [s1, w1] at e1
      exact ⟨by omega, Fin.ext (by omega)⟩
    · rintro ⟨ht, rfl⟩
      funext a
      match a with
      | ⟨0, _⟩ =>
        refine Fin.ext ?_
        show (DP.start (ix2 n c : S50000x128.Idx) idx 0 + DP.window (ix2 n c : S50000x128.Idx) 0).toNat = g.val
        rw [s0, w0, ht]; omega
      | ⟨1, _⟩ =>
        refine Fin.ext ?_
        show (DP.start (ix2 n c : S50000x128.Idx) idx 1 + DP.window (ix2 n c : S50000x128.Idx) 1).toNat = c.val
        rw [s1, w1]; omega
  · rw [dif_neg hall]
    constructor
    · intro h; exact absurd h (by simp)
    · rintro ⟨ht, rfl⟩
      refine absurd (fun a => ?_) hall
      match a with
      | ⟨0, _⟩ =>
        show 0 ≤ DP.start (ix2 n c : S50000x128.Idx) idx 0 + DP.window (ix2 n c : S50000x128.Idx) 0 ∧
          DP.start (ix2 n c : S50000x128.Idx) idx 0 + DP.window (ix2 n c : S50000x128.Idx) 0 < (512 : ℕ)
        rw [s0, w0, ht]; omega
      | ⟨1, _⟩ =>
        show 0 ≤ DP.start (ix2 n c : S50000x128.Idx) idx 1 + DP.window (ix2 n c : S50000x128.Idx) 1 ∧
          DP.start (ix2 n c : S50000x128.Idx) idx 1 + DP.window (ix2 n c : S50000x128.Idx) 1 < (128 : ℕ)
        rw [s1, w1]; omega
end Pool
theorem pool_scatter (x2 : (⟨S50000, .i32⟩ : BufTy).Contents (Elt Ideal)) (h : (⟨S50000x128, .f32⟩ : BufTy).Contents (Elt Ideal))
    (g : Fin 512) (d : Fin 128) :
    Host.scatterAdd (F := Ideal) scatter_S512x128_S50000x1_S50000x128_1_0_0_1
      (broadcastInDim S512x128 ![] bcast_S_S512x128 (constant (F := Ideal) S_ .f32 0x00000000#32))
      (broadcastInDim S50000x1 ![0] bcast_S50000_S50000x1_0 x2) h (ix2 g d) =
    Cert.GinSpec.pool (hitOf x2) (toMat h) g d := by
  have hidx : ∀ n : Fin 50000, (broadcastInDim S50000x1 ![0] bcast_S50000_S50000x1_0 x2) (ix2 n 0) = x2 (ix1 n) := fun n =>
    broadcastInDim_apply _ bcast_S50000_S50000x1_0 x2 _ (ix1 n) (fun a => match a with
      | ⟨0, _⟩ => by show n.val = if (50000 : Nat) = 1 then 0 else n.val; rw [if_neg (by decide)])
  generalize (broadcastInDim S50000x1 ![0] bcast_S50000_S50000x1_0 x2) = idx at hidx
  show (broadcastInDim S512x128 ![] bcast_S_S512x128 (constant (F := Ideal) S_ .f32 0x00000000#32)) (ix2 g d) +
    ∑ j ∈ Finset.univ.filter (fun j => DP.resultIdx? j idx = some (ix2 g d)), h j = _
  rw [show (broadcastInDim S512x128 ![] bcast_S_S512x128 (constant (F := Ideal) S_ .f32 0x00000000#32)) (ix2 g d) = 0
    from Ideal.ofBits_zero_f32, zero_add, Finset.sum_filter, sum_idx2]
  unfold Cert.GinSpec.pool
  refine Finset.sum_congr rfl fun n _ => ?_
  by_cases hh : hitOf x2 n g
  · rw [if_pos hh, one_mul, Finset.sum_eq_single d]
    · rw [if_pos ((pool_hit idx n d g d).2 ⟨by rw [hidx]; exact hh, rfl⟩)]; rfl
    · intro c _ hc
      rw [if_neg (fun hres => hc ((pool_hit idx n c g d).1 hres).2)]
    · intro hd; exact absurd (Finset.mem_univ d) hd
  · rw [if_neg hh, zero_mul]
    refine Finset.sum_eq_zero fun c _ => ?_
    rw [if_neg (fun hres => hh (by have := ((pool_hit idx n c g d).1 hres).1; rw [hidx] at this; exact this))]
variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S3x128x128, .f32⟩ : BufTy).Contents (Elt Ideal))
  (x4 : (⟨S3x128, .f32⟩ : BufTy).Contents (Elt Ideal)) (x5 : (⟨S3x128x128, .f32⟩ : BufTy).Contents (Elt Ideal))
  (x6 : (⟨S3x128, .f32⟩ : BufTy).Contents (Elt Ideal)) (x7 : (⟨S3, .f32⟩ : BufTy).Contents (Elt Ideal))
  (x8 x9 : (⟨S3x128, .f32⟩ : BufTy).Contents (Elt Ideal))
theorem agg1 : val_main_v13 (F := Ideal) x0 x1 = aggR x1 x0 := rfl
theorem agg2 : val_main_v76 (F := Ideal) x0 x1 x3 x4 x5 x6 x7 x8 x9 = aggR x1 (val_main_v66 (F := Ideal) x0 x1 x3 x4 x5 x6 x7 x8 x9) := rfl
theorem agg3 : val_main_v139 (F := Ideal) x0 x1 x3 x4 x5 x6 x7 x8 x9 = aggR x1 (val_main_v129 (F := Ideal) x0 x1 x3 x4 x5 x6 x7 x8 x9) := rfl
theorem lay1_eq : val_main_v66 (F := Ideal) x0 x1 x3 x4 x5 x6 x7 x8 x9 =
    reluRef (normRef (mlpRef (val_main_v16 (F := Ideal) x7) x0 (val_main_v13 (F := Ideal) x0 x1) (val_main_v21 (F := Ideal) x3)
      (val_main_v24 (F := Ideal) x4) (val_main_v30 (F := Ideal) x5) (val_main_v33 (F := Ideal) x6))
      (val_main_v57 (F := Ideal) x8) (val_main_v62 (F := Ideal) x9)) := rfl
theorem ref_layer1 : toMat (val_main_v66 (F := Ideal) x0 x1 x3 x4 x5 x6 x7 x8 x9) =
    Cert.GinSpec.layerR true epsLit (scaleOf x7 0) (toMat x0) (toMat (aggR x1 x0))
      (matOf3 x3 0) (rowOf3 x4 0) (matOf3 x5 0) (rowOf3 x6 0) (rowOf3 x8 0) (rowOf3 x9 0) := by
  have hs : val_main_v16 (F := Ideal) x7 ix0 = scaleOf x7 0 := scaleSlice 0 (by decide) x7 slices_S3_S1_0
  have hW1 : toMat (val_main_v21 (F := Ideal) x3) = matOf3 x3 0 := matSlice 0 (by decide) x3 slices_S3x128x128_S1x128x128_0_0_0
  have hb1 : toRow (val_main_v24 (F := Ideal) x4) = rowOf3 x4 0 := rowSlice 0 (by decide) x4 slices_S3x128_S1x128_0_0
  have hW2 : toMat (val_main_v30 (F := Ideal) x5) = matOf3 x5 0 := matSlice 0 (by decide) x5 slices_S3x128x128_S1x128x128_0_0_0
  have hb2 : toRow (val_main_v33 (F := Ideal) x6) = rowOf3 x6 0 := rowSlice 0 (by decide) x6 slices_S3x128_S1x128_0_0
  have hg : toRow (val_main_v57 (F := Ideal) x8) = rowOf3 x8 0 := rowSlice 0 (by decide) x8 slices_S3x128_S1x128_0_0
  have hbt : toRow (val_main_v62 (F := Ideal) x9) = rowOf3 x9 0 := rowSlice 0 (by decide) x9 slices_S3x128_S1x128_0_0
  rw [lay1_eq, layerRef_act, hs, hW1, hb1, hW2, hb2, hg, hbt, agg1]
theorem lay2_eq : val_main_v129 (F := Ideal) x0 x1 x3 x4 x5 x6 x7 x8 x9 =
    reluRef (normRef (mlpRef (val_main_v79 (F := Ideal) x7) (val_main_v66 (F := Ideal) x0 x1 x3 x4 x5 x6 x7 x8 x9)
      (val_main_v76 (F := Ideal) x0 x1 x3 x4 x5 x6 x7 x8 x9) (val_main_v84 (F := Ideal) x3)
      (val_main_v87 (F := Ideal) x4) (val_main_v93 (F := Ideal) x5) (val_main_v96 (F := Ideal) x6))
      (val_main_v120 (F := Ideal) x8) (val_main_v125 (F := Ideal) x9)) := rfl
theorem ref_layer2 : toMat (val_main_v129 (F := Ideal) x0 x1 x3 x4 x5 x6 x7 x8 x9) =
    Cert.GinSpec.layerR true epsLit (scaleOf x7 1) (toMat (val_main_v66 (F := Ideal) x0 x1 x3 x4 x5 x6 x7 x8 x9))
      (toMat (aggR x1 (val_main_v66 (F := Ideal) x0 x1 x3 x4 x5 x6 x7 x8 x9)))
      (matOf3 x3 1) (rowOf3 x4 1) (matOf3 x5 1) (rowOf3 x6 1) (rowOf3 x8 1) (rowOf3 x9 1) := by
  have hs : val_main_v79 (F := Ideal) x7 ix0 = scaleOf x7 1 := scaleSlice 1 (by decide) x7 slices_S3_S1_1
  have hW1 : toMat (val_main_v84 (F := Ideal) x3) = matOf3 x3 1 := matSlice 1 (by decide) x3 slices_S3x128x128_S1x128x128_1_0_0
  have hb1 : toRow (val_main_v87 (F := Ideal) x4) = rowOf3 x4 1 := rowSlice 1 (by decide) x4 slices_S3x128_S1x128_1_0
  have hW2 : toMat (val_main_v93 (F := Ideal) x5) = matOf3 x5 1 := matSlice 1 (by decide) x5 slices_S3x128x128_S1x128x128_1_0_0
  have hb2 : toRow (val_main_v96 (F := Ideal) x6) = rowOf3 x6 1 := rowSlice 1 (by decide) x6 slices_S3x128_S1x128_1_0
  have hg : toRow (val_main_v120 (F := Ideal) x8) = rowOf3 x8 1 := rowSlice 1 (by decide) x8 slices_S3x128_S1x128_1_0
  have hbt : toRow (val_main_v125 (F := Ideal) x9) = rowOf3 x9 1 := rowSlice 1 (by decide) x9 slices_S3x128_S1x128_1_0
  rw [lay2_eq, layerRef_act, hs, hW1, hb1, hW2, hb2, hg, hbt, agg2]
theorem lay3_eq : val_main_v191 (F := Ideal) x0 x1 x3 x4 x5 x6 x7 x8 x9 =
    normRef (mlpRef (val_main_v142 (F := Ideal) x7) (val_main_v129 (F := Ideal) x0 x1 x3 x4 x5 x6 x7 x8 x9)
      (val_main_v139 (F := Ideal) x0 x1 x3 x4 x5 x6 x7 x8 x9) (val_main_v147 (F := Ideal) x3)
      (val_main_v150 (F := Ideal) x4) (val_main_v156 (F := Ideal) x5) (val_main_v159 (F := Ideal) x6))
      (val_main_v183 (F := Ideal) x8) (val_main_v188 (F := Ideal) x9) := rfl
theorem ref_layer3 : toMat (val_main_v191 (F := Ideal) x0 x1 x3 x4 x5 x6 x7 x8 x9) =
    Cert.GinSpec.layerR false epsLit (scaleOf x7 2) (toMat (val_main_v129 (F := Ideal) x0 x1 x3 x4 x5 x6 x7 x8 x9))
      (toMat (aggR x1 (val_main_v129 (F := Ideal) x0 x1 x3 x4 x5 x6 x7 x8 x9)))
      (matOf3 x3 2) (rowOf3 x4 2) (matOf3 x5 2) (rowOf3 x6 2) (rowOf3 x8 2) (rowOf3 x9 2) := by
  have hs : val_main_v142 (F := Ideal) x7 ix0 = scaleOf x7 2 := scaleSlice 2 (by decide) x7 slices_S3_S1_2
  have hW1 : toMat (val_main_v147 (F := Ideal) x3) = matOf3 x3 2 := matSlice 2 (by decide) x3 slices_S3x128x128_S1x128x128_2_0_0
  have hb1 : toRow (val_main_v150 (F := Ideal) x4) = rowOf3 x4 2 := rowSlice 2 (by decide) x4 slices_S3x128_S1x128_2_0
  have hW2 : toMat (val_main_v156 (F := Ideal) x5) = matOf3 x5 2 := matSlice 2 (by decide) x5 slices_S3x128x128_S1x128x128_2_0_0
  have hb2 : toRow (val_main_v159 (F := Ideal) x6) = rowOf3 x6 2 := rowSlice 2 (by decide) x6 slices_S3x128_S1x128_2_0
  have hg : toRow (val_main_v183 (F := Ideal) x8) = rowOf3 x8 2 := rowSlice 2 (by decide) x8 slices_S3x128_S1x128_2_0
  have hbt : toRow (val_main_v188 (F := Ideal) x9) = rowOf3 x9 2 := rowSlice 2 (by decide) x9 slices_S3x128_S1x128_2_0
  rw [lay3_eq, layerRef_lin, hs, hW1, hb1, hW2, hb2, hg, hbt, agg3]
def cntOf (x2 : (⟨S50000, .i32⟩ : BufTy).Contents (Elt Ideal)) (g : Fin 512) : EReal :=
  Host.scatterAdd (F := Ideal) scatter_S512x1_S50000x1_S50000x1_1_0_0_1
    (broadcastInDim S512x1 ![] bcast_S_S512x1 (constant (F := Ideal) S_ .f32 0x00000000#32))
    (broadcastInDim S50000x1 ![0] bcast_S50000_S50000x1_0 x2)
    (broadcastInDim S50000x1 ![] bcast_S_S50000x1 (constant (F := Ideal) S_ .f32 0x3F800000#32)) (ix2 g 0)
theorem cntOf_eq (g : Fin 512) : cntOf x2 g = val_main_v198 (F := Ideal) x2 (ix2 g 0) := rfl
theorem ref_final (g : Fin 512) (d : Fin 128) :
    val_main_v202 (F := Ideal) x0 x1 x2 x3 x4 x5 x6 x7 x8 x9 (ix2 g d) =
      Ideal.div (Cert.GinSpec.pool (hitOf x2) (toMat (val_main_v191 (F := Ideal) x0 x1 x3 x4 x5 x6 x7 x8 x9)) g d)
        (max (cntOf x2 g) 1) := by
  have hsum : val_main_v194 (F := Ideal) x0 x1 x2 x3 x4 x5 x6 x7 x8 x9 (ix2 g d) =
      Cert.GinSpec.pool (hitOf x2) (toMat (val_main_v191 (F := Ideal) x0 x1 x3 x4 x5 x6 x7 x8 x9)) g d :=
    pool_scatter x2 (val_main_v191 (F := Ideal) x0 x1 x3 x4 x5 x6 x7 x8 x9) g d
  have hcnt : val_main_v201 (F := Ideal) x2 (ix2 g d) = max (cntOf x2 g) 1 := by
    have e : idx_main_v201 (ix2 g d) = ix2 g 0 :=
      funext fun a => Fin.ext (by match a with | ⟨0, _⟩ => rfl | ⟨1, _⟩ => rfl)
    rw [val_main_v201_apply, e, val_main_v200_apply, val_main_v199_apply, val_main_cst_28_apply, ← cntOf_eq]
    show max (cntOf x2 g) (Ideal.ofBits .f32 0x3F800000#32) = _
    rw [Cert.GinMath.lit_one]
  rw [val_main_v202_apply, hsum, hcnt]
  rfl
end Cert.GinRef
end
-- ==== Proof.Val.SpecLaws.lean ====
import proofs.«419539_j67095979099186_1_alg».proof.Proof.Val.Spec
import proofs.«419539_j67095979099186_1_alg».proof.Proof.Val.GinMath
noncomputable section
namespace Cert.GinSpec
open Idealize.ShloMosaic Cert.GinMath
open scoped BigOperators
theorem zpre_real {s : EReal} {h agg : Mat 50000 128} (hs : ∃ r : ℝ, s = (r : EReal)) (hh : IsRealM h)
    (hagg : IsRealM agg) : IsRealM (zpre s h agg) :=
  fun n k => IsReal.add (IsReal.mul hs (hh n k)) (hagg n k)
theorem lin_real {x : Mat 50000 128} {W : Mat 128 128} {b : Row 128} (hx : IsRealM x) (hW : IsRealM W)
    (hb : IsRealR b) : IsRealM (lin x W b) :=
  fun n d => IsReal.add (IsReal.sum _ fun k _ => IsReal.mul (hx n k) (hW k d)) (hb d)
theorem relu_real {x : Mat 50000 128} (hx : IsRealM x) : IsRealM (relu x) :=
  fun n d => IsReal.max (hx n d) IsReal.zero
theorem mlp_real {s : EReal} {h agg : Mat 50000 128} {W1 : Mat 128 128} {b1 : Row 128} {W2 : Mat 128 128}
    {b2 : Row 128} (hs : ∃ r : ℝ, s = (r : EReal)) (hh : IsRealM h) (hagg : IsRealM agg) (hW1 : IsRealM W1)
    (hb1 : IsRealR b1) (hW2 : IsRealM W2) (hb2 : IsRealR b2) : IsRealM (mlp s h agg W1 b1 W2 b2) :=
  lin_real (relu_real (lin_real (zpre_real hs hh hagg) hW1 hb1)) hW2 hb2
theorem mean_realR {z : Mat 50000 128} (hz : IsRealM z) : IsRealR (mean z) :=
  fun d => mean_real' (fun n => z n d) (fun n => hz n d) cnt rfl
theorem varK_eq_varR {z : Mat 50000 128} (hz : IsRealM z) : varK z = varR z :=
  funext fun d => var_two_ways' (fun n => z n d) (fun n => hz n d) cnt rfl
theorem varR_real_nonneg {z : Mat 50000 128} (hz : IsRealM z) (d : Fin 128) :
    ∃ v : ℝ, 0 ≤ v ∧ varR z d = (v : EReal) :=
  var_dev_real_nonneg' (fun n => z n d) (fun n => hz n d) cnt rfl
theorem invStd_real {v : Row 128} {eps : EReal} (hv : ∀ d, ∃ r : ℝ, 0 ≤ r ∧ v d = (r : EReal))
    (heps : ∃ e : ℝ, 0 < e ∧ eps = (e : EReal)) : IsRealR (invStd v eps) := fun d => by
  obtain ⟨r, hr0, hr⟩ := hv d
  obtain ⟨e, he0, rfl⟩ := heps
  obtain ⟨t, _, ht⟩ := IsReal.rsqrt_add_eps hr0 he0
  exact ⟨t, by show Ideal.rsqrt (v d + (e : EReal)) = _; rw [hr, ht]⟩
theorem bn_real {z : Mat 50000 128} {mu inv gamma beta : Row 128} (hz : IsRealM z) (hmu : IsRealR mu)
    (hinv : IsRealR inv) (hgamma : IsRealR gamma) (hbeta : IsRealR beta) : IsRealM (bn z mu inv gamma beta) :=
  fun n d => IsReal.add (IsReal.mul (IsReal.mul (IsReal.sub (hz n d) (hmu d)) (hinv d)) (hgamma d)) (hbeta d)
theorem norm_real (act : Bool) {eps : EReal} {z : Mat 50000 128} {v gamma beta : Row 128} (hz : IsRealM z)
    (hv : ∀ d, ∃ r : ℝ, 0 ≤ r ∧ v d = (r : EReal)) (heps : ∃ e : ℝ, 0 < e ∧ eps = (e : EReal))
    (hgamma : IsRealR gamma) (hbeta : IsRealR beta) : IsRealM (norm act eps z v gamma beta) := by
  have hb := bn_real hz (mean_realR hz) (invStd_real hv heps) hgamma hbeta
  cases act
  · exact hb
  · exact relu_real hb
theorem layer_eq (act : Bool) (eps : EReal) {s : EReal} {h agg : Mat 50000 128} {W1 : Mat 128 128} {b1 : Row 128}
    {W2 : Mat 128 128} {b2 : Row 128} (gamma beta : Row 128) (hs : ∃ r : ℝ, s = (r : EReal)) (hh : IsRealM h)
    (hagg : IsRealM agg) (hW1 : IsRealM W1) (hb1 : IsRealR b1) (hW2 : IsRealM W2) (hb2 : IsRealR b2) :
    layerK act eps s h agg W1 b1 W2 b2 gamma beta = layerR act eps s h agg W1 b1 W2 b2 gamma beta := by
  unfold layerK layerR
  rw [varK_eq_varR (mlp_real hs hh hagg hW1 hb1 hW2 hb2)]
theorem layer_real (act : Bool) {eps s : EReal} {h agg : Mat 50000 128} {W1 : Mat 128 128} {b1 : Row 128}
    {W2 : Mat 128 128} {b2 gamma beta : Row 128} (heps : ∃ e : ℝ, 0 < e ∧ eps = (e : EReal))
    (hs : ∃ r : ℝ, s = (r : EReal)) (hh : IsRealM h) (hagg : IsRealM agg) (hW1 : IsRealM W1) (hb1 : IsRealR b1)
    (hW2 : IsRealM W2) (hb2 : IsRealR b2) (hgamma : IsRealR gamma) (hbeta : IsRealR beta) :
    IsRealM (layerR act eps s h agg W1 b1 W2 b2 gamma beta) :=
  norm_real act (mlp_real hs hh hagg hW1 hb1 hW2 hb2)
    (varR_real_nonneg (mlp_real hs hh hagg hW1 hb1 hW2 hb2)) heps hgamma hbeta
end Cert.GinSpec
end
-- ==== Proof.Val.Cross.lean ====
import proofs.«419539_j67095979099186_1_alg».proof.Proof.Val.KerHostA
import proofs.«419539_j67095979099186_1_alg».proof.Proof.Val.KerHostT
import proofs.«419539_j67095979099186_1_alg».proof.Proof.Val.RefSide
import proofs.«419539_j67095979099186_1_alg».proof.Proof.Val.AggLaws
import Idealize.ShloMosaic.Lib.ValueIdx
set_option maxRecDepth 16384
noncomputable section
namespace Cert.GinCross
open Idealize.ShloMosaic Idealize.ShloMosaic.ValueIdx
theorem agg_eq (a1 : (⟨Cert.KernelIdeal.S2x800000, .i32⟩ : BufTy).Contents (Elt Ideal))
    (h : (⟨Cert.KernelIdeal.S50000x128, .f32⟩ : BufTy).Contents (Elt Ideal)) :
    Cert.KernelIdeal.HandV.aggK a1 h = Cert.GinRef.aggR a1 h := rfl
theorem cnt_eq (a2 : (⟨Cert.KernelIdeal.S50000, .i32⟩ : BufTy).Contents (Elt Ideal)) (g : Fin 512) :
    Cert.KernelIdeal.HandV.cntK a2 g = Cert.GinRef.cntOf a2 g := rfl
theorem aggR_real (x1 : (⟨Cert.ReferenceIdeal.S2x800000, .i32⟩ : BufTy).Contents (Elt Ideal))
    (h : (⟨Cert.ReferenceIdeal.S50000x128, .f32⟩ : BufTy).Contents (Elt Ideal)) (hh : Cert.GinMath.IsRealV h) :
    Cert.GinMath.IsRealV (Cert.GinRef.aggR x1 h) :=
  Cert.GinMath.scatterAdd_real _ _ _ _ (Cert.GinMath.splat_zero_real _ _ _ _) (Cert.GinMath.gather_real _ _ _ hh)
theorem isRealM_toMat_iff {a b : ℕ} (x : (⟨2, ![a, b]⟩ : Shape).Idx → EReal) :
    Cert.GinSpec.IsRealM (Cert.GinSpec.toMat x) ↔ Cert.GinMath.IsRealV x := by
  constructor
  · intro hx j
    rw [eq_ix2 j]
    exact hx (j 0) (j 1)
  · intro hx p q
    exact hx (ix2 p q)
theorem aggR_realM (x1 : (⟨Cert.ReferenceIdeal.S2x800000, .i32⟩ : BufTy).Contents (Elt Ideal))
    (h : (⟨Cert.ReferenceIdeal.S50000x128, .f32⟩ : BufTy).Contents (Elt Ideal))
    (hh : Cert.GinSpec.IsRealM (Cert.GinSpec.toMat h)) :
    Cert.GinSpec.IsRealM (Cert.GinSpec.toMat (Cert.GinRef.aggR x1 h)) :=
  (isRealM_toMat_iff _).2 (aggR_real x1 h ((isRealM_toMat_iff _).1 hh))
end Cert.GinCross
end
-- ==== Proof.Val.Bridge.lean ====
import proofs.«419539_j67095979099186_1_alg».proof.Proof.Val.RefSide
import proofs.«419539_j67095979099186_1_alg».proof.Proof.Val.SpecLaws
import proofs.«419539_j67095979099186_1_alg».proof.Proof.Val.Cross
import proofs.«419539_j67095979099186_1_alg».proof.Proof.Val.Conv
set_option maxRecDepth 16384
noncomputable section
namespace Cert.GinBridge
open Cert.ReferenceIdeal Cert.ReferenceIdeal.ReadP Idealize.ShloMosaic Idealize.ShloMosaic.ValueIdx
open Cert.GinSpec Cert.GinRef Cert.GinMath Cert.GinCross
theorem toMat_injective {a b : ℕ} {x y : (⟨2, ![a, b]⟩ : Shape).Idx → EReal} (h : toMat x = toMat y) : x = y := by
  funext j
  rw [eq_ix2 j]
  exact congrFun (congrFun h (j 0)) (j 1)
theorem matOf3_real {x : (⟨3, ![3, 128, 128]⟩ : Shape).Idx → EReal} (hx : IsRealV x) (l : Fin 3) :
    IsRealM (matOf3 x l) := fun a b => hx (ix3 l a b)
theorem rowOf3_real {x : (⟨2, ![3, 128]⟩ : Shape).Idx → EReal} (hx : IsRealV x) (l : Fin 3) :
    IsRealR (rowOf3 x l) := fun q => hx (ix2 l q)
theorem scaleOf_real {x : (⟨1, ![3]⟩ : Shape).Idx → EReal} (hx : IsRealV x) (l : Fin 3) :
    ∃ r : ℝ, scaleOf x l = (r : EReal) := IsReal.add IsReal.one (hx (ix1 l))
theorem epsLit_pos : ∃ e : ℝ, 0 < e ∧ epsLit = (e : EReal) := lit_eps
theorem layer_step (act : Bool) (l : Fin 3) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 : (⟨S3x128, .f32⟩ : BufTy).Contents (Elt Ideal))
    (x7 : (⟨S3, .f32⟩ : BufTy).Contents (Elt Ideal)) (x8 x9 : (⟨S3x128, .f32⟩ : BufTy).Contents (Elt Ideal))
    (r3 : IsRealV x3) (r4 : IsRealV x4) (r5 : IsRealV x5) (r6 : IsRealV x6) (r7 : IsRealV x7) (r8 : IsRealV x8)
    (r9 : IsRealV x9) (hp hk hr : (⟨S50000x128, .f32⟩ : BufTy).Contents (Elt Ideal)) (rp : IsRealM (toMat hp))
    (k : toMat hk = layerK act epsLit (scaleOf x7 l) (toMat hp) (toMat (aggR x1 hp)) (matOf3 x3 l) (rowOf3 x4 l)
      (matOf3 x5 l) (rowOf3 x6 l) (rowOf3 x8 l) (rowOf3 x9 l))
    (r : toMat hr = layerR act epsLit (scaleOf x7 l) (toMat hp) (toMat (aggR x1 hp)) (matOf3 x3 l) (rowOf3 x4 l)
      (matOf3 x5 l) (rowOf3 x6 l) (rowOf3 x8 l) (rowOf3 x9 l)) :
    hk = hr ∧ IsRealM (toMat hk) := by
  have hagg := aggR_realM x1 hp rp
  have hs := scaleOf_real r7 l
  have e := layer_eq act epsLit (rowOf3 x8 l) (rowOf3 x9 l) hs rp hagg (matOf3_real r3 l) (rowOf3_real r4 l)
    (matOf3_real r5 l) (rowOf3_real r6 l)
  refine ⟨toMat_injective (by rw [k, e, ← r]), ?_⟩
  rw [k, e]
  exact layer_real act epsLit_pos hs rp hagg (matOf3_real r3 l) (rowOf3_real r4 l) (matOf3_real r5 l)
    (rowOf3_real r6 l) (rowOf3_real r8 l) (rowOf3_real r9 l)
theorem bridge (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S3x128x128, .f32⟩ : BufTy).Contents (Elt Ideal))
    (x4 : (⟨S3x128, .f32⟩ : BufTy).Contents (Elt Ideal)) (x5 : (⟨S3x128x128, .f32⟩ : BufTy).Contents (Elt Ideal))
    (x6 : (⟨S3x128, .f32⟩ : BufTy).Contents (Elt Ideal)) (x7 : (⟨S3, .f32⟩ : BufTy).Contents (Elt Ideal))
    (x8 x9 : (⟨S3x128, .f32⟩ : BufTy).Contents (Elt Ideal))
    (r0 : IsRealV x0) (r3 : IsRealV x3) (r4 : IsRealV x4) (r5 : IsRealV x5) (r6 : IsRealV x6) (r7 : IsRealV x7)
    (r8 : IsRealV x8) (r9 : IsRealV x9)
    (h1 h2 h3 : (⟨S50000x128, .f32⟩ : BufTy).Contents (Elt Ideal)) (out : (⟨S512x128, .f32⟩ : BufTy).Contents (Elt Ideal))
    (k1 : toMat h1 = layerK true epsLit (scaleOf x7 0) (toMat x0) (toMat (aggR x1 x0)) (matOf3 x3 0) (rowOf3 x4 0)
      (matOf3 x5 0) (rowOf3 x6 0) (rowOf3 x8 0) (rowOf3 x9 0))
    (k2 : toMat h2 = layerK true epsLit (scaleOf x7 1) (toMat h1) (toMat (aggR x1 h1)) (matOf3 x3 1) (rowOf3 x4 1)
      (matOf3 x5 1) (rowOf3 x6 1) (rowOf3 x8 1) (rowOf3 x9 1))
    (k3 : toMat h3 = layerK false epsLit (scaleOf x7 2) (toMat h2) (toMat (aggR x1 h2)) (matOf3 x3 2) (rowOf3 x4 2)
      (matOf3 x5 2) (rowOf3 x6 2) (rowOf3 x8 2) (rowOf3 x9 2))
    (kf : ∀ (g : Fin 512) (d : Fin 128),
      out (ix2 g d) = Ideal.div (pool (hitOf x2) (toMat h3) g d) (max (cntOf x2 g) 1)) :
    out = val_main_v202 (F := Ideal) x0 x1 x2 x3 x4 x5 x6 x7 x8 x9 := by
  obtain ⟨e1, q1⟩ := layer_step true 0 x1 x3 x4 x5 x6 x7 x8 x9 r3 r4 r5 r6 r7 r8 r9 x0 h1 _
    ((isRealM_toMat_iff _).2 r0) k1 (ref_layer1 x0 x1 x3 x4 x5 x6 x7 x8 x9)
  subst e1
  obtain ⟨e2, q2⟩ := layer_step true 1 x1 x3 x4 x5 x6 x7 x8 x9 r3 r4 r5 r6 r7 r8 r9 _ h2 _ q1 k2
    (ref_layer2 x0 x1 x3 x4 x5 x6 x7 x8 x9)
  subst e2
  obtain ⟨e3, q3⟩ := layer_step false 2 x1 x3 x4 x5 x6 x7 x8 x9 r3 r4 r5 r6 r7 r8 r9 _ h3 _ q2 k3
    (ref_layer3 x0 x1 x3 x4 x5 x6 x7 x8 x9)
  subst e3
  funext j
  obtain ⟨g, d, rfl⟩ : ∃ (g : Fin 512) (d : Fin 128), j = ix2 g d := ⟨j 0, j 1, eq_ix2 j⟩
  rw [kf, ref_final]
end Cert.GinBridge
end
-- ==== Proof.Val.Finite.lean ====
import proofs.«419539_j67095979099186_1_alg».proof.Pre_finite_inputs
import proofs.«419539_j67095979099186_1_alg».proof.Proof.Gen.Pre_finite_inputs
import proofs.«419539_j67095979099186_1_alg».proof.Defs
import Idealize.ShloMosaic.PureOps.Ideal
import Idealize.ShloMosaic.Lib.ReduceAll
import Idealize.ShloMosaic.Lib.ValueIdx
noncomputable section
namespace Cert.GinFinite
open Idealize.ShloMosaic Cert.Pre_finite_inputs
instance subsingleton_S_ : Subsingleton S_.Idx := ⟨fun a b => funext fun d => d.elim0⟩
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)
theorem real_of_cmp {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  have h1 : BitVec.ofBool (decide (max (x i) (-(x i)) < Ideal.ofBits .f32 0x7F800000#32)) = 1#1 := h
  have htop : Ideal.ofBits .f32 0x7F800000#32 = (⊤ : EReal) := by simp [Ideal.ofBits, Ideal.ieee]
  rw [htop] at h1
  refine real_of_abs_lt_top (x i) ?_
  by_contra hn
  rw [decide_eq_false hn] at h1
  exact absurd h1 (by decide)
theorem real_of_all {s : Shape} {axes : List (Fin s.rank)} (hb : S_.BroadcastsInDim s (![] : Fin 0 → Fin s.rank))
    (hr : s.ReducesTo axes S_) (hu : 0 < S_.numel) (x : FVec Ideal s .f32)
    (h : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) :=
  fun i => real_of_cmp hb x i (Host.reduce_andi_all _ _ hr hu _ h i)
theorem real_of_pre (a0 : FVec Ideal S50000x128 .f32) (a1 : IVec S2x800000 32) (a2 : IVec S50000 32)
    (a3 : FVec Ideal S3x128x128 .f32) (a4 : FVec Ideal S3x128 .f32) (a5 : FVec Ideal S3x128x128 .f32)
    (a6 : FVec Ideal S3x128 .f32) (a7 : FVec Ideal S3 .f32) (a8 a9 : FVec Ideal S3x128 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a3 i = r) ∧ (∀ i, ∃ r : ℝ, a4 i = r) ∧
    (∀ i, ∃ r : ℝ, a5 i = r) ∧ (∀ i, ∃ r : ℝ, a6 i = r) ∧ (∀ i, ∃ r : ℝ, a7 i = r) ∧
    (∀ i, ∃ r : ℝ, a8 i = r) ∧ (∀ i, ∃ r : ℝ, a9 i = r) := by
  have h0 := congrFun h ValueIdx.ix0
  dsimp only [fn, fn_part1, fn_part2] at h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨real_of_all _ _ _ a0 h0, real_of_all _ _ _ a3 h3, real_of_all _ _ _ a4 h4, real_of_all _ _ _ a5 h5,
    real_of_all _ _ _ a6 h6, real_of_all _ _ _ a7 h7, real_of_all _ _ _ a8 h8, real_of_all _ _ _ a9 h9⟩
theorem real_of_Pre_KernelIdeal
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
    (∀ i, ∃ r : ℝ, m ((c.tc : Thread Cert.KernelIdeal.nD Cert.KernelIdeal.τ).loc Cert.KernelIdeal.main_arg3) i = (r : EReal)) ∧
    (∀ i, ∃ r : ℝ, m ((c.tc : Thread Cert.KernelIdeal.nD Cert.KernelIdeal.τ).loc Cert.KernelIdeal.main_arg4) i = (r : EReal)) ∧
    (∀ i, ∃ r : ℝ, m ((c.tc : Thread Cert.KernelIdeal.nD Cert.KernelIdeal.τ).loc Cert.KernelIdeal.main_arg5) i = (r : EReal)) ∧
    (∀ i, ∃ r : ℝ, m ((c.tc : Thread Cert.KernelIdeal.nD Cert.KernelIdeal.τ).loc Cert.KernelIdeal.main_arg6) i = (r : EReal)) ∧
    (∀ i, ∃ r : ℝ, m ((c.tc : Thread Cert.KernelIdeal.nD Cert.KernelIdeal.τ).loc Cert.KernelIdeal.main_arg7) i = (r : EReal)) ∧
    (∀ i, ∃ r : ℝ, m ((c.tc : Thread Cert.KernelIdeal.nD Cert.KernelIdeal.τ).loc Cert.KernelIdeal.main_arg8) i = (r : EReal)) ∧
    (∀ i, ∃ r : ℝ, m ((c.tc : Thread Cert.KernelIdeal.nD Cert.KernelIdeal.τ).loc Cert.KernelIdeal.main_arg9) i = (r : EReal)) :=
  real_of_pre _ _ _ _ _ _ _ _ _ _ (hpre c)
end Cert.GinFinite
end
-- ==== Proof.Val.Final.lean ====
import proofs.«419539_j67095979099186_1_alg».proof.Defs
import proofs.«419539_j67095979099186_1_alg».proof.Proof.KI.Run
import proofs.«419539_j67095979099186_1_alg».proof.Proof.Val.KerHost1
import proofs.«419539_j67095979099186_1_alg».proof.Proof.Val.KerHost2
import proofs.«419539_j67095979099186_1_alg».proof.Proof.Val.KerHost3
import proofs.«419539_j67095979099186_1_alg».proof.Proof.Val.KerFinal
import proofs.«419539_j67095979099186_1_alg».proof.Proof.Val.Bridge
import proofs.«419539_j67095979099186_1_alg».proof.Proof.Val.Cross
import proofs.«419539_j67095979099186_1_alg».proof.Proof.Val.Finite
import proofs.«419539_j67095979099186_1_alg».proof.Proof.Val.RunH
set_option maxRecDepth 16384
noncomputable section
namespace Cert.GinFinal
open Idealize.ShloMosaic Idealize.ShloMosaic.TcCoe Idealize.SL.Sem Idealize.ShloMosaic.ValueIdx
open Cert.KernelIdeal.Hand Cert.KernelIdeal.HandV Cert.GinSpec
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    (W14 m c (Proc.devRef .tc Cert.KernelIdeal.main_v136) : Cert.KernelIdeal.S512x128.Idx → EReal)
      = Cert.ReferenceIdeal.ReadP.val_main_v202 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨r0, r3, r4, r5, r6, r7, r8, r9⟩ := Cert.GinFinite.real_of_Pre_KernelIdeal m hpre c
  have ea := fun h => Cert.GinCross.agg_eq (m ((c.tc : Thread Cert.KernelIdeal.nD Cert.KernelIdeal.τ).loc Cert.KernelIdeal.main_arg1)) h
  have ec := fun g => Cert.GinCross.cnt_eq (m ((c.tc : Thread Cert.KernelIdeal.nD Cert.KernelIdeal.τ).loc Cert.KernelIdeal.main_arg2)) g
  refine Cert.GinBridge.bridge _ _ _ _ _ _ _ _ _ _ r0 r3 r4 r5 r6 r7 r8 r9
    (W4 m c (Proc.devRef .tc Cert.KernelIdeal.main_v45)) (W8 m c (Proc.devRef .tc Cert.KernelIdeal.main_v86))
    (W12 m c (Proc.devRef .tc Cert.KernelIdeal.main_v127)) _ ?_ ?_ ?_ ?_
  · rw [← ea]; exact ker_layer1 m c
  · rw [← ea]; exact ker_layer2 m c
  · rw [← ea]; exact ker_layer3 m c
  · intro g d
    rw [← ec]; exact ker_final m c g d
theorem algebraic : Cert.algebraic_KernelIdeal_ReferenceIdeal := by
  intro m ρ m' ρ' hpre hagree
  refine ⟨fun c => W14 m c (Proc.devRef .tc Cert.KernelIdeal.main_v136), ?_, ?_⟩
  · refine (θ_run Cert.KernelIdeal.defs _ _).mono (fun r h c => ?_) (run_all m ρ)
    exact ⟨h c _ (unscoped_mem Cert.KernelIdeal.main_v136 (by decide)),
      arg_kept m (h c) Cert.KernelIdeal.main_arg0 (by decide), arg_kept m (h c) Cert.KernelIdeal.main_arg1 (by decide),
      arg_kept m (h c) Cert.KernelIdeal.main_arg2 (by decide), arg_kept m (h c) Cert.KernelIdeal.main_arg3 (by decide),
      arg_kept m (h c) Cert.KernelIdeal.main_arg4 (by decide), arg_kept m (h c) Cert.KernelIdeal.main_arg5 (by decide),
      arg_kept m (h c) Cert.KernelIdeal.main_arg6 (by decide), arg_kept m (h c) Cert.KernelIdeal.main_arg7 (by decide),
      arg_kept m (h c) Cert.KernelIdeal.main_arg8 (by decide), arg_kept m (h c) Cert.KernelIdeal.main_arg9 (by decide)⟩
  · refine (θ_run Cert.ReferenceIdeal.defs _ _).mono (fun r h c => ⟨(h c).1.trans ?_, (h c).2⟩)
      (Cert.ReferenceIdeal.ValueH.run (F := Ideal) m' ρ')
    obtain ⟨a0, a1, a2, a3, a4, a5, a6, a7, a8, a9⟩ := hagree c
    rw [a0, a1, a2, a3, a4, a5, a6, a7, a8, a9]
    exact (result_eq m hpre c).symm
end Cert.GinFinal
end
-- ==== Proof.lean ====
import proofs.«419539_j67095979099186_1_alg».proof.Defs
import proofs.«419539_j67095979099186_1_alg».proof.Proof.Gen.Kernel
import proofs.«419539_j67095979099186_1_alg».proof.Proof.Gen.KernelIdeal
import proofs.«419539_j67095979099186_1_alg».proof.Proof.Gen.ReferenceIdeal
import proofs.«419539_j67095979099186_1_alg».proof.Proof.Gen.Pre_finite_inputs
import proofs.«419539_j67095979099186_1_alg».proof.Proof.K.Run
import proofs.«419539_j67095979099186_1_alg».proof.Proof.KI.Run
import proofs.«419539_j67095979099186_1_alg».proof.Proof.Val.RunH
import proofs.«419539_j67095979099186_1_alg».proof.Proof.Val.Final
import Idealize.ShloMosaic.Adequacy
import Idealize.ShloMosaic.Init
noncomputable section
namespace Cert.Proof
open Idealize.ShloMosaic Idealize.SL.Sem
theorem frame_kernel : Cert.frame_Kernel := fun m ρ _ => Cert.Kernel.Hand.frame (F := Bits) m ρ
theorem frame_kernelIdeal : Cert.frame_KernelIdeal := fun m ρ _ => Cert.KernelIdeal.Hand.frame (F := Ideal) m ρ
theorem frame_reference : Cert.frame_ReferenceIdeal := fun m ρ _ =>
  (θ_run Cert.ReferenceIdeal.defs _ _).mono (fun _ h c => (h c).2) (Cert.ReferenceIdeal.ValueH.run (F := Ideal) m ρ)
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.GinFinal.algebraic⟩
end Cert.Proof
end
